-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v165)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v165) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v277) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S2048x1024 : Shape := ⟨2, ![2048, 1024]⟩
abbrev S2048x14 : Shape := ⟨2, ![2048, 14]⟩
abbrev S2048x16384 : Shape := ⟨2, ![2048, 16384]⟩
abbrev S1024x14 : Shape := ⟨2, ![1024, 14]⟩
abbrev S1024x16384 : Shape := ⟨2, ![1024, 16384]⟩
abbrev S_ : Shape := ⟨0, ![]⟩

class Facts : Prop where
  bcast_S_S2048x16384 : S_.BroadcastsInDim S2048x16384 (![] : Fin 0 → Fin S2048x16384.rank)
  reducesTo_S2048x16384_S_d0_1 : S2048x16384.ReducesTo [0, 1] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S2048x4096 : S_.BroadcastsInDim S2048x4096 (![] : Fin 0 → Fin S2048x4096.rank)
  reducesTo_S2048x4096_S_d0_1 : S2048x4096.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048x14 : S_.BroadcastsInDim S2048x14 (![] : Fin 0 → Fin S2048x14.rank)
  reducesTo_S2048x14_S_d0_1 : S2048x14.ReducesTo [0, 1] S_
  bcast_S_S1024x14 : S_.BroadcastsInDim S1024x14 (![] : Fin 0 → Fin S1024x14.rank)
  reducesTo_S1024x14_S_d0_1 : S1024x14.ReducesTo [0, 1] S_

variable [Facts]

def fn_part2 {F : FTy → Type} [FloatOps F] (main_arg4 : IVec S1024x14 32) (main_arg6 : IVec S1024x14 32) (main_v27 : IVec S_ 1) (main_v32 : IVec S2048x14 1) (main_c_12 : IVec S_ 1) : IVec S_ 1 :=
  let main_v33 : IVec S_ 1 := (fun x v => Host.reduce IntOp.andi x v reducesTo_S2048x14_S_d0_1 h_S_) main_v32 main_c_12
  let main_v34 : IVec S_ 1 := andi main_v27 main_v33
  let main_c_13 : IVec S_ 32 := constantI S_ 32 0#32
  let main_v35 : IVec S1024x14 32 := broadcastInDim S1024x14 ![] bcast_S_S1024x14 main_c_13
  let main_v36 : IVec S1024x14 1 := cmpi .sge main_arg4 main_v35
  let main_c_14 : IVec S_ 32 := constantI S_ 32 3072#32
  let main_v37 : IVec S1024x14 32 := broadcastInDim S1024x14 ![] bcast_S_S1024x14 main_c_14
  let main_v38 : IVec S1024x14 1 := cmpi .slt main_arg4 main_v37
  let main_v39 : IVec S1024x14 1 := andi main_v36 main_v38
  let main_c_15 : IVec S_ 1 := constantI S_ 1 1#1
  let main_v40 : IVec S_ 1 := (fun x v => Host.reduce IntOp.andi x v reducesTo_S1024x14_S_d0_1 h_S_) main_v39 main_c_15
  let main_v41 : IVec S_ 1 := andi main_v34 main_v40
  let main_c_16 : IVec S_ 32 := constantI S_ 32 0#32
  let main_v42 : IVec S1024x14 32 := broadcastInDim S1024x14 ![] bcast_S_S1024x14 main_c_16
  let main_v43 : IVec S1024x14 1 := cmpi .sge main_arg6 main_v42
  let main_c_17 : IVec S_ 32 := constantI S_ 32 3072#32
  let main_v44 : IVec S1024x14 32 := broadcastInDim S1024x14 ![] bcast_S_S1024x14 main_c_17
  let main_v45 : IVec S1024x14 1 := cmpi .slt main_arg6 main_v44
  let main_v46 : IVec S1024x14 1 := andi main_v43 main_v45
  let main_c_18 : IVec S_ 1 := constantI S_ 1 1#1
  let main_v47 : IVec S_ 1 := (fun x v => Host.reduce IntOp.andi x v reducesTo_S1024x14_S_d0_1 h_S_) main_v46 main_c_18
  let main_v48 : IVec S_ 1 := andi main_v41 main_v47
  main_v48

def fn_part1 {F : FTy → Type} [FloatOps F] (main_arg0 : IVec S2048x4096 32) (main_arg1 : IVec S2048x1024 32) (main_arg2 : IVec S2048x14 32) (main_arg4 : IVec S1024x14 32) (main_arg6 : IVec S1024x14 32) (main_v13 : IVec S_ 1) (main_v15 : IVec S2048x4096 1) (main_c_5 : IVec S_ 32) : IVec S_ 1 :=
  let main_v16 : IVec S2048x4096 32 := broadcastInDim S2048x4096 ![] bcast_S_S2048x4096 main_c_5
  let main_v17 : IVec S2048x4096 1 := cmpi .sle main_arg0 main_v16
  let main_v18 : IVec S2048x4096 1 := andi main_v15 main_v17
  let main_c_6 : IVec S_ 1 := constantI S_ 1 1#1
  let main_v19 : IVec S_ 1 := (fun x v => Host.reduce IntOp.andi x v reducesTo_S2048x4096_S_d0_1 h_S_) main_v18 main_c_6
  let main_v20 : IVec S_ 1 := andi main_v13 main_v19
  let main_c_7 : IVec S_ 32 := constantI S_ 32 0#32
  let main_v21 : IVec S2048x1024 32 := broadcastInDim S2048x1024 ![] bcast_S_S2048x1024 main_c_7
  let main_v22 : IVec S2048x1024 1 := cmpi .sge main_arg1 main_v21
  let main_c_8 : IVec S_ 32 := constantI S_ 32 1#32
  let main_v23 : IVec S2048x1024 32 := broadcastInDim S2048x1024 ![] bcast_S_S2048x1024 main_c_8
  let main_v24 : IVec S2048x1024 1 := cmpi .sle main_arg1 main_v23
  let main_v25 : IVec S2048x1024 1 := andi main_v22 main_v24
  let main_c_9 : IVec S_ 1 := constantI S_ 1 1#1
  let main_v26 : IVec S_ 1 := (fun x v => Host.reduce IntOp.andi x v reducesTo_S2048x1024_S_d0_1 h_S_) main_v25 main_c_9
  let main_v27 : IVec S_ 1 := andi main_v20 main_v26
  let main_c_10 : IVec S_ 32 := constantI S_ 32 0#32
  let main_v28 : IVec S2048x14 32 := broadcastInDim S2048x14 ![] bcast_S_S2048x14 main_c_10
  let main_v29 : IVec S2048x14 1 := cmpi .sge main_arg2 main_v28
  let main_c_11 : IVec S_ 32 := constantI S_ 32 4096#32
  let main_v30 : IVec S2048x14 32 := broadcastInDim S2048x14 ![] bcast_S_S2048x14 main_c_11
  let main_v31 : IVec S2048x14 1 := cmpi .slt main_arg2 main_v30
  let main_v32 : IVec S2048x14 1 := andi main_v29 main_v31
  let main_c_12 : IVec S_ 1 := constantI S_ 1 1#1
  fn_part2 (F := F) main_arg4 main_arg6 main_v27 main_v32 main_c_12

def fn {F : FTy → Type} [FloatOps F] (main_arg0 : IVec S2048x4096 32) (main_arg1 : IVec S2048x1024 32) (main_arg2 : IVec S2048x14 32) (main_arg3 : FVec F S2048x16384 .f32) (main_arg4 : IVec S1024x14 32) (main_arg5 : FVec F S1024x16384 .f32) (main_arg6 : IVec S1024x14 32) (main_arg7 : FVec F S1024x16384 .f32) : IVec S_ 1 :=
  let main_v0 : FVec F S2048x16384 .f32 := Host.absf main_arg3
  let main_cst : FVec F S_ .f32 := constant S_ .f32 0x7F800000#32
  let main_v1 : FVec F S2048x16384 .f32 := broadcastInDim S2048x16384 ![] bcast_S_S2048x16384 main_cst
  let main_v2 : IVec S2048x16384 1 := cmpf .olt main_v0 main_v1
  let main_c : IVec S_ 1 := constantI S_ 1 1#1
  let main_v3 : IVec S_ 1 := (fun x v => Host.reduce IntOp.andi x v reducesTo_S2048x16384_S_d0_1 h_S_) main_v2 main_c
  let main_v4 : FVec F S1024x16384 .f32 := Host.absf main_arg5
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1024x16384 .f32 := Host.absf main_arg7
  let main_cst_2 : FVec F S_ .f32 := constant S_ .f32 0x7F800000#32
  let main_v10 : FVec F S1024x16384 .f32 := broadcastInDim S1024x16384 ![] bcast_S_S1024x16384 main_cst_2
  let main_v11 : IVec S1024x16384 1 := cmpf .olt main_v9 main_v10
  let main_c_3 : IVec S_ 1 := constantI S_ 1 1#1
  let main_v12 : IVec S_ 1 := (fun x v => Host.reduce IntOp.andi x v reducesTo_S1024x16384_S_d0_1 h_S_) main_v11 main_c_3
  let main_v13 : IVec S_ 1 := andi main_v8 main_v12
  let main_c_4 : IVec S_ 32 := constantI S_ 32 0#32
  let main_v14 : IVec S2048x4096 32 := broadcastInDim S2048x4096 ![] bcast_S_S2048x4096 main_c_4
  let main_v15 : IVec S2048x4096 1 := cmpi .sge main_arg0 main_v14
  let main_c_5 : IVec S_ 32 := constantI S_ 32 1#32
  fn_part1 (F := F) main_arg0 main_arg1 main_arg2 main_arg4 main_arg6 main_v13 main_v15 main_c_5
-- ==== Kernel.lean ====
abbrev S2048x4096 : Shape := ⟨2, ![2048, 4096]⟩
abbrev S2048x1024 : Shape := ⟨2, ![2048, 1024]⟩
abbrev S2048x14 : Shape := ⟨2, ![2048, 14]⟩
abbrev S2048x16384 : Shape := ⟨2, ![2048, 16384]⟩
abbrev S1024x14 : Shape := ⟨2, ![1024, 14]⟩
abbrev S1024x16384 : Shape := ⟨2, ![1024, 16384]⟩
abbrev S7 : Shape := ⟨1, ![7]⟩
abbrev S2048x7 : Shape := ⟨2, ![2048, 7]⟩
abbrev S7x2048 : Shape := ⟨2, ![7, 2048]⟩
abbrev S2048 : Shape := ⟨1, ![2048]⟩
abbrev S1x2048 : Shape := ⟨2, ![1, 2048]⟩
abbrev S7x1 : Shape := ⟨2, ![7, 1]⟩
abbrev S_ : Shape := ⟨0, ![]⟩
abbrev S4096x2048 : Shape := ⟨2, ![4096, 2048]⟩
abbrev S7x2048x1 : Shape := ⟨3, ![7, 2048, 1]⟩
abbrev S7x2048x2 : Shape := ⟨3, ![7, 2048, 2]⟩
abbrev S2048x2048 : Shape := ⟨2, ![2048, 2048]⟩
abbrev S2048x128x128 : Shape := ⟨3, ![2048, 128, 128]⟩
abbrev S128x128x128 : Shape := ⟨3, ![128, 128, 128]⟩
abbrev S128x128 : Shape := ⟨2, ![128, 128]⟩
abbrev S1x1x128 : Shape := ⟨3, ![1, 1, 128]⟩
abbrev S128x128x1 : Shape := ⟨3, ![128, 128, 1]⟩
abbrev S2048x3072 : Shape := ⟨2, ![2048, 3072]⟩
abbrev S1024x7 : Shape := ⟨2, ![1024, 7]⟩
abbrev S7x1024 : Shape := ⟨2, ![7, 1024]⟩
abbrev S1024 : Shape := ⟨1, ![1024]⟩
abbrev S1x1024 : Shape := ⟨2, ![1, 1024]⟩
abbrev S3072x1024 : Shape := ⟨2, ![3072, 1024]⟩
abbrev S7x1024x1 : Shape := ⟨3, ![7, 1024, 1]⟩
abbrev S7x1024x2 : Shape := ⟨3, ![7, 1024, 2]⟩
abbrev S1024x2048 : Shape := ⟨2, ![1024, 2048]⟩
abbrev S1024x128x128 : Shape := ⟨3, ![1024, 128, 128]⟩

abbrev nBuf : Space → Nat
  | .hbm => 210
  | .vmem => 24
  | .smem => 0
  | _ => 0

abbrev hbmTy0_0 (i : Nat) : BufTy := match i % 128 with
  | 0 => ⟨S2048x4096, .i32⟩
  | 1 => ⟨S2048x1024, .i32⟩
  | 2 => ⟨S2048x14, .i32⟩
  | 3 => ⟨S2048x16384, .f32⟩
  | 4 => ⟨S1024x14, .i32⟩
  | 5 => ⟨S1024x16384, .f32⟩
  | 6 => ⟨S1024x14, .i32⟩
  | 7 => ⟨S1024x16384, .f32⟩
  | 8 => ⟨S7, .f32⟩
  | 9 => ⟨S7, .f32⟩
  | 10 => ⟨S7, .f32⟩
  | 11 => ⟨S7, .f32⟩
  | 12 => ⟨S7, .f32⟩
  | 13 => ⟨S7, .f32⟩
  | 14 => ⟨S2048x7, .i32⟩
  | 15 => ⟨S7x2048, .i32⟩
  | 16 => ⟨S2048, .i32⟩
  | 17 => ⟨S1x2048, .i32⟩
  | 18 => ⟨S7x2048, .i32⟩
  | 19 => ⟨S7x1, .f32⟩
  | 20 => ⟨S7x2048, .f32⟩
  | 21 => ⟨S_, .f32⟩
  | 22 => ⟨S4096x2048, .f32⟩
  | 23 => ⟨S_, .i32⟩
  | 24 => ⟨S7x2048, .i32⟩
  | 25 => ⟨S7x2048, .i1⟩
  | 26 => ⟨S_, .i32⟩
  | 27 => ⟨S7x2048, .i32⟩
  | 28 => ⟨S7x2048, .i32⟩
  | 29 => ⟨S7x2048, .i32⟩
  | 30 => ⟨S_, .i32⟩
  | 31 => ⟨S7x2048, .i32⟩
  | 32 => ⟨S7x2048, .i1⟩
  | 33 => ⟨S_, .i32⟩
  | 34 => ⟨S7x2048, .i32⟩
  | 35 => ⟨S7x2048, .i32⟩
  | 36 => ⟨S7x2048, .i32⟩
  | 37 => ⟨S7x2048x1, .i32⟩
  | 38 => ⟨S7x2048x1, .i32⟩
  | 39 => ⟨S7x2048x2, .i32⟩
  | 40 => ⟨S4096x2048, .f32⟩
  | 41 => ⟨S4096x2048, .bf16⟩
  | 42 => ⟨S2048x7, .i32⟩
  | 43 => ⟨S7x2048, .i32⟩
  | 44 => ⟨S2048, .i32⟩
  | 45 => ⟨S1x2048, .i32⟩
  | 46 => ⟨S7x2048, .i32⟩
  | 47 => ⟨S7x1, .f32⟩
  | 48 => ⟨S7x2048, .f32⟩
  | 49 => ⟨S_, .f32⟩
  | 50 => ⟨S4096x2048, .f32⟩
  | 51 => ⟨S_, .i32⟩
  | 52 => ⟨S7x2048, .i32⟩
  | 53 => ⟨S7x2048, .i1⟩
  | 54 => ⟨S_, .i32⟩
  | 55 => ⟨S7x2048, .i32⟩
  | 56 => ⟨S7x2048, .i32⟩
  | 57 => ⟨S7x2048, .i32⟩
  | 58 => ⟨S_, .i32⟩
  | 59 => ⟨S7x2048, .i32⟩
  | 60 => ⟨S7x2048, .i1⟩
  | 61 => ⟨S_, .i32⟩
  | 62 => ⟨S7x2048, .i32⟩
  | 63 => ⟨S7x2048, .i32⟩
  | 64 => ⟨S7x2048, .i32⟩
  | 65 => ⟨S7x2048x1, .i32⟩
  | 66 => ⟨S7x2048x1, .i32⟩
  | 67 => ⟨S7x2048x2, .i32⟩
  | 68 => ⟨S4096x2048, .f32⟩
  | 69 => ⟨S4096x2048, .bf16⟩
  | 70 => ⟨S2048x4096, .bf16⟩
  | 71 => ⟨S2048x2048, .f32⟩
  | 72 => ⟨S2048x2048, .f32⟩
  | 73 => ⟨S2048x2048, .f32⟩
  | 74 => ⟨S2048x2048, .i32⟩
  | 75 => ⟨S2048x2048, .f32⟩
  | 76 => ⟨S2048x2048, .i32⟩
  | 77 => ⟨S2048x128x128, .f32⟩
  | 78 => ⟨S2048x2048, .bf16⟩
  | 79 => ⟨S2048x1024, .bf16⟩
  | 80 => ⟨S2048x3072, .bf16⟩
  | 81 => ⟨S1024x7, .i32⟩
  | 82 => ⟨S7x1024, .i32⟩
  | 83 => ⟨S1024, .i32⟩
  | 84 => ⟨S1x1024, .i32⟩
  | 85 => ⟨S7x1024, .i32⟩
  | 86 => ⟨S7x1, .f32⟩
  | 87 => ⟨S7x1024, .f32⟩
  | 88 => ⟨S_, .f32⟩
  | 89 => ⟨S3072x1024, .f32⟩
  | 90 => ⟨S_, .i32⟩
  | 91 => ⟨S7x1024, .i32⟩
  | 92 => ⟨S7x1024, .i1⟩
  | 93 => ⟨S_, .i32⟩
  | 94 => ⟨S7x1024, .i32⟩
  | 95 => ⟨S7x1024, .i32⟩
  | 96 => ⟨S7x1024, .i32⟩
  | 97 => ⟨S_, .i32⟩
  | 98 => ⟨S7x1024, .i32⟩
  | 99 => ⟨S7x1024, .i1⟩
  | 100 => ⟨S_, .i32⟩
  | 101 => ⟨S7x1024, .i32⟩
  | 102 => ⟨S7x1024, .i32⟩
  | 103 => ⟨S7x1024, .i32⟩
  | 104 => ⟨S7x1024x1, .i32⟩
  | 105 => ⟨S7x1024x1, .i32⟩
  | 106 => ⟨S7x1024x2, .i32⟩
  | 107 => ⟨S3072x1024, .f32⟩
  | 108 => ⟨S3072x1024, .bf16⟩
  | 109 => ⟨S1024x7, .i32⟩
  | 110 => ⟨S7x1024, .i32⟩
  | 111 => ⟨S1024, .i32⟩
  | 112 => ⟨S1x1024, .i32⟩
  | 113 => ⟨S7x1024, .i32⟩
  | 114 => ⟨S7x1, .f32⟩
  | 115 => ⟨S7x1024, .f32⟩
  | 116 => ⟨S_, .f32⟩
  | 117 => ⟨S3072x1024, .f32⟩
  | 118 => ⟨S_, .i32⟩
  | 119 => ⟨S7x1024, .i32⟩
  | 120 => ⟨S7x1024, .i1⟩
  | 121 => ⟨S_, .i32⟩
  | 122 => ⟨S7x1024, .i32⟩
  | 123 => ⟨S7x1024, .i32⟩
  | 124 => ⟨S7x1024, .i32⟩
  | 125 => ⟨S_, .i32⟩
  | 126 => ⟨S7x1024, .i32⟩
  | 127 => ⟨S7x1024, .i1⟩
  | _ => ⟨S2048x4096, .i32⟩

abbrev hbmTy0_1 (i : Nat) : BufTy := match i % 128 with
  | 0 => ⟨S_, .i32⟩
  | 1 => ⟨S7x1024, .i32⟩
  | 2 => ⟨S7x1024, .i32⟩
  | 3 => ⟨S7x1024, .i32⟩
  | 4 => ⟨S7x1024x1, .i32⟩
  | 5 => ⟨S7x1024x1, .i32⟩
  | 6 => ⟨S7x1024x2, .i32⟩
  | 7 => ⟨S3072x1024, .f32⟩
  | 8 => ⟨S3072x1024, .bf16⟩
  | 9 => ⟨S1024x2048, .f32⟩
  | 10 => ⟨S1024x2048, .f32⟩
  | 11 => ⟨S1024x2048, .f32⟩
  | 12 => ⟨S1024x2048, .i32⟩
  | 13 => ⟨S1024x2048, .f32⟩
  | 14 => ⟨S1024x2048, .i32⟩
  | 15 => ⟨S1024x128x128, .f32⟩
  | 16 => ⟨S2048x1024, .bf16⟩
  | 17 => ⟨S2048x3072, .bf16⟩
  | 18 => ⟨S1024x7, .i32⟩
  | 19 => ⟨S7x1024, .i32⟩
  | 20 => ⟨S1024, .i32⟩
  | 21 => ⟨S1x1024, .i32⟩
  | 22 => ⟨S7x1024, .i32⟩
  | 23 => ⟨S7x1, .f32⟩
  | 24 => ⟨S7x1024, .f32⟩
  | 25 => ⟨S_, .f32⟩
  | 26 => ⟨S3072x1024, .f32⟩
  | 27 => ⟨S_, .i32⟩
  | 28 => ⟨S7x1024, .i32⟩
  | 29 => ⟨S7x1024, .i1⟩
  | 30 => ⟨S_, .i32⟩
  | 31 => ⟨S7x1024, .i32⟩
  | 32 => ⟨S7x1024, .i32⟩
  | 33 => ⟨S7x1024, .i32⟩
  | 34 => ⟨S_, .i32⟩
  | 35 => ⟨S7x1024, .i32⟩
  | 36 => ⟨S7x1024, .i1⟩
  | 37 => ⟨S_, .i32⟩
  | 38 => ⟨S7x1024, .i32⟩
  | 39 => ⟨S7x1024, .i32⟩
  | 40 => ⟨S7x1024, .i32⟩
  | 41 => ⟨S7x1024x1, .i32⟩
  | 42 => ⟨S7x1024x1, .i32⟩
  | 43 => ⟨S7x1024x2, .i32⟩
  | 44 => ⟨S3072x1024, .f32⟩
  | 45 => ⟨S3072x1024, .bf16⟩
  | 46 => ⟨S1024x7, .i32⟩
  | 47 => ⟨S7x1024, .i32⟩
  | 48 => ⟨S1024, .i32⟩
  | 49 => ⟨S1x1024, .i32⟩
  | 50 => ⟨S7x1024, .i32⟩
  | 51 => ⟨S7x1, .f32⟩
  | 52 => ⟨S7x1024, .f32⟩
  | 53 => ⟨S_, .f32⟩
  | 54 => ⟨S3072x1024, .f32⟩
  | 55 => ⟨S_, .i32⟩
  | 56 => ⟨S7x1024, .i32⟩
  | 57 => ⟨S7x1024, .i1⟩
  | 58 => ⟨S_, .i32⟩
  | 59 => ⟨S7x1024, .i32⟩
  | 60 => ⟨S7x1024, .i32⟩
  | 61 => ⟨S7x1024, .i32⟩
  | 62 => ⟨S_, .i32⟩
  | 63 => ⟨S7x1024, .i32⟩
  | 64 => ⟨S7x1024, .i1⟩
  | 65 => ⟨S_, .i32⟩
  | 66 => ⟨S7x1024, .i32⟩
  | 67 => ⟨S7x1024, .i32⟩
  | 68 => ⟨S7x1024, .i32⟩
  | 69 => ⟨S7x1024x1, .i32⟩
  | 70 => ⟨S7x1024x1, .i32⟩
  | 71 => ⟨S7x1024x2, .i32⟩
  | 72 => ⟨S3072x1024, .f32⟩
  | 73 => ⟨S3072x1024, .bf16⟩
  | 74 => ⟨S1024x2048, .f32⟩
  | 75 => ⟨S1024x2048, .f32⟩
  | 76 => ⟨S1024x2048, .f32⟩
  | 77 => ⟨S1024x2048, .i32⟩
  | 78 => ⟨S1024x2048, .f32⟩
  | 79 => ⟨S1024x2048, .i32⟩
  | 80 => ⟨S1024x128x128, .f32⟩
  | 81 => ⟨S2048x1024, .f32⟩
  | _ => ⟨S2048x4096, .i32⟩

abbrev hbmTy (i : Nat) : BufTy := match i / 128 with
  | 0 => hbmTy0_0 i
  | 1 => hbmTy0_1 i
  | _ => ⟨S2048x4096, .i32⟩

abbrev bufTy : (tb : Table) → Fin (tcTables nBuf tb) → BufTy
  | .hbm, ⟨i, _⟩ => hbmTy i
  | .local _ .vmem, ⟨0, _⟩ => ⟨S128x128x128, .f32⟩
  | .local _ .vmem, ⟨1, _⟩ => ⟨S128x128, .i32⟩
  | .local _ .vmem, ⟨2, _⟩ => ⟨S128x128, .i32⟩
  | .local _ .vmem, ⟨3, _⟩ => ⟨S128x128, .i32⟩
  | .local _ .vmem, ⟨4, _⟩ => ⟨S128x128, .i32⟩
  | .local _ .vmem, ⟨5, _⟩ => ⟨S128x128, .bf16⟩
  | .local _ .vmem, ⟨6, _⟩ => ⟨S128x128, .bf16⟩
  | .local _ .vmem, ⟨7, _⟩ => ⟨S128x128x128, .bf16⟩
  | .local _ .vmem, ⟨8, _⟩ => ⟨S128x128x128, .f32⟩
  | .local _ .vmem, ⟨9, _⟩ => ⟨S128x128, .i32⟩
  | .local _ .vmem, ⟨10, _⟩ => ⟨S128x128, .i32⟩
  | .local _ .vmem, ⟨11, _⟩ => ⟨S128x128, .i32⟩
  | .local _ .vmem, ⟨12, _⟩ => ⟨S128x128, .i32⟩
  | .local _ .vmem, ⟨13, _⟩ => ⟨S128x128, .bf16⟩
  | .local _ .vmem, ⟨14, _⟩ => ⟨S128x128, .bf16⟩
  | .local _ .vmem, ⟨15, _⟩ => ⟨S128x128x128, .bf16⟩
  | .local _ .vmem, ⟨16, _⟩ => ⟨S128x128x128, .f32⟩
  | .local _ .vmem, ⟨17, _⟩ => ⟨S128x128, .i32⟩
  | .local _ .vmem, ⟨18, _⟩ => ⟨S128x128, .i32⟩
  | .local _ .vmem, ⟨19, _⟩ => ⟨S128x128, .i32⟩
  | .local _ .vmem, ⟨20, _⟩ => ⟨S128x128, .i32⟩
  | .local _ .vmem, ⟨21, _⟩ => ⟨S128x128, .f32⟩
  | .local _ .vmem, ⟨22, _⟩ => ⟨S128x128, .f32⟩
  | .local _ .vmem, ⟨23, _⟩ => ⟨S128x128x128, .bf16⟩
  | _, _ => ⟨S2048x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_cst_2 : Ref sig .tc := ⟨.hbm, 11, rfl⟩
abbrev main_cst_3 : Ref sig .tc := ⟨.hbm, 12, rfl⟩
abbrev main_cst_4 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_5 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_6 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_7 : Ref sig .tc := ⟨.hbm, 30, rfl⟩
abbrev main_v13 : Ref sig .tc := ⟨.hbm, 31, rfl⟩
abbrev main_v14 : Ref sig .tc := ⟨.hbm, 32, rfl⟩
abbrev main_c_8 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_c_10 : Ref sig .tc := ⟨.hbm, 51, rfl⟩
abbrev main_v31 : Ref sig .tc := ⟨.hbm, 52, rfl⟩
abbrev main_v32 : Ref sig .tc := ⟨.hbm, 53, rfl⟩
abbrev main_c_11 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_12 : Ref sig .tc := ⟨.hbm, 58, rfl⟩
abbrev main_v36 : Ref sig .tc := ⟨.hbm, 59, rfl⟩
abbrev main_v37 : Ref sig .tc := ⟨.hbm, 60, rfl⟩
abbrev main_c_13 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_c_15 : Ref sig .tc := ⟨.hbm, 90, rfl⟩
abbrev main_v65 : Ref sig .tc := ⟨.hbm, 91, rfl⟩
abbrev main_v66 : Ref sig .tc := ⟨.hbm, 92, rfl⟩
abbrev main_c_16 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_17 : Ref sig .tc := ⟨.hbm, 97, rfl⟩
abbrev main_v70 : Ref sig .tc := ⟨.hbm, 98, rfl⟩
abbrev main_v71 : Ref sig .tc := ⟨.hbm, 99, rfl⟩
abbrev main_c_18 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_19 : Ref sig .tc := ⟨.hbm, 116, rfl⟩
abbrev main_v87 : Ref sig .tc := ⟨.hbm, 117, rfl⟩
abbrev main_c_20 : Ref sig .tc := ⟨.hbm, 118, rfl⟩
abbrev main_v88 : Ref sig .tc := ⟨.hbm, 119, rfl⟩
abbrev main_v89 : Ref sig .tc := ⟨.hbm, 120, rfl⟩
abbrev main_c_21 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_c_22 : Ref sig .tc := ⟨.hbm, 125, rfl⟩
abbrev main_v93 : Ref sig .tc := ⟨.hbm, 126, rfl⟩
abbrev main_v94 : Ref sig .tc := ⟨.hbm, 127, rfl⟩
abbrev main_c_23 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_24 : Ref sig .tc := ⟨.hbm, 153, rfl⟩
abbrev main_v119 : Ref sig .tc := ⟨.hbm, 154, rfl⟩
abbrev main_c_25 : Ref sig .tc := ⟨.hbm, 155, rfl⟩
abbrev main_v120 : Ref sig .tc := ⟨.hbm, 156, rfl⟩
abbrev main_v121 : Ref sig .tc := ⟨.hbm, 157, rfl⟩
abbrev main_c_26 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_c_27 : Ref sig .tc := ⟨.hbm, 162, rfl⟩
abbrev main_v125 : Ref sig .tc := ⟨.hbm, 163, rfl⟩
abbrev main_v126 : Ref sig .tc := ⟨.hbm, 164, rfl⟩
abbrev main_c_28 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_cst_29 : Ref sig .tc := ⟨.hbm, 181, rfl⟩
abbrev main_v142 : Ref sig .tc := ⟨.hbm, 182, rfl⟩
abbrev main_c_30 : Ref sig .tc := ⟨.hbm, 183, rfl⟩
abbrev main_v143 : Ref sig .tc := ⟨.hbm, 184, rfl⟩
abbrev main_v144 : Ref sig .tc := ⟨.hbm, 185, rfl⟩
abbrev main_c_31 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_c_32 : Ref sig .tc := ⟨.hbm, 190, rfl⟩
abbrev main_v148 : Ref sig .tc := ⟨.hbm, 191, rfl⟩
abbrev main_v149 : Ref sig .tc := ⟨.hbm, 192, rfl⟩
abbrev main_c_33 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_scratch0 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S128x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S128x128x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S128x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 1 → Memref sig .tc .vmem S128x128x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S128x128 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S128x128 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S128x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  slices_S2048x14_S2048x7_0_0 : S2048x14.Slices ![0, 0] S2048x7
  transposes_S2048x7_S7x2048_1_0 : S2048x7.Transposes [1, 0] S7x2048
  bcast_S2048_S1x2048_1 : S2048.BroadcastsInDim S1x2048 (![1] : Fin 1 → Fin S1x2048.rank)
  bcast_S1x2048_S7x2048_0_1 : S1x2048.BroadcastsInDim S7x2048 (![0, 1] : Fin 2 → Fin S7x2048.rank)
  bcast_S7_S7x1_0 : S7.BroadcastsInDim S7x1 (![0] : Fin 1 → Fin S7x1.rank)
  bcast_S7x1_S7x2048_0_1 : S7x1.BroadcastsInDim S7x2048 (![0, 1] : Fin 2 → Fin S7x2048.rank)
  bcast_S_S4096x2048 : S_.BroadcastsInDim S4096x2048 (![] : Fin 0 → Fin S4096x2048.rank)
  bcast_S_S7x2048 : S_.BroadcastsInDim S7x2048 (![] : Fin 0 → Fin S7x2048.rank)
  bcast_S7x2048_S7x2048x1_0_1 : S7x2048.BroadcastsInDim S7x2048x1 (![0, 1] : Fin 2 → Fin S7x2048x1.rank)
  concatenates_S7x2048x1_S7x2048x1_S7x2048x2_d2 : Shape.Concatenates [S7x2048x1, S7x2048x1] S7x2048x2 2
  bitsLt_bf16_f32 : FTy.bits .bf16 < FTy.bits .f32
  slices_S2048x14_S2048x7_0_7 : S2048x14.Slices ![0, 7] S2048x7
  shapeCasts_S2048x16384_S2048x128x128 : S2048x16384.ShapeCasts S2048x128x128
  inb_S128x128x128_S128x128x128_0_0_0 : ∀ a, (![0, 0, 0] : Fin 3 → Nat) a + S128x128x128.size a ≤ S128x128x128.size a
  h_S128x128x128 : 0 < S128x128x128.numel
  shapeCasts_S128x128x128_S128x128x128 : S128x128x128.ShapeCasts S128x128x128
  natLt_1_32 : 1 < 32
  packedbf16_S128x128x128_S128x128x128_0_0_0 : (Rect.unit (s := S128x128x128) ![0, 0, 0] S128x128x128.size inb_S128x128x128_S128x128x128_0_0_0).PackedRows (EltTy.packing .bf16)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  iota_S1x1x128_d2_w32 : S1x1x128.Iotas .tc 32 [2]
  shapeCasts_S128x128_S128x128x1 : S128x128.ShapeCasts S128x128x1
  broadcasts_S128x128x1_S128x128x128 : S128x128x1.Broadcasts S128x128x128
  broadcasts_S1x1x128_S128x128x128 : S1x1x128.Broadcasts S128x128x128
  reduces_S128x128x128_S128x128 : S128x128x128.Reduces [2] S128x128
  transposes_S128x128_p1_0_S128x128 : S128x128.Transposes [1, 0] S128x128
  packedbf16_S128x128_S128x128_0_0 : (Rect.unit (s := S128x128) ![0, 0] S128x128.size inb_S128x128_S128x128_0_0).PackedRows (EltTy.packing .bf16)
  concatenates_S2048x2048_S2048x1024_S2048x3072_d1 : Shape.Concatenates [S2048x2048, S2048x1024] S2048x3072 1
  slices_S1024x14_S1024x7_0_0 : S1024x14.Slices ![0, 0] S1024x7
  transposes_S1024x7_S7x1024_1_0 : S1024x7.Transposes [1, 0] S7x1024
  bcast_S1024_S1x1024_1 : S1024.BroadcastsInDim S1x1024 (![1] : Fin 1 → Fin S1x1024.rank)
  bcast_S1x1024_S7x1024_0_1 : S1x1024.BroadcastsInDim S7x1024 (![0, 1] : Fin 2 → Fin S7x1024.rank)
  bcast_S7x1_S7x1024_0_1 : S7x1.BroadcastsInDim S7x1024 (![0, 1] : Fin 2 → Fin S7x1024.rank)
  bcast_S_S3072x1024 : S_.BroadcastsInDim S3072x1024 (![] : Fin 0 → Fin S3072x1024.rank)
  bcast_S_S7x1024 : S_.BroadcastsInDim S7x1024 (![] : Fin 0 → Fin S7x1024.rank)
  bcast_S7x1024_S7x1024x1_0_1 : S7x1024.BroadcastsInDim S7x1024x1 (![0, 1] : Fin 2 → Fin S7x1024x1.rank)
  concatenates_S7x1024x1_S7x1024x1_S7x1024x2_d2 : Shape.Concatenates [S7x1024x1, S7x1024x1] S7x1024x2 2
  slices_S1024x14_S1024x7_0_7 : S1024x14.Slices ![0, 7] S1024x7
  shapeCasts_S1024x16384_S1024x128x128 : S1024x16384.ShapeCasts S1024x128x128
  scatter_S4096x2048_S7x2048x2_S7x2048_n_01_01_2_wf : ScatterDims.WF S4096x2048 S7x2048x2 S7x2048 [] [0, 1] [0, 1] 2
  dot_S4096x2048_S2048x4096_S2048x2048_0_1_1_0_n_n_wf : DotDims.WF S4096x2048 S2048x4096 S2048x2048 [0] [1] [1] [0] [] []
  dot_S128x128x128_S128x128x128_S128x128x128_2_1_1_2_0_0_wf : DotDims.WF S128x128x128 S128x128x128 S128x128x128 [2] [1] [1] [2] [0] [0]
  scatter_S3072x1024_S7x1024x2_S7x1024_n_01_01_2_wf : ScatterDims.WF S3072x1024 S7x1024x2 S7x1024 [] [0, 1] [0, 1] 2
  dot_S3072x1024_S2048x3072_S1024x2048_0_1_1_0_n_n_wf : DotDims.WF S3072x1024 S2048x3072 S1024x2048 [0] [1] [1] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x128x128.size a ≤ S2048x128x128.size a
  hwx0_0 : ∀ i : grid0.Coords, EltTy.bits .f32 = 32 ∨ (Rect.block (s := S2048x128x128) S128x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S2048x2048.size a
  hwx0_1 : ∀ i : grid0.Coords, EltTy.bits .i32 = 32 ∨ (Rect.block (s := S2048x2048) S128x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S2048x2048.size a
  hwx0_2 : ∀ i : grid0.Coords, EltTy.bits .i32 = 32 ∨ (Rect.block (s := S2048x2048) S128x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S2048x2048.size a
  hwx0_3 : ∀ i : grid0.Coords, EltTy.bits .bf16 = 32 ∨ (Rect.block (s := S2048x2048) S128x128.size (cc0_transform_3 i) (hinb0_3 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x128x128.size a ≤ S1024x128x128.size a
  hwx1_0 : ∀ i : grid1.Coords, EltTy.bits .f32 = 32 ∨ (Rect.block (s := S1024x128x128) S128x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S1024x2048.size a
  hwx1_1 : ∀ i : grid1.Coords, EltTy.bits .i32 = 32 ∨ (Rect.block (s := S1024x2048) S128x128.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S1024x2048.size a
  hwx1_2 : ∀ i : grid1.Coords, EltTy.bits .i32 = 32 ∨ (Rect.block (s := S1024x2048) S128x128.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S2048x1024.size a
  hwx1_3 : ∀ i : grid1.Coords, EltTy.bits .bf16 = 32 ∨ (Rect.block (s := S2048x1024) S128x128.size (cc1_transform_3 i) (hinb1_3 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S128x128x128.size a ≤ S1024x128x128.size a
  hwx2_0 : ∀ i : grid2.Coords, EltTy.bits .f32 = 32 ∨ (Rect.block (s := S1024x128x128) S128x128x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S1024x2048.size a
  hwx2_1 : ∀ i : grid2.Coords, EltTy.bits .i32 = 32 ∨ (Rect.block (s := S1024x2048) S128x128.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S1024x2048.size a
  hwx2_2 : ∀ i : grid2.Coords, EltTy.bits .i32 = 32 ∨ (Rect.block (s := S1024x2048) S128x128.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S2048x1024.size a
  hwx2_3 : ∀ i : grid2.Coords, EltTy.bits .f32 = 32 ∨ (Rect.block (s := S2048x1024) S128x128.size (cc2_transform_3 i) (hinb2_3 i)).WholeWords (EltTy.packing .f32)

variable [Facts₀]

def scatter_S4096x2048_S7x2048x2_S7x2048_n_01_01_2 : ScatterDims S4096x2048 S7x2048x2 S7x2048 where
  updateWindowDims := []
  insertedWindowDims := [0, 1]
  scatterDimsToOperandDims := [0, 1]
  indexVectorDim := 2
  wf := scatter_S4096x2048_S7x2048x2_S7x2048_n_01_01_2_wf
def dot_S4096x2048_S2048x4096_S2048x2048_0_1_1_0_n_n : DotDims S4096x2048 S2048x4096 S2048x2048 where
  lhsContracting := [0]
  rhsContracting := [1]
  lhsNonContracting := [1]
  rhsNonContracting := [0]
  lhsBatch := []
  rhsBatch := []
  wf := dot_S4096x2048_S2048x4096_S2048x2048_0_1_1_0_n_n_wf
def dot_S128x128x128_S128x128x128_S128x128x128_2_1_1_2_0_0 : DotDims S128x128x128 S128x128x128 S128x128x128 where
  lhsContracting := [2]
  rhsContracting := [1]
  lhsNonContracting := [1]
  rhsNonContracting := [2]
  lhsBatch := [0]
  rhsBatch := [0]
  wf := dot_S128x128x128_S128x128x128_S128x128x128_2_1_1_2_0_0_wf
def scatter_S3072x1024_S7x1024x2_S7x1024_n_01_01_2 : ScatterDims S3072x1024 S7x1024x2 S7x1024 where
  updateWindowDims := []
  insertedWindowDims := [0, 1]
  scatterDimsToOperandDims := [0, 1]
  indexVectorDim := 2
  wf := scatter_S3072x1024_S7x1024x2_S7x1024_n_01_01_2_wf
def dot_S3072x1024_S2048x3072_S1024x2048_0_1_1_0_n_n : DotDims S3072x1024 S2048x3072 S1024x2048 where
  lhsContracting := [0]
  rhsContracting := [1]
  lhsNonContracting := [1]
  rhsNonContracting := [0]
  lhsBatch := []
  rhsBatch := []
  wf := dot_S3072x1024_S2048x3072_S1024x2048_0_1_1_0_n_n_wf

abbrev win0_0 : Pipeline.Window sig grid0 :=
  Pipeline.Window.ofSpec (Memref.whole main_v53) S128x128x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v50) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v52) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v54) S128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v109) S128x128x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v106) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v108) S128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v110) S128x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v164) S128x128x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v161) S128x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v163) S128x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v165) S128x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2048x4096 : Shape := ⟨2, ![2048, 4096]⟩
abbrev S2048x1024 : Shape := ⟨2, ![2048, 1024]⟩
abbrev S2048x14 : Shape := ⟨2, ![2048, 14]⟩
abbrev S2048x16384 : Shape := ⟨2, ![2048, 16384]⟩
abbrev S1024x14 : Shape := ⟨2, ![1024, 14]⟩
abbrev S1024x16384 : Shape := ⟨2, ![1024, 16384]⟩
abbrev S_ : Shape := ⟨0, ![]⟩
abbrev S2048x14x1 : Shape := ⟨3, ![2048, 14, 1]⟩
abbrev S2048x2048x14 : Shape := ⟨3, ![2048, 2048, 14]⟩
abbrev S14 : Shape := ⟨1, ![14]⟩
abbrev S1x1x14 : Shape := ⟨3, ![1, 1, 14]⟩
abbrev S2048x2048 : Shape := ⟨2, ![2048, 2048]⟩
abbrev S2048 : Shape := ⟨1, ![2048]⟩
abbrev S1x2048 : Shape := ⟨2, ![1, 2048]⟩
abbrev S2048x2048x1 : Shape := ⟨3, ![2048, 2048, 1]⟩
abbrev S2048x2048x2 : Shape := ⟨3, ![2048, 2048, 2]⟩
abbrev S2048x3072 : Shape := ⟨2, ![2048, 3072]⟩
abbrev S1024x14x1 : Shape := ⟨3, ![1024, 14, 1]⟩
abbrev S2048x1024x14 : Shape := ⟨3, ![2048, 1024, 14]⟩
abbrev S1024 : Shape := ⟨1, ![1024]⟩
abbrev S1x1024 : Shape := ⟨2, ![1, 1024]⟩
abbrev S2048x1024x1 : Shape := ⟨3, ![2048, 1024, 1]⟩
abbrev S2048x1024x2 : Shape := ⟨3, ![2048, 1024, 2]⟩

abbrev nBuf : Space → Nat
  | .hbm => 448
  | .vmem => 0
  | .smem => 0
  | _ => 0

abbrev hbmTy0_0 (i : Nat) : BufTy := match i % 128 with
  | 0 => ⟨S2048x4096, .i32⟩
  | 1 => ⟨S2048x1024, .i32⟩
  | 2 => ⟨S2048x14, .i32⟩
  | 3 => ⟨S2048x16384, .f32⟩
  | 4 => ⟨S1024x14, .i32⟩
  | 5 => ⟨S1024x16384, .f32⟩
  | 6 => ⟨S1024x14, .i32⟩
  | 7 => ⟨S1024x16384, .f32⟩
  | 8 => ⟨S_, .i32⟩
  | 9 => ⟨S2048x14, .i32⟩
  | 10 => ⟨S2048x14, .i1⟩
  | 11 => ⟨S_, .i32⟩
  | 12 => ⟨S2048x14, .i32⟩
  | 13 => ⟨S2048x14, .i32⟩
  | 14 => ⟨S2048x14, .i32⟩
  | 15 => ⟨S2048x14x1, .i32⟩
  | 16 => ⟨S2048x2048x14, .i32⟩
  | 17 => ⟨S14, .i32⟩
  | 18 => ⟨S_, .i32⟩
  | 19 => ⟨S14, .i32⟩
  | 20 => ⟨S14, .i32⟩
  | 21 => ⟨S_, .i32⟩
  | 22 => ⟨S14, .i32⟩
  | 23 => ⟨S14, .i32⟩
  | 24 => ⟨S_, .i32⟩
  | 25 => ⟨S_, .i32⟩
  | 26 => ⟨S_, .i1⟩
  | 27 => ⟨S_, .i32⟩
  | 28 => ⟨S14, .i32⟩
  | 29 => ⟨S14, .i1⟩
  | 30 => ⟨S14, .i1⟩
  | 31 => ⟨S14, .i1⟩
  | 32 => ⟨S_, .i32⟩
  | 33 => ⟨S_, .i32⟩
  | 34 => ⟨S14, .i32⟩
  | 35 => ⟨S14, .i32⟩
  | 36 => ⟨S14, .i32⟩
  | 37 => ⟨S_, .i32⟩
  | 38 => ⟨S14, .i32⟩
  | 39 => ⟨S14, .i32⟩
  | 40 => ⟨S_, .i32⟩
  | 41 => ⟨S14, .i32⟩
  | 42 => ⟨S14, .i32⟩
  | 43 => ⟨S_, .i32⟩
  | 44 => ⟨S14, .i32⟩
  | 45 => ⟨S14, .i1⟩
  | 46 => ⟨S14, .i32⟩
  | 47 => ⟨S_, .i32⟩
  | 48 => ⟨S_, .i32⟩
  | 49 => ⟨S_, .i32⟩
  | 50 => ⟨S_, .i32⟩
  | 51 => ⟨S14, .i32⟩
  | 52 => ⟨S14, .i32⟩
  | 53 => ⟨S_, .i32⟩
  | 54 => ⟨S14, .i32⟩
  | 55 => ⟨S14, .i32⟩
  | 56 => ⟨S14, .i32⟩
  | 57 => ⟨S14, .i32⟩
  | 58 => ⟨S_, .i32⟩
  | 59 => ⟨S14, .i32⟩
  | 60 => ⟨S14, .i1⟩
  | 61 => ⟨S14, .i32⟩
  | 62 => ⟨S_, .i32⟩
  | 63 => ⟨S_, .i32⟩
  | 64 => ⟨S14, .i32⟩
  | 65 => ⟨S14, .i32⟩
  | 66 => ⟨S_, .i32⟩
  | 67 => ⟨S14, .i32⟩
  | 68 => ⟨S14, .i32⟩
  | 69 => ⟨S14, .i32⟩
  | 70 => ⟨S14, .i32⟩
  | 71 => ⟨S_, .i32⟩
  | 72 => ⟨S14, .i32⟩
  | 73 => ⟨S14, .i1⟩
  | 74 => ⟨S14, .i32⟩
  | 75 => ⟨S_, .i32⟩
  | 76 => ⟨S_, .i32⟩
  | 77 => ⟨S14, .i32⟩
  | 78 => ⟨S14, .i32⟩
  | 79 => ⟨S_, .i32⟩
  | 80 => ⟨S14, .i32⟩
  | 81 => ⟨S14, .i32⟩
  | 82 => ⟨S14, .i32⟩
  | 83 => ⟨S14, .i32⟩
  | 84 => ⟨S_, .i32⟩
  | 85 => ⟨S14, .i32⟩
  | 86 => ⟨S14, .i1⟩
  | 87 => ⟨S14, .i32⟩
  | 88 => ⟨S_, .i32⟩
  | 89 => ⟨S_, .i32⟩
  | 90 => ⟨S14, .i32⟩
  | 91 => ⟨S14, .i32⟩
  | 92 => ⟨S_, .i32⟩
  | 93 => ⟨S14, .i32⟩
  | 94 => ⟨S14, .i32⟩
  | 95 => ⟨S14, .i32⟩
  | 96 => ⟨S14, .i32⟩
  | 97 => ⟨S_, .i32⟩
  | 98 => ⟨S14, .i32⟩
  | 99 => ⟨S14, .i1⟩
  | 100 => ⟨S14, .i32⟩
  | 101 => ⟨S_, .i32⟩
  | 102 => ⟨S_, .i32⟩
  | 103 => ⟨S14, .i32⟩
  | 104 => ⟨S14, .i32⟩
  | 105 => ⟨S_, .i32⟩
  | 106 => ⟨S14, .i32⟩
  | 107 => ⟨S14, .i32⟩
  | 108 => ⟨S14, .i32⟩
  | 109 => ⟨S14, .i32⟩
  | 110 => ⟨S_, .i32⟩
  | 111 => ⟨S14, .i32⟩
  | 112 => ⟨S14, .i1⟩
  | 113 => ⟨S14, .i32⟩
  | 114 => ⟨S_, .i32⟩
  | 115 => ⟨S_, .i32⟩
  | 116 => ⟨S14, .i32⟩
  | 117 => ⟨S14, .i32⟩
  | 118 => ⟨S1x1x14, .i32⟩
  | 119 => ⟨S2048x2048x14, .i32⟩
  | 120 => ⟨S2048x2048x14, .i32⟩
  | 121 => ⟨S_, .i32⟩
  | 122 => ⟨S2048x2048, .i32⟩
  | 123 => ⟨S2048, .i32⟩
  | 124 => ⟨S1x2048, .i32⟩
  | 125 => ⟨S_, .i32⟩
  | 126 => ⟨S1x2048, .i32⟩
  | 127 => ⟨S1x2048, .i1⟩
  | _ => ⟨S2048x4096, .i32⟩

abbrev hbmTy0_1 (i : Nat) : BufTy := match i % 128 with
  | 0 => ⟨S_, .i32⟩
  | 1 => ⟨S1x2048, .i32⟩
  | 2 => ⟨S1x2048, .i32⟩
  | 3 => ⟨S1x2048, .i32⟩
  | 4 => ⟨S_, .i32⟩
  | 5 => ⟨S2048x2048, .i32⟩
  | 6 => ⟨S2048x2048, .i1⟩
  | 7 => ⟨S_, .i32⟩
  | 8 => ⟨S2048x2048, .i32⟩
  | 9 => ⟨S2048x2048, .i32⟩
  | 10 => ⟨S2048x2048, .i32⟩
  | 11 => ⟨S2048x2048, .i32⟩
  | 12 => ⟨S2048x2048x1, .i32⟩
  | 13 => ⟨S2048x2048x1, .i32⟩
  | 14 => ⟨S2048x2048x2, .i32⟩
  | 15 => ⟨S2048x2048, .f32⟩
  | 16 => ⟨S_, .f32⟩
  | 17 => ⟨S2048x2048, .f32⟩
  | 18 => ⟨S2048x2048, .i1⟩
  | 19 => ⟨S_, .f32⟩
  | 20 => ⟨S_, .f32⟩
  | 21 => ⟨S2048x2048, .f32⟩
  | 22 => ⟨S2048x2048, .f32⟩
  | 23 => ⟨S2048x2048, .f32⟩
  | 24 => ⟨S2048x2048, .f32⟩
  | 25 => ⟨S2048x1024, .f32⟩
  | 26 => ⟨S2048x3072, .f32⟩
  | 27 => ⟨S_, .i32⟩
  | 28 => ⟨S1024x14, .i32⟩
  | 29 => ⟨S1024x14, .i1⟩
  | 30 => ⟨S_, .i32⟩
  | 31 => ⟨S1024x14, .i32⟩
  | 32 => ⟨S1024x14, .i32⟩
  | 33 => ⟨S1024x14, .i32⟩
  | 34 => ⟨S1024x14x1, .i32⟩
  | 35 => ⟨S2048x1024x14, .f32⟩
  | 36 => ⟨S2048x1024x14, .i32⟩
  | 37 => ⟨S14, .i32⟩
  | 38 => ⟨S_, .i32⟩
  | 39 => ⟨S14, .i32⟩
  | 40 => ⟨S14, .i32⟩
  | 41 => ⟨S_, .i32⟩
  | 42 => ⟨S14, .i32⟩
  | 43 => ⟨S14, .i32⟩
  | 44 => ⟨S_, .i32⟩
  | 45 => ⟨S_, .i32⟩
  | 46 => ⟨S_, .i1⟩
  | 47 => ⟨S_, .i32⟩
  | 48 => ⟨S14, .i32⟩
  | 49 => ⟨S14, .i1⟩
  | 50 => ⟨S14, .i1⟩
  | 51 => ⟨S14, .i1⟩
  | 52 => ⟨S_, .i32⟩
  | 53 => ⟨S_, .i32⟩
  | 54 => ⟨S14, .i32⟩
  | 55 => ⟨S14, .i32⟩
  | 56 => ⟨S14, .i32⟩
  | 57 => ⟨S_, .i32⟩
  | 58 => ⟨S14, .i32⟩
  | 59 => ⟨S14, .i32⟩
  | 60 => ⟨S_, .i32⟩
  | 61 => ⟨S14, .i32⟩
  | 62 => ⟨S14, .i32⟩
  | 63 => ⟨S_, .i32⟩
  | 64 => ⟨S14, .i32⟩
  | 65 => ⟨S14, .i1⟩
  | 66 => ⟨S14, .i32⟩
  | 67 => ⟨S_, .i32⟩
  | 68 => ⟨S_, .i32⟩
  | 69 => ⟨S_, .i32⟩
  | 70 => ⟨S_, .i32⟩
  | 71 => ⟨S14, .i32⟩
  | 72 => ⟨S14, .i32⟩
  | 73 => ⟨S_, .i32⟩
  | 74 => ⟨S14, .i32⟩
  | 75 => ⟨S14, .i32⟩
  | 76 => ⟨S14, .i32⟩
  | 77 => ⟨S14, .i32⟩
  | 78 => ⟨S_, .i32⟩
  | 79 => ⟨S14, .i32⟩
  | 80 => ⟨S14, .i1⟩
  | 81 => ⟨S14, .i32⟩
  | 82 => ⟨S_, .i32⟩
  | 83 => ⟨S_, .i32⟩
  | 84 => ⟨S14, .i32⟩
  | 85 => ⟨S14, .i32⟩
  | 86 => ⟨S_, .i32⟩
  | 87 => ⟨S14, .i32⟩
  | 88 => ⟨S14, .i32⟩
  | 89 => ⟨S14, .i32⟩
  | 90 => ⟨S14, .i32⟩
  | 91 => ⟨S_, .i32⟩
  | 92 => ⟨S14, .i32⟩
  | 93 => ⟨S14, .i1⟩
  | 94 => ⟨S14, .i32⟩
  | 95 => ⟨S_, .i32⟩
  | 96 => ⟨S_, .i32⟩
  | 97 => ⟨S14, .i32⟩
  | 98 => ⟨S14, .i32⟩
  | 99 => ⟨S_, .i32⟩
  | 100 => ⟨S14, .i32⟩
  | 101 => ⟨S14, .i32⟩
  | 102 => ⟨S14, .i32⟩
  | 103 => ⟨S14, .i32⟩
  | 104 => ⟨S_, .i32⟩
  | 105 => ⟨S14, .i32⟩
  | 106 => ⟨S14, .i1⟩
  | 107 => ⟨S14, .i32⟩
  | 108 => ⟨S_, .i32⟩
  | 109 => ⟨S_, .i32⟩
  | 110 => ⟨S14, .i32⟩
  | 111 => ⟨S14, .i32⟩
  | 112 => ⟨S_, .i32⟩
  | 113 => ⟨S14, .i32⟩
  | 114 => ⟨S14, .i32⟩
  | 115 => ⟨S14, .i32⟩
  | 116 => ⟨S14, .i32⟩
  | 117 => ⟨S_, .i32⟩
  | 118 => ⟨S14, .i32⟩
  | 119 => ⟨S14, .i1⟩
  | 120 => ⟨S14, .i32⟩
  | 121 => ⟨S_, .i32⟩
  | 122 => ⟨S_, .i32⟩
  | 123 => ⟨S14, .i32⟩
  | 124 => ⟨S14, .i32⟩
  | 125 => ⟨S_, .i32⟩
  | 126 => ⟨S14, .i32⟩
  | 127 => ⟨S14, .i32⟩
  | _ => ⟨S2048x4096, .i32⟩

abbrev hbmTy0_2 (i : Nat) : BufTy := match i % 128 with
  | 0 => ⟨S14, .i32⟩
  | 1 => ⟨S14, .i32⟩
  | 2 => ⟨S_, .i32⟩
  | 3 => ⟨S14, .i32⟩
  | 4 => ⟨S14, .i1⟩
  | 5 => ⟨S14, .i32⟩
  | 6 => ⟨S_, .i32⟩
  | 7 => ⟨S_, .i32⟩
  | 8 => ⟨S14, .i32⟩
  | 9 => ⟨S14, .i32⟩
  | 10 => ⟨S1x1x14, .i32⟩
  | 11 => ⟨S2048x1024x14, .i32⟩
  | 12 => ⟨S2048x1024x14, .i32⟩
  | 13 => ⟨S_, .i32⟩
  | 14 => ⟨S2048x1024, .i32⟩
  | 15 => ⟨S1024, .i32⟩
  | 16 => ⟨S1x1024, .i32⟩
  | 17 => ⟨S_, .i32⟩
  | 18 => ⟨S1x1024, .i32⟩
  | 19 => ⟨S1x1024, .i1⟩
  | 20 => ⟨S_, .i32⟩
  | 21 => ⟨S1x1024, .i32⟩
  | 22 => ⟨S1x1024, .i32⟩
  | 23 => ⟨S1x1024, .i32⟩
  | 24 => ⟨S_, .i32⟩
  | 25 => ⟨S2048x1024, .i32⟩
  | 26 => ⟨S2048x1024, .i1⟩
  | 27 => ⟨S_, .i32⟩
  | 28 => ⟨S2048x1024, .i32⟩
  | 29 => ⟨S2048x1024, .i32⟩
  | 30 => ⟨S2048x1024, .i32⟩
  | 31 => ⟨S2048x1024, .i32⟩
  | 32 => ⟨S2048x1024x1, .i32⟩
  | 33 => ⟨S2048x1024x1, .i32⟩
  | 34 => ⟨S2048x1024x2, .i32⟩
  | 35 => ⟨S2048x1024, .f32⟩
  | 36 => ⟨S_, .f32⟩
  | 37 => ⟨S2048x1024, .f32⟩
  | 38 => ⟨S2048x1024, .i1⟩
  | 39 => ⟨S_, .f32⟩
  | 40 => ⟨S_, .f32⟩
  | 41 => ⟨S2048x1024, .f32⟩
  | 42 => ⟨S2048x1024, .f32⟩
  | 43 => ⟨S2048x1024, .f32⟩
  | 44 => ⟨S2048x1024, .f32⟩
  | 45 => ⟨S2048x3072, .f32⟩
  | 46 => ⟨S_, .i32⟩
  | 47 => ⟨S1024x14, .i32⟩
  | 48 => ⟨S1024x14, .i1⟩
  | 49 => ⟨S_, .i32⟩
  | 50 => ⟨S1024x14, .i32⟩
  | 51 => ⟨S1024x14, .i32⟩
  | 52 => ⟨S1024x14, .i32⟩
  | 53 => ⟨S1024x14x1, .i32⟩
  | 54 => ⟨S2048x1024x14, .f32⟩
  | 55 => ⟨S2048x1024x14, .i32⟩
  | 56 => ⟨S14, .i32⟩
  | 57 => ⟨S_, .i32⟩
  | 58 => ⟨S14, .i32⟩
  | 59 => ⟨S14, .i32⟩
  | 60 => ⟨S_, .i32⟩
  | 61 => ⟨S14, .i32⟩
  | 62 => ⟨S14, .i32⟩
  | 63 => ⟨S_, .i32⟩
  | 64 => ⟨S_, .i32⟩
  | 65 => ⟨S_, .i1⟩
  | 66 => ⟨S_, .i32⟩
  | 67 => ⟨S14, .i32⟩
  | 68 => ⟨S14, .i1⟩
  | 69 => ⟨S14, .i1⟩
  | 70 => ⟨S14, .i1⟩
  | 71 => ⟨S_, .i32⟩
  | 72 => ⟨S_, .i32⟩
  | 73 => ⟨S14, .i32⟩
  | 74 => ⟨S14, .i32⟩
  | 75 => ⟨S14, .i32⟩
  | 76 => ⟨S_, .i32⟩
  | 77 => ⟨S14, .i32⟩
  | 78 => ⟨S14, .i32⟩
  | 79 => ⟨S_, .i32⟩
  | 80 => ⟨S14, .i32⟩
  | 81 => ⟨S14, .i32⟩
  | 82 => ⟨S_, .i32⟩
  | 83 => ⟨S14, .i32⟩
  | 84 => ⟨S14, .i1⟩
  | 85 => ⟨S14, .i32⟩
  | 86 => ⟨S_, .i32⟩
  | 87 => ⟨S_, .i32⟩
  | 88 => ⟨S_, .i32⟩
  | 89 => ⟨S_, .i32⟩
  | 90 => ⟨S14, .i32⟩
  | 91 => ⟨S14, .i32⟩
  | 92 => ⟨S_, .i32⟩
  | 93 => ⟨S14, .i32⟩
  | 94 => ⟨S14, .i32⟩
  | 95 => ⟨S14, .i32⟩
  | 96 => ⟨S14, .i32⟩
  | 97 => ⟨S_, .i32⟩
  | 98 => ⟨S14, .i32⟩
  | 99 => ⟨S14, .i1⟩
  | 100 => ⟨S14, .i32⟩
  | 101 => ⟨S_, .i32⟩
  | 102 => ⟨S_, .i32⟩
  | 103 => ⟨S14, .i32⟩
  | 104 => ⟨S14, .i32⟩
  | 105 => ⟨S_, .i32⟩
  | 106 => ⟨S14, .i32⟩
  | 107 => ⟨S14, .i32⟩
  | 108 => ⟨S14, .i32⟩
  | 109 => ⟨S14, .i32⟩
  | 110 => ⟨S_, .i32⟩
  | 111 => ⟨S14, .i32⟩
  | 112 => ⟨S14, .i1⟩
  | 113 => ⟨S14, .i32⟩
  | 114 => ⟨S_, .i32⟩
  | 115 => ⟨S_, .i32⟩
  | 116 => ⟨S14, .i32⟩
  | 117 => ⟨S14, .i32⟩
  | 118 => ⟨S_, .i32⟩
  | 119 => ⟨S14, .i32⟩
  | 120 => ⟨S14, .i32⟩
  | 121 => ⟨S14, .i32⟩
  | 122 => ⟨S14, .i32⟩
  | 123 => ⟨S_, .i32⟩
  | 124 => ⟨S14, .i32⟩
  | 125 => ⟨S14, .i1⟩
  | 126 => ⟨S14, .i32⟩
  | 127 => ⟨S_, .i32⟩
  | _ => ⟨S2048x4096, .i32⟩

abbrev hbmTy0_3 (i : Nat) : BufTy := match i % 128 with
  | 0 => ⟨S_, .i32⟩
  | 1 => ⟨S14, .i32⟩
  | 2 => ⟨S14, .i32⟩
  | 3 => ⟨S_, .i32⟩
  | 4 => ⟨S14, .i32⟩
  | 5 => ⟨S14, .i32⟩
  | 6 => ⟨S14, .i32⟩
  | 7 => ⟨S14, .i32⟩
  | 8 => ⟨S_, .i32⟩
  | 9 => ⟨S14, .i32⟩
  | 10 => ⟨S14, .i1⟩
  | 11 => ⟨S14, .i32⟩
  | 12 => ⟨S_, .i32⟩
  | 13 => ⟨S_, .i32⟩
  | 14 => ⟨S14, .i32⟩
  | 15 => ⟨S14, .i32⟩
  | 16 => ⟨S_, .i32⟩
  | 17 => ⟨S14, .i32⟩
  | 18 => ⟨S14, .i32⟩
  | 19 => ⟨S14, .i32⟩
  | 20 => ⟨S14, .i32⟩
  | 21 => ⟨S_, .i32⟩
  | 22 => ⟨S14, .i32⟩
  | 23 => ⟨S14, .i1⟩
  | 24 => ⟨S14, .i32⟩
  | 25 => ⟨S_, .i32⟩
  | 26 => ⟨S_, .i32⟩
  | 27 => ⟨S14, .i32⟩
  | 28 => ⟨S14, .i32⟩
  | 29 => ⟨S1x1x14, .i32⟩
  | 30 => ⟨S2048x1024x14, .i32⟩
  | 31 => ⟨S2048x1024x14, .i32⟩
  | 32 => ⟨S_, .i32⟩
  | 33 => ⟨S2048x1024, .i32⟩
  | 34 => ⟨S1024, .i32⟩
  | 35 => ⟨S1x1024, .i32⟩
  | 36 => ⟨S_, .i32⟩
  | 37 => ⟨S1x1024, .i32⟩
  | 38 => ⟨S1x1024, .i1⟩
  | 39 => ⟨S_, .i32⟩
  | 40 => ⟨S1x1024, .i32⟩
  | 41 => ⟨S1x1024, .i32⟩
  | 42 => ⟨S1x1024, .i32⟩
  | 43 => ⟨S_, .i32⟩
  | 44 => ⟨S2048x1024, .i32⟩
  | 45 => ⟨S2048x1024, .i1⟩
  | 46 => ⟨S_, .i32⟩
  | 47 => ⟨S2048x1024, .i32⟩
  | 48 => ⟨S2048x1024, .i32⟩
  | 49 => ⟨S2048x1024, .i32⟩
  | 50 => ⟨S2048x1024, .i32⟩
  | 51 => ⟨S2048x1024x1, .i32⟩
  | 52 => ⟨S2048x1024x1, .i32⟩
  | 53 => ⟨S2048x1024x2, .i32⟩
  | 54 => ⟨S2048x1024, .f32⟩
  | 55 => ⟨S_, .f32⟩
  | 56 => ⟨S2048x1024, .f32⟩
  | 57 => ⟨S2048x1024, .i1⟩
  | 58 => ⟨S_, .f32⟩
  | 59 => ⟨S_, .f32⟩
  | 60 => ⟨S2048x1024, .f32⟩
  | 61 => ⟨S2048x1024, .f32⟩
  | 62 => ⟨S2048x1024, .f32⟩
  | 63 => ⟨S2048x1024, .f32⟩
  | _ => ⟨S2048x4096, .i32⟩

abbrev hbmTy (i : Nat) : BufTy := match i / 128 with
  | 0 => hbmTy0_0 i
  | 1 => hbmTy0_1 i
  | 2 => hbmTy0_2 i
  | 3 => hbmTy0_3 i
  | _ => ⟨S2048x4096, .i32⟩

abbrev bufTy : (tb : Table) → Fin (tcTables nBuf tb) → BufTy
  | .hbm, ⟨i, _⟩ => hbmTy i
  | _, _ => ⟨S2048x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_c_4 : Ref sig .tc := ⟨.hbm, 25, rfl⟩
abbrev main_v12 : Ref sig .tc := ⟨.hbm, 26, rfl⟩
abbrev main_c_5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_6 : Ref sig .tc := ⟨.hbm, 32, rfl⟩
abbrev main_c_7 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_c_8 : Ref sig .tc := ⟨.hbm, 37, rfl⟩
abbrev main_v18 : Ref sig .tc := ⟨.hbm, 38, rfl⟩
abbrev main_v19 : Ref sig .tc := ⟨.hbm, 39, rfl⟩
abbrev main_c_9 : Ref sig .tc := ⟨.hbm, 40, rfl⟩
abbrev main_v20 : Ref sig .tc := ⟨.hbm, 41, rfl⟩
abbrev main_v21 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_v22 : Ref sig .tc := ⟨.hbm, 46, rfl⟩
abbrev main_c_10 : Ref sig .tc := ⟨.hbm, 47, rfl⟩
abbrev main_c_11 : Ref sig .tc := ⟨.hbm, 48, rfl⟩
abbrev main_v23 : Ref sig .tc := ⟨.hbm, 49, rfl⟩
abbrev main_c_12 : Ref sig .tc := ⟨.hbm, 50, rfl⟩
abbrev main_v24 : Ref sig .tc := ⟨.hbm, 51, rfl⟩
abbrev main_v25 : Ref sig .tc := ⟨.hbm, 52, rfl⟩
abbrev main_c_13 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_v30 : Ref sig .tc := ⟨.hbm, 61, rfl⟩
abbrev main_v31 : Ref sig .tc := ⟨.hbm, 62, rfl⟩
abbrev main_c_14 : Ref sig .tc := ⟨.hbm, 63, rfl⟩
abbrev main_v32 : Ref sig .tc := ⟨.hbm, 64, rfl⟩
abbrev main_v33 : Ref sig .tc := ⟨.hbm, 65, rfl⟩
abbrev main_c_15 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_call3_c : Ref sig .tc := ⟨.hbm, 71, rfl⟩
abbrev main_call3_v0 : Ref sig .tc := ⟨.hbm, 72, rfl⟩
abbrev main_call3_v1 : Ref sig .tc := ⟨.hbm, 73, rfl⟩
abbrev main_v38 : Ref sig .tc := ⟨.hbm, 74, rfl⟩
abbrev main_v39 : Ref sig .tc := ⟨.hbm, 75, rfl⟩
abbrev main_c_16 : Ref sig .tc := ⟨.hbm, 76, rfl⟩
abbrev main_v40 : Ref sig .tc := ⟨.hbm, 77, rfl⟩
abbrev main_v41 : Ref sig .tc := ⟨.hbm, 78, rfl⟩
abbrev main_c_17 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_call4_c : Ref sig .tc := ⟨.hbm, 84, rfl⟩
abbrev main_call4_v0 : Ref sig .tc := ⟨.hbm, 85, rfl⟩
abbrev main_call4_v1 : Ref sig .tc := ⟨.hbm, 86, rfl⟩
abbrev main_v46 : Ref sig .tc := ⟨.hbm, 87, rfl⟩
abbrev main_v47 : Ref sig .tc := ⟨.hbm, 88, rfl⟩
abbrev main_c_18 : Ref sig .tc := ⟨.hbm, 89, rfl⟩
abbrev main_v48 : Ref sig .tc := ⟨.hbm, 90, rfl⟩
abbrev main_v49 : Ref sig .tc := ⟨.hbm, 91, rfl⟩
abbrev main_c_19 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_call5_c : Ref sig .tc := ⟨.hbm, 97, rfl⟩
abbrev main_call5_v0 : Ref sig .tc := ⟨.hbm, 98, rfl⟩
abbrev main_call5_v1 : Ref sig .tc := ⟨.hbm, 99, rfl⟩
abbrev main_v54 : Ref sig .tc := ⟨.hbm, 100, rfl⟩
abbrev main_v55 : Ref sig .tc := ⟨.hbm, 101, rfl⟩
abbrev main_c_20 : Ref sig .tc := ⟨.hbm, 102, rfl⟩
abbrev main_v56 : Ref sig .tc := ⟨.hbm, 103, rfl⟩
abbrev main_v57 : Ref sig .tc := ⟨.hbm, 104, rfl⟩
abbrev main_c_21 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_call6_c : Ref sig .tc := ⟨.hbm, 110, rfl⟩
abbrev main_call6_v0 : Ref sig .tc := ⟨.hbm, 111, rfl⟩
abbrev main_call6_v1 : Ref sig .tc := ⟨.hbm, 112, rfl⟩
abbrev main_v62 : Ref sig .tc := ⟨.hbm, 113, rfl⟩
abbrev main_v63 : Ref sig .tc := ⟨.hbm, 114, rfl⟩
abbrev main_c_22 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_c_23 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_c_24 : Ref sig .tc := ⟨.hbm, 125, rfl⟩
abbrev main_v72 : Ref sig .tc := ⟨.hbm, 126, rfl⟩
abbrev main_v73 : Ref sig .tc := ⟨.hbm, 127, rfl⟩
abbrev main_c_25 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_c_26 : Ref sig .tc := ⟨.hbm, 132, rfl⟩
abbrev main_v77 : Ref sig .tc := ⟨.hbm, 133, rfl⟩
abbrev main_v78 : Ref sig .tc := ⟨.hbm, 134, rfl⟩
abbrev main_c_27 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_cst : Ref sig .tc := ⟨.hbm, 144, rfl⟩
abbrev main_v87 : Ref sig .tc := ⟨.hbm, 145, rfl⟩
abbrev main_v88 : Ref sig .tc := ⟨.hbm, 146, rfl⟩
abbrev main_cst_28 : Ref sig .tc := ⟨.hbm, 147, rfl⟩
abbrev main_cst_29 : Ref sig .tc := ⟨.hbm, 148, rfl⟩
abbrev main_call7_v0 : Ref sig .tc := ⟨.hbm, 149, rfl⟩
abbrev main_call7_v1 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_c_30 : Ref sig .tc := ⟨.hbm, 155, rfl⟩
abbrev main_v93 : Ref sig .tc := ⟨.hbm, 156, rfl⟩
abbrev main_v94 : Ref sig .tc := ⟨.hbm, 157, rfl⟩
abbrev main_c_31 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_c_32 : Ref sig .tc := ⟨.hbm, 166, rfl⟩
abbrev main_v102 : Ref sig .tc := ⟨.hbm, 167, rfl⟩
abbrev main_v103 : Ref sig .tc := ⟨.hbm, 168, rfl⟩
abbrev main_c_33 : Ref sig .tc := ⟨.hbm, 169, rfl⟩
abbrev main_v104 : Ref sig .tc := ⟨.hbm, 170, rfl⟩
abbrev main_v105 : Ref sig .tc := ⟨.hbm, 171, rfl⟩
abbrev main_c_34 : Ref sig .tc := ⟨.hbm, 172, rfl⟩
abbrev main_c_35 : Ref sig .tc := ⟨.hbm, 173, rfl⟩
abbrev main_v106 : Ref sig .tc := ⟨.hbm, 174, rfl⟩
abbrev main_c_36 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_c_37 : Ref sig .tc := ⟨.hbm, 180, rfl⟩
abbrev main_c_38 : Ref sig .tc := ⟨.hbm, 181, rfl⟩
abbrev main_call8_v0 : Ref sig .tc := ⟨.hbm, 182, rfl⟩
abbrev main_call8_v1 : Ref sig .tc := ⟨.hbm, 183, rfl⟩
abbrev main_v111 : Ref sig .tc := ⟨.hbm, 184, rfl⟩
abbrev main_c_39 : Ref sig .tc := ⟨.hbm, 185, rfl⟩
abbrev main_v112 : Ref sig .tc := ⟨.hbm, 186, rfl⟩
abbrev main_v113 : Ref sig .tc := ⟨.hbm, 187, rfl⟩
abbrev main_c_40 : Ref sig .tc := ⟨.hbm, 188, rfl⟩
abbrev main_v114 : Ref sig .tc := ⟨.hbm, 189, rfl⟩
abbrev main_v115 : Ref sig .tc := ⟨.hbm, 190, rfl⟩
abbrev main_call9_c : Ref sig .tc := ⟨.hbm, 191, rfl⟩
abbrev main_call9_v0 : Ref sig .tc := ⟨.hbm, 192, rfl⟩
abbrev main_call9_v1 : Ref sig .tc := ⟨.hbm, 193, rfl⟩
abbrev main_v116 : Ref sig .tc := ⟨.hbm, 194, rfl⟩
abbrev main_c_41 : Ref sig .tc := ⟨.hbm, 195, rfl⟩
abbrev main_c_42 : Ref sig .tc := ⟨.hbm, 196, rfl⟩
abbrev main_v117 : Ref sig .tc := ⟨.hbm, 197, rfl⟩
abbrev main_c_43 : Ref sig .tc := ⟨.hbm, 198, rfl⟩
abbrev main_v118 : Ref sig .tc := ⟨.hbm, 199, rfl⟩
abbrev main_v119 : Ref sig .tc := ⟨.hbm, 200, rfl⟩
abbrev main_c_44 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_call10_c : Ref sig .tc := ⟨.hbm, 206, rfl⟩
abbrev main_call10_v0 : Ref sig .tc := ⟨.hbm, 207, rfl⟩
abbrev main_call10_v1 : Ref sig .tc := ⟨.hbm, 208, rfl⟩
abbrev main_v124 : Ref sig .tc := ⟨.hbm, 209, rfl⟩
abbrev main_v125 : Ref sig .tc := ⟨.hbm, 210, rfl⟩
abbrev main_c_45 : Ref sig .tc := ⟨.hbm, 211, rfl⟩
abbrev main_v126 : Ref sig .tc := ⟨.hbm, 212, rfl⟩
abbrev main_v127 : Ref sig .tc := ⟨.hbm, 213, rfl⟩
abbrev main_c_46 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_call11_c : Ref sig .tc := ⟨.hbm, 219, rfl⟩
abbrev main_call11_v0 : Ref sig .tc := ⟨.hbm, 220, rfl⟩
abbrev main_call11_v1 : Ref sig .tc := ⟨.hbm, 221, rfl⟩
abbrev main_v132 : Ref sig .tc := ⟨.hbm, 222, rfl⟩
abbrev main_v133 : Ref sig .tc := ⟨.hbm, 223, rfl⟩
abbrev main_c_47 : Ref sig .tc := ⟨.hbm, 224, rfl⟩
abbrev main_v134 : Ref sig .tc := ⟨.hbm, 225, rfl⟩
abbrev main_v135 : Ref sig .tc := ⟨.hbm, 226, rfl⟩
abbrev main_c_48 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_call12_c : Ref sig .tc := ⟨.hbm, 232, rfl⟩
abbrev main_call12_v0 : Ref sig .tc := ⟨.hbm, 233, rfl⟩
abbrev main_call12_v1 : Ref sig .tc := ⟨.hbm, 234, rfl⟩
abbrev main_v140 : Ref sig .tc := ⟨.hbm, 235, rfl⟩
abbrev main_v141 : Ref sig .tc := ⟨.hbm, 236, rfl⟩
abbrev main_c_49 : Ref sig .tc := ⟨.hbm, 237, rfl⟩
abbrev main_v142 : Ref sig .tc := ⟨.hbm, 238, rfl⟩
abbrev main_v143 : Ref sig .tc := ⟨.hbm, 239, rfl⟩
abbrev main_c_50 : Ref sig .tc := ⟨.hbm, 240, rfl⟩
abbrev main_v144 : Ref sig .tc := ⟨.hbm, 241, rfl⟩
abbrev main_v145 : Ref sig .tc := ⟨.hbm, 242, rfl⟩
abbrev main_v146 : Ref sig .tc := ⟨.hbm, 243, rfl⟩
abbrev main_v147 : Ref sig .tc := ⟨.hbm, 244, rfl⟩
abbrev main_call13_c : Ref sig .tc := ⟨.hbm, 245, rfl⟩
abbrev main_call13_v0 : Ref sig .tc := ⟨.hbm, 246, rfl⟩
abbrev main_call13_v1 : Ref sig .tc := ⟨.hbm, 247, rfl⟩
abbrev main_v148 : Ref sig .tc := ⟨.hbm, 248, rfl⟩
abbrev main_v149 : Ref sig .tc := ⟨.hbm, 249, rfl⟩
abbrev main_c_51 : Ref sig .tc := ⟨.hbm, 250, rfl⟩
abbrev main_v150 : Ref sig .tc := ⟨.hbm, 251, rfl⟩
abbrev main_v151 : Ref sig .tc := ⟨.hbm, 252, rfl⟩
abbrev main_c_52 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_v155 : Ref sig .tc := ⟨.hbm, 257, rfl⟩
abbrev main_call14_c : Ref sig .tc := ⟨.hbm, 258, rfl⟩
abbrev main_call14_v0 : Ref sig .tc := ⟨.hbm, 259, rfl⟩
abbrev main_call14_v1 : Ref sig .tc := ⟨.hbm, 260, rfl⟩
abbrev main_v156 : Ref sig .tc := ⟨.hbm, 261, rfl⟩
abbrev main_v157 : Ref sig .tc := ⟨.hbm, 262, rfl⟩
abbrev main_c_53 : Ref sig .tc := ⟨.hbm, 263, rfl⟩
abbrev main_v158 : Ref sig .tc := ⟨.hbm, 264, rfl⟩
abbrev main_v159 : Ref sig .tc := ⟨.hbm, 265, rfl⟩
abbrev main_v160 : Ref sig .tc := ⟨.hbm, 266, rfl⟩
abbrev main_v161 : Ref sig .tc := ⟨.hbm, 267, rfl⟩
abbrev main_v162 : Ref sig .tc := ⟨.hbm, 268, rfl⟩
abbrev main_c_54 : Ref sig .tc := ⟨.hbm, 269, rfl⟩
abbrev main_v163 : Ref sig .tc := ⟨.hbm, 270, rfl⟩
abbrev main_v164 : Ref sig .tc := ⟨.hbm, 271, rfl⟩
abbrev main_v165 : Ref sig .tc := ⟨.hbm, 272, rfl⟩
abbrev main_c_55 : Ref sig .tc := ⟨.hbm, 273, rfl⟩
abbrev main_v166 : Ref sig .tc := ⟨.hbm, 274, rfl⟩
abbrev main_v167 : Ref sig .tc := ⟨.hbm, 275, rfl⟩
abbrev main_c_56 : Ref sig .tc := ⟨.hbm, 276, rfl⟩
abbrev main_v168 : Ref sig .tc := ⟨.hbm, 277, rfl⟩
abbrev main_v169 : Ref sig .tc := ⟨.hbm, 278, rfl⟩
abbrev main_v170 : Ref sig .tc := ⟨.hbm, 279, rfl⟩
abbrev main_c_57 : Ref sig .tc := ⟨.hbm, 280, rfl⟩
abbrev main_v171 : Ref sig .tc := ⟨.hbm, 281, rfl⟩
abbrev main_v172 : Ref sig .tc := ⟨.hbm, 282, rfl⟩
abbrev main_c_58 : Ref sig .tc := ⟨.hbm, 283, rfl⟩
abbrev main_v173 : Ref sig .tc := ⟨.hbm, 284, rfl⟩
abbrev main_v174 : Ref sig .tc := ⟨.hbm, 285, rfl⟩
abbrev main_v175 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_v179 : Ref sig .tc := ⟨.hbm, 290, rfl⟩
abbrev main_v180 : Ref sig .tc := ⟨.hbm, 291, rfl⟩
abbrev main_cst_59 : Ref sig .tc := ⟨.hbm, 292, rfl⟩
abbrev main_v181 : Ref sig .tc := ⟨.hbm, 293, rfl⟩
abbrev main_v182 : Ref sig .tc := ⟨.hbm, 294, rfl⟩
abbrev main_cst_60 : Ref sig .tc := ⟨.hbm, 295, rfl⟩
abbrev main_cst_61 : Ref sig .tc := ⟨.hbm, 296, rfl⟩
abbrev main_call15_v0 : Ref sig .tc := ⟨.hbm, 297, rfl⟩
abbrev main_call15_v1 : Ref sig .tc := ⟨.hbm, 298, rfl⟩
abbrev main_v183 : Ref sig .tc := ⟨.hbm, 299, rfl⟩
abbrev main_v184 : Ref sig .tc := ⟨.hbm, 300, rfl⟩
abbrev main_v185 : Ref sig .tc := ⟨.hbm, 301, rfl⟩
abbrev main_c_62 : Ref sig .tc := ⟨.hbm, 302, rfl⟩
abbrev main_v186 : Ref sig .tc := ⟨.hbm, 303, rfl⟩
abbrev main_v187 : Ref sig .tc := ⟨.hbm, 304, rfl⟩
abbrev main_c_63 : Ref sig .tc := ⟨.hbm, 305, rfl⟩
abbrev main_v188 : Ref sig .tc := ⟨.hbm, 306, rfl⟩
abbrev main_v189 : Ref sig .tc := ⟨.hbm, 307, rfl⟩
abbrev main_v190 : Ref sig .tc := ⟨.hbm, 308, rfl⟩
abbrev main_v191 : Ref sig .tc := ⟨.hbm, 309, rfl⟩
abbrev main_v192 : Ref sig .tc := ⟨.hbm, 310, rfl⟩
abbrev main_v193 : Ref sig .tc := ⟨.hbm, 311, rfl⟩
abbrev main_v194 : Ref sig .tc := ⟨.hbm, 312, rfl⟩
abbrev main_c_64 : Ref sig .tc := ⟨.hbm, 313, rfl⟩
abbrev main_v195 : Ref sig .tc := ⟨.hbm, 314, rfl⟩
abbrev main_v196 : Ref sig .tc := ⟨.hbm, 315, rfl⟩
abbrev main_c_65 : Ref sig .tc := ⟨.hbm, 316, rfl⟩
abbrev main_v197 : Ref sig .tc := ⟨.hbm, 317, rfl⟩
abbrev main_v198 : Ref sig .tc := ⟨.hbm, 318, rfl⟩
abbrev main_c_66 : Ref sig .tc := ⟨.hbm, 319, rfl⟩
abbrev main_c_67 : Ref sig .tc := ⟨.hbm, 320, rfl⟩
abbrev main_v199 : Ref sig .tc := ⟨.hbm, 321, rfl⟩
abbrev main_c_68 : Ref sig .tc := ⟨.hbm, 322, rfl⟩
abbrev main_v200 : Ref sig .tc := ⟨.hbm, 323, rfl⟩
abbrev main_v201 : Ref sig .tc := ⟨.hbm, 324, rfl⟩
abbrev main_v202 : Ref sig .tc := ⟨.hbm, 325, rfl⟩
abbrev main_v203 : Ref sig .tc := ⟨.hbm, 326, rfl⟩
abbrev main_c_69 : Ref sig .tc := ⟨.hbm, 327, rfl⟩
abbrev main_c_70 : Ref sig .tc := ⟨.hbm, 328, rfl⟩
abbrev main_call16_v0 : Ref sig .tc := ⟨.hbm, 329, rfl⟩
abbrev main_call16_v1 : Ref sig .tc := ⟨.hbm, 330, rfl⟩
abbrev main_v204 : Ref sig .tc := ⟨.hbm, 331, rfl⟩
abbrev main_c_71 : Ref sig .tc := ⟨.hbm, 332, rfl⟩
abbrev main_v205 : Ref sig .tc := ⟨.hbm, 333, rfl⟩
abbrev main_v206 : Ref sig .tc := ⟨.hbm, 334, rfl⟩
abbrev main_c_72 : Ref sig .tc := ⟨.hbm, 335, rfl⟩
abbrev main_v207 : Ref sig .tc := ⟨.hbm, 336, rfl⟩
abbrev main_v208 : Ref sig .tc := ⟨.hbm, 337, rfl⟩
abbrev main_call17_c : Ref sig .tc := ⟨.hbm, 338, rfl⟩
abbrev main_call17_v0 : Ref sig .tc := ⟨.hbm, 339, rfl⟩
abbrev main_call17_v1 : Ref sig .tc := ⟨.hbm, 340, rfl⟩
abbrev main_v209 : Ref sig .tc := ⟨.hbm, 341, rfl⟩
abbrev main_c_73 : Ref sig .tc := ⟨.hbm, 342, rfl⟩
abbrev main_c_74 : Ref sig .tc := ⟨.hbm, 343, rfl⟩
abbrev main_v210 : Ref sig .tc := ⟨.hbm, 344, rfl⟩
abbrev main_c_75 : Ref sig .tc := ⟨.hbm, 345, rfl⟩
abbrev main_v211 : Ref sig .tc := ⟨.hbm, 346, rfl⟩
abbrev main_v212 : Ref sig .tc := ⟨.hbm, 347, rfl⟩
abbrev main_c_76 : Ref sig .tc := ⟨.hbm, 348, rfl⟩
abbrev main_v213 : Ref sig .tc := ⟨.hbm, 349, rfl⟩
abbrev main_v214 : Ref sig .tc := ⟨.hbm, 350, rfl⟩
abbrev main_v215 : Ref sig .tc := ⟨.hbm, 351, rfl⟩
abbrev main_v216 : Ref sig .tc := ⟨.hbm, 352, rfl⟩
abbrev main_call18_c : Ref sig .tc := ⟨.hbm, 353, rfl⟩
abbrev main_call18_v0 : Ref sig .tc := ⟨.hbm, 354, rfl⟩
abbrev main_call18_v1 : Ref sig .tc := ⟨.hbm, 355, rfl⟩
abbrev main_v217 : Ref sig .tc := ⟨.hbm, 356, rfl⟩
abbrev main_v218 : Ref sig .tc := ⟨.hbm, 357, rfl⟩
abbrev main_c_77 : Ref sig .tc := ⟨.hbm, 358, rfl⟩
abbrev main_v219 : Ref sig .tc := ⟨.hbm, 359, rfl⟩
abbrev main_v220 : Ref sig .tc := ⟨.hbm, 360, rfl⟩
abbrev main_c_78 : Ref sig .tc := ⟨.hbm, 361, rfl⟩
abbrev main_v221 : Ref sig .tc := ⟨.hbm, 362, rfl⟩
abbrev main_v222 : Ref sig .tc := ⟨.hbm, 363, rfl⟩
abbrev main_v223 : Ref sig .tc := ⟨.hbm, 364, rfl⟩
abbrev main_v224 : Ref sig .tc := ⟨.hbm, 365, rfl⟩
abbrev main_call19_c : Ref sig .tc := ⟨.hbm, 366, rfl⟩
abbrev main_call19_v0 : Ref sig .tc := ⟨.hbm, 367, rfl⟩
abbrev main_call19_v1 : Ref sig .tc := ⟨.hbm, 368, rfl⟩
abbrev main_v225 : Ref sig .tc := ⟨.hbm, 369, rfl⟩
abbrev main_v226 : Ref sig .tc := ⟨.hbm, 370, rfl⟩
abbrev main_c_79 : Ref sig .tc := ⟨.hbm, 371, rfl⟩
abbrev main_v227 : Ref sig .tc := ⟨.hbm, 372, rfl⟩
abbrev main_v228 : Ref sig .tc := ⟨.hbm, 373, rfl⟩
abbrev main_c_80 : Ref sig .tc := ⟨.hbm, 374, rfl⟩
abbrev main_v229 : Ref sig .tc := ⟨.hbm, 375, rfl⟩
abbrev main_v230 : Ref sig .tc := ⟨.hbm, 376, rfl⟩
abbrev main_v231 : Ref sig .tc := ⟨.hbm, 377, rfl⟩
abbrev main_v232 : Ref sig .tc := ⟨.hbm, 378, rfl⟩
abbrev main_call20_c : Ref sig .tc := ⟨.hbm, 379, rfl⟩
abbrev main_call20_v0 : Ref sig .tc := ⟨.hbm, 380, rfl⟩
abbrev main_call20_v1 : Ref sig .tc := ⟨.hbm, 381, rfl⟩
abbrev main_v233 : Ref sig .tc := ⟨.hbm, 382, rfl⟩
abbrev main_v234 : Ref sig .tc := ⟨.hbm, 383, rfl⟩
abbrev main_c_81 : Ref sig .tc := ⟨.hbm, 384, rfl⟩
abbrev main_v235 : Ref sig .tc := ⟨.hbm, 385, rfl⟩
abbrev main_v236 : Ref sig .tc := ⟨.hbm, 386, rfl⟩
abbrev main_c_82 : Ref sig .tc := ⟨.hbm, 387, rfl⟩
abbrev main_v237 : Ref sig .tc := ⟨.hbm, 388, rfl⟩
abbrev main_v238 : Ref sig .tc := ⟨.hbm, 389, rfl⟩
abbrev main_v239 : Ref sig .tc := ⟨.hbm, 390, rfl⟩
abbrev main_v240 : Ref sig .tc := ⟨.hbm, 391, rfl⟩
abbrev main_call21_c : Ref sig .tc := ⟨.hbm, 392, rfl⟩
abbrev main_call21_v0 : Ref sig .tc := ⟨.hbm, 393, rfl⟩
abbrev main_call21_v1 : Ref sig .tc := ⟨.hbm, 394, rfl⟩
abbrev main_v241 : Ref sig .tc := ⟨.hbm, 395, rfl⟩
abbrev main_v242 : Ref sig .tc := ⟨.hbm, 396, rfl⟩
abbrev main_c_83 : Ref sig .tc := ⟨.hbm, 397, rfl⟩
abbrev main_v243 : Ref sig .tc := ⟨.hbm, 398, rfl⟩
abbrev main_v244 : Ref sig .tc := ⟨.hbm, 399, rfl⟩
abbrev main_c_84 : Ref sig .tc := ⟨.hbm, 400, rfl⟩
abbrev main_v245 : Ref sig .tc := ⟨.hbm, 401, rfl⟩
abbrev main_v246 : Ref sig .tc := ⟨.hbm, 402, rfl⟩
abbrev main_v247 : Ref sig .tc := ⟨.hbm, 403, rfl⟩
abbrev main_v248 : Ref sig .tc := ⟨.hbm, 404, rfl⟩
abbrev main_call22_c : Ref sig .tc := ⟨.hbm, 405, rfl⟩
abbrev main_call22_v0 : Ref sig .tc := ⟨.hbm, 406, rfl⟩
abbrev main_call22_v1 : Ref sig .tc := ⟨.hbm, 407, rfl⟩
abbrev main_v249 : Ref sig .tc := ⟨.hbm, 408, rfl⟩
abbrev main_v250 : Ref sig .tc := ⟨.hbm, 409, rfl⟩
abbrev main_c_85 : Ref sig .tc := ⟨.hbm, 410, rfl⟩
abbrev main_v251 : Ref sig .tc := ⟨.hbm, 411, rfl⟩
abbrev main_v252 : Ref sig .tc := ⟨.hbm, 412, rfl⟩
abbrev main_v253 : Ref sig .tc := ⟨.hbm, 413, rfl⟩
abbrev main_v254 : Ref sig .tc := ⟨.hbm, 414, rfl⟩
abbrev main_v255 : Ref sig .tc := ⟨.hbm, 415, rfl⟩
abbrev main_c_86 : Ref sig .tc := ⟨.hbm, 416, rfl⟩
abbrev main_v256 : Ref sig .tc := ⟨.hbm, 417, rfl⟩
abbrev main_v257 : Ref sig .tc := ⟨.hbm, 418, rfl⟩
abbrev main_v258 : Ref sig .tc := ⟨.hbm, 419, rfl⟩
abbrev main_c_87 : Ref sig .tc := ⟨.hbm, 420, rfl⟩
abbrev main_v259 : Ref sig .tc := ⟨.hbm, 421, rfl⟩
abbrev main_v260 : Ref sig .tc := ⟨.hbm, 422, rfl⟩
abbrev main_c_88 : Ref sig .tc := ⟨.hbm, 423, rfl⟩
abbrev main_v261 : Ref sig .tc := ⟨.hbm, 424, rfl⟩
abbrev main_v262 : Ref sig .tc := ⟨.hbm, 425, rfl⟩
abbrev main_v263 : Ref sig .tc := ⟨.hbm, 426, rfl⟩
abbrev main_c_89 : Ref sig .tc := ⟨.hbm, 427, rfl⟩
abbrev main_v264 : Ref sig .tc := ⟨.hbm, 428, rfl⟩
abbrev main_v265 : Ref sig .tc := ⟨.hbm, 429, rfl⟩
abbrev main_c_90 : Ref sig .tc := ⟨.hbm, 430, rfl⟩
abbrev main_v266 : Ref sig .tc := ⟨.hbm, 431, rfl⟩
abbrev main_v267 : Ref sig .tc := ⟨.hbm, 432, rfl⟩
abbrev main_v268 : Ref sig .tc := ⟨.hbm, 433, rfl⟩
abbrev main_v269 : Ref sig .tc := ⟨.hbm, 434, rfl⟩
abbrev main_v270 : Ref sig .tc := ⟨.hbm, 435, rfl⟩
abbrev main_v271 : Ref sig .tc := ⟨.hbm, 436, rfl⟩
abbrev main_v272 : Ref sig .tc := ⟨.hbm, 437, rfl⟩
abbrev main_v273 : Ref sig .tc := ⟨.hbm, 438, rfl⟩
abbrev main_cst_91 : Ref sig .tc := ⟨.hbm, 439, rfl⟩
abbrev main_v274 : Ref sig .tc := ⟨.hbm, 440, rfl⟩
abbrev main_v275 : Ref sig .tc := ⟨.hbm, 441, rfl⟩
abbrev main_cst_92 : Ref sig .tc := ⟨.hbm, 442, rfl⟩
abbrev main_cst_93 : Ref sig .tc := ⟨.hbm, 443, rfl⟩
abbrev main_call23_v0 : Ref sig .tc := ⟨.hbm, 444, rfl⟩
abbrev main_call23_v1 : Ref sig .tc := ⟨.hbm, 445, rfl⟩
abbrev main_v276 : Ref sig .tc := ⟨.hbm, 446, rfl⟩
abbrev main_v277 : Ref sig .tc := ⟨.hbm, 447, rfl⟩

abbrev nD : Nat := 1
abbrev τ : Topo := Topo.v7x

variable {F : FTy → Type} [FloatOps F]

class Facts₀ : Prop where
  bcast_S_S2048x14 : S_.BroadcastsInDim S2048x14 (![] : Fin 0 → Fin S2048x14.rank)
  bcast_S2048x14_S2048x14x1_0_1 : S2048x14.BroadcastsInDim S2048x14x1 (![0, 1] : Fin 2 → Fin S2048x14x1.rank)
  bcast_S_S14 : S_.BroadcastsInDim S14 (![] : Fin 0 → Fin S14.rank)
  bcast_S14_S1x1x14_2 : S14.BroadcastsInDim S1x1x14 (![2] : Fin 1 → Fin S1x1x14.rank)
  bcast_S1x1x14_S2048x2048x14_0_1_2 : S1x1x14.BroadcastsInDim S2048x2048x14 (![0, 1, 2] : Fin 3 → Fin S2048x2048x14.rank)
  reducesTo_S2048x2048x14_S2048x2048_d2 : S2048x2048x14.ReducesTo [2] S2048x2048
  h_S_ : 0 < S_.numel
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S_S2048x2048 : S_.BroadcastsInDim S2048x2048 (![] : Fin 0 → Fin S2048x2048.rank)
  bcast_S1x2048_S2048x2048_0_1 : S1x2048.BroadcastsInDim S2048x2048 (![0, 1] : Fin 2 → Fin S2048x2048.rank)
  bcast_S2048x2048_S2048x2048x1_0_1 : S2048x2048.BroadcastsInDim S2048x2048x1 (![0, 1] : Fin 2 → Fin S2048x2048x1.rank)
  concatenates_S2048x2048x1_S2048x2048x1_S2048x2048x2_d2 : Shape.Concatenates [S2048x2048x1, S2048x2048x1] S2048x2048x2 2
  concatenates_S2048x2048_S2048x1024_S2048x3072_d1 : Shape.Concatenates [S2048x2048, S2048x1024] S2048x3072 1
  bcast_S_S1024x14 : S_.BroadcastsInDim S1024x14 (![] : Fin 0 → Fin S1024x14.rank)
  bcast_S1024x14_S1024x14x1_0_1 : S1024x14.BroadcastsInDim S1024x14x1 (![0, 1] : Fin 2 → Fin S1024x14x1.rank)
  bcast_S1x1x14_S2048x1024x14_0_1_2 : S1x1x14.BroadcastsInDim S2048x1024x14 (![0, 1, 2] : Fin 3 → Fin S2048x1024x14.rank)
  reducesTo_S2048x1024x14_S2048x1024_d2 : S2048x1024x14.ReducesTo [2] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S_S2048x1024 : S_.BroadcastsInDim S2048x1024 (![] : Fin 0 → Fin S2048x1024.rank)
  bcast_S1x1024_S2048x1024_0_1 : S1x1024.BroadcastsInDim S2048x1024 (![0, 1] : Fin 2 → Fin S2048x1024.rank)
  bcast_S2048x1024_S2048x1024x1_0_1 : S2048x1024.BroadcastsInDim S2048x1024x1 (![0, 1] : Fin 2 → Fin S2048x1024x1.rank)
  concatenates_S2048x1024x1_S2048x1024x1_S2048x1024x2_d2 : Shape.Concatenates [S2048x1024x1, S2048x1024x1] S2048x1024x2 2
  gather_S2048x4096_S2048x14x1_S2048x2048x14_0_1_n_n_1_2_20481_wf : GatherDims.WF S2048x4096 S2048x14x1 S2048x2048x14 [0] [1] [] [1] [] 2 ![2048, 1]
  gather_S2048x16384_S2048x2048x2_S2048x2048_n_01_n_n_01_2_11_wf : GatherDims.WF S2048x16384 S2048x2048x2 S2048x2048 [] [0, 1] [] [0, 1] [] 2 ![1, 1]
  gather_S2048x3072_S1024x14x1_S2048x1024x14_0_1_n_n_1_2_20481_wf : GatherDims.WF S2048x3072 S1024x14x1 S2048x1024x14 [0] [1] [] [1] [] 2 ![2048, 1]
  gather_S1024x16384_S2048x1024x2_S2048x1024_n_01_n_n_01_2_11_wf : GatherDims.WF S1024x16384 S2048x1024x2 S2048x1024 [] [0, 1] [] [0, 1] [] 2 ![1, 1]

variable [Facts₀]

def gather_S2048x4096_S2048x14x1_S2048x2048x14_0_1_n_n_1_2_20481 : GatherDims S2048x4096 S2048x14x1 S2048x2048x14 where
  offsetDims := [0]
  collapsedSliceDims := [1]
  operandBatchingDims := []
  startIndicesBatchingDims := []
  startIndexMap := [1]
  indexVectorDim := 2
  sliceSizes := ![2048, 1]
  wf := gather_S2048x4096_S2048x14x1_S2048x2048x14_0_1_n_n_1_2_20481_wf
def gather_S2048x16384_S2048x2048x2_S2048x2048_n_01_n_n_01_2_11 : GatherDims S2048x16384 S2048x2048x2 S2048x2048 where
  offsetDims := []
  collapsedSliceDims := [0, 1]
  operandBatchingDims := []
  startIndicesBatchingDims := []
  startIndexMap := [0, 1]
  indexVectorDim := 2
  sliceSizes := ![1, 1]
  wf := gather_S2048x16384_S2048x2048x2_S2048x2048_n_01_n_n_01_2_11_wf
def gather_S2048x3072_S1024x14x1_S2048x1024x14_0_1_n_n_1_2_20481 : GatherDims S2048x3072 S1024x14x1 S2048x1024x14 where
  offsetDims := [0]
  collapsedSliceDims := [1]
  operandBatchingDims := []
  startIndicesBatchingDims := []
  startIndexMap := [1]
  indexVectorDim := 2
  sliceSizes := ![2048, 1]
  wf := gather_S2048x3072_S1024x14x1_S2048x1024x14_0_1_n_n_1_2_20481_wf
def gather_S1024x16384_S2048x1024x2_S2048x1024_n_01_n_n_01_2_11 : GatherDims S1024x16384 S2048x1024x2 S2048x1024 where
  offsetDims := []
  collapsedSliceDims := [0, 1]
  operandBatchingDims := []
  startIndicesBatchingDims := []
  startIndexMap := [0, 1]
  indexVectorDim := 2
  sliceSizes := ![1, 1]
  wf := gather_S1024x16384_S2048x1024x2_S2048x1024_n_01_n_n_01_2_11_wf

class Facts : Prop extends Facts₀ where

variable [Facts]
-- ==== Proof.Spec.lean ====
import Idealize.ShloMosaic.PureOps.Ideal
import Idealize.ShloMosaic.Lib.ValueIdx
import Mathlib.Algebra.BigOperators.Fin
import Mathlib.Tactic.FinCases

noncomputable section

open scoped BigOperators

namespace Cert.Lut

open Idealize.ShloMosaic Idealize.ShloMosaic.ValueIdx

abbrev Sh2 (a b : ℕ) : Shape := ⟨2, ![a, b]⟩

def kHi (k : Fin 7) : Fin 14 := ⟨k.val, by omega⟩

def kLo (k : Fin 7) : Fin 14 := ⟨k.val + 7, by omega⟩

def addr {T : ℕ} (x : Fin T → ℕ) (κ : Fin 14 → Fin T) : ℕ := ∑ k : Fin 14, 2 ^ (13 - k.val) * x (κ k)

def hiPart {T : ℕ} (x : Fin T → ℕ) (κ : Fin 14 → Fin T) : ℕ := ∑ k : Fin 7, 2 ^ (6 - k.val) * x (κ (kHi k))

def loPart {T : ℕ} (x : Fin T → ℕ) (κ : Fin 14 → Fin T) : ℕ := ∑ k : Fin 7, 2 ^ (6 - k.val) * x (κ (kLo k))

theorem addr_eq {T : ℕ} (x : Fin T → ℕ) (κ : Fin 14 → Fin T) : addr x κ = 128 * hiPart x κ + loPart x κ := by
  unfold addr hiPart loPart kHi kLo
  simp only [Fin.sum_univ_succ, Fin.sum_univ_zero, Fin.val_zero, Fin.val_succ]
  norm_num
  ring_nf
  rfl

theorem hiPart_lt {T : ℕ} (x : Fin T → ℕ) (κ : Fin 14 → Fin T) (hx : ∀ t, x t ≤ 1) : hiPart x κ < 128 := by
  unfold hiPart
  calc ∑ k : Fin 7, 2 ^ (6 - k.val) * x (κ (kHi k)) ≤ ∑ k : Fin 7, 2 ^ (6 - k.val) * 1 :=
        Finset.sum_le_sum fun k _ => Nat.mul_le_mul_left _ (hx _)
    _ < 128 := by decide

theorem loPart_lt {T : ℕ} (x : Fin T → ℕ) (κ : Fin 14 → Fin T) (hx : ∀ t, x t ≤ 1) : loPart x κ < 128 := by
  unfold loPart
  calc ∑ k : Fin 7, 2 ^ (6 - k.val) * x (κ (kLo k)) ≤ ∑ k : Fin 7, 2 ^ (6 - k.val) * 1 :=
        Finset.sum_le_sum fun k _ => Nat.mul_le_mul_left _ (hx _)
    _ < 128 := by decide

theorem addr_lt {T : ℕ} (x : Fin T → ℕ) (κ : Fin 14 → Fin T) (hx : ∀ t, x t ≤ 1) : addr x κ < 16384 := by
  rw [addr_eq]; have := hiPart_lt x κ hx; have := loPart_lt x κ hx; omega

def fire (μ : Fin 16384 → EReal) (a : ℕ) : ℕ := if h : a < 16384 then (if μ ⟨a, h⟩ = 1 then 1 else 0) else 0

theorem fire_le_one (μ : Fin 16384 → EReal) (a : ℕ) : fire μ a ≤ 1 := by
  unfold fire; split_ifs <;> omega

def layer {B T N : ℕ} (β : Fin B → Fin T → ℕ) (κ : Fin N → Fin 14 → Fin T) (μ : Fin N → Fin 16384 → EReal) :
    Fin B → Fin N → ℕ := fun b n => fire (μ n) (addr (β b) (κ n))

theorem layer_le_one {B T N : ℕ} (β : Fin B → Fin T → ℕ) (κ : Fin N → Fin 14 → Fin T) (μ : Fin N → Fin 16384 → EReal)
    (b : Fin B) (n : Fin N) : layer β κ μ b n ≤ 1 := fire_le_one _ _

def cat {B : ℕ} (f : Fin B → Fin 2048 → ℕ) (g : Fin B → Fin 1024 → ℕ) : Fin B → Fin 3072 → ℕ :=
  fun b t => if h : t.val < 2048 then f b ⟨t.val, h⟩ else g b ⟨t.val - 2048, by have := t.isLt; omega⟩

theorem cat_le_one {B : ℕ} (f : Fin B → Fin 2048 → ℕ) (g : Fin B → Fin 1024 → ℕ) (hf : ∀ b t, f b t ≤ 1)
    (hg : ∀ b t, g b t ≤ 1) (b : Fin B) (t : Fin 3072) : cat f g b t ≤ 1 := by
  unfold cat; split_ifs <;> simp [hf, hg]

def natAt {a b : ℕ} (v : IVec (Sh2 a b) 32) (i : Fin a) (j : Fin b) : ℕ := (v (ix2 i j)).toNat

def connAt {N : ℕ} (T : ℕ) [NeZero T] (v : IVec (Sh2 N 14) 32) (n : Fin N) (k : Fin 14) : Fin T :=
  Fin.ofNat T (natAt v n k)

def rowAt {N : ℕ} (v : FVec Ideal (Sh2 N 16384) .f32) (n : Fin N) (a : Fin 16384) : EReal := v (ix2 n a)

structure Dom (a0 : IVec (Sh2 2048 4096) 32) (a1 : IVec (Sh2 2048 1024) 32) (a2 : IVec (Sh2 2048 14) 32)
    (a4 : IVec (Sh2 1024 14) 32) (a6 : IVec (Sh2 1024 14) 32) : Prop where
  bits0 : ∀ b t, natAt a0 b t ≤ 1
  bits1 : ∀ b t, natAt a1 b t ≤ 1
  conn0 : ∀ n k, natAt a2 n k < 4096
  conn1 : ∀ n k, natAt a4 n k < 3072
  conn2 : ∀ n k, natAt a6 n k < 3072

def hidden (a0 : IVec (Sh2 2048 4096) 32) (a2 : IVec (Sh2 2048 14) 32) (a3 : FVec Ideal (Sh2 2048 16384) .f32) :
    Fin 2048 → Fin 2048 → ℕ := layer (natAt a0) (connAt 4096 a2) (rowAt a3)

def state (a0 : IVec (Sh2 2048 4096) 32) (a1 : IVec (Sh2 2048 1024) 32) (a2 : IVec (Sh2 2048 14) 32)
    (a3 : FVec Ideal (Sh2 2048 16384) .f32) (a4 : IVec (Sh2 1024 14) 32) (a5 : FVec Ideal (Sh2 1024 16384) .f32) :
    Fin 2048 → Fin 1024 → ℕ := layer (cat (hidden a0 a2 a3) (natAt a1)) (connAt 3072 a4) (rowAt a5)

def outBits (a0 : IVec (Sh2 2048 4096) 32) (a1 : IVec (Sh2 2048 1024) 32) (a2 : IVec (Sh2 2048 14) 32)
    (a3 : FVec Ideal (Sh2 2048 16384) .f32) (a4 : IVec (Sh2 1024 14) 32) (a5 : FVec Ideal (Sh2 1024 16384) .f32)
    (a6 : IVec (Sh2 1024 14) 32) (a7 : FVec Ideal (Sh2 1024 16384) .f32) : Fin 2048 → Fin 1024 → ℕ :=
  layer (cat (hidden a0 a2 a3) (state a0 a1 a2 a3 a4 a5)) (connAt 3072 a6) (rowAt a7)

def net (a0 : IVec (Sh2 2048 4096) 32) (a1 : IVec (Sh2 2048 1024) 32) (a2 : IVec (Sh2 2048 14) 32)
    (a3 : FVec Ideal (Sh2 2048 16384) .f32) (a4 : IVec (Sh2 1024 14) 32) (a5 : FVec Ideal (Sh2 1024 16384) .f32)
    (a6 : IVec (Sh2 1024 14) 32) (a7 : FVec Ideal (Sh2 1024 16384) .f32) : FVec Ideal (Sh2 2048 1024) .f32 :=
  fun i => ((outBits a0 a1 a2 a3 a4 a5 a6 a7 (i 0) (i 1) : ℕ) : EReal)

end Cert.Lut

end
-- ==== Proof.PreDom.lean ====
import proofs.«427008_j72404558676324_3_alg».proof.Proof.Spec
import proofs.«427008_j72404558676324_3_alg».proof.Pre_finite_inputs
import proofs.«427008_j72404558676324_3_alg».proof.Proof.Gen.Pre_finite_inputs
import Idealize.ShloMosaic.Lib.ReduceAll
import Idealize.ShloMosaic.Lib.StableHlo.Predicate

noncomputable section

namespace Cert.Lut

open Idealize.ShloMosaic Idealize.ShloMosaic.ValueIdx

instance subsingleton_scalar_idx : Subsingleton Cert.Pre_finite_inputs.S_.Idx :=
  ⟨fun _ _ => funext fun d => d.elim0⟩

theorem toNat_le_of_signed (w : BitVec 32) (n : ℕ) (hn : n < 2 ^ 31) (h0 : IntOp.cmpi .sge w 0#32 = 1#1)
    (h1 : IntOp.cmpi .sle w (BitVec.ofNat 32 n) = 1#1) : w.toNat ≤ n := by
  rw [IntOp.cmpi_sge, show (0#32 : BitVec 32).toInt = 0 from by decide] at h0
  rw [IntOp.cmpi_sle, StableHlo.Predicate.toInt_ofNat_small n hn] at h1
  have hc := BitVec.toInt_eq_toNat_cond w
  split at hc <;> omega

theorem toNat_lt_of_signed (w : BitVec 32) (n : ℕ) (hn : n < 2 ^ 31) (h0 : IntOp.cmpi .sge w 0#32 = 1#1)
    (h1 : IntOp.cmpi .slt w (BitVec.ofNat 32 n) = 1#1) : w.toNat < n := by
  rw [IntOp.cmpi_sge, show (0#32 : BitVec 32).toInt = 0 from by decide] at h0
  rw [IntOp.cmpi_slt, StableHlo.Predicate.toInt_ofNat_small n hn] at h1
  have hc := BitVec.toInt_eq_toNat_cond w
  split at hc <;> omega

theorem dom_of_pre [Cert.Pre_finite_inputs.Facts] (a0 : IVec Cert.Pre_finite_inputs.S2048x4096 32)
    (a1 : IVec Cert.Pre_finite_inputs.S2048x1024 32) (a2 : IVec Cert.Pre_finite_inputs.S2048x14 32)
    (a3 : FVec Ideal Cert.Pre_finite_inputs.S2048x16384 .f32) (a4 : IVec Cert.Pre_finite_inputs.S1024x14 32)
    (a5 : FVec Ideal Cert.Pre_finite_inputs.S1024x16384 .f32) (a6 : IVec Cert.Pre_finite_inputs.S1024x14 32)
    (a7 : FVec Ideal Cert.Pre_finite_inputs.S1024x16384 .f32)
    (h : Cert.Pre_finite_inputs.fn (F := Ideal) a0 a1 a2 a3 a4 a5 a6 a7 = fun _ => 1#1) :
    Cert.Lut.Dom a0 a1 a2 a4 a6 := by
  have e := congrFun h ix0
  dsimp only [Cert.Pre_finite_inputs.fn, Cert.Pre_finite_inputs.fn_part1, Cert.Pre_finite_inputs.fn_part2] at e

  obtain ⟨e, h6⟩ := IntOp.andi_eq_one.1 e
  obtain ⟨e, h4⟩ := IntOp.andi_eq_one.1 e
  obtain ⟨e, h2⟩ := IntOp.andi_eq_one.1 e
  obtain ⟨e, h1⟩ := IntOp.andi_eq_one.1 e
  obtain ⟨-, h0⟩ := IntOp.andi_eq_one.1 e
  refine ⟨fun b t => ?_, fun b t => ?_, fun n k => ?_, fun n k => ?_, fun n k => ?_⟩
  · obtain ⟨l, u⟩ := IntOp.andi_eq_one.1 (Host.reduce_andi_all _ _ _ _ _ h0 (ix2 b t))
    exact toNat_le_of_signed _ 1 (by norm_num) l u
  · obtain ⟨l, u⟩ := IntOp.andi_eq_one.1 (Host.reduce_andi_all _ _ _ _ _ h1 (ix2 b t))
    exact toNat_le_of_signed _ 1 (by norm_num) l u
  · obtain ⟨l, u⟩ := IntOp.andi_eq_one.1 (Host.reduce_andi_all _ _ _ _ _ h2 (ix2 n k))
    exact toNat_lt_of_signed _ 4096 (by norm_num) l u
  · obtain ⟨l, u⟩ := IntOp.andi_eq_one.1 (Host.reduce_andi_all _ _ _ _ _ h4 (ix2 n k))
    exact toNat_lt_of_signed _ 3072 (by norm_num) l u
  · obtain ⟨l, u⟩ := IntOp.andi_eq_one.1 (Host.reduce_andi_all _ _ _ _ _ h6 (ix2 n k))
    exact toNat_lt_of_signed _ 3072 (by norm_num) l u

end Cert.Lut

end
-- ==== Proof.KB.Common.lean ====
import proofs.«427008_j72404558676324_3_alg».proof.Proof.Gen.Kernel.Launch
import proofs.«427008_j72404558676324_3_alg».proof.Proof.Gen.Kernel.Skeleton
import proofs.«427008_j72404558676324_3_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lut

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

abbrev rBig : Rect S128x128x128 := Rect.unit (s := S128x128x128) ![0, 0, 0] S128x128x128.size inb_S128x128x128_S128x128x128_0_0_0
abbrev rSm : Rect S128x128 := Rect.unit (s := S128x128) ![0, 0] S128x128.size inb_S128x128_S128x128_0_0

theorem coverSm {e : EltTy} (p : Vec F S128x128 e) (y : S128x128.Idx) :
    ∃ pc ∈ ([⟨rSm, p⟩] : List (View.Piece (Elt F) S128x128 e)), y ∈ pc.1.set :=
  View.cover_of_tiled [⟨rSm, p⟩] S128x128.size (by rfl) y

theorem coverBig {e : EltTy} (p : Vec F S128x128x128 e) (y : S128x128x128.Idx) :
    ∃ pc ∈ ([⟨rBig, p⟩] : List (View.Piece (Elt F) S128x128x128 e)), y ∈ pc.1.set :=
  View.cover_of_tiled [⟨rBig, p⟩] S128x128x128.size (by rfl) y

end Cert.Kernel.Lut

end
-- ==== Proof.KB.Body0.lean ====
import proofs.«427008_j72404558676324_3_alg».proof.Proof.KB.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lut

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0 (i : grid0.Coords) : Prop :=
  (Scalar.cmpi .ne (Scalar.extui (Scalar.cmpi .eq (BitVec.ofNat 32 (i 1).val) 0#32)) 0#32) = 1#1

-- Away from the first sample tile of a neuron tile the body finds the zero-one table of that neuron tile and stores the looked-up tile.
set_option maxHeartbeats 4000000 in
theorem sound_later0 (c : Dev nD) (E : Set ℕ) (i : grid0.Coords) (hc : ¬cond0 i)
    (arg2 : Memref sig .tc .vmem S128x128x128 .f32) (harg2 : arg2.IsWhole) (arg3 : Memref sig .tc .vmem S128x128 .i32) (harg3 : arg3.IsWhole)
    (arg4 : Memref sig .tc .vmem S128x128 .i32) (harg4 : arg4.IsWhole) (arg5 : Memref sig .tc .vmem S128x128 .bf16) (harg5 : arg5.IsWhole)
    (arg6 : Memref sig .tc .vmem S128x128x128 .bf16) (harg6 : arg6.IsWhole)
    (x1 x2 : Vec F S128x128 .i32) (xs : Vec F S128x128x128 .bf16) (K : PUnit → sProp 𝕄) :
    iprop(owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg3 fullShare x1 ∗ owns (c : Thread nD τ) arg4 fullShare x2 ∗ owns (c : Thread nD τ) arg5 fullShare (k0_pay2 x1 x2 xs) ∗ owns (c : Thread nD τ) arg6 fullShare xs) -∗ K ⟨⟩))
      ⊢ wp frame (wpE (defs₀ (F := F)) Variants.none c none) E (cc0__lut_kernel i arg2 harg2 arg3 harg3 arg4 harg4 arg5 harg5 arg6 harg6) K := by
  simp only [cc0__lut_kernel_eq_skeleton]; unfold cc0__lut_kernel_skel
  unfold owns
  iintro ⟨⟨%f1, %hf1, H1⟩, ⟨%f2, %hf2, H2⟩, ⟨%d5, %f5, -, H5⟩, ⟨%f6, %hf6, H6⟩, Hk⟩
  subst hf1; subst hf2; subst hf6
  sl_exec (disch := exact hc)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    rw [View.read_writes_eq_canon _ _ _ (coverSm _), View.canon_unit_zero hz2]
    simp only [View.readAt_eq_ld, View.ld_unit_zero (S := S128x128) hz2, View.ld_unit_zero (S := S128x128x128) hz3]
  · iexists f6; isplitr; · ipureintro; rfl
    iexact H6

-- At the first sample tile of a neuron tile the body first stores the zero-one form of the table block, then looks up in it.
set_option maxHeartbeats 4000000 in
theorem sound_first0 (c : Dev nD) (E : Set ℕ) (i : grid0.Coords) (hc : cond0 i)
    (arg2 : Memref sig .tc .vmem S128x128x128 .f32) (harg2 : arg2.IsWhole) (arg3 : Memref sig .tc .vmem S128x128 .i32) (harg3 : arg3.IsWhole)
    (arg4 : Memref sig .tc .vmem S128x128 .i32) (harg4 : arg4.IsWhole) (arg5 : Memref sig .tc .vmem S128x128 .bf16) (harg5 : arg5.IsWhole)
    (arg6 : Memref sig .tc .vmem S128x128x128 .bf16) (harg6 : arg6.IsWhole)
    (x0 : Vec F S128x128x128 .f32) (x1 x2 : Vec F S128x128 .i32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay2 x1 x2 (k0_pay1 x0)) ∗ owns (c : Thread nD τ) arg6 fullShare (k0_pay1 x0)) -∗ K ⟨⟩))
      ⊢ wp frame (wpE (defs₀ (F := F)) Variants.none c none) E (cc0__lut_kernel i arg2 harg2 arg3 harg3 arg4 harg4 arg5 harg5 arg6 harg6) K := by
  simp only [cc0__lut_kernel_eq_skeleton]; unfold cc0__lut_kernel_skel
  unfold owns
  iintro ⟨⟨%f0, %hf0, H0⟩, ⟨%f1, %hf1, H1⟩, ⟨%f2, %hf2, H2⟩, ⟨%d5, %f5, -, H5⟩, ⟨%d6, %f6, -, H6⟩, Hk⟩
  subst hf0; subst hf1; subst hf2
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_words
    rw [View.read_writes_eq_canon _ _ _ (coverSm _), View.canon_unit_zero hz2]
    simp only [View.readAt_eq_ld, View.ld_unit_zero (S := S128x128) hz2, View.ld_unit_zero (S := S128x128x128) hz3,
      View.readCov_unit_zero (S := S128x128x128) _ hz3]
  · iexists _; isplitr
    swap; · iexact H6
    ipureintro
    sl_unfold_words
    rw [View.read_writes_eq_canon _ _ _ (coverBig _), View.canon_unit_zero hz3]
    simp only [View.readAt_eq_ld, View.ld_unit_zero (S := S128x128x128) hz3]

end Cert.Kernel.Lut

end
-- ==== Proof.KB.Region0.lean ====
import proofs.«427008_j72404558676324_3_alg».proof.Proof.KB.Body0
import Idealize.ShloMosaic.Lib.Pipeline.FrameBody
import Idealize.ShloMosaic.Lib.ValueIdx
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lut

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem idx_facts0 : ∀ t : Fin cfg0.N,
    win0_0.index t (0 : Fin 3) = t.val / 16 ∧ win0_0.index t (1 : Fin 3) = 0 ∧ win0_0.index t (2 : Fin 3) = 0
    ∧ win0_1.index t (0 : Fin 2) = t.val / 16 ∧ win0_1.index t (1 : Fin 2) = t.val % 16
    ∧ win0_2.index t (0 : Fin 2) = t.val / 16 ∧ win0_2.index t (1 : Fin 2) = t.val % 16
    ∧ win0_3.index t (0 : Fin 2) = t.val % 16 ∧ win0_3.index t (1 : Fin 2) = t.val / 16 :=
  (by decide +kernel : ∀ t : Fin grid0.N, _)

theorem hcond0 : ∀ t : Fin cfg0.N, cond0 (grid0.coords t) ↔ t.val % 16 = 0 :=
  (by decide +kernel : ∀ t : Fin grid0.N, cond0 (grid0.coords t) ↔ t.val % 16 = 0)

def memRow0 (c : Dev nD) (r : Fin 16) : Vec F S128x128x128 .f32 :=
  fun y => V c (Pipeline.arrRef spec0 0) (ValueIdx.ix3 (⟨128 * r.val + (y 0).val, by have := r.isLt; have hy : (y 0).val < 128 := (y 0).isLt; omega⟩ : Fin 2048) (y 1) (y 2))

def rowN0 (n : ℕ) : Fin 16 := ⟨(n / 16) % 16, Nat.mod_lt _ (by decide)⟩

theorem iblk0_0_eq (c : Dev nD) (t : Fin cfg0.N) : iblk0 V c 0 t = memRow0 V c (rowN0 t.val) := by
  funext y
  unfold iblk0 memRow0
  show V c (Pipeline.arrRef spec0 0) (((cfg0.win 0).blk t).view.emb y) = V c (Pipeline.arrRef spec0 0) _
  refine congrArg _ (funext fun a => Fin.ext ?_)
  obtain ⟨h0, h1, h2, -⟩ := idx_facts0 t
  have hN : t.val < 256 := lt_of_lt_of_eq t.isLt (show cfg0.N = 256 from N_0)
  match a with
  | ⟨0, _⟩ => show win0_0.index t (0 : Fin 3) * 128 + 1 * (y 0).val = 128 * ((t.val / 16) % 16) + (y 0).val; rw [h0]; omega
  | ⟨1, _⟩ => show win0_0.index t (1 : Fin 3) * 128 + 1 * (y 1).val = (y 1).val; rw [h1]; omega
  | ⟨2, _⟩ => show win0_0.index t (2 : Fin 3) * 128 + 1 * (y 2).val = (y 2).val; rw [h2]; omega

def fire0 (c : Dev nD) (r : Fin 16) : Vec F S128x128x128 .bf16 := k0_pay1 (memRow0 V c r)

def tile0 (c : Dev nD) (t : Fin cfg0.N) : Vec F S128x128 .bf16 :=
  k0_pay2 (iblk0 V c 1 t) (iblk0 V c 2 t) (fire0 V c (rowN0 t.val))

abbrev scM0 : Memref sig .tc .vmem S128x128x128 .bf16 := Memref.whole cc0_scratch0

abbrev rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA
  rw [Pipeline.scopedRest_split_of_list (win := spec0) (c := c) [cc0_scratch0] (by decide) (by decide)]
  simp only [scM0, owns_whole, Idealize.SL.BI.bigSepL_singleton]; try rfl

-- Between points the carried buffer holds the zero-one table of the neuron tile of the point just run (anything before the first point).
def PhiS0 (c : Dev nD) : (n : ℕ) → n ≤ cfg0.N → sProp 𝕄
  | 0, _ => Pipeline.ΦA spec0 c
  | n + 1, _ => iprop(iprop(owns (c : Thread nD τ) scM0 fullShare (fire0 V c (rowN0 n)) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n + 1 ≤ cfg0.N) :
    PhiS0 V c (n + 1) hn = iprop(iprop(owns (c : Thread nD τ) scM0 fullShare (fire0 V c (rowN0 n)) ∗ rest0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare (fire0 V c (rowN0 (n - 1))) ∗ rest0 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => tile0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = tile0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

-- One grid point, by cases on its sample-tile index: 0 recomputes the table, any other index reuses the one its neuron tile computed at index 0.
set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, PhiS0_castSucc V c t]
  unfold tile0
  by_cases h0 : t.val % 16 = 0
  · have hc : cond0 (grid0.coords t) := (hcond0 t).mpr h0
    unfold fire0; rw [← iblk0_0_eq V c t]
    by_cases hz : t.val = 0
    all_goals first | rw [PhiS0_zero V c _ _ hz, PhiA0_eq] | rw [PhiS0_pos V c _ _ hz]
    all_goals
      iintro ⟨⟨⟨HS, HR⟩, Hg⟩, Ho, ⟨%d0, H0⟩, ⟨%d1, H1⟩, ⟨%d2, H2⟩, ⟨%d3, H3⟩⟩
      iapply (sound_first0 c Set.univ (grid0.coords t) hc _ _ _ _ _ _ _ _ _ _ (iblk0 V c 0 t) (iblk0 V c 1 t) (iblk0 V c 2 t) _)
      isplitl [H0]; · iexact H0
      isplitl [H1]; · iexact H1
      isplitl [H2]; · iexact H2
      isplitl [H3]; · iexists _; iexact H3
      isplitl [HS]; · first | iexact HS | (iexists _; iexact HS)
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
  · have hc : ¬cond0 (grid0.coords t) := fun h => h0 ((hcond0 t).mp h)
    have hz : t.val ≠ 0 := fun h => h0 (by rw [h])
    have hrow : rowN0 (t.val - 1) = rowN0 t.val := Fin.ext (by unfold rowN0; dsimp only; omega)
    rw [PhiS0_pos V c _ _ hz, hrow]
    iintro ⟨⟨⟨HS, HR⟩, Hg⟩, Ho, ⟨%d0, H0⟩, ⟨%d1, H1⟩, ⟨%d2, H2⟩, ⟨%d3, H3⟩⟩
    iapply (sound_later0 c Set.univ (grid0.coords t) hc _ _ _ _ _ _ _ _ _ _ (iblk0 V c 1 t) (iblk0 V c 2 t) (fire0 V c (rowN0 t.val)) _)
    isplitl [H1]; · iexact H1
    isplitl [H2]; · iexact H2
    isplitl [H3]; · iexists _; iexact H3
    isplitl [HS]; · iexact HS
    iintro ⟨H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 256 := N_0; omega), PhiA0_eq]
  iintro ⟨⟨HS, HR⟩, Hg⟩
  isplitl [HS HR]
  · isplitl [HS]; · iexists _; iexact HS
    iexact HR
  iexact Hg

end

end Cert.Kernel.Lut

end
-- ==== Proof.KB.Body1.lean ====
import proofs.«427008_j72404558676324_3_alg».proof.Proof.KB.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lut

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1 (i : grid1.Coords) : Prop :=
  (Scalar.cmpi .ne (Scalar.extui (Scalar.cmpi .eq (BitVec.ofNat 32 (i 1).val) 0#32)) 0#32) = 1#1

-- Away from the first sample tile of a neuron tile the body finds the zero-one table of that neuron tile and stores the looked-up tile.
set_option maxHeartbeats 4000000 in
theorem sound_later1 (c : Dev nD) (E : Set ℕ) (i : grid1.Coords) (hc : ¬cond1 i)
    (arg2 : Memref sig .tc .vmem S128x128x128 .f32) (harg2 : arg2.IsWhole) (arg3 : Memref sig .tc .vmem S128x128 .i32) (harg3 : arg3.IsWhole)
    (arg4 : Memref sig .tc .vmem S128x128 .i32) (harg4 : arg4.IsWhole) (arg5 : Memref sig .tc .vmem S128x128 .bf16) (harg5 : arg5.IsWhole)
    (arg6 : Memref sig .tc .vmem S128x128x128 .bf16) (harg6 : arg6.IsWhole)
    (x1 x2 : Vec F S128x128 .i32) (xs : Vec F S128x128x128 .bf16) (K : PUnit → sProp 𝕄) :
    iprop(owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg3 fullShare x1 ∗ owns (c : Thread nD τ) arg4 fullShare x2 ∗ owns (c : Thread nD τ) arg5 fullShare (k1_pay2 x1 x2 xs) ∗ owns (c : Thread nD τ) arg6 fullShare xs) -∗ K ⟨⟩))
      ⊢ wp frame (wpE (defs₀ (F := F)) Variants.none c none) E (cc1__lut_kernel i arg2 harg2 arg3 harg3 arg4 harg4 arg5 harg5 arg6 harg6) K := by
  simp only [cc1__lut_kernel_eq_skeleton]; unfold cc1__lut_kernel_skel
  unfold owns
  iintro ⟨⟨%f1, %hf1, H1⟩, ⟨%f2, %hf2, H2⟩, ⟨%d5, %f5, -, H5⟩, ⟨%f6, %hf6, H6⟩, Hk⟩
  subst hf1; subst hf2; subst hf6
  sl_exec (disch := exact hc)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    rw [View.read_writes_eq_canon _ _ _ (coverSm _), View.canon_unit_zero hz2]
    simp only [View.readAt_eq_ld, View.ld_unit_zero (S := S128x128) hz2, View.ld_unit_zero (S := S128x128x128) hz3]
  · iexists f6; isplitr; · ipureintro; rfl
    iexact H6

-- At the first sample tile of a neuron tile the body first stores the zero-one form of the table block, then looks up in it.
set_option maxHeartbeats 4000000 in
theorem sound_first1 (c : Dev nD) (E : Set ℕ) (i : grid1.Coords) (hc : cond1 i)
    (arg2 : Memref sig .tc .vmem S128x128x128 .f32) (harg2 : arg2.IsWhole) (arg3 : Memref sig .tc .vmem S128x128 .i32) (harg3 : arg3.IsWhole)
    (arg4 : Memref sig .tc .vmem S128x128 .i32) (harg4 : arg4.IsWhole) (arg5 : Memref sig .tc .vmem S128x128 .bf16) (harg5 : arg5.IsWhole)
    (arg6 : Memref sig .tc .vmem S128x128x128 .bf16) (harg6 : arg6.IsWhole)
    (x0 : Vec F S128x128x128 .f32) (x1 x2 : Vec F S128x128 .i32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k1_pay2 x1 x2 (k1_pay1 x0)) ∗ owns (c : Thread nD τ) arg6 fullShare (k1_pay1 x0)) -∗ K ⟨⟩))
      ⊢ wp frame (wpE (defs₀ (F := F)) Variants.none c none) E (cc1__lut_kernel i arg2 harg2 arg3 harg3 arg4 harg4 arg5 harg5 arg6 harg6) K := by
  simp only [cc1__lut_kernel_eq_skeleton]; unfold cc1__lut_kernel_skel
  unfold owns
  iintro ⟨⟨%f0, %hf0, H0⟩, ⟨%f1, %hf1, H1⟩, ⟨%f2, %hf2, H2⟩, ⟨%d5, %f5, -, H5⟩, ⟨%d6, %f6, -, H6⟩, Hk⟩
  subst hf0; subst hf1; subst hf2
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_words
    rw [View.read_writes_eq_canon _ _ _ (coverSm _), View.canon_unit_zero hz2]
    simp only [View.readAt_eq_ld, View.ld_unit_zero (S := S128x128) hz2, View.ld_unit_zero (S := S128x128x128) hz3,
      View.readCov_unit_zero (S := S128x128x128) _ hz3]
  · iexists _; isplitr
    swap; · iexact H6
    ipureintro
    sl_unfold_words
    rw [View.read_writes_eq_canon _ _ _ (coverBig _), View.canon_unit_zero hz3]
    simp only [View.readAt_eq_ld, View.ld_unit_zero (S := S128x128x128) hz3]

end Cert.Kernel.Lut

end
-- ==== Proof.KB.Region1.lean ====
import proofs.«427008_j72404558676324_3_alg».proof.Proof.KB.Body1
import Idealize.ShloMosaic.Lib.Pipeline.FrameBody
import Idealize.ShloMosaic.Lib.ValueIdx
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lut

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem idx_facts1 : ∀ t : Fin cfg1.N,
    win1_0.index t (0 : Fin 3) = t.val / 16 ∧ win1_0.index t (1 : Fin 3) = 0 ∧ win1_0.index t (2 : Fin 3) = 0
    ∧ win1_1.index t (0 : Fin 2) = t.val / 16 ∧ win1_1.index t (1 : Fin 2) = t.val % 16
    ∧ win1_2.index t (0 : Fin 2) = t.val / 16 ∧ win1_2.index t (1 : Fin 2) = t.val % 16
    ∧ win1_3.index t (0 : Fin 2) = t.val % 16 ∧ win1_3.index t (1 : Fin 2) = t.val / 16 :=
  (by decide +kernel : ∀ t : Fin grid1.N, _)

theorem hcond1 : ∀ t : Fin cfg1.N, cond1 (grid1.coords t) ↔ t.val % 16 = 0 :=
  (by decide +kernel : ∀ t : Fin grid1.N, cond1 (grid1.coords t) ↔ t.val % 16 = 0)

def memRow1 (c : Dev nD) (r : Fin 8) : Vec F S128x128x128 .f32 :=
  fun y => V c (Pipeline.arrRef spec1 0) (ValueIdx.ix3 (⟨128 * r.val + (y 0).val, by have := r.isLt; have hy : (y 0).val < 128 := (y 0).isLt; omega⟩ : Fin 1024) (y 1) (y 2))

def rowN1 (n : ℕ) : Fin 8 := ⟨(n / 16) % 8, Nat.mod_lt _ (by decide)⟩

theorem iblk1_0_eq (c : Dev nD) (t : Fin cfg1.N) : iblk1 V c 0 t = memRow1 V c (rowN1 t.val) := by
  funext y
  unfold iblk1 memRow1
  show V c (Pipeline.arrRef spec1 0) (((cfg1.win 0).blk t).view.emb y) = V c (Pipeline.arrRef spec1 0) _
  refine congrArg _ (funext fun a => Fin.ext ?_)
  obtain ⟨h0, h1, h2, -⟩ := idx_facts1 t
  have hN : t.val < 128 := lt_of_lt_of_eq t.isLt (show cfg1.N = 128 from N_1)
  match a with
  | ⟨0, _⟩ => show win1_0.index t (0 : Fin 3) * 128 + 1 * (y 0).val = 128 * ((t.val / 16) % 8) + (y 0).val; rw [h0]; omega
  | ⟨1, _⟩ => show win1_0.index t (1 : Fin 3) * 128 + 1 * (y 1).val = (y 1).val; rw [h1]; omega
  | ⟨2, _⟩ => show win1_0.index t (2 : Fin 3) * 128 + 1 * (y 2).val = (y 2).val; rw [h2]; omega

def fire1 (c : Dev nD) (r : Fin 8) : Vec F S128x128x128 .bf16 := k1_pay1 (memRow1 V c r)

def tile1 (c : Dev nD) (t : Fin cfg1.N) : Vec F S128x128 .bf16 :=
  k1_pay2 (iblk1 V c 1 t) (iblk1 V c 2 t) (fire1 V c (rowN1 t.val))

abbrev scM1 : Memref sig .tc .vmem S128x128x128 .bf16 := Memref.whole cc1_scratch0

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  unfold Pipeline.ΦA
  rw [Pipeline.scopedRest_split_of_list (win := spec1) (c := c) [cc1_scratch0] (by decide) (by decide)]
  simp only [scM1, owns_whole, Idealize.SL.BI.bigSepL_singleton]; try rfl

-- Between points the carried buffer holds the zero-one table of the neuron tile of the point just run (anything before the first point).
def PhiS1 (c : Dev nD) : (n : ℕ) → n ≤ cfg1.N → sProp 𝕄
  | 0, _ => Pipeline.ΦA spec1 c
  | n + 1, _ => iprop(iprop(owns (c : Thread nD τ) scM1 fullShare (fire1 V c (rowN1 n)) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n + 1 ≤ cfg1.N) :
    PhiS1 V c (n + 1) hn = iprop(iprop(owns (c : Thread nD τ) scM1 fullShare (fire1 V c (rowN1 n)) ∗ rest1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1 fullShare (fire1 V c (rowN1 (n - 1))) ∗ rest1 (F := F) c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => tile1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = tile1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

-- One grid point, by cases on its sample-tile index: 0 recomputes the table, any other index reuses the one its neuron tile computed at index 0.
set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, PhiS1_castSucc V c t]
  unfold tile1
  by_cases h0 : t.val % 16 = 0
  · have hc : cond1 (grid1.coords t) := (hcond1 t).mpr h0
    unfold fire1; rw [← iblk1_0_eq V c t]
    by_cases hz : t.val = 0
    all_goals first | rw [PhiS1_zero V c _ _ hz, PhiA1_eq] | rw [PhiS1_pos V c _ _ hz]
    all_goals
      iintro ⟨⟨⟨HS, HR⟩, Hg⟩, Ho, ⟨%d0, H0⟩, ⟨%d1, H1⟩, ⟨%d2, H2⟩, ⟨%d3, H3⟩⟩
      iapply (sound_first1 c Set.univ (grid1.coords t) hc _ _ _ _ _ _ _ _ _ _ (iblk1 V c 0 t) (iblk1 V c 1 t) (iblk1 V c 2 t) _)
      isplitl [H0]; · iexact H0
      isplitl [H1]; · iexact H1
      isplitl [H2]; · iexact H2
      isplitl [H3]; · iexists _; iexact H3
      isplitl [HS]; · first | iexact HS | (iexists _; iexact HS)
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
  · have hc : ¬cond1 (grid1.coords t) := fun h => h0 ((hcond1 t).mp h)
    have hz : t.val ≠ 0 := fun h => h0 (by rw [h])
    have hrow : rowN1 (t.val - 1) = rowN1 t.val := Fin.ext (by unfold rowN1; dsimp only; omega)
    rw [PhiS1_pos V c _ _ hz, hrow]
    iintro ⟨⟨⟨HS, HR⟩, Hg⟩, Ho, ⟨%d0, H0⟩, ⟨%d1, H1⟩, ⟨%d2, H2⟩, ⟨%d3, H3⟩⟩
    iapply (sound_later1 c Set.univ (grid1.coords t) hc _ _ _ _ _ _ _ _ _ _ (iblk1 V c 1 t) (iblk1 V c 2 t) (fire1 V c (rowN1 t.val)) _)
    isplitl [H1]; · iexact H1
    isplitl [H2]; · iexact H2
    isplitl [H3]; · iexists _; iexact H3
    isplitl [HS]; · iexact HS
    iintro ⟨H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS, HR⟩, Hg⟩
  isplitl [HS HR]
  · isplitl [HS]; · iexists _; iexact HS
    iexact HR
  iexact Hg

end

end Cert.Kernel.Lut

end
-- ==== Proof.KB.Body2.lean ====
import proofs.«427008_j72404558676324_3_alg».proof.Proof.KB.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lut

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2 (i : grid2.Coords) : Prop :=
  (Scalar.cmpi .ne (Scalar.extui (Scalar.cmpi .eq (BitVec.ofNat 32 (i 1).val) 0#32)) 0#32) = 1#1

-- Away from the first sample tile of a neuron tile the body finds the zero-one table of that neuron tile and stores the looked-up tile.
set_option maxHeartbeats 4000000 in
theorem sound_later2 (c : Dev nD) (E : Set ℕ) (i : grid2.Coords) (hc : ¬cond2 i)
    (arg2 : Memref sig .tc .vmem S128x128x128 .f32) (harg2 : arg2.IsWhole) (arg3 : Memref sig .tc .vmem S128x128 .i32) (harg3 : arg3.IsWhole)
    (arg4 : Memref sig .tc .vmem S128x128 .i32) (harg4 : arg4.IsWhole) (arg5 : Memref sig .tc .vmem S128x128 .f32) (harg5 : arg5.IsWhole)
    (arg6 : Memref sig .tc .vmem S128x128x128 .bf16) (harg6 : arg6.IsWhole)
    (x1 x2 : Vec F S128x128 .i32) (xs : Vec F S128x128x128 .bf16) (K : PUnit → sProp 𝕄) :
    iprop(owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg3 fullShare x1 ∗ owns (c : Thread nD τ) arg4 fullShare x2 ∗ owns (c : Thread nD τ) arg5 fullShare (k2_pay2 x1 x2 xs) ∗ owns (c : Thread nD τ) arg6 fullShare xs) -∗ K ⟨⟩))
      ⊢ wp frame (wpE (defs₀ (F := F)) Variants.none c none) E (cc2__lut_kernel i arg2 harg2 arg3 harg3 arg4 harg4 arg5 harg5 arg6 harg6) K := by
  simp only [cc2__lut_kernel_eq_skeleton]; unfold cc2__lut_kernel_skel
  unfold owns
  iintro ⟨⟨%f1, %hf1, H1⟩, ⟨%f2, %hf2, H2⟩, ⟨%d5, %f5, -, H5⟩, ⟨%f6, %hf6, H6⟩, Hk⟩
  subst hf1; subst hf2; subst hf6
  sl_exec (disch := exact hc)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    rw [View.read_writes_eq_canon _ _ _ (coverSm _), View.canon_unit_zero hz2]
    simp only [View.readAt_eq_ld, View.ld_unit_zero (S := S128x128) hz2, View.ld_unit_zero (S := S128x128x128) hz3]
  · iexists f6; isplitr; · ipureintro; rfl
    iexact H6

-- At the first sample tile of a neuron tile the body first stores the zero-one form of the table block, then looks up in it.
set_option maxHeartbeats 4000000 in
theorem sound_first2 (c : Dev nD) (E : Set ℕ) (i : grid2.Coords) (hc : cond2 i)
    (arg2 : Memref sig .tc .vmem S128x128x128 .f32) (harg2 : arg2.IsWhole) (arg3 : Memref sig .tc .vmem S128x128 .i32) (harg3 : arg3.IsWhole)
    (arg4 : Memref sig .tc .vmem S128x128 .i32) (harg4 : arg4.IsWhole) (arg5 : Memref sig .tc .vmem S128x128 .f32) (harg5 : arg5.IsWhole)
    (arg6 : Memref sig .tc .vmem S128x128x128 .bf16) (harg6 : arg6.IsWhole)
    (x0 : Vec F S128x128x128 .f32) (x1 x2 : Vec F S128x128 .i32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k2_pay2 x1 x2 (k2_pay1 x0)) ∗ owns (c : Thread nD τ) arg6 fullShare (k2_pay1 x0)) -∗ K ⟨⟩))
      ⊢ wp frame (wpE (defs₀ (F := F)) Variants.none c none) E (cc2__lut_kernel i arg2 harg2 arg3 harg3 arg4 harg4 arg5 harg5 arg6 harg6) K := by
  simp only [cc2__lut_kernel_eq_skeleton]; unfold cc2__lut_kernel_skel
  unfold owns
  iintro ⟨⟨%f0, %hf0, H0⟩, ⟨%f1, %hf1, H1⟩, ⟨%f2, %hf2, H2⟩, ⟨%d5, %f5, -, H5⟩, ⟨%d6, %f6, -, H6⟩, Hk⟩
  subst hf0; subst hf1; subst hf2
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_words
    rw [View.read_writes_eq_canon _ _ _ (coverSm _), View.canon_unit_zero hz2]
    simp only [View.readAt_eq_ld, View.ld_unit_zero (S := S128x128) hz2, View.ld_unit_zero (S := S128x128x128) hz3,
      View.readCov_unit_zero (S := S128x128x128) _ hz3]
  · iexists _; isplitr
    swap; · iexact H6
    ipureintro
    sl_unfold_words
    rw [View.read_writes_eq_canon _ _ _ (coverBig _), View.canon_unit_zero hz3]
    simp only [View.readAt_eq_ld, View.ld_unit_zero (S := S128x128x128) hz3]

end Cert.Kernel.Lut

end
-- ==== Proof.KB.Region2.lean ====
import proofs.«427008_j72404558676324_3_alg».proof.Proof.KB.Body2
import Idealize.ShloMosaic.Lib.Pipeline.FrameBody
import Idealize.ShloMosaic.Lib.ValueIdx
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lut

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem idx_facts2 : ∀ t : Fin cfg2.N,
    win2_0.index t (0 : Fin 3) = t.val / 16 ∧ win2_0.index t (1 : Fin 3) = 0 ∧ win2_0.index t (2 : Fin 3) = 0
    ∧ win2_1.index t (0 : Fin 2) = t.val / 16 ∧ win2_1.index t (1 : Fin 2) = t.val % 16
    ∧ win2_2.index t (0 : Fin 2) = t.val / 16 ∧ win2_2.index t (1 : Fin 2) = t.val % 16
    ∧ win2_3.index t (0 : Fin 2) = t.val % 16 ∧ win2_3.index t (1 : Fin 2) = t.val / 16 :=
  (by decide +kernel : ∀ t : Fin grid2.N, _)

theorem hcond2 : ∀ t : Fin cfg2.N, cond2 (grid2.coords t) ↔ t.val % 16 = 0 :=
  (by decide +kernel : ∀ t : Fin grid2.N, cond2 (grid2.coords t) ↔ t.val % 16 = 0)

def memRow2 (c : Dev nD) (r : Fin 8) : Vec F S128x128x128 .f32 :=
  fun y => V c (Pipeline.arrRef spec2 0) (ValueIdx.ix3 (⟨128 * r.val + (y 0).val, by have := r.isLt; have hy : (y 0).val < 128 := (y 0).isLt; omega⟩ : Fin 1024) (y 1) (y 2))

def rowN2 (n : ℕ) : Fin 8 := ⟨(n / 16) % 8, Nat.mod_lt _ (by decide)⟩

theorem iblk2_0_eq (c : Dev nD) (t : Fin cfg2.N) : iblk2 V c 0 t = memRow2 V c (rowN2 t.val) := by
  funext y
  unfold iblk2 memRow2
  show V c (Pipeline.arrRef spec2 0) (((cfg2.win 0).blk t).view.emb y) = V c (Pipeline.arrRef spec2 0) _
  refine congrArg _ (funext fun a => Fin.ext ?_)
  obtain ⟨h0, h1, h2, -⟩ := idx_facts2 t
  have hN : t.val < 128 := lt_of_lt_of_eq t.isLt (show cfg2.N = 128 from N_2)
  match a with
  | ⟨0, _⟩ => show win2_0.index t (0 : Fin 3) * 128 + 1 * (y 0).val = 128 * ((t.val / 16) % 8) + (y 0).val; rw [h0]; omega
  | ⟨1, _⟩ => show win2_0.index t (1 : Fin 3) * 128 + 1 * (y 1).val = (y 1).val; rw [h1]; omega
  | ⟨2, _⟩ => show win2_0.index t (2 : Fin 3) * 128 + 1 * (y 2).val = (y 2).val; rw [h2]; omega

def fire2 (c : Dev nD) (r : Fin 8) : Vec F S128x128x128 .bf16 := k2_pay1 (memRow2 V c r)

def tile2 (c : Dev nD) (t : Fin cfg2.N) : Vec F S128x128 .f32 :=
  k2_pay2 (iblk2 V c 1 t) (iblk2 V c 2 t) (fire2 V c (rowN2 t.val))

abbrev scM2 : Memref sig .tc .vmem S128x128x128 .bf16 := Memref.whole cc2_scratch0

abbrev rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2 fullShare d) ∗ rest2 (F := F) c) ∗ (∃ r, prngReg c r)) := by
  unfold Pipeline.ΦA
  rw [Pipeline.scopedRest_split_of_list (win := spec2) (c := c) [cc2_scratch0] (by decide) (by decide)]
  simp only [scM2, owns_whole, Idealize.SL.BI.bigSepL_singleton]; try rfl

-- Between points the carried buffer holds the zero-one table of the neuron tile of the point just run (anything before the first point).
def PhiS2 (c : Dev nD) : (n : ℕ) → n ≤ cfg2.N → sProp 𝕄
  | 0, _ => Pipeline.ΦA spec2 c
  | n + 1, _ => iprop(iprop(owns (c : Thread nD τ) scM2 fullShare (fire2 V c (rowN2 n)) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n + 1 ≤ cfg2.N) :
    PhiS2 V c (n + 1) hn = iprop(iprop(owns (c : Thread nD τ) scM2 fullShare (fire2 V c (rowN2 n)) ∗ rest2 (F := F) c) ∗ (∃ r, prngReg c r)) := rfl
theorem PhiS2_pos (c : Dev nD) (n : ℕ) (h : n ≤ cfg2.N) (hz : n ≠ 0) :
    PhiS2 V c n h = iprop(iprop(owns (c : Thread nD τ) scM2 fullShare (fire2 V c (rowN2 (n - 1))) ∗ rest2 (F := F) c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => tile2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = tile2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

-- One grid point, by cases on its sample-tile index: 0 recomputes the table, any other index reuses the one its neuron tile computed at index 0.
set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, PhiS2_castSucc V c t]
  unfold tile2
  by_cases h0 : t.val % 16 = 0
  · have hc : cond2 (grid2.coords t) := (hcond2 t).mpr h0
    unfold fire2; rw [← iblk2_0_eq V c t]
    by_cases hz : t.val = 0
    all_goals first | rw [PhiS2_zero V c _ _ hz, PhiA2_eq] | rw [PhiS2_pos V c _ _ hz]
    all_goals
      iintro ⟨⟨⟨HS, HR⟩, Hg⟩, Ho, ⟨%d0, H0⟩, ⟨%d1, H1⟩, ⟨%d2, H2⟩, ⟨%d3, H3⟩⟩
      iapply (sound_first2 c Set.univ (grid2.coords t) hc _ _ _ _ _ _ _ _ _ _ (iblk2 V c 0 t) (iblk2 V c 1 t) (iblk2 V c 2 t) _)
      isplitl [H0]; · iexact H0
      isplitl [H1]; · iexact H1
      isplitl [H2]; · iexact H2
      isplitl [H3]; · iexists _; iexact H3
      isplitl [HS]; · first | iexact HS | (iexists _; iexact HS)
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
  · have hc : ¬cond2 (grid2.coords t) := fun h => h0 ((hcond2 t).mp h)
    have hz : t.val ≠ 0 := fun h => h0 (by rw [h])
    have hrow : rowN2 (t.val - 1) = rowN2 t.val := Fin.ext (by unfold rowN2; dsimp only; omega)
    rw [PhiS2_pos V c _ _ hz, hrow]
    iintro ⟨⟨⟨HS, HR⟩, Hg⟩, Ho, ⟨%d0, H0⟩, ⟨%d1, H1⟩, ⟨%d2, H2⟩, ⟨%d3, H3⟩⟩
    iapply (sound_later2 c Set.univ (grid2.coords t) hc _ _ _ _ _ _ _ _ _ _ (iblk2 V c 1 t) (iblk2 V c 2 t) (fire2 V c (rowN2 t.val)) _)
    isplitl [H1]; · iexact H1
    isplitl [H2]; · iexact H2
    isplitl [H3]; · iexists _; iexact H3
    isplitl [HS]; · iexact HS
    iintro ⟨H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 128 := N_2; omega), PhiA2_eq]
  iintro ⟨⟨HS, HR⟩, Hg⟩
  isplitl [HS HR]
  · isplitl [HS]; · iexists _; iexact HS
    iexact HR
  iexact Hg

end

end Cert.Kernel.Lut

end
-- ==== Proof.KB.Keeps.lean ====
import proofs.«427008_j72404558676324_3_alg».proof.Proof.Gen.Kernel.Launch
import Idealize.ShloMosaic.Lib.Pipeline.RegionsLoop
import Idealize.ShloMosaic.Lib.Pipeline.FrameSuffix

noncomputable section

namespace Cert.Kernel.Lut

open Cert.Kernel Cert.Kernel.Gen Idealize.ShloMosaic Idealize.ShloMosaic.TcCoe Idealize.SL.Sem

variable {F : FTy → Type} [FloatOps F]

-- When each operation of a line writes exactly the reference listed beside it, the line writes only inside that list.
theorem writes_sub_of_forall₂ {T : Topo} {S : RefSig} {Val : EltTy → Type} {ops : List (HloOp T S Val)} {L : List (Ref S .tc)}
    (h : List.Forall₂ (fun op y => op.writes = {Proc.devRef (τ := T) .tc y}) ops L) :
    ops.Forall fun op => op.writes ⊆ (L.map (Proc.devRef (τ := T) .tc)).toFinset := by
  rw [List.forall_iff_forall_mem]
  induction h with
  | nil => intro op hop; cases hop
  | @cons op y ops L hw _ ih =>
    intro o ho
    rcases List.mem_cons.1 ho with rfl | ho
    · rw [hw, Finset.singleton_subset_iff, List.mem_toFinset]
      exact List.mem_map_of_mem List.mem_cons_self
    · refine (ih o ho).trans ?_
      intro b hb
      rw [List.mem_toFinset] at hb ⊢
      rw [List.map_cons]
      exact List.mem_cons_of_mem _ hb

-- So a reference outside the list holds after the line what it held before it.
theorem after_of_forall₂ {T : Topo} {S : RefSig} {Val : EltTy → Type} {ops : List (HloOp T S Val)} {L : List (Ref S .tc)}
    (h : List.Forall₂ (fun op y => op.writes = {Proc.devRef (τ := T) .tc y}) ops L) (V : Valuation T S Val)
    {r : Ref S .tc} (hr : r ∉ L) : StableHlo.after ops V (Proc.devRef .tc r) = V (Proc.devRef .tc r) :=
  StableHlo.after_of_writes_sub ops V (writes_sub_of_forall₂ h) hr

abbrev argRefs : List (Ref sig .tc) :=
  [main_arg0, main_arg1, main_arg2, main_arg3, main_arg4, main_arg5, main_arg6, main_arg7]

-- No argument array is the result of an operation, so every line leaves the eight arguments as they were.
theorem keeps {ops : List (HloOp τ sig (Elt F))} {L : List (Ref sig .tc)}
    (h : List.Forall₂ (fun op y => op.writes = {Proc.devRef (τ := τ) .tc y}) ops L) (hL : ∀ a ∈ argRefs, a ∉ L)
    (W : Valuation τ sig (Elt F)) {a : Ref sig .tc} (ha : a ∈ argRefs) :
    StableHlo.after ops W (Proc.devRef .tc a) = W (Proc.devRef .tc a) :=
  after_of_forall₂ h W (hL a ha)

abbrev hostOps0_written : List (Ref sig .tc) :=
  [main_cst, main_cst_0, main_cst_1, main_cst_2, main_cst_3, main_cst_4, main_v0, main_v1, main_v2, main_v3, main_v4, main_v5,
   main_v6, main_cst_5, main_v7, main_c, main_v8, main_v9, main_c_6, main_v10, main_v11, main_v12, main_c_7, main_v13,
   main_v14, main_c_8, main_v15, main_v16, main_v17, main_v18, main_v19, main_v20, main_v21, main_v22, main_v23, main_v24,
   main_v25, main_v26, main_v27, main_v28, main_v29, main_cst_9, main_v30, main_c_10, main_v31, main_v32, main_c_11, main_v33,
   main_v34, main_v35, main_c_12, main_v36, main_v37, main_c_13, main_v38, main_v39, main_v40, main_v41, main_v42, main_v43,
   main_v44, main_v45, main_v46, main_v47, main_v48]

set_option maxHeartbeats 4000000 in
set_option maxRecDepth 16384 in
theorem hostOps0_writes : List.Forall₂ (fun (op : HloOp τ sig (Elt F)) y => op.writes = {Proc.devRef .tc y}) hostOps0 hostOps0_written :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))))))))))))))))))))))))))))))))))))))))))

set_option maxHeartbeats 4000000 in
set_option maxRecDepth 16384 in
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev hostOps0_1_written : List (Ref sig .tc) :=
  [main_v49]

theorem hostOps0_1_writes : List.Forall₂ (fun (op : HloOp τ sig (Elt F)) y => op.writes = {Proc.devRef .tc y}) hostOps0_1 hostOps0_1_written :=
  .cons rfl .nil

theorem hostOps0_1_fresh : (hostOps0_1 : List (HloOp τ sig (Elt F))).Forall fun op => op.fresh = ∅ :=
  rfl

abbrev hostOps0_2_written : List (Ref sig .tc) :=
  [main_v50]

theorem hostOps0_2_writes : List.Forall₂ (fun (op : HloOp τ sig (Elt F)) y => op.writes = {Proc.devRef .tc y}) hostOps0_2 hostOps0_2_written :=
  .cons rfl .nil

theorem hostOps0_2_fresh : (hostOps0_2 : List (HloOp τ sig (Elt F))).Forall fun op => op.fresh = ∅ :=
  rfl

abbrev hostOps0_3_written : List (Ref sig .tc) :=
  [main_v51]

theorem hostOps0_3_writes : List.Forall₂ (fun (op : HloOp τ sig (Elt F)) y => op.writes = {Proc.devRef .tc y}) hostOps0_3 hostOps0_3_written :=
  .cons rfl .nil

theorem hostOps0_3_fresh : (hostOps0_3 : List (HloOp τ sig (Elt F))).Forall fun op => op.fresh = ∅ :=
  rfl

abbrev hostOps0_4_written : List (Ref sig .tc) :=
  [main_v52, main_v53]

theorem hostOps0_4_writes : List.Forall₂ (fun (op : HloOp τ sig (Elt F)) y => op.writes = {Proc.devRef .tc y}) hostOps0_4 hostOps0_4_written :=
  .cons rfl (.cons rfl .nil)

theorem hostOps0_4_fresh : (hostOps0_4 : List (HloOp τ sig (Elt F))).Forall fun op => op.fresh = ∅ :=
  ⟨rfl, rfl⟩

abbrev hostOps1_written : List (Ref sig .tc) :=
  [main_v55, main_v56, main_v57, main_v58, main_v59, main_v60, main_v61, main_v62, main_v63, main_cst_14, main_v64, main_c_15,
   main_v65, main_v66, main_c_16, main_v67, main_v68, main_v69, main_c_17, main_v70, main_v71, main_c_18, main_v72, main_v73,
   main_v74, main_v75, main_v76, main_v77, main_v78, main_v79, main_v80, main_v81, main_v82, main_v83, main_v84, main_v85,
   main_v86, main_cst_19, main_v87, main_c_20, main_v88, main_v89, main_c_21, main_v90, main_v91, main_v92, main_c_22, main_v93,
   main_v94, main_c_23, main_v95, main_v96, main_v97, main_v98, main_v99, main_v100, main_v101, main_v102, main_v103, main_v104]

set_option maxHeartbeats 4000000 in
set_option maxRecDepth 16384 in
theorem hostOps1_writes : List.Forall₂ (fun (op : HloOp τ sig (Elt F)) y => op.writes = {Proc.devRef .tc y}) hostOps1 hostOps1_written :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))))))))))))))))))))))))))))))))))))))))))

set_option maxHeartbeats 4000000 in
set_option maxRecDepth 16384 in
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev hostOps1_1_written : List (Ref sig .tc) :=
  [main_v105]

theorem hostOps1_1_writes : List.Forall₂ (fun (op : HloOp τ sig (Elt F)) y => op.writes = {Proc.devRef .tc y}) hostOps1_1 hostOps1_1_written :=
  .cons rfl .nil

theorem hostOps1_1_fresh : (hostOps1_1 : List (HloOp τ sig (Elt F))).Forall fun op => op.fresh = ∅ :=
  rfl

abbrev hostOps1_2_written : List (Ref sig .tc) :=
  [main_v106]

theorem hostOps1_2_writes : List.Forall₂ (fun (op : HloOp τ sig (Elt F)) y => op.writes = {Proc.devRef .tc y}) hostOps1_2 hostOps1_2_written :=
  .cons rfl .nil

theorem hostOps1_2_fresh : (hostOps1_2 : List (HloOp τ sig (Elt F))).Forall fun op => op.fresh = ∅ :=
  rfl

abbrev hostOps1_3_written : List (Ref sig .tc) :=
  [main_v107]

theorem hostOps1_3_writes : List.Forall₂ (fun (op : HloOp τ sig (Elt F)) y => op.writes = {Proc.devRef .tc y}) hostOps1_3 hostOps1_3_written :=
  .cons rfl .nil

theorem hostOps1_3_fresh : (hostOps1_3 : List (HloOp τ sig (Elt F))).Forall fun op => op.fresh = ∅ :=
  rfl

abbrev hostOps1_4_written : List (Ref sig .tc) :=
  [main_v108, main_v109]

theorem hostOps1_4_writes : List.Forall₂ (fun (op : HloOp τ sig (Elt F)) y => op.writes = {Proc.devRef .tc y}) hostOps1_4 hostOps1_4_written :=
  .cons rfl (.cons rfl .nil)

theorem hostOps1_4_fresh : (hostOps1_4 : List (HloOp τ sig (Elt F))).Forall fun op => op.fresh = ∅ :=
  ⟨rfl, rfl⟩

abbrev hostOps2_written : List (Ref sig .tc) :=
  [main_v111, main_v112, main_v113, main_v114, main_v115, main_v116, main_v117, main_v118, main_cst_24, main_v119, main_c_25, main_v120,
   main_v121, main_c_26, main_v122, main_v123, main_v124, main_c_27, main_v125, main_v126, main_c_28, main_v127, main_v128, main_v129,
   main_v130, main_v131, main_v132, main_v133, main_v134, main_v135, main_v136, main_v137, main_v138, main_v139, main_v140, main_v141,
   main_cst_29, main_v142, main_c_30, main_v143, main_v144, main_c_31, main_v145, main_v146, main_v147, main_c_32, main_v148, main_v149,
   main_c_33, main_v150, main_v151, main_v152, main_v153, main_v154, main_v155, main_v156, main_v157, main_v158, main_v159]

set_option maxHeartbeats 4000000 in
set_option maxRecDepth 16384 in
theorem hostOps2_writes : List.Forall₂ (fun (op : HloOp τ sig (Elt F)) y => op.writes = {Proc.devRef .tc y}) hostOps2 hostOps2_written :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))))))))))))))))))))))))))))))))))))

set_option maxHeartbeats 4000000 in
set_option maxRecDepth 16384 in
theorem hostOps2_fresh : (hostOps2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev hostOps2_1_written : List (Ref sig .tc) :=
  [main_v160]

theorem hostOps2_1_writes : List.Forall₂ (fun (op : HloOp τ sig (Elt F)) y => op.writes = {Proc.devRef .tc y}) hostOps2_1 hostOps2_1_written :=
  .cons rfl .nil

theorem hostOps2_1_fresh : (hostOps2_1 : List (HloOp τ sig (Elt F))).Forall fun op => op.fresh = ∅ :=
  rfl

abbrev hostOps2_2_written : List (Ref sig .tc) :=
  [main_v161]

theorem hostOps2_2_writes : List.Forall₂ (fun (op : HloOp τ sig (Elt F)) y => op.writes = {Proc.devRef .tc y}) hostOps2_2 hostOps2_2_written :=
  .cons rfl .nil

theorem hostOps2_2_fresh : (hostOps2_2 : List (HloOp τ sig (Elt F))).Forall fun op => op.fresh = ∅ :=
  rfl

abbrev hostOps2_3_written : List (Ref sig .tc) :=
  [main_v162]

theorem hostOps2_3_writes : List.Forall₂ (fun (op : HloOp τ sig (Elt F)) y => op.writes = {Proc.devRef .tc y}) hostOps2_3 hostOps2_3_written :=
  .cons rfl .nil

theorem hostOps2_3_fresh : (hostOps2_3 : List (HloOp τ sig (Elt F))).Forall fun op => op.fresh = ∅ :=
  rfl

abbrev hostOps2_4_written : List (Ref sig .tc) :=
  [main_v163, main_v164]

theorem hostOps2_4_writes : List.Forall₂ (fun (op : HloOp τ sig (Elt F)) y => op.writes = {Proc.devRef .tc y}) hostOps2_4 hostOps2_4_written :=
  .cons rfl (.cons rfl .nil)

theorem hostOps2_4_fresh : (hostOps2_4 : List (HloOp τ sig (Elt F))).Forall fun op => op.fresh = ∅ :=
  ⟨rfl, rfl⟩

end Cert.Kernel.Lut

end
-- ==== Proof.KB.Run.lean ====
import proofs.«427008_j72404558676324_3_alg».proof.Proof.KB.Region0
import proofs.«427008_j72404558676324_3_alg».proof.Proof.KB.Region1
import proofs.«427008_j72404558676324_3_alg».proof.Proof.KB.Region2
import proofs.«427008_j72404558676324_3_alg».proof.Proof.KB.Keeps
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lut

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev B0_0 : Dev nD → Valuation τ sig (Elt F) := fun c b => (s₀ m ρ).mem ((c : Dev nD), b)

abbrev B0_1 : Dev nD → Valuation τ sig (Elt F) := fun c => StableHlo.after hostOps0 (B0_0 m ρ c)

abbrev B0_2 : Dev nD → Valuation τ sig (Elt F) := fun c => StableHlo.after hostOps0_1 (B0_1 m ρ c)

abbrev B0_3 : Dev nD → Valuation τ sig (Elt F) := fun c => StableHlo.after hostOps0_2 (B0_2 m ρ c)

abbrev B0_4 : Dev nD → Valuation τ sig (Elt F) := fun c => StableHlo.after hostOps0_3 (B0_3 m ρ c)

abbrev B0_5 : Dev nD → Valuation τ sig (Elt F) := fun c => StableHlo.after hostOps0_4 (B0_4 m ρ c)

abbrev VE0 : (c : Dev nD) → (b : Ref sig .tc) → Buf (Elt F) ((c : Thread nD τ).loc b) := fun c b => B0_5 m ρ c b

def X0 (c : Dev nD) : Valuation τ sig (Elt F) :=
  Pipeline.withArrays spec0 c (B0_5 m ρ c) fun w => (dat0 (VE0 m ρ) c).arrAt w cfg0.N
theorem X0_arr (c : Dev nD) (w : Fin cfg0.W) :
    X0 m ρ c (Proc.devRef .tc (Pipeline.arrRef spec0 w)) = (dat0 (VE0 m ρ) c).arrAt w cfg0.N := by
  unfold X0; exact Pipeline.withArrays_arr spec0 launch0.win.arr_inj c _ _ w
theorem X0_of_ne (c : Dev nD) (b : Ref sig .tc) (hb : ∀ w, Pipeline.arrRef spec0 w ≠ b) :
    X0 m ρ c (Proc.devRef .tc b) = B0_5 m ρ c (Proc.devRef .tc b) := by
  unfold X0; exact Pipeline.withArrays_of_ne spec0 c _ _ b hb

abbrev VX0 : (c : Dev nD) → (b : Ref sig .tc) → Buf (Elt F) ((c : Thread nD τ).loc b) := fun c b => X0 m ρ c b
theorem hF0 (c : Dev nD) (w : Fin cfg0.W) : (dat0 (VE0 m ρ) c).arrAt w cfg0.N = VX0 m ρ c (Pipeline.arrRef spec0 w) :=
  (X0_arr m ρ c w).symm
theorem hrest0 (c : Dev nD) : ∀ b, b ∉ Finset.univ.image (Pipeline.arrRef spec0) → VX0 m ρ c b = VE0 m ρ c b :=
  fun b hb => X0_of_ne m ρ c b fun w e => hb (Finset.mem_image.mpr ⟨w, Finset.mem_univ _, e⟩)

abbrev B1_0 : Dev nD → Valuation τ sig (Elt F) := fun c => X0 m ρ c

abbrev B1_1 : Dev nD → Valuation τ sig (Elt F) := fun c => StableHlo.after hostOps1 (B1_0 m ρ c)

abbrev B1_2 : Dev nD → Valuation τ sig (Elt F) := fun c => StableHlo.after hostOps1_1 (B1_1 m ρ c)

abbrev B1_3 : Dev nD → Valuation τ sig (Elt F) := fun c => StableHlo.after hostOps1_2 (B1_2 m ρ c)

abbrev B1_4 : Dev nD → Valuation τ sig (Elt F) := fun c => StableHlo.after hostOps1_3 (B1_3 m ρ c)

abbrev B1_5 : Dev nD → Valuation τ sig (Elt F) := fun c => StableHlo.after hostOps1_4 (B1_4 m ρ c)

abbrev VE1 : (c : Dev nD) → (b : Ref sig .tc) → Buf (Elt F) ((c : Thread nD τ).loc b) := fun c b => B1_5 m ρ c b

def X1 (c : Dev nD) : Valuation τ sig (Elt F) :=
  Pipeline.withArrays spec1 c (B1_5 m ρ c) fun w => (dat1 (VE1 m ρ) c).arrAt w cfg1.N
theorem X1_arr (c : Dev nD) (w : Fin cfg1.W) :
    X1 m ρ c (Proc.devRef .tc (Pipeline.arrRef spec1 w)) = (dat1 (VE1 m ρ) c).arrAt w cfg1.N := by
  unfold X1; exact Pipeline.withArrays_arr spec1 launch1.win.arr_inj c _ _ w
theorem X1_of_ne (c : Dev nD) (b : Ref sig .tc) (hb : ∀ w, Pipeline.arrRef spec1 w ≠ b) :
    X1 m ρ c (Proc.devRef .tc b) = B1_5 m ρ c (Proc.devRef .tc b) := by
  unfold X1; exact Pipeline.withArrays_of_ne spec1 c _ _ b hb

abbrev VX1 : (c : Dev nD) → (b : Ref sig .tc) → Buf (Elt F) ((c : Thread nD τ).loc b) := fun c b => X1 m ρ c b
theorem hF1 (c : Dev nD) (w : Fin cfg1.W) : (dat1 (VE1 m ρ) c).arrAt w cfg1.N = VX1 m ρ c (Pipeline.arrRef spec1 w) :=
  (X1_arr m ρ c w).symm
theorem hrest1 (c : Dev nD) : ∀ b, b ∉ Finset.univ.image (Pipeline.arrRef spec1) → VX1 m ρ c b = VE1 m ρ c b :=
  fun b hb => X1_of_ne m ρ c b fun w e => hb (Finset.mem_image.mpr ⟨w, Finset.mem_univ _, e⟩)

abbrev B2_0 : Dev nD → Valuation τ sig (Elt F) := fun c => X1 m ρ c

abbrev B2_1 : Dev nD → Valuation τ sig (Elt F) := fun c => StableHlo.after hostOps2 (B2_0 m ρ c)

abbrev B2_2 : Dev nD → Valuation τ sig (Elt F) := fun c => StableHlo.after hostOps2_1 (B2_1 m ρ c)

abbrev B2_3 : Dev nD → Valuation τ sig (Elt F) := fun c => StableHlo.after hostOps2_2 (B2_2 m ρ c)

abbrev B2_4 : Dev nD → Valuation τ sig (Elt F) := fun c => StableHlo.after hostOps2_3 (B2_3 m ρ c)

abbrev B2_5 : Dev nD → Valuation τ sig (Elt F) := fun c => StableHlo.after hostOps2_4 (B2_4 m ρ c)

abbrev VE2 : (c : Dev nD) → (b : Ref sig .tc) → Buf (Elt F) ((c : Thread nD τ).loc b) := fun c b => B2_5 m ρ c b

def X2 (c : Dev nD) : Valuation τ sig (Elt F) :=
  Pipeline.withArrays spec2 c (B2_5 m ρ c) fun w => (dat2 (VE2 m ρ) c).arrAt w cfg2.N
theorem X2_arr (c : Dev nD) (w : Fin cfg2.W) :
    X2 m ρ c (Proc.devRef .tc (Pipeline.arrRef spec2 w)) = (dat2 (VE2 m ρ) c).arrAt w cfg2.N := by
  unfold X2; exact Pipeline.withArrays_arr spec2 launch2.win.arr_inj c _ _ w
theorem X2_of_ne (c : Dev nD) (b : Ref sig .tc) (hb : ∀ w, Pipeline.arrRef spec2 w ≠ b) :
    X2 m ρ c (Proc.devRef .tc b) = B2_5 m ρ c (Proc.devRef .tc b) := by
  unfold X2; exact Pipeline.withArrays_of_ne spec2 c _ _ b hb

abbrev VX2 : (c : Dev nD) → (b : Ref sig .tc) → Buf (Elt F) ((c : Thread nD τ).loc b) := fun c b => X2 m ρ c b
theorem hF2 (c : Dev nD) (w : Fin cfg2.W) : (dat2 (VE2 m ρ) c).arrAt w cfg2.N = VX2 m ρ c (Pipeline.arrRef spec2 w) :=
  (X2_arr m ρ c w).symm
theorem hrest2 (c : Dev nD) : ∀ b, b ∉ Finset.univ.image (Pipeline.arrRef spec2) → VX2 m ρ c b = VE2 m ρ c b :=
  fun b hb => X2_of_ne m ρ c b fun w e => hb (Finset.mem_image.mpr ⟨w, Finset.mem_univ _, e⟩)

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (VE0 m ρ) c
  | ⟨1, _⟩ => fun c => dat1 (VE1 m ρ) c
  | ⟨2, _⟩ => fun c => dat2 (VE2 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (X2 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ L lv 0 fun _ _ => rfl
  pre c := iprop(StableHlo.held (c : Thread nD τ) (Pipeline.ucRefs τ sig) (B0_5 m ρ c) ∗ R c)
  post c := iprop(StableHlo.held (c : Thread nD τ) (Pipeline.ucRefs τ sig) (X0 m ρ c) ∗ R c)
  X c := iprop(∃ r, prngReg c r)
  Y c := iprop(∃ r, prngReg c r)
  Z c := Pipeline.unscopedRest (Ix := Unit) (Name := ℕ) (U := UR sig nD τ) (Lvl := ℕ) spec0 c (VE0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (VE0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VE0 m ρ c) (VX0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m ρ) c).loose
  hwaits := Pipeline.hwaits_of_owed_zero _ _ _ _ L lv 1 fun _ _ => rfl
  pre c := iprop(StableHlo.held (c : Thread nD τ) (Pipeline.ucRefs τ sig) (B1_5 m ρ c) ∗ R c)
  post c := iprop(StableHlo.held (c : Thread nD τ) (Pipeline.ucRefs τ sig) (X1 m ρ c) ∗ R c)
  X c := iprop(∃ r, prngReg c r)
  Y c := iprop(∃ r, prngReg c r)
  Z c := Pipeline.unscopedRest (Ix := Unit) (Name := ℕ) (U := UR sig nD τ) (Lvl := ℕ) spec1 c (VE1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VE1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (VE1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VE1 m ρ c) (VX1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VE2 m ρ) c).loose
  hwaits := Pipeline.hwaits_of_owed_zero _ _ _ _ L lv 2 fun _ _ => rfl
  pre c := iprop(StableHlo.held (c : Thread nD τ) (Pipeline.ucRefs τ sig) (B2_5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (VE2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (VE2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (VE2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (VE2 m ρ c) (VX2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [
    .host (hseg hostOps0 hostOps0_sub hostOps0_fresh (B0_0 m ρ)),
    .host (hseg hostOps0_1 hostOps0_1_sub hostOps0_1_fresh (B0_1 m ρ)),
    .host (hseg hostOps0_2 hostOps0_2_sub hostOps0_2_fresh (B0_2 m ρ)),
    .host (hseg hostOps0_3 hostOps0_3_sub hostOps0_3_fresh (B0_3 m ρ)),
    .host (hseg hostOps0_4 hostOps0_4_sub hostOps0_4_fresh (B0_4 m ρ)),
    .region (reg0 m ρ),
    .host (hseg hostOps1 hostOps1_sub hostOps1_fresh (B1_0 m ρ)),
    .host (hseg hostOps1_1 hostOps1_1_sub hostOps1_1_fresh (B1_1 m ρ)),
    .host (hseg hostOps1_2 hostOps1_2_sub hostOps1_2_fresh (B1_2 m ρ)),
    .host (hseg hostOps1_3 hostOps1_3_sub hostOps1_3_fresh (B1_3 m ρ)),
    .host (hseg hostOps1_4 hostOps1_4_sub hostOps1_4_fresh (B1_4 m ρ)),
    .region (reg1 m ρ),
    .host (hseg hostOps2 hostOps2_sub hostOps2_fresh (B2_0 m ρ)),
    .host (hseg hostOps2_1 hostOps2_1_sub hostOps2_1_fresh (B2_1 m ρ)),
    .host (hseg hostOps2_2 hostOps2_2_sub hostOps2_2_fresh (B2_2 m ρ)),
    .host (hseg hostOps2_3 hostOps2_3_sub hostOps2_3_fresh (B2_3 m ρ)),
    .host (hseg hostOps2_4 hostOps2_4_sub hostOps2_4_fresh (B2_4 m ρ)),
    .region (reg2 m ρ) ]

set_option maxHeartbeats 4000000 in
theorem main_run (c : Dev nD) : main (F := F) c = Pipeline.Seg.run (segs m ρ) := (main_chain c).trans (by chain_rfl)

set_option backward.isDefEq.respectTransparency.types false in
set_option maxHeartbeats 4000000 in
theorem run_main : θ_run defs (onTc (τ := τ) (main (F := F))) ⟨m, fun _ => 0, ρ⟩ (fun r => ∀ c : Dev nD,
      ∀ b ∈ Pipeline.ucRefs τ sig, r.2.mem (((c : Thread nD τ)).1, b) = X2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0_0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0_0 m ρ c)
        from Pipeline.unscopedBufs_held c (B0_0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X2 m ρ c b)
    (hfin := fun c s' => by
      iintro ⟨⟨Hh, -⟩, HSI⟩
      unfold StableHlo.held
      imodintro
      iapply (pointsTo_read_all (Pipeline.ucRefs τ sig) (fun b => (((c : Thread nD τ)).1, b)) (X2 m ρ c) s')
      isplitl [Hh] <;> iassumption)
    (hQ := fun s h c => h c)

end Cert.Kernel.Lut

end
-- ==== Proof.KB.Frame.lean ====
import proofs.«427008_j72404558676324_3_alg».proof.Proof.KB.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lut

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- Neither the host lines nor the launch write an argument array: each holds its initial contents after launch 0,
set_option maxHeartbeats 4000000 in
set_option maxRecDepth 16384 in
theorem arg_X0 (c : Dev nD) (a : Ref sig .tc) (ha : a ∈ argRefs) : X0 m ρ c (Proc.devRef .tc a) = m ((c : Thread nD τ).loc a) :=
  (X0_of_ne m ρ c a ((by decide : ∀ a ∈ argRefs, ∀ w, Pipeline.arrRef spec0 w ≠ a) a ha)).trans <|
  (keeps hostOps0_4_writes (by decide) (B0_4 m ρ c) ha).trans <|
  (keeps hostOps0_3_writes (by decide) (B0_3 m ρ c) ha).trans <|
  (keeps hostOps0_2_writes (by decide) (B0_2 m ρ c) ha).trans <|
  (keeps hostOps0_1_writes (by decide) (B0_1 m ρ c) ha).trans <|
  (keeps hostOps0_writes (by decide) (B0_0 m ρ c) ha).trans <|
  rfl

-- after launch 1,
set_option maxHeartbeats 4000000 in
set_option maxRecDepth 16384 in
theorem arg_X1 (c : Dev nD) (a : Ref sig .tc) (ha : a ∈ argRefs) : X1 m ρ c (Proc.devRef .tc a) = m ((c : Thread nD τ).loc a) :=
  (X1_of_ne m ρ c a ((by decide : ∀ a ∈ argRefs, ∀ w, Pipeline.arrRef spec1 w ≠ a) a ha)).trans <|
  (keeps hostOps1_4_writes (by decide) (B1_4 m ρ c) ha).trans <|
  (keeps hostOps1_3_writes (by decide) (B1_3 m ρ c) ha).trans <|
  (keeps hostOps1_2_writes (by decide) (B1_2 m ρ c) ha).trans <|
  (keeps hostOps1_1_writes (by decide) (B1_1 m ρ c) ha).trans <|
  (keeps hostOps1_writes (by decide) (B1_0 m ρ c) ha).trans <|
  arg_X0 m ρ c a ha

-- and after launch 2, the end of the program.
set_option maxHeartbeats 4000000 in
set_option maxRecDepth 16384 in
theorem arg_X2 (c : Dev nD) (a : Ref sig .tc) (ha : a ∈ argRefs) : X2 m ρ c (Proc.devRef .tc a) = m ((c : Thread nD τ).loc a) :=
  (X2_of_ne m ρ c a ((by decide : ∀ a ∈ argRefs, ∀ w, Pipeline.arrRef spec2 w ≠ a) a ha)).trans <|
  (keeps hostOps2_4_writes (by decide) (B2_4 m ρ c) ha).trans <|
  (keeps hostOps2_3_writes (by decide) (B2_3 m ρ c) ha).trans <|
  (keeps hostOps2_2_writes (by decide) (B2_2 m ρ c) ha).trans <|
  (keeps hostOps2_1_writes (by decide) (B2_1 m ρ c) ha).trans <|
  (keeps hostOps2_writes (by decide) (B2_0 m ρ c) ha).trans <|
  arg_X1 m ρ c a ha

-- Every fair execution ends without fault, the result array at the contents the three launches determine and the arguments unchanged.
theorem run_val : θ_run defs (onTc (τ := τ) (main (F := F))) ⟨m, fun _ => 0, ρ⟩ (fun r => ∀ c : Dev nD,
      r.2.mem ((c.tc : Thread nD τ).loc main_v165) = X2 m ρ c (Proc.devRef .tc main_v165)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_uc main_v165 (by decide)),
    (h c _ (mem_uc main_arg0 (by decide))).trans (arg_X2 m ρ c main_arg0 (by decide)),
    (h c _ (mem_uc main_arg1 (by decide))).trans (arg_X2 m ρ c main_arg1 (by decide)),
    (h c _ (mem_uc main_arg2 (by decide))).trans (arg_X2 m ρ c main_arg2 (by decide)),
    (h c _ (mem_uc main_arg3 (by decide))).trans (arg_X2 m ρ c main_arg3 (by decide)),
    (h c _ (mem_uc main_arg4 (by decide))).trans (arg_X2 m ρ c main_arg4 (by decide)),
    (h c _ (mem_uc main_arg5 (by decide))).trans (arg_X2 m ρ c main_arg5 (by decide)),
    (h c _ (mem_uc main_arg6 (by decide))).trans (arg_X2 m ρ c main_arg6 (by decide)),
    (h c _ (mem_uc main_arg7 (by decide))).trans (arg_X2 m ρ c main_arg7 (by decide))⟩)
    (run_main m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_val m ρ)

end Cert.Kernel.Lut

end
-- ==== Proof.KI.Common.lean ====
import proofs.«427008_j72404558676324_3_alg».proof.Proof.Gen.KernelIdeal.Launch
import proofs.«427008_j72404558676324_3_alg».proof.Proof.Gen.KernelIdeal.Skeleton
import proofs.«427008_j72404558676324_3_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

abbrev rBig : Rect S128x128x128 := Rect.unit (s := S128x128x128) ![0, 0, 0] S128x128x128.size inb_S128x128x128_S128x128x128_0_0_0
abbrev rSm : Rect S128x128 := Rect.unit (s := S128x128) ![0, 0] S128x128.size inb_S128x128_S128x128_0_0

theorem coverSm {e : EltTy} (p : Vec F S128x128 e) (y : S128x128.Idx) :
    ∃ pc ∈ ([⟨rSm, p⟩] : List (View.Piece (Elt F) S128x128 e)), y ∈ pc.1.set :=
  View.cover_of_tiled [⟨rSm, p⟩] S128x128.size (by rfl) y

theorem coverBig {e : EltTy} (p : Vec F S128x128x128 e) (y : S128x128x128.Idx) :
    ∃ pc ∈ ([⟨rBig, p⟩] : List (View.Piece (Elt F) S128x128x128 e)), y ∈ pc.1.set :=
  View.cover_of_tiled [⟨rBig, p⟩] S128x128x128.size (by rfl) y

end Cert.KernelIdeal.Lut

end
-- ==== Proof.KI.Body0.lean ====
import proofs.«427008_j72404558676324_3_alg».proof.Proof.KI.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0 (i : grid0.Coords) : Prop :=
  (Scalar.cmpi .ne (Scalar.extui (Scalar.cmpi .eq (BitVec.ofNat 32 (i 1).val) 0#32)) 0#32) = 1#1

-- Away from the first sample tile of a neuron tile the body finds the zero-one table of that neuron tile and stores the looked-up tile.
set_option maxHeartbeats 4000000 in
theorem sound_later0 (c : Dev nD) (E : Set ℕ) (i : grid0.Coords) (hc : ¬cond0 i)
    (arg2 : Memref sig .tc .vmem S128x128x128 .f32) (harg2 : arg2.IsWhole) (arg3 : Memref sig .tc .vmem S128x128 .i32) (harg3 : arg3.IsWhole)
    (arg4 : Memref sig .tc .vmem S128x128 .i32) (harg4 : arg4.IsWhole) (arg5 : Memref sig .tc .vmem S128x128 .bf16) (harg5 : arg5.IsWhole)
    (arg6 : Memref sig .tc .vmem S128x128x128 .bf16) (harg6 : arg6.IsWhole)
    (x1 x2 : Vec F S128x128 .i32) (xs : Vec F S128x128x128 .bf16) (K : PUnit → sProp 𝕄) :
    iprop(owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg3 fullShare x1 ∗ owns (c : Thread nD τ) arg4 fullShare x2 ∗ owns (c : Thread nD τ) arg5 fullShare (k0_pay2 x1 x2 xs) ∗ owns (c : Thread nD τ) arg6 fullShare xs) -∗ K ⟨⟩))
      ⊢ wp frame (wpE (defs₀ (F := F)) Variants.none c none) E (cc0__lut_kernel i arg2 harg2 arg3 harg3 arg4 harg4 arg5 harg5 arg6 harg6) K := by
  simp only [cc0__lut_kernel_eq_skeleton]; unfold cc0__lut_kernel_skel
  unfold owns
  iintro ⟨⟨%f1, %hf1, H1⟩, ⟨%f2, %hf2, H2⟩, ⟨%d5, %f5, -, H5⟩, ⟨%f6, %hf6, H6⟩, Hk⟩
  subst hf1; subst hf2; subst hf6
  sl_exec (disch := exact hc)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    rw [View.read_writes_eq_canon _ _ _ (coverSm _), View.canon_unit_zero hz2]
    simp only [View.readAt_eq_ld, View.ld_unit_zero (S := S128x128) hz2, View.ld_unit_zero (S := S128x128x128) hz3]
  · iexists f6; isplitr; · ipureintro; rfl
    iexact H6

-- At the first sample tile of a neuron tile the body first stores the zero-one form of the table block, then looks up in it.
set_option maxHeartbeats 4000000 in
theorem sound_first0 (c : Dev nD) (E : Set ℕ) (i : grid0.Coords) (hc : cond0 i)
    (arg2 : Memref sig .tc .vmem S128x128x128 .f32) (harg2 : arg2.IsWhole) (arg3 : Memref sig .tc .vmem S128x128 .i32) (harg3 : arg3.IsWhole)
    (arg4 : Memref sig .tc .vmem S128x128 .i32) (harg4 : arg4.IsWhole) (arg5 : Memref sig .tc .vmem S128x128 .bf16) (harg5 : arg5.IsWhole)
    (arg6 : Memref sig .tc .vmem S128x128x128 .bf16) (harg6 : arg6.IsWhole)
    (x0 : Vec F S128x128x128 .f32) (x1 x2 : Vec F S128x128 .i32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay2 x1 x2 (k0_pay1 x0)) ∗ owns (c : Thread nD τ) arg6 fullShare (k0_pay1 x0)) -∗ K ⟨⟩))
      ⊢ wp frame (wpE (defs₀ (F := F)) Variants.none c none) E (cc0__lut_kernel i arg2 harg2 arg3 harg3 arg4 harg4 arg5 harg5 arg6 harg6) K := by
  simp only [cc0__lut_kernel_eq_skeleton]; unfold cc0__lut_kernel_skel
  unfold owns
  iintro ⟨⟨%f0, %hf0, H0⟩, ⟨%f1, %hf1, H1⟩, ⟨%f2, %hf2, H2⟩, ⟨%d5, %f5, -, H5⟩, ⟨%d6, %f6, -, H6⟩, Hk⟩
  subst hf0; subst hf1; subst hf2
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_words
    rw [View.read_writes_eq_canon _ _ _ (coverSm _), View.canon_unit_zero hz2]
    simp only [View.readAt_eq_ld, View.ld_unit_zero (S := S128x128) hz2, View.ld_unit_zero (S := S128x128x128) hz3,
      View.readCov_unit_zero (S := S128x128x128) _ hz3]
  · iexists _; isplitr
    swap; · iexact H6
    ipureintro
    sl_unfold_words
    rw [View.read_writes_eq_canon _ _ _ (coverBig _), View.canon_unit_zero hz3]
    simp only [View.readAt_eq_ld, View.ld_unit_zero (S := S128x128x128) hz3]

end Cert.KernelIdeal.Lut

end
-- ==== Proof.KI.Region0.lean ====
import proofs.«427008_j72404558676324_3_alg».proof.Proof.KI.Body0
import Idealize.ShloMosaic.Lib.Pipeline.FrameBody
import Idealize.ShloMosaic.Lib.ValueIdx
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem idx_facts0 : ∀ t : Fin cfg0.N,
    win0_0.index t (0 : Fin 3) = t.val / 16 ∧ win0_0.index t (1 : Fin 3) = 0 ∧ win0_0.index t (2 : Fin 3) = 0
    ∧ win0_1.index t (0 : Fin 2) = t.val / 16 ∧ win0_1.index t (1 : Fin 2) = t.val % 16
    ∧ win0_2.index t (0 : Fin 2) = t.val / 16 ∧ win0_2.index t (1 : Fin 2) = t.val % 16
    ∧ win0_3.index t (0 : Fin 2) = t.val % 16 ∧ win0_3.index t (1 : Fin 2) = t.val / 16 :=
  (by decide +kernel : ∀ t : Fin grid0.N, _)

theorem hcond0 : ∀ t : Fin cfg0.N, cond0 (grid0.coords t) ↔ t.val % 16 = 0 :=
  (by decide +kernel : ∀ t : Fin grid0.N, cond0 (grid0.coords t) ↔ t.val % 16 = 0)

def memRow0 (c : Dev nD) (r : Fin 16) : Vec F S128x128x128 .f32 :=
  fun y => V c (Pipeline.arrRef spec0 0) (ValueIdx.ix3 (⟨128 * r.val + (y 0).val, by have := r.isLt; have hy : (y 0).val < 128 := (y 0).isLt; omega⟩ : Fin 2048) (y 1) (y 2))

def rowN0 (n : ℕ) : Fin 16 := ⟨(n / 16) % 16, Nat.mod_lt _ (by decide)⟩

theorem iblk0_0_eq (c : Dev nD) (t : Fin cfg0.N) : iblk0 V c 0 t = memRow0 V c (rowN0 t.val) := by
  funext y
  unfold iblk0 memRow0
  show V c (Pipeline.arrRef spec0 0) (((cfg0.win 0).blk t).view.emb y) = V c (Pipeline.arrRef spec0 0) _
  refine congrArg _ (funext fun a => Fin.ext ?_)
  obtain ⟨h0, h1, h2, -⟩ := idx_facts0 t
  have hN : t.val < 256 := lt_of_lt_of_eq t.isLt (show cfg0.N = 256 from N_0)
  match a with
  | ⟨0, _⟩ => show win0_0.index t (0 : Fin 3) * 128 + 1 * (y 0).val = 128 * ((t.val / 16) % 16) + (y 0).val; rw [h0]; omega
  | ⟨1, _⟩ => show win0_0.index t (1 : Fin 3) * 128 + 1 * (y 1).val = (y 1).val; rw [h1]; omega
  | ⟨2, _⟩ => show win0_0.index t (2 : Fin 3) * 128 + 1 * (y 2).val = (y 2).val; rw [h2]; omega

def fire0 (c : Dev nD) (r : Fin 16) : Vec F S128x128x128 .bf16 := k0_pay1 (memRow0 V c r)

def tile0 (c : Dev nD) (t : Fin cfg0.N) : Vec F S128x128 .bf16 :=
  k0_pay2 (iblk0 V c 1 t) (iblk0 V c 2 t) (fire0 V c (rowN0 t.val))

abbrev scM0 : Memref sig .tc .vmem S128x128x128 .bf16 := Memref.whole cc0_scratch0

abbrev rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA
  rw [Pipeline.scopedRest_split_of_list (win := spec0) (c := c) [cc0_scratch0] (by decide) (by decide)]
  simp only [scM0, owns_whole, Idealize.SL.BI.bigSepL_singleton]; try rfl

-- Between points the carried buffer holds the zero-one table of the neuron tile of the point just run (anything before the first point).
def PhiS0 (c : Dev nD) : (n : ℕ) → n ≤ cfg0.N → sProp 𝕄
  | 0, _ => Pipeline.ΦA spec0 c
  | n + 1, _ => iprop(iprop(owns (c : Thread nD τ) scM0 fullShare (fire0 V c (rowN0 n)) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n + 1 ≤ cfg0.N) :
    PhiS0 V c (n + 1) hn = iprop(iprop(owns (c : Thread nD τ) scM0 fullShare (fire0 V c (rowN0 n)) ∗ rest0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare (fire0 V c (rowN0 (n - 1))) ∗ rest0 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => tile0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = tile0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

-- One grid point, by cases on its sample-tile index: 0 recomputes the table, any other index reuses the one its neuron tile computed at index 0.
set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, PhiS0_castSucc V c t]
  unfold tile0
  by_cases h0 : t.val % 16 = 0
  · have hc : cond0 (grid0.coords t) := (hcond0 t).mpr h0
    unfold fire0; rw [← iblk0_0_eq V c t]
    by_cases hz : t.val = 0
    all_goals first | rw [PhiS0_zero V c _ _ hz, PhiA0_eq] | rw [PhiS0_pos V c _ _ hz]
    all_goals
      iintro ⟨⟨⟨HS, HR⟩, Hg⟩, Ho, ⟨%d0, H0⟩, ⟨%d1, H1⟩, ⟨%d2, H2⟩, ⟨%d3, H3⟩⟩
      iapply (sound_first0 c Set.univ (grid0.coords t) hc _ _ _ _ _ _ _ _ _ _ (iblk0 V c 0 t) (iblk0 V c 1 t) (iblk0 V c 2 t) _)
      isplitl [H0]; · iexact H0
      isplitl [H1]; · iexact H1
      isplitl [H2]; · iexact H2
      isplitl [H3]; · iexists _; iexact H3
      isplitl [HS]; · first | iexact HS | (iexists _; iexact HS)
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
  · have hc : ¬cond0 (grid0.coords t) := fun h => h0 ((hcond0 t).mp h)
    have hz : t.val ≠ 0 := fun h => h0 (by rw [h])
    have hrow : rowN0 (t.val - 1) = rowN0 t.val := Fin.ext (by unfold rowN0; dsimp only; omega)
    rw [PhiS0_pos V c _ _ hz, hrow]
    iintro ⟨⟨⟨HS, HR⟩, Hg⟩, Ho, ⟨%d0, H0⟩, ⟨%d1, H1⟩, ⟨%d2, H2⟩, ⟨%d3, H3⟩⟩
    iapply (sound_later0 c Set.univ (grid0.coords t) hc _ _ _ _ _ _ _ _ _ _ (iblk0 V c 1 t) (iblk0 V c 2 t) (fire0 V c (rowN0 t.val)) _)
    isplitl [H1]; · iexact H1
    isplitl [H2]; · iexact H2
    isplitl [H3]; · iexists _; iexact H3
    isplitl [HS]; · iexact HS
    iintro ⟨H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 256 := N_0; omega), PhiA0_eq]
  iintro ⟨⟨HS, HR⟩, Hg⟩
  isplitl [HS HR]
  · isplitl [HS]; · iexists _; iexact HS
    iexact HR
  iexact Hg

end

end Cert.KernelIdeal.Lut

end
-- ==== Proof.KI.Body1.lean ====
import proofs.«427008_j72404558676324_3_alg».proof.Proof.KI.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1 (i : grid1.Coords) : Prop :=
  (Scalar.cmpi .ne (Scalar.extui (Scalar.cmpi .eq (BitVec.ofNat 32 (i 1).val) 0#32)) 0#32) = 1#1

-- Away from the first sample tile of a neuron tile the body finds the zero-one table of that neuron tile and stores the looked-up tile.
set_option maxHeartbeats 4000000 in
theorem sound_later1 (c : Dev nD) (E : Set ℕ) (i : grid1.Coords) (hc : ¬cond1 i)
    (arg2 : Memref sig .tc .vmem S128x128x128 .f32) (harg2 : arg2.IsWhole) (arg3 : Memref sig .tc .vmem S128x128 .i32) (harg3 : arg3.IsWhole)
    (arg4 : Memref sig .tc .vmem S128x128 .i32) (harg4 : arg4.IsWhole) (arg5 : Memref sig .tc .vmem S128x128 .bf16) (harg5 : arg5.IsWhole)
    (arg6 : Memref sig .tc .vmem S128x128x128 .bf16) (harg6 : arg6.IsWhole)
    (x1 x2 : Vec F S128x128 .i32) (xs : Vec F S128x128x128 .bf16) (K : PUnit → sProp 𝕄) :
    iprop(owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg3 fullShare x1 ∗ owns (c : Thread nD τ) arg4 fullShare x2 ∗ owns (c : Thread nD τ) arg5 fullShare (k1_pay2 x1 x2 xs) ∗ owns (c : Thread nD τ) arg6 fullShare xs) -∗ K ⟨⟩))
      ⊢ wp frame (wpE (defs₀ (F := F)) Variants.none c none) E (cc1__lut_kernel i arg2 harg2 arg3 harg3 arg4 harg4 arg5 harg5 arg6 harg6) K := by
  simp only [cc1__lut_kernel_eq_skeleton]; unfold cc1__lut_kernel_skel
  unfold owns
  iintro ⟨⟨%f1, %hf1, H1⟩, ⟨%f2, %hf2, H2⟩, ⟨%d5, %f5, -, H5⟩, ⟨%f6, %hf6, H6⟩, Hk⟩
  subst hf1; subst hf2; subst hf6
  sl_exec (disch := exact hc)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    rw [View.read_writes_eq_canon _ _ _ (coverSm _), View.canon_unit_zero hz2]
    simp only [View.readAt_eq_ld, View.ld_unit_zero (S := S128x128) hz2, View.ld_unit_zero (S := S128x128x128) hz3]
  · iexists f6; isplitr; · ipureintro; rfl
    iexact H6

-- At the first sample tile of a neuron tile the body first stores the zero-one form of the table block, then looks up in it.
set_option maxHeartbeats 4000000 in
theorem sound_first1 (c : Dev nD) (E : Set ℕ) (i : grid1.Coords) (hc : cond1 i)
    (arg2 : Memref sig .tc .vmem S128x128x128 .f32) (harg2 : arg2.IsWhole) (arg3 : Memref sig .tc .vmem S128x128 .i32) (harg3 : arg3.IsWhole)
    (arg4 : Memref sig .tc .vmem S128x128 .i32) (harg4 : arg4.IsWhole) (arg5 : Memref sig .tc .vmem S128x128 .bf16) (harg5 : arg5.IsWhole)
    (arg6 : Memref sig .tc .vmem S128x128x128 .bf16) (harg6 : arg6.IsWhole)
    (x0 : Vec F S128x128x128 .f32) (x1 x2 : Vec F S128x128 .i32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k1_pay2 x1 x2 (k1_pay1 x0)) ∗ owns (c : Thread nD τ) arg6 fullShare (k1_pay1 x0)) -∗ K ⟨⟩))
      ⊢ wp frame (wpE (defs₀ (F := F)) Variants.none c none) E (cc1__lut_kernel i arg2 harg2 arg3 harg3 arg4 harg4 arg5 harg5 arg6 harg6) K := by
  simp only [cc1__lut_kernel_eq_skeleton]; unfold cc1__lut_kernel_skel
  unfold owns
  iintro ⟨⟨%f0, %hf0, H0⟩, ⟨%f1, %hf1, H1⟩, ⟨%f2, %hf2, H2⟩, ⟨%d5, %f5, -, H5⟩, ⟨%d6, %f6, -, H6⟩, Hk⟩
  subst hf0; subst hf1; subst hf2
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_words
    rw [View.read_writes_eq_canon _ _ _ (coverSm _), View.canon_unit_zero hz2]
    simp only [View.readAt_eq_ld, View.ld_unit_zero (S := S128x128) hz2, View.ld_unit_zero (S := S128x128x128) hz3,
      View.readCov_unit_zero (S := S128x128x128) _ hz3]
  · iexists _; isplitr
    swap; · iexact H6
    ipureintro
    sl_unfold_words
    rw [View.read_writes_eq_canon _ _ _ (coverBig _), View.canon_unit_zero hz3]
    simp only [View.readAt_eq_ld, View.ld_unit_zero (S := S128x128x128) hz3]

end Cert.KernelIdeal.Lut

end
-- ==== Proof.KI.Region1.lean ====
import proofs.«427008_j72404558676324_3_alg».proof.Proof.KI.Body1
import Idealize.ShloMosaic.Lib.Pipeline.FrameBody
import Idealize.ShloMosaic.Lib.ValueIdx
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem idx_facts1 : ∀ t : Fin cfg1.N,
    win1_0.index t (0 : Fin 3) = t.val / 16 ∧ win1_0.index t (1 : Fin 3) = 0 ∧ win1_0.index t (2 : Fin 3) = 0
    ∧ win1_1.index t (0 : Fin 2) = t.val / 16 ∧ win1_1.index t (1 : Fin 2) = t.val % 16
    ∧ win1_2.index t (0 : Fin 2) = t.val / 16 ∧ win1_2.index t (1 : Fin 2) = t.val % 16
    ∧ win1_3.index t (0 : Fin 2) = t.val % 16 ∧ win1_3.index t (1 : Fin 2) = t.val / 16 :=
  (by decide +kernel : ∀ t : Fin grid1.N, _)

theorem hcond1 : ∀ t : Fin cfg1.N, cond1 (grid1.coords t) ↔ t.val % 16 = 0 :=
  (by decide +kernel : ∀ t : Fin grid1.N, cond1 (grid1.coords t) ↔ t.val % 16 = 0)

def memRow1 (c : Dev nD) (r : Fin 8) : Vec F S128x128x128 .f32 :=
  fun y => V c (Pipeline.arrRef spec1 0) (ValueIdx.ix3 (⟨128 * r.val + (y 0).val, by have := r.isLt; have hy : (y 0).val < 128 := (y 0).isLt; omega⟩ : Fin 1024) (y 1) (y 2))

def rowN1 (n : ℕ) : Fin 8 := ⟨(n / 16) % 8, Nat.mod_lt _ (by decide)⟩

theorem iblk1_0_eq (c : Dev nD) (t : Fin cfg1.N) : iblk1 V c 0 t = memRow1 V c (rowN1 t.val) := by
  funext y
  unfold iblk1 memRow1
  show V c (Pipeline.arrRef spec1 0) (((cfg1.win 0).blk t).view.emb y) = V c (Pipeline.arrRef spec1 0) _
  refine congrArg _ (funext fun a => Fin.ext ?_)
  obtain ⟨h0, h1, h2, -⟩ := idx_facts1 t
  have hN : t.val < 128 := lt_of_lt_of_eq t.isLt (show cfg1.N = 128 from N_1)
  match a with
  | ⟨0, _⟩ => show win1_0.index t (0 : Fin 3) * 128 + 1 * (y 0).val = 128 * ((t.val / 16) % 8) + (y 0).val; rw [h0]; omega
  | ⟨1, _⟩ => show win1_0.index t (1 : Fin 3) * 128 + 1 * (y 1).val = (y 1).val; rw [h1]; omega
  | ⟨2, _⟩ => show win1_0.index t (2 : Fin 3) * 128 + 1 * (y 2).val = (y 2).val; rw [h2]; omega

def fire1 (c : Dev nD) (r : Fin 8) : Vec F S128x128x128 .bf16 := k1_pay1 (memRow1 V c r)

def tile1 (c : Dev nD) (t : Fin cfg1.N) : Vec F S128x128 .bf16 :=
  k1_pay2 (iblk1 V c 1 t) (iblk1 V c 2 t) (fire1 V c (rowN1 t.val))

abbrev scM1 : Memref sig .tc .vmem S128x128x128 .bf16 := Memref.whole cc1_scratch0

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  unfold Pipeline.ΦA
  rw [Pipeline.scopedRest_split_of_list (win := spec1) (c := c) [cc1_scratch0] (by decide) (by decide)]
  simp only [scM1, owns_whole, Idealize.SL.BI.bigSepL_singleton]; try rfl

-- Between points the carried buffer holds the zero-one table of the neuron tile of the point just run (anything before the first point).
def PhiS1 (c : Dev nD) : (n : ℕ) → n ≤ cfg1.N → sProp 𝕄
  | 0, _ => Pipeline.ΦA spec1 c
  | n + 1, _ => iprop(iprop(owns (c : Thread nD τ) scM1 fullShare (fire1 V c (rowN1 n)) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n + 1 ≤ cfg1.N) :
    PhiS1 V c (n + 1) hn = iprop(iprop(owns (c : Thread nD τ) scM1 fullShare (fire1 V c (rowN1 n)) ∗ rest1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1 fullShare (fire1 V c (rowN1 (n - 1))) ∗ rest1 (F := F) c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => tile1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = tile1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

-- One grid point, by cases on its sample-tile index: 0 recomputes the table, any other index reuses the one its neuron tile computed at index 0.
set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, PhiS1_castSucc V c t]
  unfold tile1
  by_cases h0 : t.val % 16 = 0
  · have hc : cond1 (grid1.coords t) := (hcond1 t).mpr h0
    unfold fire1; rw [← iblk1_0_eq V c t]
    by_cases hz : t.val = 0
    all_goals first | rw [PhiS1_zero V c _ _ hz, PhiA1_eq] | rw [PhiS1_pos V c _ _ hz]
    all_goals
      iintro ⟨⟨⟨HS, HR⟩, Hg⟩, Ho, ⟨%d0, H0⟩, ⟨%d1, H1⟩, ⟨%d2, H2⟩, ⟨%d3, H3⟩⟩
      iapply (sound_first1 c Set.univ (grid1.coords t) hc _ _ _ _ _ _ _ _ _ _ (iblk1 V c 0 t) (iblk1 V c 1 t) (iblk1 V c 2 t) _)
      isplitl [H0]; · iexact H0
      isplitl [H1]; · iexact H1
      isplitl [H2]; · iexact H2
      isplitl [H3]; · iexists _; iexact H3
      isplitl [HS]; · first | iexact HS | (iexists _; iexact HS)
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
  · have hc : ¬cond1 (grid1.coords t) := fun h => h0 ((hcond1 t).mp h)
    have hz : t.val ≠ 0 := fun h => h0 (by rw [h])
    have hrow : rowN1 (t.val - 1) = rowN1 t.val := Fin.ext (by unfold rowN1; dsimp only; omega)
    rw [PhiS1_pos V c _ _ hz, hrow]
    iintro ⟨⟨⟨HS, HR⟩, Hg⟩, Ho, ⟨%d0, H0⟩, ⟨%d1, H1⟩, ⟨%d2, H2⟩, ⟨%d3, H3⟩⟩
    iapply (sound_later1 c Set.univ (grid1.coords t) hc _ _ _ _ _ _ _ _ _ _ (iblk1 V c 1 t) (iblk1 V c 2 t) (fire1 V c (rowN1 t.val)) _)
    isplitl [H1]; · iexact H1
    isplitl [H2]; · iexact H2
    isplitl [H3]; · iexists _; iexact H3
    isplitl [HS]; · iexact HS
    iintro ⟨H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS, HR⟩, Hg⟩
  isplitl [HS HR]
  · isplitl [HS]; · iexists _; iexact HS
    iexact HR
  iexact Hg

end

end Cert.KernelIdeal.Lut

end
-- ==== Proof.KI.Body2.lean ====
import proofs.«427008_j72404558676324_3_alg».proof.Proof.KI.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2 (i : grid2.Coords) : Prop :=
  (Scalar.cmpi .ne (Scalar.extui (Scalar.cmpi .eq (BitVec.ofNat 32 (i 1).val) 0#32)) 0#32) = 1#1

-- Away from the first sample tile of a neuron tile the body finds the zero-one table of that neuron tile and stores the looked-up tile.
set_option maxHeartbeats 4000000 in
theorem sound_later2 (c : Dev nD) (E : Set ℕ) (i : grid2.Coords) (hc : ¬cond2 i)
    (arg2 : Memref sig .tc .vmem S128x128x128 .f32) (harg2 : arg2.IsWhole) (arg3 : Memref sig .tc .vmem S128x128 .i32) (harg3 : arg3.IsWhole)
    (arg4 : Memref sig .tc .vmem S128x128 .i32) (harg4 : arg4.IsWhole) (arg5 : Memref sig .tc .vmem S128x128 .f32) (harg5 : arg5.IsWhole)
    (arg6 : Memref sig .tc .vmem S128x128x128 .bf16) (harg6 : arg6.IsWhole)
    (x1 x2 : Vec F S128x128 .i32) (xs : Vec F S128x128x128 .bf16) (K : PUnit → sProp 𝕄) :
    iprop(owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg3 fullShare x1 ∗ owns (c : Thread nD τ) arg4 fullShare x2 ∗ owns (c : Thread nD τ) arg5 fullShare (k2_pay2 x1 x2 xs) ∗ owns (c : Thread nD τ) arg6 fullShare xs) -∗ K ⟨⟩))
      ⊢ wp frame (wpE (defs₀ (F := F)) Variants.none c none) E (cc2__lut_kernel i arg2 harg2 arg3 harg3 arg4 harg4 arg5 harg5 arg6 harg6) K := by
  simp only [cc2__lut_kernel_eq_skeleton]; unfold cc2__lut_kernel_skel
  unfold owns
  iintro ⟨⟨%f1, %hf1, H1⟩, ⟨%f2, %hf2, H2⟩, ⟨%d5, %f5, -, H5⟩, ⟨%f6, %hf6, H6⟩, Hk⟩
  subst hf1; subst hf2; subst hf6
  sl_exec (disch := exact hc)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    rw [View.read_writes_eq_canon _ _ _ (coverSm _), View.canon_unit_zero hz2]
    simp only [View.readAt_eq_ld, View.ld_unit_zero (S := S128x128) hz2, View.ld_unit_zero (S := S128x128x128) hz3]
  · iexists f6; isplitr; · ipureintro; rfl
    iexact H6

-- At the first sample tile of a neuron tile the body first stores the zero-one form of the table block, then looks up in it.
set_option maxHeartbeats 4000000 in
theorem sound_first2 (c : Dev nD) (E : Set ℕ) (i : grid2.Coords) (hc : cond2 i)
    (arg2 : Memref sig .tc .vmem S128x128x128 .f32) (harg2 : arg2.IsWhole) (arg3 : Memref sig .tc .vmem S128x128 .i32) (harg3 : arg3.IsWhole)
    (arg4 : Memref sig .tc .vmem S128x128 .i32) (harg4 : arg4.IsWhole) (arg5 : Memref sig .tc .vmem S128x128 .f32) (harg5 : arg5.IsWhole)
    (arg6 : Memref sig .tc .vmem S128x128x128 .bf16) (harg6 : arg6.IsWhole)
    (x0 : Vec F S128x128x128 .f32) (x1 x2 : Vec F S128x128 .i32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k2_pay2 x1 x2 (k2_pay1 x0)) ∗ owns (c : Thread nD τ) arg6 fullShare (k2_pay1 x0)) -∗ K ⟨⟩))
      ⊢ wp frame (wpE (defs₀ (F := F)) Variants.none c none) E (cc2__lut_kernel i arg2 harg2 arg3 harg3 arg4 harg4 arg5 harg5 arg6 harg6) K := by
  simp only [cc2__lut_kernel_eq_skeleton]; unfold cc2__lut_kernel_skel
  unfold owns
  iintro ⟨⟨%f0, %hf0, H0⟩, ⟨%f1, %hf1, H1⟩, ⟨%f2, %hf2, H2⟩, ⟨%d5, %f5, -, H5⟩, ⟨%d6, %f6, -, H6⟩, Hk⟩
  subst hf0; subst hf1; subst hf2
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_words
    rw [View.read_writes_eq_canon _ _ _ (coverSm _), View.canon_unit_zero hz2]
    simp only [View.readAt_eq_ld, View.ld_unit_zero (S := S128x128) hz2, View.ld_unit_zero (S := S128x128x128) hz3,
      View.readCov_unit_zero (S := S128x128x128) _ hz3]
  · iexists _; isplitr
    swap; · iexact H6
    ipureintro
    sl_unfold_words
    rw [View.read_writes_eq_canon _ _ _ (coverBig _), View.canon_unit_zero hz3]
    simp only [View.readAt_eq_ld, View.ld_unit_zero (S := S128x128x128) hz3]

end Cert.KernelIdeal.Lut

end
-- ==== Proof.KI.Region2.lean ====
import proofs.«427008_j72404558676324_3_alg».proof.Proof.KI.Body2
import Idealize.ShloMosaic.Lib.Pipeline.FrameBody
import Idealize.ShloMosaic.Lib.ValueIdx
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem idx_facts2 : ∀ t : Fin cfg2.N,
    win2_0.index t (0 : Fin 3) = t.val / 16 ∧ win2_0.index t (1 : Fin 3) = 0 ∧ win2_0.index t (2 : Fin 3) = 0
    ∧ win2_1.index t (0 : Fin 2) = t.val / 16 ∧ win2_1.index t (1 : Fin 2) = t.val % 16
    ∧ win2_2.index t (0 : Fin 2) = t.val / 16 ∧ win2_2.index t (1 : Fin 2) = t.val % 16
    ∧ win2_3.index t (0 : Fin 2) = t.val % 16 ∧ win2_3.index t (1 : Fin 2) = t.val / 16 :=
  (by decide +kernel : ∀ t : Fin grid2.N, _)

theorem hcond2 : ∀ t : Fin cfg2.N, cond2 (grid2.coords t) ↔ t.val % 16 = 0 :=
  (by decide +kernel : ∀ t : Fin grid2.N, cond2 (grid2.coords t) ↔ t.val % 16 = 0)

def memRow2 (c : Dev nD) (r : Fin 8) : Vec F S128x128x128 .f32 :=
  fun y => V c (Pipeline.arrRef spec2 0) (ValueIdx.ix3 (⟨128 * r.val + (y 0).val, by have := r.isLt; have hy : (y 0).val < 128 := (y 0).isLt; omega⟩ : Fin 1024) (y 1) (y 2))

def rowN2 (n : ℕ) : Fin 8 := ⟨(n / 16) % 8, Nat.mod_lt _ (by decide)⟩

theorem iblk2_0_eq (c : Dev nD) (t : Fin cfg2.N) : iblk2 V c 0 t = memRow2 V c (rowN2 t.val) := by
  funext y
  unfold iblk2 memRow2
  show V c (Pipeline.arrRef spec2 0) (((cfg2.win 0).blk t).view.emb y) = V c (Pipeline.arrRef spec2 0) _
  refine congrArg _ (funext fun a => Fin.ext ?_)
  obtain ⟨h0, h1, h2, -⟩ := idx_facts2 t
  have hN : t.val < 128 := lt_of_lt_of_eq t.isLt (show cfg2.N = 128 from N_2)
  match a with
  | ⟨0, _⟩ => show win2_0.index t (0 : Fin 3) * 128 + 1 * (y 0).val = 128 * ((t.val / 16) % 8) + (y 0).val; rw [h0]; omega
  | ⟨1, _⟩ => show win2_0.index t (1 : Fin 3) * 128 + 1 * (y 1).val = (y 1).val; rw [h1]; omega
  | ⟨2, _⟩ => show win2_0.index t (2 : Fin 3) * 128 + 1 * (y 2).val = (y 2).val; rw [h2]; omega

def fire2 (c : Dev nD) (r : Fin 8) : Vec F S128x128x128 .bf16 := k2_pay1 (memRow2 V c r)

def tile2 (c : Dev nD) (t : Fin cfg2.N) : Vec F S128x128 .f32 :=
  k2_pay2 (iblk2 V c 1 t) (iblk2 V c 2 t) (fire2 V c (rowN2 t.val))

abbrev scM2 : Memref sig .tc .vmem S128x128x128 .bf16 := Memref.whole cc2_scratch0

abbrev rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2 fullShare d) ∗ rest2 (F := F) c) ∗ (∃ r, prngReg c r)) := by
  unfold Pipeline.ΦA
  rw [Pipeline.scopedRest_split_of_list (win := spec2) (c := c) [cc2_scratch0] (by decide) (by decide)]
  simp only [scM2, owns_whole, Idealize.SL.BI.bigSepL_singleton]; try rfl

-- Between points the carried buffer holds the zero-one table of the neuron tile of the point just run (anything before the first point).
def PhiS2 (c : Dev nD) : (n : ℕ) → n ≤ cfg2.N → sProp 𝕄
  | 0, _ => Pipeline.ΦA spec2 c
  | n + 1, _ => iprop(iprop(owns (c : Thread nD τ) scM2 fullShare (fire2 V c (rowN2 n)) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n + 1 ≤ cfg2.N) :
    PhiS2 V c (n + 1) hn = iprop(iprop(owns (c : Thread nD τ) scM2 fullShare (fire2 V c (rowN2 n)) ∗ rest2 (F := F) c) ∗ (∃ r, prngReg c r)) := rfl
theorem PhiS2_pos (c : Dev nD) (n : ℕ) (h : n ≤ cfg2.N) (hz : n ≠ 0) :
    PhiS2 V c n h = iprop(iprop(owns (c : Thread nD τ) scM2 fullShare (fire2 V c (rowN2 (n - 1))) ∗ rest2 (F := F) c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => tile2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = tile2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

-- One grid point, by cases on its sample-tile index: 0 recomputes the table, any other index reuses the one its neuron tile computed at index 0.
set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, PhiS2_castSucc V c t]
  unfold tile2
  by_cases h0 : t.val % 16 = 0
  · have hc : cond2 (grid2.coords t) := (hcond2 t).mpr h0
    unfold fire2; rw [← iblk2_0_eq V c t]
    by_cases hz : t.val = 0
    all_goals first | rw [PhiS2_zero V c _ _ hz, PhiA2_eq] | rw [PhiS2_pos V c _ _ hz]
    all_goals
      iintro ⟨⟨⟨HS, HR⟩, Hg⟩, Ho, ⟨%d0, H0⟩, ⟨%d1, H1⟩, ⟨%d2, H2⟩, ⟨%d3, H3⟩⟩
      iapply (sound_first2 c Set.univ (grid2.coords t) hc _ _ _ _ _ _ _ _ _ _ (iblk2 V c 0 t) (iblk2 V c 1 t) (iblk2 V c 2 t) _)
      isplitl [H0]; · iexact H0
      isplitl [H1]; · iexact H1
      isplitl [H2]; · iexact H2
      isplitl [H3]; · iexists _; iexact H3
      isplitl [HS]; · first | iexact HS | (iexists _; iexact HS)
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
  · have hc : ¬cond2 (grid2.coords t) := fun h => h0 ((hcond2 t).mp h)
    have hz : t.val ≠ 0 := fun h => h0 (by rw [h])
    have hrow : rowN2 (t.val - 1) = rowN2 t.val := Fin.ext (by unfold rowN2; dsimp only; omega)
    rw [PhiS2_pos V c _ _ hz, hrow]
    iintro ⟨⟨⟨HS, HR⟩, Hg⟩, Ho, ⟨%d0, H0⟩, ⟨%d1, H1⟩, ⟨%d2, H2⟩, ⟨%d3, H3⟩⟩
    iapply (sound_later2 c Set.univ (grid2.coords t) hc _ _ _ _ _ _ _ _ _ _ (iblk2 V c 1 t) (iblk2 V c 2 t) (fire2 V c (rowN2 t.val)) _)
    isplitl [H1]; · iexact H1
    isplitl [H2]; · iexact H2
    isplitl [H3]; · iexists _; iexact H3
    isplitl [HS]; · iexact HS
    iintro ⟨H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 128 := N_2; omega), PhiA2_eq]
  iintro ⟨⟨HS, HR⟩, Hg⟩
  isplitl [HS HR]
  · isplitl [HS]; · iexists _; iexact HS
    iexact HR
  iexact Hg

end

end Cert.KernelIdeal.Lut

end
-- ==== Proof.KI.Keeps.lean ====
import proofs.«427008_j72404558676324_3_alg».proof.Proof.Gen.KernelIdeal.Launch
import Idealize.ShloMosaic.Lib.Pipeline.RegionsLoop
import Idealize.ShloMosaic.Lib.Pipeline.FrameSuffix

noncomputable section

namespace Cert.KernelIdeal.Lut

open Cert.KernelIdeal Cert.KernelIdeal.Gen Idealize.ShloMosaic Idealize.ShloMosaic.TcCoe Idealize.SL.Sem

variable {F : FTy → Type} [FloatOps F]

-- When each operation of a line writes exactly the reference listed beside it, the line writes only inside that list.
theorem writes_sub_of_forall₂ {T : Topo} {S : RefSig} {Val : EltTy → Type} {ops : List (HloOp T S Val)} {L : List (Ref S .tc)}
    (h : List.Forall₂ (fun op y => op.writes = {Proc.devRef (τ := T) .tc y}) ops L) :
    ops.Forall fun op => op.writes ⊆ (L.map (Proc.devRef (τ := T) .tc)).toFinset := by
  rw [List.forall_iff_forall_mem]
  induction h with
  | nil => intro op hop; cases hop
  | @cons op y ops L hw _ ih =>
    intro o ho
    rcases List.mem_cons.1 ho with rfl | ho
    · rw [hw, Finset.singleton_subset_iff, List.mem_toFinset]
      exact List.mem_map_of_mem List.mem_cons_self
    · refine (ih o ho).trans ?_
      intro b hb
      rw [List.mem_toFinset] at hb ⊢
      rw [List.map_cons]
      exact List.mem_cons_of_mem _ hb

-- So a reference outside the list holds after the line what it held before it.
theorem after_of_forall₂ {T : Topo} {S : RefSig} {Val : EltTy → Type} {ops : List (HloOp T S Val)} {L : List (Ref S .tc)}
    (h : List.Forall₂ (fun op y => op.writes = {Proc.devRef (τ := T) .tc y}) ops L) (V : Valuation T S Val)
    {r : Ref S .tc} (hr : r ∉ L) : StableHlo.after ops V (Proc.devRef .tc r) = V (Proc.devRef .tc r) :=
  StableHlo.after_of_writes_sub ops V (writes_sub_of_forall₂ h) hr

abbrev argRefs : List (Ref sig .tc) :=
  [main_arg0, main_arg1, main_arg2, main_arg3, main_arg4, main_arg5, main_arg6, main_arg7]

-- No argument array is the result of an operation, so every line leaves the eight arguments as they were.
theorem keeps {ops : List (HloOp τ sig (Elt F))} {L : List (Ref sig .tc)}
    (h : List.Forall₂ (fun op y => op.writes = {Proc.devRef (τ := τ) .tc y}) ops L) (hL : ∀ a ∈ argRefs, a ∉ L)
    (W : Valuation τ sig (Elt F)) {a : Ref sig .tc} (ha : a ∈ argRefs) :
    StableHlo.after ops W (Proc.devRef .tc a) = W (Proc.devRef .tc a) :=
  after_of_forall₂ h W (hL a ha)

abbrev hostOps0_written : List (Ref sig .tc) :=
  [main_cst, main_cst_0, main_cst_1, main_cst_2, main_cst_3, main_cst_4, main_v0, main_v1, main_v2, main_v3, main_v4, main_v5,
   main_v6, main_cst_5, main_v7, main_c, main_v8, main_v9, main_c_6, main_v10, main_v11, main_v12, main_c_7, main_v13,
   main_v14, main_c_8, main_v15, main_v16, main_v17, main_v18, main_v19, main_v20, main_v21, main_v22, main_v23, main_v24,
   main_v25, main_v26, main_v27, main_v28, main_v29, main_cst_9, main_v30, main_c_10, main_v31, main_v32, main_c_11, main_v33,
   main_v34, main_v35, main_c_12, main_v36, main_v37, main_c_13, main_v38, main_v39, main_v40, main_v41, main_v42, main_v43,
   main_v44, main_v45, main_v46, main_v47, main_v48]

set_option maxHeartbeats 4000000 in
set_option maxRecDepth 16384 in
theorem hostOps0_writes : List.Forall₂ (fun (op : HloOp τ sig (Elt F)) y => op.writes = {Proc.devRef .tc y}) hostOps0 hostOps0_written :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))))))))))))))))))))))))))))))))))))))))))

set_option maxHeartbeats 4000000 in
set_option maxRecDepth 16384 in
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev hostOps0_1_written : List (Ref sig .tc) :=
  [main_v49]

theorem hostOps0_1_writes : List.Forall₂ (fun (op : HloOp τ sig (Elt F)) y => op.writes = {Proc.devRef .tc y}) hostOps0_1 hostOps0_1_written :=
  .cons rfl .nil

theorem hostOps0_1_fresh : (hostOps0_1 : List (HloOp τ sig (Elt F))).Forall fun op => op.fresh = ∅ :=
  rfl

abbrev hostOps0_2_written : List (Ref sig .tc) :=
  [main_v50]

theorem hostOps0_2_writes : List.Forall₂ (fun (op : HloOp τ sig (Elt F)) y => op.writes = {Proc.devRef .tc y}) hostOps0_2 hostOps0_2_written :=
  .cons rfl .nil

theorem hostOps0_2_fresh : (hostOps0_2 : List (HloOp τ sig (Elt F))).Forall fun op => op.fresh = ∅ :=
  rfl

abbrev hostOps0_3_written : List (Ref sig .tc) :=
  [main_v51]

theorem hostOps0_3_writes : List.Forall₂ (fun (op : HloOp τ sig (Elt F)) y => op.writes = {Proc.devRef .tc y}) hostOps0_3 hostOps0_3_written :=
  .cons rfl .nil

theorem hostOps0_3_fresh : (hostOps0_3 : List (HloOp τ sig (Elt F))).Forall fun op => op.fresh = ∅ :=
  rfl

abbrev hostOps0_4_written : List (Ref sig .tc) :=
  [main_v52, main_v53]

theorem hostOps0_4_writes : List.Forall₂ (fun (op : HloOp τ sig (Elt F)) y => op.writes = {Proc.devRef .tc y}) hostOps0_4 hostOps0_4_written :=
  .cons rfl (.cons rfl .nil)

theorem hostOps0_4_fresh : (hostOps0_4 : List (HloOp τ sig (Elt F))).Forall fun op => op.fresh = ∅ :=
  ⟨rfl, rfl⟩

abbrev hostOps1_written : List (Ref sig .tc) :=
  [main_v55, main_v56, main_v57, main_v58, main_v59, main_v60, main_v61, main_v62, main_v63, main_cst_14, main_v64, main_c_15,
   main_v65, main_v66, main_c_16, main_v67, main_v68, main_v69, main_c_17, main_v70, main_v71, main_c_18, main_v72, main_v73,
   main_v74, main_v75, main_v76, main_v77, main_v78, main_v79, main_v80, main_v81, main_v82, main_v83, main_v84, main_v85,
   main_v86, main_cst_19, main_v87, main_c_20, main_v88, main_v89, main_c_21, main_v90, main_v91, main_v92, main_c_22, main_v93,
   main_v94, main_c_23, main_v95, main_v96, main_v97, main_v98, main_v99, main_v100, main_v101, main_v102, main_v103, main_v104]

set_option maxHeartbeats 4000000 in
set_option maxRecDepth 16384 in
theorem hostOps1_writes : List.Forall₂ (fun (op : HloOp τ sig (Elt F)) y => op.writes = {Proc.devRef .tc y}) hostOps1 hostOps1_written :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))))))))))))))))))))))))))))))))))))))))))

set_option maxHeartbeats 4000000 in
set_option maxRecDepth 16384 in
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev hostOps1_1_written : List (Ref sig .tc) :=
  [main_v105]

theorem hostOps1_1_writes : List.Forall₂ (fun (op : HloOp τ sig (Elt F)) y => op.writes = {Proc.devRef .tc y}) hostOps1_1 hostOps1_1_written :=
  .cons rfl .nil

theorem hostOps1_1_fresh : (hostOps1_1 : List (HloOp τ sig (Elt F))).Forall fun op => op.fresh = ∅ :=
  rfl

abbrev hostOps1_2_written : List (Ref sig .tc) :=
  [main_v106]

theorem hostOps1_2_writes : List.Forall₂ (fun (op : HloOp τ sig (Elt F)) y => op.writes = {Proc.devRef .tc y}) hostOps1_2 hostOps1_2_written :=
  .cons rfl .nil

theorem hostOps1_2_fresh : (hostOps1_2 : List (HloOp τ sig (Elt F))).Forall fun op => op.fresh = ∅ :=
  rfl

abbrev hostOps1_3_written : List (Ref sig .tc) :=
  [main_v107]

theorem hostOps1_3_writes : List.Forall₂ (fun (op : HloOp τ sig (Elt F)) y => op.writes = {Proc.devRef .tc y}) hostOps1_3 hostOps1_3_written :=
  .cons rfl .nil

theorem hostOps1_3_fresh : (hostOps1_3 : List (HloOp τ sig (Elt F))).Forall fun op => op.fresh = ∅ :=
  rfl

abbrev hostOps1_4_written : List (Ref sig .tc) :=
  [main_v108, main_v109]

theorem hostOps1_4_writes : List.Forall₂ (fun (op : HloOp τ sig (Elt F)) y => op.writes = {Proc.devRef .tc y}) hostOps1_4 hostOps1_4_written :=
  .cons rfl (.cons rfl .nil)

theorem hostOps1_4_fresh : (hostOps1_4 : List (HloOp τ sig (Elt F))).Forall fun op => op.fresh = ∅ :=
  ⟨rfl, rfl⟩

abbrev hostOps2_written : List (Ref sig .tc) :=
  [main_v111, main_v112, main_v113, main_v114, main_v115, main_v116, main_v117, main_v118, main_cst_24, main_v119, main_c_25, main_v120,
   main_v121, main_c_26, main_v122, main_v123, main_v124, main_c_27, main_v125, main_v126, main_c_28, main_v127, main_v128, main_v129,
   main_v130, main_v131, main_v132, main_v133, main_v134, main_v135, main_v136, main_v137, main_v138, main_v139, main_v140, main_v141,
   main_cst_29, main_v142, main_c_30, main_v143, main_v144, main_c_31, main_v145, main_v146, main_v147, main_c_32, main_v148, main_v149,
   main_c_33, main_v150, main_v151, main_v152, main_v153, main_v154, main_v155, main_v156, main_v157, main_v158, main_v159]

set_option maxHeartbeats 4000000 in
set_option maxRecDepth 16384 in
theorem hostOps2_writes : List.Forall₂ (fun (op : HloOp τ sig (Elt F)) y => op.writes = {Proc.devRef .tc y}) hostOps2 hostOps2_written :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))))))))))))))))))))))))))))))))))))

set_option maxHeartbeats 4000000 in
set_option maxRecDepth 16384 in
theorem hostOps2_fresh : (hostOps2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev hostOps2_1_written : List (Ref sig .tc) :=
  [main_v160]

theorem hostOps2_1_writes : List.Forall₂ (fun (op : HloOp τ sig (Elt F)) y => op.writes = {Proc.devRef .tc y}) hostOps2_1 hostOps2_1_written :=
  .cons rfl .nil

theorem hostOps2_1_fresh : (hostOps2_1 : List (HloOp τ sig (Elt F))).Forall fun op => op.fresh = ∅ :=
  rfl

abbrev hostOps2_2_written : List (Ref sig .tc) :=
  [main_v161]

theorem hostOps2_2_writes : List.Forall₂ (fun (op : HloOp τ sig (Elt F)) y => op.writes = {Proc.devRef .tc y}) hostOps2_2 hostOps2_2_written :=
  .cons rfl .nil

theorem hostOps2_2_fresh : (hostOps2_2 : List (HloOp τ sig (Elt F))).Forall fun op => op.fresh = ∅ :=
  rfl

abbrev hostOps2_3_written : List (Ref sig .tc) :=
  [main_v162]

theorem hostOps2_3_writes : List.Forall₂ (fun (op : HloOp τ sig (Elt F)) y => op.writes = {Proc.devRef .tc y}) hostOps2_3 hostOps2_3_written :=
  .cons rfl .nil

theorem hostOps2_3_fresh : (hostOps2_3 : List (HloOp τ sig (Elt F))).Forall fun op => op.fresh = ∅ :=
  rfl

abbrev hostOps2_4_written : List (Ref sig .tc) :=
  [main_v163, main_v164]

theorem hostOps2_4_writes : List.Forall₂ (fun (op : HloOp τ sig (Elt F)) y => op.writes = {Proc.devRef .tc y}) hostOps2_4 hostOps2_4_written :=
  .cons rfl (.cons rfl .nil)

theorem hostOps2_4_fresh : (hostOps2_4 : List (HloOp τ sig (Elt F))).Forall fun op => op.fresh = ∅ :=
  ⟨rfl, rfl⟩

end Cert.KernelIdeal.Lut

end
-- ==== Proof.KI.Run.lean ====
import proofs.«427008_j72404558676324_3_alg».proof.Proof.KI.Region0
import proofs.«427008_j72404558676324_3_alg».proof.Proof.KI.Region1
import proofs.«427008_j72404558676324_3_alg».proof.Proof.KI.Region2
import proofs.«427008_j72404558676324_3_alg».proof.Proof.KI.Keeps
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev B0_0 : Dev nD → Valuation τ sig (Elt F) := fun c b => (s₀ m ρ).mem ((c : Dev nD), b)

abbrev B0_1 : Dev nD → Valuation τ sig (Elt F) := fun c => StableHlo.after hostOps0 (B0_0 m ρ c)

abbrev B0_2 : Dev nD → Valuation τ sig (Elt F) := fun c => StableHlo.after hostOps0_1 (B0_1 m ρ c)

abbrev B0_3 : Dev nD → Valuation τ sig (Elt F) := fun c => StableHlo.after hostOps0_2 (B0_2 m ρ c)

abbrev B0_4 : Dev nD → Valuation τ sig (Elt F) := fun c => StableHlo.after hostOps0_3 (B0_3 m ρ c)

abbrev B0_5 : Dev nD → Valuation τ sig (Elt F) := fun c => StableHlo.after hostOps0_4 (B0_4 m ρ c)

abbrev VE0 : (c : Dev nD) → (b : Ref sig .tc) → Buf (Elt F) ((c : Thread nD τ).loc b) := fun c b => B0_5 m ρ c b

def X0 (c : Dev nD) : Valuation τ sig (Elt F) :=
  Pipeline.withArrays spec0 c (B0_5 m ρ c) fun w => (dat0 (VE0 m ρ) c).arrAt w cfg0.N
theorem X0_arr (c : Dev nD) (w : Fin cfg0.W) :
    X0 m ρ c (Proc.devRef .tc (Pipeline.arrRef spec0 w)) = (dat0 (VE0 m ρ) c).arrAt w cfg0.N := by
  unfold X0; exact Pipeline.withArrays_arr spec0 launch0.win.arr_inj c _ _ w
theorem X0_of_ne (c : Dev nD) (b : Ref sig .tc) (hb : ∀ w, Pipeline.arrRef spec0 w ≠ b) :
    X0 m ρ c (Proc.devRef .tc b) = B0_5 m ρ c (Proc.devRef .tc b) := by
  unfold X0; exact Pipeline.withArrays_of_ne spec0 c _ _ b hb

abbrev VX0 : (c : Dev nD) → (b : Ref sig .tc) → Buf (Elt F) ((c : Thread nD τ).loc b) := fun c b => X0 m ρ c b
theorem hF0 (c : Dev nD) (w : Fin cfg0.W) : (dat0 (VE0 m ρ) c).arrAt w cfg0.N = VX0 m ρ c (Pipeline.arrRef spec0 w) :=
  (X0_arr m ρ c w).symm
theorem hrest0 (c : Dev nD) : ∀ b, b ∉ Finset.univ.image (Pipeline.arrRef spec0) → VX0 m ρ c b = VE0 m ρ c b :=
  fun b hb => X0_of_ne m ρ c b fun w e => hb (Finset.mem_image.mpr ⟨w, Finset.mem_univ _, e⟩)

abbrev B1_0 : Dev nD → Valuation τ sig (Elt F) := fun c => X0 m ρ c

abbrev B1_1 : Dev nD → Valuation τ sig (Elt F) := fun c => StableHlo.after hostOps1 (B1_0 m ρ c)

abbrev B1_2 : Dev nD → Valuation τ sig (Elt F) := fun c => StableHlo.after hostOps1_1 (B1_1 m ρ c)

abbrev B1_3 : Dev nD → Valuation τ sig (Elt F) := fun c => StableHlo.after hostOps1_2 (B1_2 m ρ c)

abbrev B1_4 : Dev nD → Valuation τ sig (Elt F) := fun c => StableHlo.after hostOps1_3 (B1_3 m ρ c)

abbrev B1_5 : Dev nD → Valuation τ sig (Elt F) := fun c => StableHlo.after hostOps1_4 (B1_4 m ρ c)

abbrev VE1 : (c : Dev nD) → (b : Ref sig .tc) → Buf (Elt F) ((c : Thread nD τ).loc b) := fun c b => B1_5 m ρ c b

def X1 (c : Dev nD) : Valuation τ sig (Elt F) :=
  Pipeline.withArrays spec1 c (B1_5 m ρ c) fun w => (dat1 (VE1 m ρ) c).arrAt w cfg1.N
theorem X1_arr (c : Dev nD) (w : Fin cfg1.W) :
    X1 m ρ c (Proc.devRef .tc (Pipeline.arrRef spec1 w)) = (dat1 (VE1 m ρ) c).arrAt w cfg1.N := by
  unfold X1; exact Pipeline.withArrays_arr spec1 launch1.win.arr_inj c _ _ w
theorem X1_of_ne (c : Dev nD) (b : Ref sig .tc) (hb : ∀ w, Pipeline.arrRef spec1 w ≠ b) :
    X1 m ρ c (Proc.devRef .tc b) = B1_5 m ρ c (Proc.devRef .tc b) := by
  unfold X1; exact Pipeline.withArrays_of_ne spec1 c _ _ b hb

abbrev VX1 : (c : Dev nD) → (b : Ref sig .tc) → Buf (Elt F) ((c : Thread nD τ).loc b) := fun c b => X1 m ρ c b
theorem hF1 (c : Dev nD) (w : Fin cfg1.W) : (dat1 (VE1 m ρ) c).arrAt w cfg1.N = VX1 m ρ c (Pipeline.arrRef spec1 w) :=
  (X1_arr m ρ c w).symm
theorem hrest1 (c : Dev nD) : ∀ b, b ∉ Finset.univ.image (Pipeline.arrRef spec1) → VX1 m ρ c b = VE1 m ρ c b :=
  fun b hb => X1_of_ne m ρ c b fun w e => hb (Finset.mem_image.mpr ⟨w, Finset.mem_univ _, e⟩)

abbrev B2_0 : Dev nD → Valuation τ sig (Elt F) := fun c => X1 m ρ c

abbrev B2_1 : Dev nD → Valuation τ sig (Elt F) := fun c => StableHlo.after hostOps2 (B2_0 m ρ c)

abbrev B2_2 : Dev nD → Valuation τ sig (Elt F) := fun c => StableHlo.after hostOps2_1 (B2_1 m ρ c)

abbrev B2_3 : Dev nD → Valuation τ sig (Elt F) := fun c => StableHlo.after hostOps2_2 (B2_2 m ρ c)

abbrev B2_4 : Dev nD → Valuation τ sig (Elt F) := fun c => StableHlo.after hostOps2_3 (B2_3 m ρ c)

abbrev B2_5 : Dev nD → Valuation τ sig (Elt F) := fun c => StableHlo.after hostOps2_4 (B2_4 m ρ c)

abbrev VE2 : (c : Dev nD) → (b : Ref sig .tc) → Buf (Elt F) ((c : Thread nD τ).loc b) := fun c b => B2_5 m ρ c b

def X2 (c : Dev nD) : Valuation τ sig (Elt F) :=
  Pipeline.withArrays spec2 c (B2_5 m ρ c) fun w => (dat2 (VE2 m ρ) c).arrAt w cfg2.N
theorem X2_arr (c : Dev nD) (w : Fin cfg2.W) :
    X2 m ρ c (Proc.devRef .tc (Pipeline.arrRef spec2 w)) = (dat2 (VE2 m ρ) c).arrAt w cfg2.N := by
  unfold X2; exact Pipeline.withArrays_arr spec2 launch2.win.arr_inj c _ _ w
theorem X2_of_ne (c : Dev nD) (b : Ref sig .tc) (hb : ∀ w, Pipeline.arrRef spec2 w ≠ b) :
    X2 m ρ c (Proc.devRef .tc b) = B2_5 m ρ c (Proc.devRef .tc b) := by
  unfold X2; exact Pipeline.withArrays_of_ne spec2 c _ _ b hb

abbrev VX2 : (c : Dev nD) → (b : Ref sig .tc) → Buf (Elt F) ((c : Thread nD τ).loc b) := fun c b => X2 m ρ c b
theorem hF2 (c : Dev nD) (w : Fin cfg2.W) : (dat2 (VE2 m ρ) c).arrAt w cfg2.N = VX2 m ρ c (Pipeline.arrRef spec2 w) :=
  (X2_arr m ρ c w).symm
theorem hrest2 (c : Dev nD) : ∀ b, b ∉ Finset.univ.image (Pipeline.arrRef spec2) → VX2 m ρ c b = VE2 m ρ c b :=
  fun b hb => X2_of_ne m ρ c b fun w e => hb (Finset.mem_image.mpr ⟨w, Finset.mem_univ _, e⟩)

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (VE0 m ρ) c
  | ⟨1, _⟩ => fun c => dat1 (VE1 m ρ) c
  | ⟨2, _⟩ => fun c => dat2 (VE2 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (X2 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ L lv 0 fun _ _ => rfl
  pre c := iprop(StableHlo.held (c : Thread nD τ) (Pipeline.ucRefs τ sig) (B0_5 m ρ c) ∗ R c)
  post c := iprop(StableHlo.held (c : Thread nD τ) (Pipeline.ucRefs τ sig) (X0 m ρ c) ∗ R c)
  X c := iprop(∃ r, prngReg c r)
  Y c := iprop(∃ r, prngReg c r)
  Z c := Pipeline.unscopedRest (Ix := Unit) (Name := ℕ) (U := UR sig nD τ) (Lvl := ℕ) spec0 c (VE0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (VE0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VE0 m ρ c) (VX0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m ρ) c).loose
  hwaits := Pipeline.hwaits_of_owed_zero _ _ _ _ L lv 1 fun _ _ => rfl
  pre c := iprop(StableHlo.held (c : Thread nD τ) (Pipeline.ucRefs τ sig) (B1_5 m ρ c) ∗ R c)
  post c := iprop(StableHlo.held (c : Thread nD τ) (Pipeline.ucRefs τ sig) (X1 m ρ c) ∗ R c)
  X c := iprop(∃ r, prngReg c r)
  Y c := iprop(∃ r, prngReg c r)
  Z c := Pipeline.unscopedRest (Ix := Unit) (Name := ℕ) (U := UR sig nD τ) (Lvl := ℕ) spec1 c (VE1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VE1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (VE1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VE1 m ρ c) (VX1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VE2 m ρ) c).loose
  hwaits := Pipeline.hwaits_of_owed_zero _ _ _ _ L lv 2 fun _ _ => rfl
  pre c := iprop(StableHlo.held (c : Thread nD τ) (Pipeline.ucRefs τ sig) (B2_5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (VE2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (VE2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (VE2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (VE2 m ρ c) (VX2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [
    .host (hseg hostOps0 hostOps0_sub hostOps0_fresh (B0_0 m ρ)),
    .host (hseg hostOps0_1 hostOps0_1_sub hostOps0_1_fresh (B0_1 m ρ)),
    .host (hseg hostOps0_2 hostOps0_2_sub hostOps0_2_fresh (B0_2 m ρ)),
    .host (hseg hostOps0_3 hostOps0_3_sub hostOps0_3_fresh (B0_3 m ρ)),
    .host (hseg hostOps0_4 hostOps0_4_sub hostOps0_4_fresh (B0_4 m ρ)),
    .region (reg0 m ρ),
    .host (hseg hostOps1 hostOps1_sub hostOps1_fresh (B1_0 m ρ)),
    .host (hseg hostOps1_1 hostOps1_1_sub hostOps1_1_fresh (B1_1 m ρ)),
    .host (hseg hostOps1_2 hostOps1_2_sub hostOps1_2_fresh (B1_2 m ρ)),
    .host (hseg hostOps1_3 hostOps1_3_sub hostOps1_3_fresh (B1_3 m ρ)),
    .host (hseg hostOps1_4 hostOps1_4_sub hostOps1_4_fresh (B1_4 m ρ)),
    .region (reg1 m ρ),
    .host (hseg hostOps2 hostOps2_sub hostOps2_fresh (B2_0 m ρ)),
    .host (hseg hostOps2_1 hostOps2_1_sub hostOps2_1_fresh (B2_1 m ρ)),
    .host (hseg hostOps2_2 hostOps2_2_sub hostOps2_2_fresh (B2_2 m ρ)),
    .host (hseg hostOps2_3 hostOps2_3_sub hostOps2_3_fresh (B2_3 m ρ)),
    .host (hseg hostOps2_4 hostOps2_4_sub hostOps2_4_fresh (B2_4 m ρ)),
    .region (reg2 m ρ) ]

set_option maxHeartbeats 4000000 in
theorem main_run (c : Dev nD) : main (F := F) c = Pipeline.Seg.run (segs m ρ) := (main_chain c).trans (by chain_rfl)

set_option backward.isDefEq.respectTransparency.types false in
set_option maxHeartbeats 4000000 in
theorem run_main : θ_run defs (onTc (τ := τ) (main (F := F))) ⟨m, fun _ => 0, ρ⟩ (fun r => ∀ c : Dev nD,
      ∀ b ∈ Pipeline.ucRefs τ sig, r.2.mem (((c : Thread nD τ)).1, b) = X2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0_0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0_0 m ρ c)
        from Pipeline.unscopedBufs_held c (B0_0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X2 m ρ c b)
    (hfin := fun c s' => by
      iintro ⟨⟨Hh, -⟩, HSI⟩
      unfold StableHlo.held
      imodintro
      iapply (pointsTo_read_all (Pipeline.ucRefs τ sig) (fun b => (((c : Thread nD τ)).1, b)) (X2 m ρ c) s')
      isplitl [Hh] <;> iassumption)
    (hQ := fun s h c => h c)

end Cert.KernelIdeal.Lut

end
-- ==== Proof.KI.Frame.lean ====
import proofs.«427008_j72404558676324_3_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- Neither the host lines nor the launch write an argument array: each holds its initial contents after launch 0,
set_option maxHeartbeats 4000000 in
set_option maxRecDepth 16384 in
theorem arg_X0 (c : Dev nD) (a : Ref sig .tc) (ha : a ∈ argRefs) : X0 m ρ c (Proc.devRef .tc a) = m ((c : Thread nD τ).loc a) :=
  (X0_of_ne m ρ c a ((by decide : ∀ a ∈ argRefs, ∀ w, Pipeline.arrRef spec0 w ≠ a) a ha)).trans <|
  (keeps hostOps0_4_writes (by decide) (B0_4 m ρ c) ha).trans <|
  (keeps hostOps0_3_writes (by decide) (B0_3 m ρ c) ha).trans <|
  (keeps hostOps0_2_writes (by decide) (B0_2 m ρ c) ha).trans <|
  (keeps hostOps0_1_writes (by decide) (B0_1 m ρ c) ha).trans <|
  (keeps hostOps0_writes (by decide) (B0_0 m ρ c) ha).trans <|
  rfl

-- after launch 1,
set_option maxHeartbeats 4000000 in
set_option maxRecDepth 16384 in
theorem arg_X1 (c : Dev nD) (a : Ref sig .tc) (ha : a ∈ argRefs) : X1 m ρ c (Proc.devRef .tc a) = m ((c : Thread nD τ).loc a) :=
  (X1_of_ne m ρ c a ((by decide : ∀ a ∈ argRefs, ∀ w, Pipeline.arrRef spec1 w ≠ a) a ha)).trans <|
  (keeps hostOps1_4_writes (by decide) (B1_4 m ρ c) ha).trans <|
  (keeps hostOps1_3_writes (by decide) (B1_3 m ρ c) ha).trans <|
  (keeps hostOps1_2_writes (by decide) (B1_2 m ρ c) ha).trans <|
  (keeps hostOps1_1_writes (by decide) (B1_1 m ρ c) ha).trans <|
  (keeps hostOps1_writes (by decide) (B1_0 m ρ c) ha).trans <|
  arg_X0 m ρ c a ha

-- and after launch 2, the end of the program.
set_option maxHeartbeats 4000000 in
set_option maxRecDepth 16384 in
theorem arg_X2 (c : Dev nD) (a : Ref sig .tc) (ha : a ∈ argRefs) : X2 m ρ c (Proc.devRef .tc a) = m ((c : Thread nD τ).loc a) :=
  (X2_of_ne m ρ c a ((by decide : ∀ a ∈ argRefs, ∀ w, Pipeline.arrRef spec2 w ≠ a) a ha)).trans <|
  (keeps hostOps2_4_writes (by decide) (B2_4 m ρ c) ha).trans <|
  (keeps hostOps2_3_writes (by decide) (B2_3 m ρ c) ha).trans <|
  (keeps hostOps2_2_writes (by decide) (B2_2 m ρ c) ha).trans <|
  (keeps hostOps2_1_writes (by decide) (B2_1 m ρ c) ha).trans <|
  (keeps hostOps2_writes (by decide) (B2_0 m ρ c) ha).trans <|
  arg_X1 m ρ c a ha

-- Every fair execution ends without fault, the result array at the contents the three launches determine and the arguments unchanged.
theorem run_val : θ_run defs (onTc (τ := τ) (main (F := F))) ⟨m, fun _ => 0, ρ⟩ (fun r => ∀ c : Dev nD,
      r.2.mem ((c.tc : Thread nD τ).loc main_v165) = X2 m ρ c (Proc.devRef .tc main_v165)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_uc main_v165 (by decide)),
    (h c _ (mem_uc main_arg0 (by decide))).trans (arg_X2 m ρ c main_arg0 (by decide)),
    (h c _ (mem_uc main_arg1 (by decide))).trans (arg_X2 m ρ c main_arg1 (by decide)),
    (h c _ (mem_uc main_arg2 (by decide))).trans (arg_X2 m ρ c main_arg2 (by decide)),
    (h c _ (mem_uc main_arg3 (by decide))).trans (arg_X2 m ρ c main_arg3 (by decide)),
    (h c _ (mem_uc main_arg4 (by decide))).trans (arg_X2 m ρ c main_arg4 (by decide)),
    (h c _ (mem_uc main_arg5 (by decide))).trans (arg_X2 m ρ c main_arg5 (by decide)),
    (h c _ (mem_uc main_arg6 (by decide))).trans (arg_X2 m ρ c main_arg6 (by decide)),
    (h c _ (mem_uc main_arg7 (by decide))).trans (arg_X2 m ρ c main_arg7 (by decide))⟩)
    (run_main m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_val m ρ)

end Cert.KernelIdeal.Lut

end
-- ==== Proof.KPay.lean ====
import proofs.«427008_j72404558676324_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Lut.KPay

open Cert.KernelIdeal Cert.KernelIdeal.Gen Idealize.ShloMosaic Idealize.ShloMosaic.ValueIdx

theorem ofBits_one : Ideal.ofBits .f32 0x3F800000#32 = 1 := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ind_oeq (a b : EReal) :
    ((((Ideal.cmp .oeq a b).setWidth 32 : BitVec 32).toInt : ℝ) : EReal) = if a = b then 1 else 0 := by
  unfold Ideal.cmp
  by_cases h : a = b
  · simp [h]
  · simp [h]

theorem ind_ogt (a b : EReal) :
    ((((Ideal.cmp .ogt a b).setWidth 32 : BitVec 32).toInt : ℝ) : EReal) = if b < a then 1 else 0 := by
  unfold Ideal.cmp
  by_cases h : b < a
  · simp [h]
  · simp [h]

theorem ind_eqi (x y : BitVec 32) :
    ((((IntOp.cmpi .eq x y).setWidth 32 : BitVec 32).toInt : ℝ) : EReal) = if x = y then 1 else 0 := by
  unfold IntOp.cmpi
  by_cases h : x = y
  · subst h; simp
  · have hb : (x == y) = false := beq_eq_false_iff_ne.mpr h
    simp [h, hb]

theorem ofNat_inj128 (a b : Fin 128) : BitVec.ofNat 32 a.val = BitVec.ofNat 32 b.val ↔ a = b := by
  constructor
  · intro h
    have := congrArg BitVec.toNat h
    simp only [BitVec.toNat_ofNat] at this
    have ha := a.isLt; have hb := b.isLt
    exact Fin.ext (by omega)
  · rintro rfl; rfl

theorem col_apply (v : IVec S128x128 32) (n s k : Fin 128) :
    broadcastTo S128x128x128 (shapeCast S128x128x1 (shapeCast S128x128 v shapeCasts_S128x128_S128x128)
      shapeCasts_S128x128_S128x128x1) broadcasts_S128x128x1_S128x128x128 (ix3 n s k) = v (ix2 n s) := by
  rw [shapeCast_self]
  rw [broadcastTo_apply _ _ (ix3 n s k) (ix3 n s (0 : Fin 1)) (fun a => by
    match a with
    | ⟨0, _⟩ => rfl
    | ⟨1, _⟩ => rfl
    | ⟨2, _⟩ => rfl)]
  exact shapeCast_apply _ _ _ (ix2 n s) (by
    rw [Shape.rowMajor_val_three, Shape.rowMajor_val_two]
    show n.val * 128 + s.val = (n.val * 128 + s.val) * 1 + 0
    omega)

theorem lane_apply (n s k : Fin 128) :
    broadcastTo S128x128x128 (iota .tc S1x1x128 32 [2] iota_S1x1x128_d2_w32) broadcasts_S1x1x128_S128x128x128 (ix3 n s k)
      = BitVec.ofNat 32 k.val := by
  rw [broadcastTo_apply _ _ (ix3 n s k) (ix3 (0 : Fin 1) (0 : Fin 1) k) (fun a => by
    match a with
    | ⟨0, _⟩ => rfl
    | ⟨1, _⟩ => rfl
    | ⟨2, _⟩ => rfl)]
  rw [iota_single_apply]

theorem lift_eq (n s l : Fin 128) :
    reduces_S128x128x128_S128x128.lift (ix2 n s) l = ix3 n s l := by
  funext a
  refine Fin.ext ?_
  match a with
  | ⟨0, _⟩ => rfl
  | ⟨1, _⟩ => rfl
  | ⟨2, _⟩ => rfl

theorem lhs_mm_0 (i : S128x128x128.Idx) (q : dot_S128x128x128_S128x128x128_S128x128x128_2_1_1_2_0_0.contr.Idx) :
    (dot_S128x128x128_S128x128x128_S128x128x128_2_1_1_2_0_0.lhsIdx i q 0).val = (i 0).val := by
  unfold DotDims.lhsIdx
  rw [dif_pos (show (0 : Fin S128x128x128.rank) ∈ dot_S128x128x128_S128x128x128_S128x128x128_2_1_1_2_0_0.lhsBatch by decide)]
  rfl

theorem lhs_mm_1 (i : S128x128x128.Idx) (q : dot_S128x128x128_S128x128x128_S128x128x128_2_1_1_2_0_0.contr.Idx) :
    (dot_S128x128x128_S128x128x128_S128x128x128_2_1_1_2_0_0.lhsIdx i q 1).val = (i 1).val := by
  unfold DotDims.lhsIdx
  rw [dif_neg (show ¬(1 : Fin S128x128x128.rank) ∈ dot_S128x128x128_S128x128x128_S128x128x128_2_1_1_2_0_0.lhsBatch by decide),
    dif_pos (show (1 : Fin S128x128x128.rank) ∈ dot_S128x128x128_S128x128x128_S128x128x128_2_1_1_2_0_0.lhsNonContracting by decide)]
  rfl

theorem lhs_mm_2 (i : S128x128x128.Idx) (q : dot_S128x128x128_S128x128x128_S128x128x128_2_1_1_2_0_0.contr.Idx) :
    (dot_S128x128x128_S128x128x128_S128x128x128_2_1_1_2_0_0.lhsIdx i q 2).val = (q ⟨0, by decide⟩).val :=
  dot_S128x128x128_S128x128x128_S128x128x128_2_1_1_2_0_0.lhsIdx_val_of_single rfl i q

theorem rhs_mm_0 (i : S128x128x128.Idx) (q : dot_S128x128x128_S128x128x128_S128x128x128_2_1_1_2_0_0.contr.Idx) :
    (dot_S128x128x128_S128x128x128_S128x128x128_2_1_1_2_0_0.rhsIdx i q 0).val = (i 0).val := by
  unfold DotDims.rhsIdx
  rw [dif_pos (show (0 : Fin S128x128x128.rank) ∈ dot_S128x128x128_S128x128x128_S128x128x128_2_1_1_2_0_0.rhsBatch by decide)]
  rfl

theorem rhs_mm_1 (i : S128x128x128.Idx) (q : dot_S128x128x128_S128x128x128_S128x128x128_2_1_1_2_0_0.contr.Idx) :
    (dot_S128x128x128_S128x128x128_S128x128x128_2_1_1_2_0_0.rhsIdx i q 1).val = (q ⟨0, by decide⟩).val :=
  dot_S128x128x128_S128x128x128_S128x128x128_2_1_1_2_0_0.rhsIdx_val_of_single rfl i q

theorem rhs_mm_2 (i : S128x128x128.Idx) (q : dot_S128x128x128_S128x128x128_S128x128x128_2_1_1_2_0_0.contr.Idx) :
    (dot_S128x128x128_S128x128x128_S128x128x128_2_1_1_2_0_0.rhsIdx i q 2).val = (i 2).val := by
  unfold DotDims.rhsIdx
  rw [dif_neg (show ¬(2 : Fin S128x128x128.rank) ∈ dot_S128x128x128_S128x128x128_S128x128x128_2_1_1_2_0_0.rhsBatch by decide),
    dif_pos (show (2 : Fin S128x128x128.rank) ∈ dot_S128x128x128_S128x128x128_S128x128x128_2_1_1_2_0_0.rhsNonContracting by decide)]
  rfl

theorem mm_apply (A B : FVec Ideal S128x128x128 .bf16) (n s l : Fin 128) :
    matmul dot_S128x128x128_S128x128x128_S128x128x128_2_1_1_2_0_0 none A B (constant (F := Ideal) S128x128x128 .f32 0x00000000#32)
      (ix3 n s l) = ∑ k : Fin 128, A (ix3 n s k) * B (ix3 n k l) := by
  simp only [matmul]
  rw [Ideal.matmul_constant_zero_apply,
    ← Equiv.sum_comp (contrEquiv1 dot_S128x128x128_S128x128x128_S128x128x128_2_1_1_2_0_0 128 rfl rfl).symm]
  refine Finset.sum_congr rfl fun k _ => ?_
  have hk := contrEquiv1_symm_val dot_S128x128x128_S128x128x128_S128x128x128_2_1_1_2_0_0 128 rfl rfl k
  have el : dot_S128x128x128_S128x128x128_S128x128x128_2_1_1_2_0_0.lhsIdx (ix3 n s l)
      ((contrEquiv1 dot_S128x128x128_S128x128x128_S128x128x128_2_1_1_2_0_0 128 rfl rfl).symm k) = ix3 n s k :=
    funext fun a => Fin.ext (by
      match a with
      | ⟨0, _⟩ => exact lhs_mm_0 _ _
      | ⟨1, _⟩ => exact lhs_mm_1 _ _
      | ⟨2, _⟩ => exact (lhs_mm_2 _ _).trans hk)
  have er : dot_S128x128x128_S128x128x128_S128x128x128_2_1_1_2_0_0.rhsIdx (ix3 n s l)
      ((contrEquiv1 dot_S128x128x128_S128x128x128_S128x128x128_2_1_1_2_0_0 128 rfl rfl).symm k) = ix3 n k l :=
    funext fun a => Fin.ext (by
      match a with
      | ⟨0, _⟩ => exact rhs_mm_0 _ _
      | ⟨1, _⟩ => exact (rhs_mm_1 _ _).trans hk
      | ⟨2, _⟩ => exact rhs_mm_2 _ _)
  rw [el, er]

theorem cmpi_apply {s : Shape} {w : ℕ} (p : CmpIPredicate) (x y : IVec s w) (i : s.Idx) :
    cmpi p x y i = IntOp.cmpi p (x i) (y i) := rfl

theorem select_eqi {α : Type} (x y : BitVec 32) (a b : α) :
    Scalar.select (IntOp.cmpi .eq x y) a b = if x = y then a else b := by
  unfold Scalar.select IntOp.cmpi
  by_cases h : x = y
  · subst h; simp
  · have hb : (x == y) = false := beq_eq_false_iff_ne.mpr h
    simp [h, hb]

theorem lanesum_apply (src : FVec Ideal S128x128x128 .f32) (hφ : FKind.Formats .f32)
    (hacc : (0x00000000#32 : BitVec 32) = FKind.add.neutral .f32 hφ) (n s : Fin 128) :
    multiReduction (F := Ideal) .add [2] S128x128 src 0x00000000#32 reduces_S128x128x128_S128x128 hφ hacc (ix2 n s)
      = ∑ l : Fin 128, src (ix3 n s l) := by
  refine (Ideal.multiReduction_add_single src 0x00000000#32 reduces_S128x128x128_S128x128 hφ hacc (ix2 n s)).trans ?_
  exact Finset.sum_congr rfl fun l _ => congrArg src (lift_eq n s l)

def hot (v : IVec S128x128 32) : IVec S128x128x128 1 :=
  cmpi .eq
    (broadcastTo S128x128x128 (shapeCast S128x128x1 (shapeCast S128x128 v shapeCasts_S128x128_S128x128)
      shapeCasts_S128x128_S128x128x1) broadcasts_S128x128x1_S128x128x128)
    (broadcastTo S128x128x128 (iota .tc S1x1x128 32 [2] iota_S1x1x128_d2_w32) broadcasts_S1x1x128_S128x128x128)

theorem hot_apply (v : IVec S128x128 32) (n s k : Fin 128) :
    hot v (ix3 n s k) = IntOp.cmpi .eq (v (ix2 n s)) (BitVec.ofNat 32 k.val) := by
  unfold hot
  rw [cmpi_apply, col_apply, lane_apply]

def picked (v3 v5 : IVec S128x128 32) (v16 : FVec Ideal S128x128x128 .bf16) : FVec Ideal S128x128 .f32 :=
  multiReduction (F := Ideal) .add [2] S128x128
    (select (hot v5)
      (matmul dot_S128x128x128_S128x128x128_S128x128x128_2_1_1_2_0_0 none
        (truncf .bf16 (sitofp (F := Ideal) .f32 (extui 32 (hot v3) natLt_1_32)) bitsLt_bf16_f32) v16
        (constant (F := Ideal) S128x128x128 .f32 0x00000000#32))
      (broadcast S128x128x128 (Scalar.ofBits (F := Ideal) .f32 0x00000000#32)))
    0x00000000#32 reduces_S128x128x128_S128x128 (.inl rfl) rfl

theorem picked_apply (v3 v5 : IVec S128x128 32) (v16 : FVec Ideal S128x128x128 .bf16) (n s h l : Fin 128)
    (h1 : v3 (ix2 n s) = BitVec.ofNat 32 h.val) (h2 : v5 (ix2 n s) = BitVec.ofNat 32 l.val) :
    picked v3 v5 v16 (ix2 n s) = v16 (ix3 n h l) := by
  unfold picked
  refine (lanesum_apply _ _ _ n s).trans ?_
  have hterm : ∀ l' : Fin 128,
      select (hot v5)
        (matmul dot_S128x128x128_S128x128x128_S128x128x128_2_1_1_2_0_0 none
          (truncf .bf16 (sitofp (F := Ideal) .f32 (extui 32 (hot v3) natLt_1_32)) bitsLt_bf16_f32) v16
          (constant (F := Ideal) S128x128x128 .f32 0x00000000#32))
        (broadcast S128x128x128 (Scalar.ofBits (F := Ideal) .f32 0x00000000#32)) (ix3 n s l')
        = if l = l' then v16 (ix3 n h l') else 0 := by
    intro l'
    rw [select_apply, hot_apply, h2, select_eqi, mm_apply, broadcast_apply]
    have hz : Scalar.ofBits (F := Ideal) .f32 0x00000000#32 = (0 : EReal) := Ideal.ofBits_zero_f32
    rw [hz]
    have hsum : ∑ k : Fin 128, (truncf .bf16 (sitofp (F := Ideal) .f32 (extui 32 (hot v3) natLt_1_32)) bitsLt_bf16_f32) (ix3 n s k)
        * v16 (ix3 n k l') = v16 (ix3 n h l') := by
      have hk : ∀ k : Fin 128, (truncf .bf16 (sitofp (F := Ideal) .f32 (extui 32 (hot v3) natLt_1_32)) bitsLt_bf16_f32) (ix3 n s k)
          = if h = k then (1 : EReal) else 0 := by
        intro k
        rw [truncf_apply, sitofp_apply, extui_apply, hot_apply, h1]
        refine (ind_eqi _ _).trans ?_
        simp only [ofNat_inj128]
      simp only [hk, ite_mul, one_mul, zero_mul, Finset.sum_ite_eq, Finset.mem_univ, if_true]
    rw [hsum]
    simp only [ofNat_inj128]
  simp only [hterm, Finset.sum_ite_eq, Finset.mem_univ, if_true]

def core (v3 v5 : IVec S128x128 32) (v16 : FVec Ideal S128x128x128 .bf16) : FVec Ideal S128x128 .f32 :=
  sitofp (F := Ideal) .f32 (extui 32 (cmpf .ogt (picked v3 v5 v16)
    (broadcast S128x128 (Scalar.ofBits (F := Ideal) .f32 0x3F000000#32))) natLt_1_32)

theorem core_apply (v3 v5 : IVec S128x128 32) (v16 : FVec Ideal S128x128x128 .bf16) (n s h l : Fin 128)
    (h1 : v3 (ix2 n s) = BitVec.ofNat 32 h.val) (h2 : v5 (ix2 n s) = BitVec.ofNat 32 l.val) :
    core v3 v5 v16 (ix2 n s) = if ((1 / 2 : ℝ) : EReal) < v16 (ix3 n h l) then 1 else 0 := by
  unfold core
  rw [sitofp_apply, extui_apply, cmpf_apply, broadcast_apply, picked_apply v3 v5 v16 n s h l h1 h2]
  refine (ind_ogt _ _).trans ?_
  have hc : Scalar.ofBits (F := Ideal) .f32 0x3F000000#32 = ((1 / 2 : ℝ) : EReal) := ofBits_half
  rw [hc]

def bin (x0 : FVec Ideal S128x128x128 .f32) : FVec Ideal S128x128x128 .bf16 :=
  truncf .bf16 (sitofp (F := Ideal) .f32 (extui 32 (cmpf .oeq x0
    (broadcast S128x128x128 (Scalar.ofBits (F := Ideal) .f32 0x3F800000#32))) natLt_1_32)) bitsLt_bf16_f32

theorem bin_apply (x0 : FVec Ideal S128x128x128 .f32) (i : S128x128x128.Idx) :
    bin x0 i = if x0 i = (1 : EReal) then (1 : EReal) else 0 := by
  unfold bin
  rw [truncf_apply, sitofp_apply, extui_apply, cmpf_apply, broadcast_apply]
  refine (ind_oeq _ _).trans ?_
  have hc : Scalar.ofBits (F := Ideal) .f32 0x3F800000#32 = (1 : EReal) := ofBits_one
  rw [hc]

theorem half_lt_one : ((1 / 2 : ℝ) : EReal) < 1 := by
  rw [← EReal.coe_one, EReal.coe_lt_coe_iff]; norm_num

theorem not_half_lt_zero : ¬ ((1 / 2 : ℝ) : EReal) < 0 := by
  rw [← EReal.coe_zero, EReal.coe_lt_coe_iff]; norm_num

theorem core_bin_apply (x0 : FVec Ideal S128x128x128 .f32) (v3 v5 : IVec S128x128 32) (n s h l : Fin 128)
    (h1 : v3 (ix2 n s) = BitVec.ofNat 32 h.val) (h2 : v5 (ix2 n s) = BitVec.ofNat 32 l.val) :
    core v3 v5 (bin x0) (ix2 n s) = if x0 (ix3 n h l) = (1 : EReal) then (1 : EReal) else 0 := by
  rw [core_apply v3 v5 (bin x0) n s h l h1 h2, bin_apply]
  by_cases hc : x0 (ix3 n h l) = 1
  · rw [if_pos hc, if_pos half_lt_one]
  · rw [if_neg hc, if_neg not_half_lt_zero]

theorem k0_pay1_eq (x0 : Vec Ideal S128x128x128 .f32) : k0_pay1 (F := Ideal) x0 = bin x0 := by
  unfold k0_pay1 bin
  simp only [shapeCast_self]

theorem k0_pay2_eq (v3 v5 : Vec Ideal S128x128 .i32) (v16 : Vec Ideal S128x128x128 .bf16) :
    k0_pay2 (F := Ideal) v3 v5 v16
      = truncf .bf16 (transpose S128x128 [1, 0] (core v3 v5 v16) transposes_S128x128_p1_0_S128x128) bitsLt_bf16_f32 := rfl

theorem pay0_apply (x0 : Vec Ideal S128x128x128 .f32) (x1 x2 : Vec Ideal S128x128 .i32) (p q : Fin 128) (h l : Fin 128)
    (h1 : x1 (ix2 q p) = BitVec.ofNat 32 h.val) (h2 : x2 (ix2 q p) = BitVec.ofNat 32 l.val) :
    k0_pay2 (F := Ideal) x1 x2 (k0_pay1 (F := Ideal) x0) (ix2 p q)
      = if x0 (ix3 q h l) = (1 : EReal) then (1 : EReal) else 0 := by
  rw [k0_pay1_eq, k0_pay2_eq, truncf_apply]
  refine (transpose_ix2_apply _ _ p q).trans ?_
  exact core_bin_apply x0 x1 x2 q p h l h1 h2

theorem k1_pay1_eq (x0 : Vec Ideal S128x128x128 .f32) : k1_pay1 (F := Ideal) x0 = bin x0 := by
  unfold k1_pay1 bin
  simp only [shapeCast_self]

theorem k1_pay2_eq (v3 v5 : Vec Ideal S128x128 .i32) (v16 : Vec Ideal S128x128x128 .bf16) :
    k1_pay2 (F := Ideal) v3 v5 v16
      = truncf .bf16 (transpose S128x128 [1, 0] (core v3 v5 v16) transposes_S128x128_p1_0_S128x128) bitsLt_bf16_f32 := rfl

theorem pay1_apply (x0 : Vec Ideal S128x128x128 .f32) (x1 x2 : Vec Ideal S128x128 .i32) (p q : Fin 128) (h l : Fin 128)
    (h1 : x1 (ix2 q p) = BitVec.ofNat 32 h.val) (h2 : x2 (ix2 q p) = BitVec.ofNat 32 l.val) :
    k1_pay2 (F := Ideal) x1 x2 (k1_pay1 (F := Ideal) x0) (ix2 p q)
      = if x0 (ix3 q h l) = (1 : EReal) then (1 : EReal) else 0 := by
  rw [k1_pay1_eq, k1_pay2_eq, truncf_apply]
  refine (transpose_ix2_apply _ _ p q).trans ?_
  exact core_bin_apply x0 x1 x2 q p h l h1 h2

theorem k2_pay1_eq (x0 : Vec Ideal S128x128x128 .f32) : k2_pay1 (F := Ideal) x0 = bin x0 := by
  unfold k2_pay1 bin
  simp only [shapeCast_self]

theorem k2_pay2_eq (v3 v5 : Vec Ideal S128x128 .i32) (v16 : Vec Ideal S128x128x128 .bf16) :
    k2_pay2 (F := Ideal) v3 v5 v16
      = transpose S128x128 [1, 0] (core v3 v5 v16) transposes_S128x128_p1_0_S128x128 := rfl

theorem pay2_apply (x0 : Vec Ideal S128x128x128 .f32) (x1 x2 : Vec Ideal S128x128 .i32) (p q : Fin 128) (h l : Fin 128)
    (h1 : x1 (ix2 q p) = BitVec.ofNat 32 h.val) (h2 : x2 (ix2 q p) = BitVec.ofNat 32 l.val) :
    k2_pay2 (F := Ideal) x1 x2 (k2_pay1 (F := Ideal) x0) (ix2 p q)
      = if x0 (ix3 q h l) = (1 : EReal) then (1 : EReal) else 0 := by
  rw [k2_pay1_eq, k2_pay2_eq]
  refine (transpose_ix2_apply _ _ p q).trans ?_
  exact core_bin_apply x0 x1 x2 q p h l h1 h2

end Cert.Lut.KPay

end
-- ==== Proof.KI.Cover0.lean ====
import proofs.«427008_j72404558676324_3_alg».proof.Proof.KI.Region0
import proofs.«427008_j72404558676324_3_alg».proof.Proof.KPay
import Idealize.ShloMosaic.Lib.Pipeline.Value
import Idealize.ShloMosaic.Lib.ValueIdx

set_option maxRecDepth 16384

noncomputable section

namespace Cert.KernelIdeal.Lut

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

section
variable (V : (c : Dev nD) → (b : Ref sig .tc) → Buf (Elt Ideal) ((c : Thread nD τ).loc b))

def ptOf0 (i : S2048x2048.Idx) : Fin cfg0.N :=
  ⟨16 * ((i 1).val / 128) + (i 0).val / 128, by
    have hN : cfg0.N = 256 := N_0
    have h0 : (i 0).val < 2048 := idx2_lt0 i
    have h1 : (i 1).val < 2048 := idx2_lt1 i
    omega⟩

def locOf0 (i : S2048x2048.Idx) : S128x128.Idx :=
  ix2 (⟨(i 0).val % 128, Nat.mod_lt _ (by decide)⟩ : Fin 128) (⟨(i 1).val % 128, Nat.mod_lt _ (by decide)⟩ : Fin 128)

def G0 (c : Dev nD) : S2048x2048.Idx → Elt Ideal .bf16 := fun i => tile0 V c (ptOf0 i) (locOf0 i)

theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  funext y
  show tile0 V c t _ = G0 V c (((cfg0.win 3).blk t).view.emb y)
  unfold G0
  obtain ⟨-, -, -, -, -, -, -, h30, h31⟩ := idx_facts0 t
  have hN : t.val < 256 := lt_of_lt_of_eq t.isLt (show cfg0.N = 256 from N_0)
  have hy0 : (y 0).val < 128 := (y 0).isLt
  have hy1 : (y 1).val < 128 := (y 1).isLt
  have ht : ptOf0 (((cfg0.win 3).blk t).view.emb y) = t := Fin.ext (by
    show 16 * ((win0_3.index t (1 : Fin 2) * 128 + 1 * (y 1).val) / 128) + (win0_3.index t (0 : Fin 2) * 128 + 1 * (y 0).val) / 128 = t.val
    rw [h30, h31]; omega)
  rw [ht]
  refine congrArg (tile0 V c t) (funext fun a => Fin.ext ?_)
  match a with
  | ⟨0, _⟩ => show (y 0).val = (win0_3.index t (0 : Fin 2) * 128 + 1 * (y 0).val) % 128; omega
  | ⟨1, _⟩ => show (y 1).val = (win0_3.index t (1 : Fin 2) * 128 + 1 * (y 1).val) % 128; omega

theorem mem_blk0 (t : Fin cfg0.N) (i : S2048x2048.Idx) :
    i ∈ ((cfg0.win 3).blk t).view.set ↔ ∀ a : Fin 2, win0_3.index t a * S128x128.size a ≤ (i a).val
      ∧ (i a).val < win0_3.index t a * S128x128.size a + S128x128.size a := by
  show i ∈ ((View.whole main_v54).slice (win0_3.rect t)).set ↔ _
  rw [View.set_slice_whole, Rect.mem_set_unit]
  exact Iff.rfl

theorem cover0 (i : S2048x2048.Idx) :
    ∃ t : Fin cfg0.N, (cfg0.win 3).flush t = true ∧ i ∈ ((cfg0.win 3).blk t).view.set := by
  refine ⟨ptOf0 i, flush0_3 _, ?_⟩
  rw [mem_blk0]
  obtain ⟨-, -, -, -, -, -, -, h30, h31⟩ := idx_facts0 (ptOf0 i)
  have h0 : (i 0).val < 2048 := idx2_lt0 i
  have h1 : (i 1).val < 2048 := idx2_lt1 i
  have hv : (ptOf0 i).val = 16 * ((i 1).val / 128) + (i 0).val / 128 := rfl
  intro a
  match a with
  | ⟨0, _⟩ =>
    show win0_3.index (ptOf0 i) (0 : Fin 2) * 128 ≤ (i 0).val ∧ (i 0).val < win0_3.index (ptOf0 i) (0 : Fin 2) * 128 + 128
    rw [h30, hv]; omega
  | ⟨1, _⟩ =>
    show win0_3.index (ptOf0 i) (1 : Fin 2) * 128 ≤ (i 1).val ∧ (i 1).val < win0_3.index (ptOf0 i) (1 : Fin 2) * 128 + 128
    rw [h31, hv]; omega

-- The tiles written at the grid points partition the result array, so it is G0 entry by entry.
theorem final0 (c : Dev nD) : (dat0 V c).arrAt 3 cfg0.N = G0 V c :=
  (dat0 V c).arrAt_eq_of_cover 3 (G0 V c) (fun t _ => flushed0_eq V c t) cover0

theorem iblk0_1_apply (c : Dev nD) (t : Fin cfg0.N) (y : S128x128.Idx) (k : S2048x2048.Idx)
    (hk0 : (k 0).val = 128 * (t.val / 16) + (y 0).val) (hk1 : (k 1).val = 128 * (t.val % 16) + (y 1).val) :
    iblk0 V c 1 t y = V c (Pipeline.arrRef spec0 1) k := by
  unfold iblk0
  show V c (Pipeline.arrRef spec0 1) (((cfg0.win 1).blk t).view.emb y) = V c (Pipeline.arrRef spec0 1) k
  refine congrArg _ (funext fun a => Fin.ext ?_)
  obtain ⟨-, -, -, h10, h11, -⟩ := idx_facts0 t
  match a with
  | ⟨0, _⟩ => show win0_1.index t (0 : Fin 2) * 128 + 1 * (y 0).val = (k 0).val; rw [h10, hk0]; omega
  | ⟨1, _⟩ => show win0_1.index t (1 : Fin 2) * 128 + 1 * (y 1).val = (k 1).val; rw [h11, hk1]; omega

theorem iblk0_2_apply (c : Dev nD) (t : Fin cfg0.N) (y : S128x128.Idx) (k : S2048x2048.Idx)
    (hk0 : (k 0).val = 128 * (t.val / 16) + (y 0).val) (hk1 : (k 1).val = 128 * (t.val % 16) + (y 1).val) :
    iblk0 V c 2 t y = V c (Pipeline.arrRef spec0 2) k := by
  unfold iblk0
  show V c (Pipeline.arrRef spec0 2) (((cfg0.win 2).blk t).view.emb y) = V c (Pipeline.arrRef spec0 2) k
  refine congrArg _ (funext fun a => Fin.ext ?_)
  obtain ⟨-, -, -, -, -, h20, h21, -⟩ := idx_facts0 t
  match a with
  | ⟨0, _⟩ => show win0_2.index t (0 : Fin 2) * 128 + 1 * (y 0).val = (k 0).val; rw [h20, hk0]; omega
  | ⟨1, _⟩ => show win0_2.index t (1 : Fin 2) * 128 + 1 * (y 1).val = (k 1).val; rw [h21, hk1]; omega

theorem arr0_apply (c : Dev nD) (b : Fin 2048) (n : Fin 2048) (h l : Fin 128)
    (hh : V c (Pipeline.arrRef spec0 1) (ix2 n b) = BitVec.ofNat 32 h.val)
    (hl : V c (Pipeline.arrRef spec0 2) (ix2 n b) = BitVec.ofNat 32 l.val) :
    (dat0 (F := Ideal) V c).arrAt 3 cfg0.N (ix2 b n)
      = if V c (Pipeline.arrRef spec0 0) (ix3 n h l) = (1 : EReal) then (1 : EReal) else 0 := by
  rw [final0]
  have hb : b.val < 2048 := b.isLt
  have hn : n.val < 2048 := n.isLt
  have hv : (ptOf0 (ix2 b n)).val = 16 * (n.val / 128) + b.val / 128 := rfl
  have hp : b.val % 128 < 128 := Nat.mod_lt _ (by decide)
  have hq : n.val % 128 < 128 := Nat.mod_lt _ (by decide)
  unfold G0 tile0 fire0
  refine (_root_.Cert.Lut.KPay.pay0_apply (memRow0 V c (rowN0 (ptOf0 (ix2 b n)).val)) (iblk0 V c 1 (ptOf0 (ix2 b n)))
    (iblk0 V c 2 (ptOf0 (ix2 b n))) ⟨b.val % 128, hp⟩ ⟨n.val % 128, hq⟩ h l ?_ ?_).trans ?_
  · rw [iblk0_1_apply V c (ptOf0 (ix2 b n)) _ (ix2 n b)
      (by show n.val = 128 * ((ptOf0 (ix2 b n)).val / 16) + n.val % 128; rw [hv]; omega)
      (by show b.val = 128 * ((ptOf0 (ix2 b n)).val % 16) + b.val % 128; rw [hv]; omega)]
    exact hh
  · rw [iblk0_2_apply V c (ptOf0 (ix2 b n)) _ (ix2 n b)
      (by show n.val = 128 * ((ptOf0 (ix2 b n)).val / 16) + n.val % 128; rw [hv]; omega)
      (by show b.val = 128 * ((ptOf0 (ix2 b n)).val % 16) + b.val % 128; rw [hv]; omega)]
    exact hl
  · have hx0 : memRow0 V c (rowN0 (ptOf0 (ix2 b n)).val) (ix3 (⟨n.val % 128, hq⟩ : Fin 128) h l)
        = V c (Pipeline.arrRef spec0 0) (ix3 n h l) := by
      unfold memRow0
      refine congrArg _ (funext fun a => Fin.ext ?_)
      match a with
      | ⟨0, _⟩ =>
        show 128 * (((ptOf0 (ix2 b n)).val / 16) % 16) + n.val % 128 = n.val
        rw [hv]; omega
      | ⟨1, _⟩ => rfl
      | ⟨2, _⟩ => rfl
    rw [hx0]

end

end Cert.KernelIdeal.Lut

end
-- ==== Proof.KI.Cover1.lean ====
import proofs.«427008_j72404558676324_3_alg».proof.Proof.KI.Region1
import proofs.«427008_j72404558676324_3_alg».proof.Proof.KPay
import Idealize.ShloMosaic.Lib.Pipeline.Value
import Idealize.ShloMosaic.Lib.ValueIdx

set_option maxRecDepth 16384

noncomputable section

namespace Cert.KernelIdeal.Lut

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

section
variable (V : (c : Dev nD) → (b : Ref sig .tc) → Buf (Elt Ideal) ((c : Thread nD τ).loc b))

def ptOf1 (i : S2048x1024.Idx) : Fin cfg1.N :=
  ⟨16 * ((i 1).val / 128) + (i 0).val / 128, by
    have hN : cfg1.N = 128 := N_1
    have h0 : (i 0).val < 2048 := idx2_lt0 i
    have h1 : (i 1).val < 1024 := idx2_lt1 i
    omega⟩

def locOf1 (i : S2048x1024.Idx) : S128x128.Idx :=
  ix2 (⟨(i 0).val % 128, Nat.mod_lt _ (by decide)⟩ : Fin 128) (⟨(i 1).val % 128, Nat.mod_lt _ (by decide)⟩ : Fin 128)

def G1 (c : Dev nD) : S2048x1024.Idx → Elt Ideal .bf16 := fun i => tile1 V c (ptOf1 i) (locOf1 i)

theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  funext y
  show tile1 V c t _ = G1 V c (((cfg1.win 3).blk t).view.emb y)
  unfold G1
  obtain ⟨-, -, -, -, -, -, -, h30, h31⟩ := idx_facts1 t
  have hN : t.val < 128 := lt_of_lt_of_eq t.isLt (show cfg1.N = 128 from N_1)
  have hy0 : (y 0).val < 128 := (y 0).isLt
  have hy1 : (y 1).val < 128 := (y 1).isLt
  have ht : ptOf1 (((cfg1.win 3).blk t).view.emb y) = t := Fin.ext (by
    show 16 * ((win1_3.index t (1 : Fin 2) * 128 + 1 * (y 1).val) / 128) + (win1_3.index t (0 : Fin 2) * 128 + 1 * (y 0).val) / 128 = t.val
    rw [h30, h31]; omega)
  rw [ht]
  refine congrArg (tile1 V c t) (funext fun a => Fin.ext ?_)
  match a with
  | ⟨0, _⟩ => show (y 0).val = (win1_3.index t (0 : Fin 2) * 128 + 1 * (y 0).val) % 128; omega
  | ⟨1, _⟩ => show (y 1).val = (win1_3.index t (1 : Fin 2) * 128 + 1 * (y 1).val) % 128; omega

theorem mem_blk1 (t : Fin cfg1.N) (i : S2048x1024.Idx) :
    i ∈ ((cfg1.win 3).blk t).view.set ↔ ∀ a : Fin 2, win1_3.index t a * S128x128.size a ≤ (i a).val
      ∧ (i a).val < win1_3.index t a * S128x128.size a + S128x128.size a := by
  show i ∈ ((View.whole main_v110).slice (win1_3.rect t)).set ↔ _
  rw [View.set_slice_whole, Rect.mem_set_unit]
  exact Iff.rfl

theorem cover1 (i : S2048x1024.Idx) :
    ∃ t : Fin cfg1.N, (cfg1.win 3).flush t = true ∧ i ∈ ((cfg1.win 3).blk t).view.set := by
  refine ⟨ptOf1 i, flush1_3 _, ?_⟩
  rw [mem_blk1]
  obtain ⟨-, -, -, -, -, -, -, h30, h31⟩ := idx_facts1 (ptOf1 i)
  have h0 : (i 0).val < 2048 := idx2_lt0 i
  have h1 : (i 1).val < 1024 := idx2_lt1 i
  have hv : (ptOf1 i).val = 16 * ((i 1).val / 128) + (i 0).val / 128 := rfl
  intro a
  match a with
  | ⟨0, _⟩ =>
    show win1_3.index (ptOf1 i) (0 : Fin 2) * 128 ≤ (i 0).val ∧ (i 0).val < win1_3.index (ptOf1 i) (0 : Fin 2) * 128 + 128
    rw [h30, hv]; omega
  | ⟨1, _⟩ =>
    show win1_3.index (ptOf1 i) (1 : Fin 2) * 128 ≤ (i 1).val ∧ (i 1).val < win1_3.index (ptOf1 i) (1 : Fin 2) * 128 + 128
    rw [h31, hv]; omega

-- The tiles written at the grid points partition the result array, so it is G1 entry by entry.
theorem final1 (c : Dev nD) : (dat1 V c).arrAt 3 cfg1.N = G1 V c :=
  (dat1 V c).arrAt_eq_of_cover 3 (G1 V c) (fun t _ => flushed1_eq V c t) cover1

theorem iblk1_1_apply (c : Dev nD) (t : Fin cfg1.N) (y : S128x128.Idx) (k : S1024x2048.Idx)
    (hk0 : (k 0).val = 128 * (t.val / 16) + (y 0).val) (hk1 : (k 1).val = 128 * (t.val % 16) + (y 1).val) :
    iblk1 V c 1 t y = V c (Pipeline.arrRef spec1 1) k := by
  unfold iblk1
  show V c (Pipeline.arrRef spec1 1) (((cfg1.win 1).blk t).view.emb y) = V c (Pipeline.arrRef spec1 1) k
  refine congrArg _ (funext fun a => Fin.ext ?_)
  obtain ⟨-, -, -, h10, h11, -⟩ := idx_facts1 t
  match a with
  | ⟨0, _⟩ => show win1_1.index t (0 : Fin 2) * 128 + 1 * (y 0).val = (k 0).val; rw [h10, hk0]; omega
  | ⟨1, _⟩ => show win1_1.index t (1 : Fin 2) * 128 + 1 * (y 1).val = (k 1).val; rw [h11, hk1]; omega

theorem iblk1_2_apply (c : Dev nD) (t : Fin cfg1.N) (y : S128x128.Idx) (k : S1024x2048.Idx)
    (hk0 : (k 0).val = 128 * (t.val / 16) + (y 0).val) (hk1 : (k 1).val = 128 * (t.val % 16) + (y 1).val) :
    iblk1 V c 2 t y = V c (Pipeline.arrRef spec1 2) k := by
  unfold iblk1
  show V c (Pipeline.arrRef spec1 2) (((cfg1.win 2).blk t).view.emb y) = V c (Pipeline.arrRef spec1 2) k
  refine congrArg _ (funext fun a => Fin.ext ?_)
  obtain ⟨-, -, -, -, -, h20, h21, -⟩ := idx_facts1 t
  match a with
  | ⟨0, _⟩ => show win1_2.index t (0 : Fin 2) * 128 + 1 * (y 0).val = (k 0).val; rw [h20, hk0]; omega
  | ⟨1, _⟩ => show win1_2.index t (1 : Fin 2) * 128 + 1 * (y 1).val = (k 1).val; rw [h21, hk1]; omega

theorem arr1_apply (c : Dev nD) (b : Fin 2048) (n : Fin 1024) (h l : Fin 128)
    (hh : V c (Pipeline.arrRef spec1 1) (ix2 n b) = BitVec.ofNat 32 h.val)
    (hl : V c (Pipeline.arrRef spec1 2) (ix2 n b) = BitVec.ofNat 32 l.val) :
    (dat1 (F := Ideal) V c).arrAt 3 cfg1.N (ix2 b n)
      = if V c (Pipeline.arrRef spec1 0) (ix3 n h l) = (1 : EReal) then (1 : EReal) else 0 := by
  rw [final1]
  have hb : b.val < 2048 := b.isLt
  have hn : n.val < 1024 := n.isLt
  have hv : (ptOf1 (ix2 b n)).val = 16 * (n.val / 128) + b.val / 128 := rfl
  have hp : b.val % 128 < 128 := Nat.mod_lt _ (by decide)
  have hq : n.val % 128 < 128 := Nat.mod_lt _ (by decide)
  unfold G1 tile1 fire1
  refine (_root_.Cert.Lut.KPay.pay1_apply (memRow1 V c (rowN1 (ptOf1 (ix2 b n)).val)) (iblk1 V c 1 (ptOf1 (ix2 b n)))
    (iblk1 V c 2 (ptOf1 (ix2 b n))) ⟨b.val % 128, hp⟩ ⟨n.val % 128, hq⟩ h l ?_ ?_).trans ?_
  · rw [iblk1_1_apply V c (ptOf1 (ix2 b n)) _ (ix2 n b)
      (by show n.val = 128 * ((ptOf1 (ix2 b n)).val / 16) + n.val % 128; rw [hv]; omega)
      (by show b.val = 128 * ((ptOf1 (ix2 b n)).val % 16) + b.val % 128; rw [hv]; omega)]
    exact hh
  · rw [iblk1_2_apply V c (ptOf1 (ix2 b n)) _ (ix2 n b)
      (by show n.val = 128 * ((ptOf1 (ix2 b n)).val / 16) + n.val % 128; rw [hv]; omega)
      (by show b.val = 128 * ((ptOf1 (ix2 b n)).val % 16) + b.val % 128; rw [hv]; omega)]
    exact hl
  · have hx0 : memRow1 V c (rowN1 (ptOf1 (ix2 b n)).val) (ix3 (⟨n.val % 128, hq⟩ : Fin 128) h l)
        = V c (Pipeline.arrRef spec1 0) (ix3 n h l) := by
      unfold memRow1
      refine congrArg _ (funext fun a => Fin.ext ?_)
      match a with
      | ⟨0, _⟩ =>
        show 128 * (((ptOf1 (ix2 b n)).val / 16) % 8) + n.val % 128 = n.val
        rw [hv]; omega
      | ⟨1, _⟩ => rfl
      | ⟨2, _⟩ => rfl
    rw [hx0]

end

end Cert.KernelIdeal.Lut

end
-- ==== Proof.KI.Cover2.lean ====
import proofs.«427008_j72404558676324_3_alg».proof.Proof.KI.Region2
import proofs.«427008_j72404558676324_3_alg».proof.Proof.KPay
import Idealize.ShloMosaic.Lib.Pipeline.Value
import Idealize.ShloMosaic.Lib.ValueIdx

set_option maxRecDepth 16384

noncomputable section

namespace Cert.KernelIdeal.Lut

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

section
variable (V : (c : Dev nD) → (b : Ref sig .tc) → Buf (Elt Ideal) ((c : Thread nD τ).loc b))

def ptOf2 (i : S2048x1024.Idx) : Fin cfg2.N :=
  ⟨16 * ((i 1).val / 128) + (i 0).val / 128, by
    have hN : cfg2.N = 128 := N_2
    have h0 : (i 0).val < 2048 := idx2_lt0 i
    have h1 : (i 1).val < 1024 := idx2_lt1 i
    omega⟩

def locOf2 (i : S2048x1024.Idx) : S128x128.Idx :=
  ix2 (⟨(i 0).val % 128, Nat.mod_lt _ (by decide)⟩ : Fin 128) (⟨(i 1).val % 128, Nat.mod_lt _ (by decide)⟩ : Fin 128)

def G2 (c : Dev nD) : S2048x1024.Idx → Elt Ideal .f32 := fun i => tile2 V c (ptOf2 i) (locOf2 i)

theorem flushed2_eq (c : Dev nD) (t : Fin cfg2.N) :
    (dat2 V c).flushed 3 t = ((cfg2.win 3).blk t).view.read (Elt Ideal) (G2 V c) := by
  show (cfg2.win 3).cut (grid2.coords t) ((dat2 V c).after 3 t) = _
  rw [after2_3]
  funext y
  show tile2 V c t _ = G2 V c (((cfg2.win 3).blk t).view.emb y)
  unfold G2
  obtain ⟨-, -, -, -, -, -, -, h30, h31⟩ := idx_facts2 t
  have hN : t.val < 128 := lt_of_lt_of_eq t.isLt (show cfg2.N = 128 from N_2)
  have hy0 : (y 0).val < 128 := (y 0).isLt
  have hy1 : (y 1).val < 128 := (y 1).isLt
  have ht : ptOf2 (((cfg2.win 3).blk t).view.emb y) = t := Fin.ext (by
    show 16 * ((win2_3.index t (1 : Fin 2) * 128 + 1 * (y 1).val) / 128) + (win2_3.index t (0 : Fin 2) * 128 + 1 * (y 0).val) / 128 = t.val
    rw [h30, h31]; omega)
  rw [ht]
  refine congrArg (tile2 V c t) (funext fun a => Fin.ext ?_)
  match a with
  | ⟨0, _⟩ => show (y 0).val = (win2_3.index t (0 : Fin 2) * 128 + 1 * (y 0).val) % 128; omega
  | ⟨1, _⟩ => show (y 1).val = (win2_3.index t (1 : Fin 2) * 128 + 1 * (y 1).val) % 128; omega

theorem mem_blk2 (t : Fin cfg2.N) (i : S2048x1024.Idx) :
    i ∈ ((cfg2.win 3).blk t).view.set ↔ ∀ a : Fin 2, win2_3.index t a * S128x128.size a ≤ (i a).val
      ∧ (i a).val < win2_3.index t a * S128x128.size a + S128x128.size a := by
  show i ∈ ((View.whole main_v165).slice (win2_3.rect t)).set ↔ _
  rw [View.set_slice_whole, Rect.mem_set_unit]
  exact Iff.rfl

theorem cover2 (i : S2048x1024.Idx) :
    ∃ t : Fin cfg2.N, (cfg2.win 3).flush t = true ∧ i ∈ ((cfg2.win 3).blk t).view.set := by
  refine ⟨ptOf2 i, flush2_3 _, ?_⟩
  rw [mem_blk2]
  obtain ⟨-, -, -, -, -, -, -, h30, h31⟩ := idx_facts2 (ptOf2 i)
  have h0 : (i 0).val < 2048 := idx2_lt0 i
  have h1 : (i 1).val < 1024 := idx2_lt1 i
  have hv : (ptOf2 i).val = 16 * ((i 1).val / 128) + (i 0).val / 128 := rfl
  intro a
  match a with
  | ⟨0, _⟩ =>
    show win2_3.index (ptOf2 i) (0 : Fin 2) * 128 ≤ (i 0).val ∧ (i 0).val < win2_3.index (ptOf2 i) (0 : Fin 2) * 128 + 128
    rw [h30, hv]; omega
  | ⟨1, _⟩ =>
    show win2_3.index (ptOf2 i) (1 : Fin 2) * 128 ≤ (i 1).val ∧ (i 1).val < win2_3.index (ptOf2 i) (1 : Fin 2) * 128 + 128
    rw [h31, hv]; omega

-- The tiles written at the grid points partition the result array, so it is G2 entry by entry.
theorem final2 (c : Dev nD) : (dat2 V c).arrAt 3 cfg2.N = G2 V c :=
  (dat2 V c).arrAt_eq_of_cover 3 (G2 V c) (fun t _ => flushed2_eq V c t) cover2

theorem iblk2_1_apply (c : Dev nD) (t : Fin cfg2.N) (y : S128x128.Idx) (k : S1024x2048.Idx)
    (hk0 : (k 0).val = 128 * (t.val / 16) + (y 0).val) (hk1 : (k 1).val = 128 * (t.val % 16) + (y 1).val) :
    iblk2 V c 1 t y = V c (Pipeline.arrRef spec2 1) k := by
  unfold iblk2
  show V c (Pipeline.arrRef spec2 1) (((cfg2.win 1).blk t).view.emb y) = V c (Pipeline.arrRef spec2 1) k
  refine congrArg _ (funext fun a => Fin.ext ?_)
  obtain ⟨-, -, -, h10, h11, -⟩ := idx_facts2 t
  match a with
  | ⟨0, _⟩ => show win2_1.index t (0 : Fin 2) * 128 + 1 * (y 0).val = (k 0).val; rw [h10, hk0]; omega
  | ⟨1, _⟩ => show win2_1.index t (1 : Fin 2) * 128 + 1 * (y 1).val = (k 1).val; rw [h11, hk1]; omega

theorem iblk2_2_apply (c : Dev nD) (t : Fin cfg2.N) (y : S128x128.Idx) (k : S1024x2048.Idx)
    (hk0 : (k 0).val = 128 * (t.val / 16) + (y 0).val) (hk1 : (k 1).val = 128 * (t.val % 16) + (y 1).val) :
    iblk2 V c 2 t y = V c (Pipeline.arrRef spec2 2) k := by
  unfold iblk2
  show V c (Pipeline.arrRef spec2 2) (((cfg2.win 2).blk t).view.emb y) = V c (Pipeline.arrRef spec2 2) k
  refine congrArg _ (funext fun a => Fin.ext ?_)
  obtain ⟨-, -, -, -, -, h20, h21, -⟩ := idx_facts2 t
  match a with
  | ⟨0, _⟩ => show win2_2.index t (0 : Fin 2) * 128 + 1 * (y 0).val = (k 0).val; rw [h20, hk0]; omega
  | ⟨1, _⟩ => show win2_2.index t (1 : Fin 2) * 128 + 1 * (y 1).val = (k 1).val; rw [h21, hk1]; omega

theorem arr2_apply (c : Dev nD) (b : Fin 2048) (n : Fin 1024) (h l : Fin 128)
    (hh : V c (Pipeline.arrRef spec2 1) (ix2 n b) = BitVec.ofNat 32 h.val)
    (hl : V c (Pipeline.arrRef spec2 2) (ix2 n b) = BitVec.ofNat 32 l.val) :
    (dat2 (F := Ideal) V c).arrAt 3 cfg2.N (ix2 b n)
      = if V c (Pipeline.arrRef spec2 0) (ix3 n h l) = (1 : EReal) then (1 : EReal) else 0 := by
  rw [final2]
  have hb : b.val < 2048 := b.isLt
  have hn : n.val < 1024 := n.isLt
  have hv : (ptOf2 (ix2 b n)).val = 16 * (n.val / 128) + b.val / 128 := rfl
  have hp : b.val % 128 < 128 := Nat.mod_lt _ (by decide)
  have hq : n.val % 128 < 128 := Nat.mod_lt _ (by decide)
  unfold G2 tile2 fire2
  refine (_root_.Cert.Lut.KPay.pay2_apply (memRow2 V c (rowN2 (ptOf2 (ix2 b n)).val)) (iblk2 V c 1 (ptOf2 (ix2 b n)))
    (iblk2 V c 2 (ptOf2 (ix2 b n))) ⟨b.val % 128, hp⟩ ⟨n.val % 128, hq⟩ h l ?_ ?_).trans ?_
  · rw [iblk2_1_apply V c (ptOf2 (ix2 b n)) _ (ix2 n b)
      (by show n.val = 128 * ((ptOf2 (ix2 b n)).val / 16) + n.val % 128; rw [hv]; omega)
      (by show b.val = 128 * ((ptOf2 (ix2 b n)).val % 16) + b.val % 128; rw [hv]; omega)]
    exact hh
  · rw [iblk2_2_apply V c (ptOf2 (ix2 b n)) _ (ix2 n b)
      (by show n.val = 128 * ((ptOf2 (ix2 b n)).val / 16) + n.val % 128; rw [hv]; omega)
      (by show b.val = 128 * ((ptOf2 (ix2 b n)).val % 16) + b.val % 128; rw [hv]; omega)]
    exact hl
  · have hx0 : memRow2 V c (rowN2 (ptOf2 (ix2 b n)).val) (ix3 (⟨n.val % 128, hq⟩ : Fin 128) h l)
        = V c (Pipeline.arrRef spec2 0) (ix3 n h l) := by
      unfold memRow2
      refine congrArg _ (funext fun a => Fin.ext ?_)
      match a with
      | ⟨0, _⟩ =>
        show 128 * (((ptOf2 (ix2 b n)).val / 16) % 8) + n.val % 128 = n.val
        rw [hv]; omega
      | ⟨1, _⟩ => rfl
      | ⟨2, _⟩ => rfl
    rw [hx0]

end

end Cert.KernelIdeal.Lut

end
-- ==== Proof.KHost.lean ====
import proofs.«427008_j72404558676324_3_alg».proof.Proof.Spec
import proofs.«427008_j72404558676324_3_alg».proof.KernelIdeal
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import Idealize.ShloMosaic.Lib.IdealHost

noncomputable section

open scoped BigOperators

namespace Cert.Lut.KHost

open Cert.KernelIdeal Idealize.ShloMosaic Idealize.ShloMosaic.ValueIdx

variable [Facts₀]
open Facts₀

def wts (lit : Fin 7 → BitVec 32) : FVec Ideal S7 .f32 := fun i => FloatOps.ofBits .f32 (lit (S7.rowMajor i))

def wrap1 (t : IVec S7x2048 32) (m : BitVec 32) : IVec S7x2048 32 :=
  select (cmpi .slt t (broadcastInDim S7x2048 ![] bcast_S_S7x2048 (constantI S_ 32 0#32)))
    (addi t (broadcastInDim S7x2048 ![] bcast_S_S7x2048 (constantI S_ 32 m))) t

def cols1 : IVec S7x2048 32 :=
  broadcastInDim S7x2048 ![0, 1] bcast_S1x2048_S7x2048_0_1 (broadcastInDim S1x2048 ![1] bcast_S2048_S1x2048_1 (iotaInDim S2048 32 0))

def idx1 (c : IVec S2048x7 32) : IVec S7x2048x2 32 :=
  concatenate S7x2048x2 2
    [⟨S7x2048x1, broadcastInDim S7x2048x1 ![0, 1] bcast_S7x2048_S7x2048x1_0_1
        (wrap1 (transpose S7x2048 [1, 0] c transposes_S2048x7_S7x2048_1_0) 4096#32)⟩,
     ⟨S7x2048x1, broadcastInDim S7x2048x1 ![0, 1] bcast_S7x2048_S7x2048x1_0_1 (wrap1 cols1 2048#32)⟩]
    concatenates_S7x2048x1_S7x2048x1_S7x2048x2_d2

def W1 (c : IVec S2048x7 32) (lit : Fin 7 → BitVec 32) : FVec Ideal S4096x2048 .f32 :=
  Host.scatterAdd scatter_S4096x2048_S7x2048x2_S7x2048_n_01_01_2
    (broadcastInDim S4096x2048 ![] bcast_S_S4096x2048 (constant (F := Ideal) S_ .f32 0x00000000#32))
    (idx1 c)
    (broadcastInDim S7x2048 ![0, 1] bcast_S7x1_S7x2048_0_1 (broadcastInDim S7x1 ![0] bcast_S7_S7x1_0 (wts lit)))

def bits0 (a0 : IVec (Sh2 2048 4096) 32) : FVec Ideal S2048x4096 .bf16 := sitofp .bf16 a0

def half1 (xb : FVec Ideal S2048x4096 .bf16) (c : IVec S2048x7 32) (lit : Fin 7 → BitVec 32) : IVec S2048x2048 32 :=
  fptosi 32 (Host.roundeven (Host.dotGeneral dot_S4096x2048_S2048x4096_S2048x2048_0_1_1_0_n_n none
    (truncf .bf16 (W1 c lit) bitsLt_bf16_f32) xb))

def hi1 (a0 : IVec (Sh2 2048 4096) 32) (a2 : IVec (Sh2 2048 14) 32) : IVec S2048x2048 32 :=
  half1 (bits0 a0) (extractStridedSlice S2048x7 ![0, 0] a2 slices_S2048x14_S2048x7_0_0) lit0

def lo1 (a0 : IVec (Sh2 2048 4096) 32) (a2 : IVec (Sh2 2048 14) 32) : IVec S2048x2048 32 :=
  half1 (bits0 a0) (extractStridedSlice S2048x7 ![0, 7] a2 slices_S2048x14_S2048x7_0_7) lit1

def mem1 (a3 : FVec Ideal (Sh2 2048 16384) .f32) : FVec Ideal S2048x128x128 .f32 :=
  shapeCast S2048x128x128 a3 shapeCasts_S2048x16384_S2048x128x128

def wrapT (t : IVec S7x1024 32) (m : BitVec 32) : IVec S7x1024 32 :=
  select (cmpi .slt t (broadcastInDim S7x1024 ![] bcast_S_S7x1024 (constantI S_ 32 0#32)))
    (addi t (broadcastInDim S7x1024 ![] bcast_S_S7x1024 (constantI S_ 32 m))) t

def colsT : IVec S7x1024 32 :=
  broadcastInDim S7x1024 ![0, 1] bcast_S1x1024_S7x1024_0_1 (broadcastInDim S1x1024 ![1] bcast_S1024_S1x1024_1 (iotaInDim S1024 32 0))

def idxT (c : IVec S1024x7 32) : IVec S7x1024x2 32 :=
  concatenate S7x1024x2 2
    [⟨S7x1024x1, broadcastInDim S7x1024x1 ![0, 1] bcast_S7x1024_S7x1024x1_0_1
        (wrapT (transpose S7x1024 [1, 0] c transposes_S1024x7_S7x1024_1_0) 3072#32)⟩,
     ⟨S7x1024x1, broadcastInDim S7x1024x1 ![0, 1] bcast_S7x1024_S7x1024x1_0_1 (wrapT colsT 1024#32)⟩]
    concatenates_S7x1024x1_S7x1024x1_S7x1024x2_d2

def WT (c : IVec S1024x7 32) (lit : Fin 7 → BitVec 32) : FVec Ideal S3072x1024 .f32 :=
  Host.scatterAdd scatter_S3072x1024_S7x1024x2_S7x1024_n_01_01_2
    (broadcastInDim S3072x1024 ![] bcast_S_S3072x1024 (constant (F := Ideal) S_ .f32 0x00000000#32))
    (idxT c)
    (broadcastInDim S7x1024 ![0, 1] bcast_S7x1_S7x1024_0_1 (broadcastInDim S7x1 ![0] bcast_S7_S7x1_0 (wts lit)))

def halfT (xb : FVec Ideal S2048x3072 .bf16) (c : IVec S1024x7 32) (lit : Fin 7 → BitVec 32) : IVec S1024x2048 32 :=
  fptosi 32 (Host.roundeven (Host.dotGeneral dot_S3072x1024_S2048x3072_S1024x2048_0_1_1_0_n_n none
    (truncf .bf16 (WT c lit) bitsLt_bf16_f32) xb))

def hi2 (xb : FVec Ideal S2048x3072 .bf16) (conn : IVec (Sh2 1024 14) 32) : IVec S1024x2048 32 :=
  halfT xb (extractStridedSlice S1024x7 ![0, 0] conn slices_S1024x14_S1024x7_0_0) lit2
def lo2 (xb : FVec Ideal S2048x3072 .bf16) (conn : IVec (Sh2 1024 14) 32) : IVec S1024x2048 32 :=
  halfT xb (extractStridedSlice S1024x7 ![0, 7] conn slices_S1024x14_S1024x7_0_7) lit3

def hi3 (xb : FVec Ideal S2048x3072 .bf16) (conn : IVec (Sh2 1024 14) 32) : IVec S1024x2048 32 :=
  halfT xb (extractStridedSlice S1024x7 ![0, 0] conn slices_S1024x14_S1024x7_0_0) lit4
def lo3 (xb : FVec Ideal S2048x3072 .bf16) (conn : IVec (Sh2 1024 14) 32) : IVec S1024x2048 32 :=
  halfT xb (extractStridedSlice S1024x7 ![0, 7] conn slices_S1024x14_S1024x7_0_7) lit5

def memT (a : FVec Ideal (Sh2 1024 16384) .f32) : FVec Ideal S1024x128x128 .f32 :=
  shapeCast S1024x128x128 a shapeCasts_S1024x16384_S1024x128x128

def catB (l : FVec Ideal S2048x2048 .bf16) (r : FVec Ideal S2048x1024 .bf16) : FVec Ideal S2048x3072 .bf16 :=
  concatenate S2048x3072 1 [⟨S2048x2048, l⟩, ⟨S2048x1024, r⟩] concatenates_S2048x2048_S2048x1024_S2048x3072_d1

def bits1 (a1 : IVec (Sh2 2048 1024) 32) : FVec Ideal S2048x1024 .bf16 := sitofp .bf16 a1

theorem wrap_small (x m : BitVec 32) (hx : x.toNat < 2 ^ 31) :
    Scalar.select (IntOp.cmpi .slt x 0#32) (IntOp.addi x m) x = x := by
  have h : x.slt 0#32 = false := by
    rw [BitVec.slt, decide_eq_false_iff_not, BitVec.toInt_eq_toNat_of_lt (by omega)]
    simp
  simp [Scalar.select, IntOp.cmpi, h]

theorem toInt_small (x : BitVec 32) (hx : x.toNat < 2 ^ 31) : x.toInt = (x.toNat : ℤ) :=
  BitVec.toInt_eq_toNat_of_lt (by omega)

theorem fptosi_vec_apply {s : Shape} (x : FVec Ideal s .f32) (i : s.Idx) : (fptosi 32 x : IVec s 32) i = Ideal.fptosi 32 (x i) := rfl

theorem roundeven_vec_apply {s : Shape} (x : FVec Ideal s .f32) (i : s.Idx) :
    Host.roundeven x i = Ideal.liftRound Ideal.roundHalfEven (x i) := rfl

theorem roundHalfEven_natCast (n : ℕ) : Ideal.roundHalfEven (n : ℝ) = (n : ℤ) := by
  unfold Ideal.roundHalfEven
  simp

theorem roundeven_natCast (n : ℕ) : Ideal.liftRound Ideal.roundHalfEven ((n : ℕ) : EReal) = ((n : ℕ) : EReal) := by
  rw [← EReal.coe_natCast, Ideal.liftRound_coe, roundHalfEven_natCast, Int.cast_natCast]

theorem fptosi_natCast (n : ℕ) (hn : n < 2 ^ 31) : Ideal.fptosi 32 ((n : ℕ) : EReal) = BitVec.ofNat 32 n := by
  rw [← EReal.coe_natCast]
  unfold Ideal.fptosi
  rw [Ideal.toIntClamped_coe, if_pos (Nat.cast_nonneg n), Int.floor_natCast]
  have h : max (-((2 ^ (32 - 1) : ℕ) : ℤ)) (min (((2 ^ (32 - 1) : ℕ) : ℤ) - 1) (n : ℤ)) = (n : ℤ) := by
    have : (n : ℤ) < 2 ^ 31 := by exact_mod_cast hn
    norm_num
    omega
  rw [h, BitVec.ofInt_natCast]

theorem sum_natCast {ι : Type} (s : Finset ι) (f g : ι → ℕ) :
    ∑ i ∈ s, ((f i : ℕ) : EReal) * ((g i : ℕ) : EReal) = ((∑ i ∈ s, f i * g i : ℕ) : EReal) := by
  rw [Nat.cast_sum]
  exact Finset.sum_congr rfl fun i _ => (EReal.natCast_mul _ _).symm

theorem sum_pick {T : ℕ} (κ : Fin 7 → Fin T) (w : Fin 7 → ℕ) (x : Fin T → ℕ) :
    ∑ t : Fin T, (∑ k : Fin 7, if (κ k).val = t.val then w k else 0) * x t = ∑ k : Fin 7, w k * x (κ k) := by
  simp_rw [Finset.sum_mul, ite_mul, zero_mul]
  rw [Finset.sum_comm]
  refine Finset.sum_congr rfl fun k _ => ?_
  simp_rw [Fin.val_inj]
  rw [Finset.sum_ite_eq]
  simp

theorem lit_val_64 : Ideal.ofBits .f32 0x42800000#32 = (((64 : ℕ) : ℝ) : EReal) := by
  simp [Ideal.ofBits, Ideal.ieee, -EReal.coe_mul]; norm_num
theorem lit_val_32 : Ideal.ofBits .f32 0x42000000#32 = (((32 : ℕ) : ℝ) : EReal) := by
  simp [Ideal.ofBits, Ideal.ieee, -EReal.coe_mul]; norm_num
theorem lit_val_16 : Ideal.ofBits .f32 0x41800000#32 = (((16 : ℕ) : ℝ) : EReal) := by
  simp [Ideal.ofBits, Ideal.ieee, -EReal.coe_mul]; norm_num
theorem lit_val_8 : Ideal.ofBits .f32 0x41000000#32 = (((8 : ℕ) : ℝ) : EReal) := by
  simp [Ideal.ofBits, Ideal.ieee, -EReal.coe_mul]; norm_num
theorem lit_val_4 : Ideal.ofBits .f32 0x40800000#32 = (((4 : ℕ) : ℝ) : EReal) := by
  simp [Ideal.ofBits, Ideal.ieee, -EReal.coe_mul]; norm_num
theorem lit_val_2 : Ideal.ofBits .f32 0x40000000#32 = (((2 : ℕ) : ℝ) : EReal) := by
  simp [Ideal.ofBits, Ideal.ieee, -EReal.coe_mul]; norm_num
theorem lit_val_1 : Ideal.ofBits .f32 0x3F800000#32 = (((1 : ℕ) : ℝ) : EReal) := by
  simp [Ideal.ofBits, Ideal.ieee, -EReal.coe_mul]; norm_num

def IsWeights (lit : Fin 7 → BitVec 32) : Prop := ∀ k : Fin 7, Ideal.ofBits .f32 (lit k) = ((2 ^ (6 - k.val) : ℕ) : EReal)

theorem isWeights_of (lit : Fin 7 → BitVec 32) (h0 : lit 0 = 0x42800000#32) (h1 : lit 1 = 0x42000000#32)
    (h2 : lit 2 = 0x41800000#32) (h3 : lit 3 = 0x41000000#32) (h4 : lit 4 = 0x40800000#32) (h5 : lit 5 = 0x40000000#32)
    (h6 : lit 6 = 0x3F800000#32) : IsWeights lit := by
  intro k
  fin_cases k
  · show Ideal.ofBits .f32 (lit 0) = _; rw [h0]; exact lit_val_64
  · show Ideal.ofBits .f32 (lit 1) = _; rw [h1]; exact lit_val_32
  · show Ideal.ofBits .f32 (lit 2) = _; rw [h2]; exact lit_val_16
  · show Ideal.ofBits .f32 (lit 3) = _; rw [h3]; exact lit_val_8
  · show Ideal.ofBits .f32 (lit 4) = _; rw [h4]; exact lit_val_4
  · show Ideal.ofBits .f32 (lit 5) = _; rw [h5]; exact lit_val_2
  · show Ideal.ofBits .f32 (lit 6) = _; rw [h6]; exact lit_val_1

theorem isWeights_lit0 : IsWeights lit0 := isWeights_of _ rfl rfl rfl rfl rfl rfl rfl
theorem isWeights_lit1 : IsWeights lit1 := isWeights_of _ rfl rfl rfl rfl rfl rfl rfl
theorem isWeights_lit2 : IsWeights lit2 := isWeights_of _ rfl rfl rfl rfl rfl rfl rfl
theorem isWeights_lit3 : IsWeights lit3 := isWeights_of _ rfl rfl rfl rfl rfl rfl rfl
theorem isWeights_lit4 : IsWeights lit4 := isWeights_of _ rfl rfl rfl rfl rfl rfl rfl
theorem isWeights_lit5 : IsWeights lit5 := isWeights_of _ rfl rfl rfl rfl rfl rfl rfl

theorem bits0_apply (a0 : IVec (Sh2 2048 4096) 32) (hb : ∀ b t, natAt a0 b t ≤ 1) (b : Fin 2048) (t : Fin 4096) :
    bits0 a0 (ix2 b t) = ((natAt a0 b t : ℕ) : EReal) := by
  show (((a0 (ix2 b t)).toInt : ℝ) : EReal) = _
  have h := hb b t
  unfold natAt at h ⊢
  rw [toInt_small _ (by omega), Int.cast_natCast, EReal.coe_natCast]

theorem bits1_apply (a1 : IVec (Sh2 2048 1024) 32) (hb : ∀ b t, natAt a1 b t ≤ 1) (b : Fin 2048) (t : Fin 1024) :
    bits1 a1 (ix2 b t) = ((natAt a1 b t : ℕ) : EReal) := by
  show (((a1 (ix2 b t)).toInt : ℝ) : EReal) = _
  have h := hb b t
  unfold natAt at h ⊢
  rw [toInt_small _ (by omega), Int.cast_natCast, EReal.coe_natCast]

theorem catB_apply (l : FVec Ideal S2048x2048 .bf16) (r : FVec Ideal S2048x1024 .bf16) (b : Fin 2048) (t : Fin 3072) :
    catB l r (ix2 b t) = if h : t.val < 2048 then l (ix2 b ⟨t.val, h⟩) else r (ix2 b ⟨t.val - 2048, by have := t.isLt; omega⟩) := by
  unfold catB
  split_ifs with h
  · exact concatenate_pair_apply_left (t := S2048x3072) (s₁ := S2048x2048) (s₂ := S2048x1024) _ _ _ _ (ix2 b t) rfl (ix2 b ⟨t.val, h⟩) (fun a => match a with | ⟨0, _⟩ => rfl | ⟨1, _⟩ => rfl)
  · exact concatenate_pair_apply_right (t := S2048x3072) (s₁ := S2048x2048) (s₂ := S2048x1024) _ _ _ _ (ix2 b t) rfl rfl (ix2 b ⟨t.val - 2048, by have := t.isLt; omega⟩)
      (fun a ha => match a, ha with | ⟨0, _⟩, _ => rfl | ⟨1, _⟩, ha => (ha rfl).elim)
      (by show t.val - 2048 + 2048 = t.val; omega)

theorem mem1_apply (a3 : FVec Ideal (Sh2 2048 16384) .f32) (n : Fin 2048) (h l : Fin 128) :
    mem1 a3 (ix3 n h l) = a3 (ix2 n ⟨128 * h.val + l.val, by have := h.isLt; have := l.isLt; omega⟩) := by
  unfold mem1
  refine shapeCast_apply _ _ _ _ ?_
  rw [Shape.rowMajor_val_two, Shape.rowMajor_val_three]
  show n.val * 16384 + (128 * h.val + l.val) = (n.val * 128 + h.val) * 128 + l.val
  ring

theorem memT_apply (a : FVec Ideal (Sh2 1024 16384) .f32) (n : Fin 1024) (h l : Fin 128) :
    memT a (ix3 n h l) = a (ix2 n ⟨128 * h.val + l.val, by have := h.isLt; have := l.isLt; omega⟩) := by
  unfold memT
  refine shapeCast_apply _ _ _ _ ?_
  rw [Shape.rowMajor_val_two, Shape.rowMajor_val_three]
  show n.val * 16384 + (128 * h.val + l.val) = (n.val * 128 + h.val) * 128 + l.val
  ring

theorem sliceHi_toNat {N T : ℕ} [NeZero T] (a : IVec (Sh2 N 14) 32) (h : (Sh2 N 14).Slices ![0, 0] (Sh2 N 7))
    (hc : ∀ n k, natAt a n k < T) (n : Fin N) (k : Fin 7) :
    (extractStridedSlice (Sh2 N 7) ![0, 0] a h (ix2 n k)).toNat = (connAt T a n (kHi k)).val := by
  rw [extractStridedSlice_apply ![0, 0] a h (ix2 n k) (ix2 n (kHi k))
    (fun a => match a with | ⟨0, _⟩ => (Nat.zero_add _).symm | ⟨1, _⟩ => (Nat.zero_add _).symm)]
  show natAt a n (kHi k) = natAt a n (kHi k) % T
  rw [Nat.mod_eq_of_lt (hc _ _)]

theorem sliceLo_toNat {N T : ℕ} [NeZero T] (a : IVec (Sh2 N 14) 32) (h : (Sh2 N 14).Slices ![0, 7] (Sh2 N 7))
    (hc : ∀ n k, natAt a n k < T) (n : Fin N) (k : Fin 7) :
    (extractStridedSlice (Sh2 N 7) ![0, 7] a h (ix2 n k)).toNat = (connAt T a n (kLo k)).val := by
  rw [extractStridedSlice_apply ![0, 7] a h (ix2 n k) (ix2 n (kLo k))
    (fun a => match a with | ⟨0, _⟩ => (Nat.zero_add _).symm | ⟨1, _⟩ => by show k.val + 7 = 7 + k.val; omega)]
  show natAt a n (kLo k) = natAt a n (kLo k) % T
  rw [Nat.mod_eq_of_lt (hc _ _)]

theorem start1 (j : S7x2048.Idx) (idx : IVec S7x2048x2 32) (a : Fin 2) :
    scatter_S4096x2048_S7x2048x2_S7x2048_n_01_01_2.start j idx a = (idx (ix3 (j 0) (j 1) a)).toInt := by
  fin_cases a
  · show (idx _).toInt = _
    rw [eq_ix3 (scatter_S4096x2048_S7x2048x2_S7x2048_n_01_01_2.siIdx j _)]
    rfl
  · show (idx _).toInt = _
    rw [eq_ix3 (scatter_S4096x2048_S7x2048x2_S7x2048_n_01_01_2.siIdx j _)]
    rfl

theorem window1 (j : S7x2048.Idx) (a : Fin 2) : scatter_S4096x2048_S7x2048x2_S7x2048_n_01_01_2.window j a = 0 := by
  fin_cases a <;> rfl

theorem resultIdx1 (j : S7x2048.Idx) (idx : IVec S7x2048x2 32) (i : S4096x2048.Idx) :
    scatter_S4096x2048_S7x2048x2_S7x2048_n_01_01_2.resultIdx? j idx = some i ↔ ∀ a : Fin 2, (idx (ix3 (j 0) (j 1) a)).toInt = ((i a).val : ℤ) := by
  have hs : ∀ a : Fin 2, scatter_S4096x2048_S7x2048x2_S7x2048_n_01_01_2.start j idx a + ((scatter_S4096x2048_S7x2048x2_S7x2048_n_01_01_2.window j a : ℕ) : ℤ) = (idx (ix3 (j 0) (j 1) a)).toInt := fun a => by
    rw [start1, window1]; simp
  unfold ScatterDims.resultIdx?
  split_ifs with h
  · rw [Option.some.injEq]
    constructor
    · rintro rfl a
      show _ = (((scatter_S4096x2048_S7x2048x2_S7x2048_n_01_01_2.start j idx a + ((scatter_S4096x2048_S7x2048x2_S7x2048_n_01_01_2.window j a : ℕ) : ℤ)).toNat : ℕ) : ℤ)
      rw [Int.toNat_of_nonneg (h a).1, hs a]
    · intro hi
      funext a
      apply Fin.ext
      show (scatter_S4096x2048_S7x2048x2_S7x2048_n_01_01_2.start j idx a + ((scatter_S4096x2048_S7x2048x2_S7x2048_n_01_01_2.window j a : ℕ) : ℤ)).toNat = (i a).val
      rw [hs a, hi a]; simp
  · refine ⟨fun h' => (by cases h'), fun hi => absurd (fun a => ?_) h⟩
    rw [hs a, hi a]
    exact ⟨Int.natCast_nonneg _, by exact_mod_cast (i a).isLt⟩

theorem idx1_row (c : IVec S2048x7 32) (k : Fin 7) (m : Fin 2048) (hc : (c (ix2 m k)).toNat < 2 ^ 31) :
    idx1 c (ix3 k m (0 : Fin 2)) = c (ix2 m k) := by
  unfold idx1
  rw [concatenate_pair_apply_left (t := S7x2048x2) (s₁ := S7x2048x1) (s₂ := S7x2048x1) _ _ _ _ (ix3 k m (0 : Fin 2)) rfl
    (ix3 k m (0 : Fin 1)) (fun b => match b with | ⟨0, _⟩ => rfl | ⟨1, _⟩ => rfl | ⟨2, _⟩ => rfl)]
  rw [broadcastInDim_apply _ _ _ _ (ix2 k m) (fun a => match a with | ⟨0, _⟩ => rfl | ⟨1, _⟩ => rfl)]
  show Scalar.select (IntOp.cmpi .slt (transpose S7x2048 [1, 0] c transposes_S2048x7_S7x2048_1_0 (ix2 k m)) _) (IntOp.addi _ _) _ = _
  rw [transpose_ix2_apply]
  exact wrap_small _ _ hc

theorem cols1_apply (k : Fin 7) (m : Fin 2048) : cols1 (ix2 k m) = BitVec.ofNat 32 m.val := by
  unfold cols1
  rw [broadcastInDim_apply _ _ _ _ (ix2 (0 : Fin 1) m) (fun a => match a with | ⟨0, _⟩ => rfl | ⟨1, _⟩ => rfl)]
  rw [broadcastInDim_apply _ _ _ _ (ix1 m) (fun a => match a with | ⟨0, _⟩ => rfl)]
  rfl

theorem idx1_col (c : IVec S2048x7 32) (k : Fin 7) (m : Fin 2048) :
    idx1 c (ix3 k m (1 : Fin 2)) = BitVec.ofNat 32 m.val := by
  unfold idx1
  rw [concatenate_pair_apply_right (t := S7x2048x2) (s₁ := S7x2048x1) (s₂ := S7x2048x1) _ _ _ _ (ix3 k m (1 : Fin 2)) rfl rfl
    (ix3 k m (0 : Fin 1))
    (fun b hb => match b, hb with | ⟨0, _⟩, _ => rfl | ⟨1, _⟩, _ => rfl | ⟨2, _⟩, hb => (hb rfl).elim) rfl]
  rw [broadcastInDim_apply _ _ _ _ (ix2 k m) (fun a => match a with | ⟨0, _⟩ => rfl | ⟨1, _⟩ => rfl)]
  show Scalar.select (IntOp.cmpi .slt (cols1 (ix2 k m)) _) (IntOp.addi _ _) _ = _
  rw [cols1_apply]
  exact wrap_small _ _ (by rw [BitVec.toNat_ofNat]; have := m.isLt; omega)

theorem upd1_apply (lit : Fin 7 → BitVec 32) (k : Fin 7) (m : Fin 2048) :
    broadcastInDim S7x2048 ![0, 1] bcast_S7x1_S7x2048_0_1 (broadcastInDim S7x1 ![0] bcast_S7_S7x1_0 (wts lit)) (ix2 k m)
      = Ideal.ofBits .f32 (lit k) := by
  rw [broadcastInDim_apply _ _ _ _ (ix2 k (0 : Fin 1)) (fun a => match a with | ⟨0, _⟩ => rfl | ⟨1, _⟩ => rfl)]
  rw [broadcastInDim_apply _ _ _ _ (ix1 k) (fun a => match a with | ⟨0, _⟩ => rfl)]
  show Ideal.ofBits .f32 (lit (S7.rowMajor (ix1 k))) = _
  congr 2
  exact Fin.ext (Shape.rowMajor_val_one _)

theorem hit1 (c : IVec S2048x7 32) (hc : ∀ n k, (c (ix2 n k)).toNat < 2 ^ 31) (k : Fin 7) (m : Fin 2048)
    (t : Fin 4096) (n : Fin 2048) :
    scatter_S4096x2048_S7x2048x2_S7x2048_n_01_01_2.resultIdx? (ix2 k m) (idx1 c) = some (ix2 t n) ↔ (m = n ∧ (c (ix2 m k)).toNat = t.val) := by
  rw [resultIdx1, Fin.forall_fin_two]
  show (idx1 c (ix3 k m 0)).toInt = (t.val : ℤ) ∧ (idx1 c (ix3 k m 1)).toInt = (n.val : ℤ) ↔ _
  rw [idx1_row c k m (hc m k), idx1_col, toInt_small _ (hc m k),
    toInt_small _ (by rw [BitVec.toNat_ofNat]; have := m.isLt; omega), BitVec.toNat_ofNat,
    Nat.mod_eq_of_lt (by have := m.isLt; omega)]
  constructor
  · rintro ⟨h1, h2⟩; exact ⟨Fin.ext (by exact_mod_cast h2), by exact_mod_cast h1⟩
  · rintro ⟨rfl, h1⟩; exact ⟨by exact_mod_cast h1, rfl⟩

theorem W1_apply (c : IVec S2048x7 32) (lit : Fin 7 → BitVec 32) (hlit : IsWeights lit)
    (hc : ∀ n k, (c (ix2 n k)).toNat < 2 ^ 31) (t : Fin 4096) (n : Fin 2048) :
    W1 c lit (ix2 t n) = ((∑ k : Fin 7, if (c (ix2 n k)).toNat = t.val then 2 ^ (6 - k.val) else 0 : ℕ) : EReal) := by
  show Ideal.hostScatterAdd _ _ _ _ (ix2 t n) = _
  unfold Ideal.hostScatterAdd
  beta_reduce
  rw [broadcastInDim_scalar_apply, constant_apply, Ideal.ofBits_zero_f32, zero_add, Finset.sum_filter, sum_idx2]
  simp only [hit1 c hc]
  rw [Nat.cast_sum]
  refine Finset.sum_congr rfl fun k _ => ?_
  rw [Finset.sum_eq_single n]
  · simp only [true_and]
    split_ifs
    · rw [upd1_apply]; exact hlit k
    · simp
  · intro m _ hm
    rw [if_neg (fun h => hm h.1)]
  · intro h
    exact absurd (Finset.mem_univ n) h

theorem dot1_apply (Wb : FVec Ideal S4096x2048 .bf16) (xb : FVec Ideal S2048x4096 .bf16) (n : Fin 2048) (b : Fin 2048) :
    Host.dotGeneral dot_S4096x2048_S2048x4096_S2048x2048_0_1_1_0_n_n none Wb xb (ix2 n b) = ∑ t : Fin 4096, Wb (ix2 t n) * xb (ix2 b t) := by
  show FloatOps.dotGeneral dot_S4096x2048_S2048x4096_S2048x2048_0_1_1_0_n_n none .single Wb xb (ix2 n b) = _
  rw [Ideal.dotGeneral_apply, ← Equiv.sum_comp (contrEquiv1 dot_S4096x2048_S2048x4096_S2048x2048_0_1_1_0_n_n 4096 rfl rfl).symm]
  refine Finset.sum_congr rfl fun t _ => ?_
  have e := contrEquiv1_symm_val dot_S4096x2048_S2048x4096_S2048x2048_0_1_1_0_n_n 4096 rfl rfl t
  congr 2
  · exact Shape.idx_ext₂ e rfl
  · exact Shape.idx_ext₂ rfl e

theorem half1_apply (xb : FVec Ideal S2048x4096 .bf16) (x : Fin 2048 → Fin 4096 → ℕ)
    (hx : ∀ b t, xb (ix2 b t) = ((x b t : ℕ) : EReal)) (hx1 : ∀ b t, x b t ≤ 1)
    (c : IVec S2048x7 32) (κ : Fin 2048 → Fin 7 → Fin 4096) (hκ : ∀ n k, (c (ix2 n k)).toNat = (κ n k).val)
    (lit : Fin 7 → BitVec 32) (hlit : IsWeights lit) (n : Fin 2048) (b : Fin 2048) :
    half1 xb c lit (ix2 n b) = BitVec.ofNat 32 (∑ k : Fin 7, 2 ^ (6 - k.val) * x b (κ n k)) := by
  have hc : ∀ n k, (c (ix2 n k)).toNat < 2 ^ 31 := fun n k => by rw [hκ]; have := (κ n k).isLt; omega
  have key : ∑ t : Fin 4096, truncf .bf16 (W1 c lit) bitsLt_bf16_f32 (ix2 t n) * xb (ix2 b t)
      = ((∑ k : Fin 7, 2 ^ (6 - k.val) * x b (κ n k) : ℕ) : EReal) := by
    calc _ = ∑ t : Fin 4096, ((∑ k : Fin 7, if (κ n k).val = t.val then 2 ^ (6 - k.val) else 0 : ℕ) : EReal)
              * ((x b t : ℕ) : EReal) :=
          Finset.sum_congr rfl fun t _ => by
            rw [truncf_apply, W1_apply c lit hlit hc, hx b t]; simp only [hκ]
      _ = _ := by rw [sum_natCast, sum_pick (κ n) (fun k => 2 ^ (6 - k.val)) (x b)]
  unfold half1
  rw [fptosi_vec_apply, roundeven_vec_apply, dot1_apply, key, roundeven_natCast, fptosi_natCast]
  calc ∑ k : Fin 7, 2 ^ (6 - k.val) * x b (κ n k) ≤ ∑ k : Fin 7, 2 ^ (6 - k.val) * 1 :=
        Finset.sum_le_sum fun k _ => Nat.mul_le_mul_left _ (hx1 _ _)
    _ < 2 ^ 31 := by decide
theorem hi1_apply (a0 : IVec (Sh2 2048 4096) 32) (a2 : IVec (Sh2 2048 14) 32) (hb : ∀ b t, natAt a0 b t ≤ 1)
    (hc : ∀ n k, natAt a2 n k < 4096) (n : Fin 2048) (b : Fin 2048) :
    hi1 a0 a2 (ix2 n b) = BitVec.ofNat 32 (hiPart (natAt a0 b) (connAt 4096 a2 n)) :=
  half1_apply (bits0 a0) (natAt a0) (bits0_apply a0 hb) hb _ (fun n k => connAt 4096 a2 n (kHi k))
    (sliceHi_toNat a2 _ hc) lit0 isWeights_lit0 n b

theorem lo1_apply (a0 : IVec (Sh2 2048 4096) 32) (a2 : IVec (Sh2 2048 14) 32) (hb : ∀ b t, natAt a0 b t ≤ 1)
    (hc : ∀ n k, natAt a2 n k < 4096) (n : Fin 2048) (b : Fin 2048) :
    lo1 a0 a2 (ix2 n b) = BitVec.ofNat 32 (loPart (natAt a0 b) (connAt 4096 a2 n)) :=
  half1_apply (bits0 a0) (natAt a0) (bits0_apply a0 hb) hb _ (fun n k => connAt 4096 a2 n (kLo k))
    (sliceLo_toNat a2 _ hc) lit1 isWeights_lit1 n b

theorem startT (j : S7x1024.Idx) (idx : IVec S7x1024x2 32) (a : Fin 2) :
    scatter_S3072x1024_S7x1024x2_S7x1024_n_01_01_2.start j idx a = (idx (ix3 (j 0) (j 1) a)).toInt := by
  fin_cases a
  · show (idx _).toInt = _
    rw [eq_ix3 (scatter_S3072x1024_S7x1024x2_S7x1024_n_01_01_2.siIdx j _)]
    rfl
  · show (idx _).toInt = _
    rw [eq_ix3 (scatter_S3072x1024_S7x1024x2_S7x1024_n_01_01_2.siIdx j _)]
    rfl

theorem windowT (j : S7x1024.Idx) (a : Fin 2) : scatter_S3072x1024_S7x1024x2_S7x1024_n_01_01_2.window j a = 0 := by
  fin_cases a <;> rfl

theorem resultIdxT (j : S7x1024.Idx) (idx : IVec S7x1024x2 32) (i : S3072x1024.Idx) :
    scatter_S3072x1024_S7x1024x2_S7x1024_n_01_01_2.resultIdx? j idx = some i ↔ ∀ a : Fin 2, (idx (ix3 (j 0) (j 1) a)).toInt = ((i a).val : ℤ) := by
  have hs : ∀ a : Fin 2, scatter_S3072x1024_S7x1024x2_S7x1024_n_01_01_2.start j idx a + ((scatter_S3072x1024_S7x1024x2_S7x1024_n_01_01_2.window j a : ℕ) : ℤ) = (idx (ix3 (j 0) (j 1) a)).toInt := fun a => by
    rw [startT, windowT]; simp
  unfold ScatterDims.resultIdx?
  split_ifs with h
  · rw [Option.some.injEq]
    constructor
    · rintro rfl a
      show _ = (((scatter_S3072x1024_S7x1024x2_S7x1024_n_01_01_2.start j idx a + ((scatter_S3072x1024_S7x1024x2_S7x1024_n_01_01_2.window j a : ℕ) : ℤ)).toNat : ℕ) : ℤ)
      rw [Int.toNat_of_nonneg (h a).1, hs a]
    · intro hi
      funext a
      apply Fin.ext
      show (scatter_S3072x1024_S7x1024x2_S7x1024_n_01_01_2.start j idx a + ((scatter_S3072x1024_S7x1024x2_S7x1024_n_01_01_2.window j a : ℕ) : ℤ)).toNat = (i a).val
      rw [hs a, hi a]; simp
  · refine ⟨fun h' => (by cases h'), fun hi => absurd (fun a => ?_) h⟩
    rw [hs a, hi a]
    exact ⟨Int.natCast_nonneg _, by exact_mod_cast (i a).isLt⟩

theorem idxT_row (c : IVec S1024x7 32) (k : Fin 7) (m : Fin 1024) (hc : (c (ix2 m k)).toNat < 2 ^ 31) :
    idxT c (ix3 k m (0 : Fin 2)) = c (ix2 m k) := by
  unfold idxT
  rw [concatenate_pair_apply_left (t := S7x1024x2) (s₁ := S7x1024x1) (s₂ := S7x1024x1) _ _ _ _ (ix3 k m (0 : Fin 2)) rfl
    (ix3 k m (0 : Fin 1)) (fun b => match b with | ⟨0, _⟩ => rfl | ⟨1, _⟩ => rfl | ⟨2, _⟩ => rfl)]
  rw [broadcastInDim_apply _ _ _ _ (ix2 k m) (fun a => match a with | ⟨0, _⟩ => rfl | ⟨1, _⟩ => rfl)]
  show Scalar.select (IntOp.cmpi .slt (transpose S7x1024 [1, 0] c transposes_S1024x7_S7x1024_1_0 (ix2 k m)) _) (IntOp.addi _ _) _ = _
  rw [transpose_ix2_apply]
  exact wrap_small _ _ hc

theorem colsT_apply (k : Fin 7) (m : Fin 1024) : colsT (ix2 k m) = BitVec.ofNat 32 m.val := by
  unfold colsT
  rw [broadcastInDim_apply _ _ _ _ (ix2 (0 : Fin 1) m) (fun a => match a with | ⟨0, _⟩ => rfl | ⟨1, _⟩ => rfl)]
  rw [broadcastInDim_apply _ _ _ _ (ix1 m) (fun a => match a with | ⟨0, _⟩ => rfl)]
  rfl

theorem idxT_col (c : IVec S1024x7 32) (k : Fin 7) (m : Fin 1024) :
    idxT c (ix3 k m (1 : Fin 2)) = BitVec.ofNat 32 m.val := by
  unfold idxT
  rw [concatenate_pair_apply_right (t := S7x1024x2) (s₁ := S7x1024x1) (s₂ := S7x1024x1) _ _ _ _ (ix3 k m (1 : Fin 2)) rfl rfl
    (ix3 k m (0 : Fin 1))
    (fun b hb => match b, hb with | ⟨0, _⟩, _ => rfl | ⟨1, _⟩, _ => rfl | ⟨2, _⟩, hb => (hb rfl).elim) rfl]
  rw [broadcastInDim_apply _ _ _ _ (ix2 k m) (fun a => match a with | ⟨0, _⟩ => rfl | ⟨1, _⟩ => rfl)]
  show Scalar.select (IntOp.cmpi .slt (colsT (ix2 k m)) _) (IntOp.addi _ _) _ = _
  rw [colsT_apply]
  exact wrap_small _ _ (by rw [BitVec.toNat_ofNat]; have := m.isLt; omega)

theorem updT_apply (lit : Fin 7 → BitVec 32) (k : Fin 7) (m : Fin 1024) :
    broadcastInDim S7x1024 ![0, 1] bcast_S7x1_S7x1024_0_1 (broadcastInDim S7x1 ![0] bcast_S7_S7x1_0 (wts lit)) (ix2 k m)
      = Ideal.ofBits .f32 (lit k) := by
  rw [broadcastInDim_apply _ _ _ _ (ix2 k (0 : Fin 1)) (fun a => match a with | ⟨0, _⟩ => rfl | ⟨1, _⟩ => rfl)]
  rw [broadcastInDim_apply _ _ _ _ (ix1 k) (fun a => match a with | ⟨0, _⟩ => rfl)]
  show Ideal.ofBits .f32 (lit (S7.rowMajor (ix1 k))) = _
  congr 2
  exact Fin.ext (Shape.rowMajor_val_one _)

theorem hitT (c : IVec S1024x7 32) (hc : ∀ n k, (c (ix2 n k)).toNat < 2 ^ 31) (k : Fin 7) (m : Fin 1024)
    (t : Fin 3072) (n : Fin 1024) :
    scatter_S3072x1024_S7x1024x2_S7x1024_n_01_01_2.resultIdx? (ix2 k m) (idxT c) = some (ix2 t n) ↔ (m = n ∧ (c (ix2 m k)).toNat = t.val) := by
  rw [resultIdxT, Fin.forall_fin_two]
  show (idxT c (ix3 k m 0)).toInt = (t.val : ℤ) ∧ (idxT c (ix3 k m 1)).toInt = (n.val : ℤ) ↔ _
  rw [idxT_row c k m (hc m k), idxT_col, toInt_small _ (hc m k),
    toInt_small _ (by rw [BitVec.toNat_ofNat]; have := m.isLt; omega), BitVec.toNat_ofNat,
    Nat.mod_eq_of_lt (by have := m.isLt; omega)]
  constructor
  · rintro ⟨h1, h2⟩; exact ⟨Fin.ext (by exact_mod_cast h2), by exact_mod_cast h1⟩
  · rintro ⟨rfl, h1⟩; exact ⟨by exact_mod_cast h1, rfl⟩

theorem WT_apply (c : IVec S1024x7 32) (lit : Fin 7 → BitVec 32) (hlit : IsWeights lit)
    (hc : ∀ n k, (c (ix2 n k)).toNat < 2 ^ 31) (t : Fin 3072) (n : Fin 1024) :
    WT c lit (ix2 t n) = ((∑ k : Fin 7, if (c (ix2 n k)).toNat = t.val then 2 ^ (6 - k.val) else 0 : ℕ) : EReal) := by
  show Ideal.hostScatterAdd _ _ _ _ (ix2 t n) = _
  unfold Ideal.hostScatterAdd
  beta_reduce
  rw [broadcastInDim_scalar_apply, constant_apply, Ideal.ofBits_zero_f32, zero_add, Finset.sum_filter, sum_idx2]
  simp only [hitT c hc]
  rw [Nat.cast_sum]
  refine Finset.sum_congr rfl fun k _ => ?_
  rw [Finset.sum_eq_single n]
  · simp only [true_and]
    split_ifs
    · rw [updT_apply]; exact hlit k
    · simp
  · intro m _ hm
    rw [if_neg (fun h => hm h.1)]
  · intro h
    exact absurd (Finset.mem_univ n) h

theorem dotT_apply (Wb : FVec Ideal S3072x1024 .bf16) (xb : FVec Ideal S2048x3072 .bf16) (n : Fin 1024) (b : Fin 2048) :
    Host.dotGeneral dot_S3072x1024_S2048x3072_S1024x2048_0_1_1_0_n_n none Wb xb (ix2 n b) = ∑ t : Fin 3072, Wb (ix2 t n) * xb (ix2 b t) := by
  show FloatOps.dotGeneral dot_S3072x1024_S2048x3072_S1024x2048_0_1_1_0_n_n none .single Wb xb (ix2 n b) = _
  rw [Ideal.dotGeneral_apply, ← Equiv.sum_comp (contrEquiv1 dot_S3072x1024_S2048x3072_S1024x2048_0_1_1_0_n_n 3072 rfl rfl).symm]
  refine Finset.sum_congr rfl fun t _ => ?_
  have e := contrEquiv1_symm_val dot_S3072x1024_S2048x3072_S1024x2048_0_1_1_0_n_n 3072 rfl rfl t
  congr 2
  · exact Shape.idx_ext₂ e rfl
  · exact Shape.idx_ext₂ rfl e

theorem halfT_apply (xb : FVec Ideal S2048x3072 .bf16) (x : Fin 2048 → Fin 3072 → ℕ)
    (hx : ∀ b t, xb (ix2 b t) = ((x b t : ℕ) : EReal)) (hx1 : ∀ b t, x b t ≤ 1)
    (c : IVec S1024x7 32) (κ : Fin 1024 → Fin 7 → Fin 3072) (hκ : ∀ n k, (c (ix2 n k)).toNat = (κ n k).val)
    (lit : Fin 7 → BitVec 32) (hlit : IsWeights lit) (n : Fin 1024) (b : Fin 2048) :
    halfT xb c lit (ix2 n b) = BitVec.ofNat 32 (∑ k : Fin 7, 2 ^ (6 - k.val) * x b (κ n k)) := by
  have hc : ∀ n k, (c (ix2 n k)).toNat < 2 ^ 31 := fun n k => by rw [hκ]; have := (κ n k).isLt; omega
  have key : ∑ t : Fin 3072, truncf .bf16 (WT c lit) bitsLt_bf16_f32 (ix2 t n) * xb (ix2 b t)
      = ((∑ k : Fin 7, 2 ^ (6 - k.val) * x b (κ n k) : ℕ) : EReal) := by
    calc _ = ∑ t : Fin 3072, ((∑ k : Fin 7, if (κ n k).val = t.val then 2 ^ (6 - k.val) else 0 : ℕ) : EReal)
              * ((x b t : ℕ) : EReal) :=
          Finset.sum_congr rfl fun t _ => by
            rw [truncf_apply, WT_apply c lit hlit hc, hx b t]; simp only [hκ]
      _ = _ := by rw [sum_natCast, sum_pick (κ n) (fun k => 2 ^ (6 - k.val)) (x b)]
  unfold halfT
  rw [fptosi_vec_apply, roundeven_vec_apply, dotT_apply, key, roundeven_natCast, fptosi_natCast]
  calc ∑ k : Fin 7, 2 ^ (6 - k.val) * x b (κ n k) ≤ ∑ k : Fin 7, 2 ^ (6 - k.val) * 1 :=
        Finset.sum_le_sum fun k _ => Nat.mul_le_mul_left _ (hx1 _ _)
    _ < 2 ^ 31 := by decide

theorem hi2_apply (xb : FVec Ideal S2048x3072 .bf16) (β : Fin 2048 → Fin 3072 → ℕ)
    (hx : ∀ b t, xb (ix2 b t) = ((β b t : ℕ) : EReal)) (hβ : ∀ b t, β b t ≤ 1) (conn : IVec (Sh2 1024 14) 32)
    (hc : ∀ n k, natAt conn n k < 3072) (n : Fin 1024) (b : Fin 2048) :
    hi2 xb conn (ix2 n b) = BitVec.ofNat 32 (hiPart (β b) (connAt 3072 conn n)) :=
  halfT_apply xb β hx hβ _ (fun n k => connAt 3072 conn n (kHi k)) (sliceHi_toNat conn _ hc) lit2 isWeights_lit2 n b

theorem lo2_apply (xb : FVec Ideal S2048x3072 .bf16) (β : Fin 2048 → Fin 3072 → ℕ)
    (hx : ∀ b t, xb (ix2 b t) = ((β b t : ℕ) : EReal)) (hβ : ∀ b t, β b t ≤ 1) (conn : IVec (Sh2 1024 14) 32)
    (hc : ∀ n k, natAt conn n k < 3072) (n : Fin 1024) (b : Fin 2048) :
    lo2 xb conn (ix2 n b) = BitVec.ofNat 32 (loPart (β b) (connAt 3072 conn n)) :=
  halfT_apply xb β hx hβ _ (fun n k => connAt 3072 conn n (kLo k)) (sliceLo_toNat conn _ hc) lit3 isWeights_lit3 n b

theorem hi3_apply (xb : FVec Ideal S2048x3072 .bf16) (β : Fin 2048 → Fin 3072 → ℕ)
    (hx : ∀ b t, xb (ix2 b t) = ((β b t : ℕ) : EReal)) (hβ : ∀ b t, β b t ≤ 1) (conn : IVec (Sh2 1024 14) 32)
    (hc : ∀ n k, natAt conn n k < 3072) (n : Fin 1024) (b : Fin 2048) :
    hi3 xb conn (ix2 n b) = BitVec.ofNat 32 (hiPart (β b) (connAt 3072 conn n)) :=
  halfT_apply xb β hx hβ _ (fun n k => connAt 3072 conn n (kHi k)) (sliceHi_toNat conn _ hc) lit4 isWeights_lit4 n b

theorem lo3_apply (xb : FVec Ideal S2048x3072 .bf16) (β : Fin 2048 → Fin 3072 → ℕ)
    (hx : ∀ b t, xb (ix2 b t) = ((β b t : ℕ) : EReal)) (hβ : ∀ b t, β b t ≤ 1) (conn : IVec (Sh2 1024 14) 32)
    (hc : ∀ n k, natAt conn n k < 3072) (n : Fin 1024) (b : Fin 2048) :
    lo3 xb conn (ix2 n b) = BitVec.ofNat 32 (loPart (β b) (connAt 3072 conn n)) :=
  halfT_apply xb β hx hβ _ (fun n k => connAt 3072 conn n (kLo k)) (sliceLo_toNat conn _ hc) lit5 isWeights_lit5 n b

end Cert.Lut.KHost

end
-- ==== Proof.KLayer.lean ====
import proofs.«427008_j72404558676324_3_alg».proof.Proof.KI.Cover0
import proofs.«427008_j72404558676324_3_alg».proof.Proof.KI.Cover1
import proofs.«427008_j72404558676324_3_alg».proof.Proof.KI.Cover2
import proofs.«427008_j72404558676324_3_alg».proof.Proof.KHost
import proofs.«427008_j72404558676324_3_alg».proof.Proof.Spec

set_option maxRecDepth 16384

noncomputable section

open scoped BigOperators

namespace Cert.Lut.KLayer

open Cert.KernelIdeal Cert.KernelIdeal.Gen Cert.KernelIdeal.Lut Cert.Lut Idealize.ShloMosaic Idealize.ShloMosaic.TcCoe
  Idealize.ShloMosaic.ValueIdx

theorem fire_cast {T : ℕ} (μ : Fin 16384 → EReal) (x : Fin T → ℕ) (κ : Fin 14 → Fin T) (hx : ∀ t, x t ≤ 1)
    (hidx : 128 * hiPart x κ + loPart x κ < 16384) :
    (if μ ⟨128 * hiPart x κ + loPart x κ, hidx⟩ = (1 : EReal) then (1 : EReal) else 0)
      = ((fire μ (addr x κ) : ℕ) : EReal) := by
  have hlt := addr_lt x κ hx
  unfold fire
  rw [dif_pos hlt]
  have e : (⟨128 * hiPart x κ + loPart x κ, hidx⟩ : Fin 16384) = ⟨addr x κ, hlt⟩ := Fin.ext (addr_eq x κ).symm
  rw [e]
  split_ifs <;> simp

theorem layer0_out (V : (c : Dev nD) → (b : Ref sig .tc) → Buf (Elt Ideal) ((c : Thread nD τ).loc b)) (c : Dev nD)
    (a0 : IVec (Sh2 2048 4096) 32) (a2 : IVec (Sh2 2048 14) 32) (a3 : FVec Ideal (Sh2 2048 16384) .f32)
    (hm : V c main_v53 = KHost.mem1 a3) (hh : V c main_v50 = KHost.hi1 a0 a2) (hl : V c main_v52 = KHost.lo1 a0 a2)
    (hb : ∀ b t, natAt a0 b t ≤ 1) (hc : ∀ n k, natAt a2 n k < 4096) (b n : Fin 2048) :
    (dat0 (F := Ideal) V c).arrAt 3 cfg0.N (ix2 b n) = ((hidden a0 a2 a3 b n : ℕ) : EReal) := by
  have hx1 : ∀ t, natAt a0 b t ≤ 1 := hb b
  have hH := hiPart_lt (natAt a0 b) (connAt 4096 a2 n) hx1
  have hL := loPart_lt (natAt a0 b) (connAt 4096 a2 n) hx1
  have h1 : V c (Pipeline.arrRef spec0 1) (ix2 n b)
      = BitVec.ofNat 32 (⟨hiPart (natAt a0 b) (connAt 4096 a2 n), hH⟩ : Fin 128).val :=
    (congrFun hh (ix2 n b)).trans (KHost.hi1_apply a0 a2 hb hc n b)
  have h2 : V c (Pipeline.arrRef spec0 2) (ix2 n b)
      = BitVec.ofNat 32 (⟨loPart (natAt a0 b) (connAt 4096 a2 n), hL⟩ : Fin 128).val :=
    (congrFun hl (ix2 n b)).trans (KHost.lo1_apply a0 a2 hb hc n b)
  refine (arr0_apply V c b n ⟨_, hH⟩ ⟨_, hL⟩ h1 h2).trans ?_
  have h3 : V c (Pipeline.arrRef spec0 0)
        (ix3 n (⟨hiPart (natAt a0 b) (connAt 4096 a2 n), hH⟩ : Fin 128) (⟨loPart (natAt a0 b) (connAt 4096 a2 n), hL⟩ : Fin 128))
      = rowAt a3 n ⟨128 * hiPart (natAt a0 b) (connAt 4096 a2 n) + loPart (natAt a0 b) (connAt 4096 a2 n), by omega⟩ :=
    (congrFun hm _).trans (KHost.mem1_apply a3 n _ _)
  rw [h3]
  exact fire_cast (rowAt a3 n) (natAt a0 b) (connAt 4096 a2 n) hx1 _

theorem layer1_out (V : (c : Dev nD) → (b : Ref sig .tc) → Buf (Elt Ideal) ((c : Thread nD τ).loc b)) (c : Dev nD)
    (xb : FVec Ideal S2048x3072 .bf16) (β : Fin 2048 → Fin 3072 → ℕ)
    (hx : ∀ b t, xb (ix2 b t) = ((β b t : ℕ) : EReal)) (hβ : ∀ b t, β b t ≤ 1)
    (conn : IVec (Sh2 1024 14) 32) (hc : ∀ n k, natAt conn n k < 3072) (a5 : FVec Ideal (Sh2 1024 16384) .f32)
    (hm : V c main_v109 = KHost.memT a5) (hh : V c main_v106 = KHost.hi2 xb conn) (hl : V c main_v108 = KHost.lo2 xb conn)
    (b : Fin 2048) (n : Fin 1024) :
    (dat1 (F := Ideal) V c).arrAt 3 cfg1.N (ix2 b n) = ((layer β (connAt 3072 conn) (rowAt a5) b n : ℕ) : EReal) := by
  have hx1 : ∀ t, β b t ≤ 1 := hβ b
  have hH := hiPart_lt (β b) (connAt 3072 conn n) hx1
  have hL := loPart_lt (β b) (connAt 3072 conn n) hx1
  have h1 : V c (Pipeline.arrRef spec1 1) (ix2 n b)
      = BitVec.ofNat 32 (⟨hiPart (β b) (connAt 3072 conn n), hH⟩ : Fin 128).val :=
    (congrFun hh (ix2 n b)).trans (KHost.hi2_apply xb β hx hβ conn hc n b)
  have h2 : V c (Pipeline.arrRef spec1 2) (ix2 n b)
      = BitVec.ofNat 32 (⟨loPart (β b) (connAt 3072 conn n), hL⟩ : Fin 128).val :=
    (congrFun hl (ix2 n b)).trans (KHost.lo2_apply xb β hx hβ conn hc n b)
  refine (arr1_apply V c b n ⟨_, hH⟩ ⟨_, hL⟩ h1 h2).trans ?_
  have h3 : V c (Pipeline.arrRef spec1 0)
        (ix3 n (⟨hiPart (β b) (connAt 3072 conn n), hH⟩ : Fin 128) (⟨loPart (β b) (connAt 3072 conn n), hL⟩ : Fin 128))
      = rowAt a5 n ⟨128 * hiPart (β b) (connAt 3072 conn n) + loPart (β b) (connAt 3072 conn n), by omega⟩ :=
    (congrFun hm _).trans (KHost.memT_apply a5 n _ _)
  rw [h3]
  exact fire_cast (rowAt a5 n) (β b) (connAt 3072 conn n) hx1 _

theorem layer2_out (V : (c : Dev nD) → (b : Ref sig .tc) → Buf (Elt Ideal) ((c : Thread nD τ).loc b)) (c : Dev nD)
    (xb : FVec Ideal S2048x3072 .bf16) (β : Fin 2048 → Fin 3072 → ℕ)
    (hx : ∀ b t, xb (ix2 b t) = ((β b t : ℕ) : EReal)) (hβ : ∀ b t, β b t ≤ 1)
    (conn : IVec (Sh2 1024 14) 32) (hc : ∀ n k, natAt conn n k < 3072) (a5 : FVec Ideal (Sh2 1024 16384) .f32)
    (hm : V c main_v164 = KHost.memT a5) (hh : V c main_v161 = KHost.hi3 xb conn) (hl : V c main_v163 = KHost.lo3 xb conn)
    (b : Fin 2048) (n : Fin 1024) :
    (dat2 (F := Ideal) V c).arrAt 3 cfg2.N (ix2 b n) = ((layer β (connAt 3072 conn) (rowAt a5) b n : ℕ) : EReal) := by
  have hx1 : ∀ t, β b t ≤ 1 := hβ b
  have hH := hiPart_lt (β b) (connAt 3072 conn n) hx1
  have hL := loPart_lt (β b) (connAt 3072 conn n) hx1
  have h1 : V c (Pipeline.arrRef spec2 1) (ix2 n b)
      = BitVec.ofNat 32 (⟨hiPart (β b) (connAt 3072 conn n), hH⟩ : Fin 128).val :=
    (congrFun hh (ix2 n b)).trans (KHost.hi3_apply xb β hx hβ conn hc n b)
  have h2 : V c (Pipeline.arrRef spec2 2) (ix2 n b)
      = BitVec.ofNat 32 (⟨loPart (β b) (connAt 3072 conn n), hL⟩ : Fin 128).val :=
    (congrFun hl (ix2 n b)).trans (KHost.lo3_apply xb β hx hβ conn hc n b)
  refine (arr2_apply V c b n ⟨_, hH⟩ ⟨_, hL⟩ h1 h2).trans ?_
  have h3 : V c (Pipeline.arrRef spec2 0)
        (ix3 n (⟨hiPart (β b) (connAt 3072 conn n), hH⟩ : Fin 128) (⟨loPart (β b) (connAt 3072 conn n), hL⟩ : Fin 128))
      = rowAt a5 n ⟨128 * hiPart (β b) (connAt 3072 conn n) + loPart (β b) (connAt 3072 conn n), by omega⟩ :=
    (congrFun hm _).trans (KHost.memT_apply a5 n _ _)
  rw [h3]
  exact fire_cast (rowAt a5 n) (β b) (connAt 3072 conn n) hx1 _

theorem cat_cast (l : FVec Ideal S2048x2048 .bf16) (r : FVec Ideal S2048x1024 .bf16) (f : Fin 2048 → Fin 2048 → ℕ)
    (g : Fin 2048 → Fin 1024 → ℕ) (hl : ∀ b t, l (ix2 b t) = ((f b t : ℕ) : EReal))
    (hr : ∀ b t, r (ix2 b t) = ((g b t : ℕ) : EReal)) (b : Fin 2048) (t : Fin 3072) :
    KHost.catB l r (ix2 b t) = ((cat f g b t : ℕ) : EReal) := by
  rw [KHost.catB_apply]
  unfold cat
  split_ifs with h
  · exact hl b _
  · exact hr b _

end Cert.Lut.KLayer

end
-- ==== Proof.KVal.lean ====
import proofs.«427008_j72404558676324_3_alg».proof.Proof.KI.Run
import proofs.«427008_j72404558676324_3_alg».proof.Proof.KLayer
import proofs.«427008_j72404558676324_3_alg».proof.Proof.KHost
import proofs.«427008_j72404558676324_3_alg».proof.Proof.Spec
import Idealize.ShloMosaic.Lib.StableHlo.Run
import Idealize.ShloMosaic.Lib.ValueIdx

set_option maxRecDepth 16384

noncomputable section

namespace Cert.Lut.KVal

open Cert.KernelIdeal Cert.KernelIdeal.Gen Cert.KernelIdeal.Lut
open Idealize.ShloMosaic Idealize.ShloMosaic.TcCoe Idealize.SL.Sem Idealize.ShloMosaic.StableHlo Idealize.ShloMosaic.ValueIdx

abbrev asF (s : Shape) (φ : FTy) (x : FVec Ideal s φ) : FVec Ideal s φ := x
abbrev asI (s : Shape) (w : Nat) (x : IVec s w) : IVec s w := x

set_option maxHeartbeats 8000000 in
theorem s0_dh (V : Valuation τ sig (Elt Ideal)) :
    asF S2048x2048 .f32 (StableHlo.after hostOps0 V (Proc.devRef .tc main_v47))
      = Host.dotGeneral dot_S4096x2048_S2048x4096_S2048x2048_0_1_1_0_n_n none
          (truncf .bf16 (KHost.W1 (extractStridedSlice S2048x7 ![0, 0] (V (Proc.devRef .tc main_arg2)) slices_S2048x14_S2048x7_0_0) lit0) bitsLt_bf16_f32)
          (KHost.bits0 (V (Proc.devRef .tc main_arg0))) := by
  simp only [hostOps0]
  after_results_simp
  rfl

set_option maxHeartbeats 8000000 in
theorem s0_dl (V : Valuation τ sig (Elt Ideal)) :
    asF S2048x2048 .f32 (StableHlo.after hostOps0 V (Proc.devRef .tc main_v48))
      = Host.dotGeneral dot_S4096x2048_S2048x4096_S2048x2048_0_1_1_0_n_n none
          (truncf .bf16 (KHost.W1 (extractStridedSlice S2048x7 ![0, 7] (V (Proc.devRef .tc main_arg2)) slices_S2048x14_S2048x7_0_7) lit1) bitsLt_bf16_f32)
          (KHost.bits0 (V (Proc.devRef .tc main_arg0))) := by
  simp only [hostOps0]
  after_results_simp
  rfl

theorem s0_rh (V : Valuation τ sig (Elt Ideal)) :
    asF S2048x2048 .f32 (StableHlo.after hostOps0_1 V (Proc.devRef .tc main_v49))
      = Host.roundeven (asF S2048x2048 .f32 (V (Proc.devRef .tc main_v47))) := by
  simp only [hostOps0_1]
  after_results_simp
  rfl
theorem s0_ih (V : Valuation τ sig (Elt Ideal)) :
    asI S2048x2048 32 (StableHlo.after hostOps0_2 V (Proc.devRef .tc main_v50))
      = fptosi 32 (asF S2048x2048 .f32 (V (Proc.devRef .tc main_v49))) := by
  simp only [hostOps0_2]
  after_results_simp
theorem s0_rl (V : Valuation τ sig (Elt Ideal)) :
    asF S2048x2048 .f32 (StableHlo.after hostOps0_3 V (Proc.devRef .tc main_v51))
      = Host.roundeven (asF S2048x2048 .f32 (V (Proc.devRef .tc main_v48))) := by
  simp only [hostOps0_3]
  after_results_simp
  rfl
theorem s0_il (V : Valuation τ sig (Elt Ideal)) :
    asI S2048x2048 32 (StableHlo.after hostOps0_4 V (Proc.devRef .tc main_v52))
      = fptosi 32 (asF S2048x2048 .f32 (V (Proc.devRef .tc main_v51))) := by
  simp only [hostOps0_4]
  after_results_simp
theorem s0_mm (V : Valuation τ sig (Elt Ideal)) :
    asF S2048x128x128 .f32 (StableHlo.after hostOps0_4 V (Proc.devRef .tc main_v53))
      = KHost.mem1 (V (Proc.devRef .tc main_arg3)) := by
  simp only [hostOps0_4]
  after_results_simp
  rfl

set_option maxHeartbeats 2000000 in
theorem s0_main_cst_1 (V : Valuation τ sig (Elt Ideal)) :
    asF S7 .f32 (StableHlo.after hostOps0 V (Proc.devRef .tc main_cst_1)) = KHost.wts lit2 := by
  simp only [hostOps0]
  after_results_simp
  rfl

set_option maxHeartbeats 2000000 in
theorem s0_main_cst_2 (V : Valuation τ sig (Elt Ideal)) :
    asF S7 .f32 (StableHlo.after hostOps0 V (Proc.devRef .tc main_cst_2)) = KHost.wts lit3 := by
  simp only [hostOps0]
  after_results_simp
  rfl

set_option maxHeartbeats 2000000 in
theorem s0_main_cst_3 (V : Valuation τ sig (Elt Ideal)) :
    asF S7 .f32 (StableHlo.after hostOps0 V (Proc.devRef .tc main_cst_3)) = KHost.wts lit4 := by
  simp only [hostOps0]
  after_results_simp
  rfl

set_option maxHeartbeats 2000000 in
theorem s0_main_cst_4 (V : Valuation τ sig (Elt Ideal)) :
    asF S7 .f32 (StableHlo.after hostOps0 V (Proc.devRef .tc main_cst_4)) = KHost.wts lit5 := by
  simp only [hostOps0]
  after_results_simp
  rfl

set_option maxHeartbeats 8000000 in
theorem s1_dh (V : Valuation τ sig (Elt Ideal)) (hw : V (Proc.devRef .tc main_cst_1) = KHost.wts lit2) :
    asF S1024x2048 .f32 (StableHlo.after hostOps1 V (Proc.devRef .tc main_v103))
      = Host.dotGeneral dot_S3072x1024_S2048x3072_S1024x2048_0_1_1_0_n_n none
          (truncf .bf16 (KHost.WT (extractStridedSlice S1024x7 ![0, 0] (V (Proc.devRef .tc main_arg4)) slices_S1024x14_S1024x7_0_0) lit2) bitsLt_bf16_f32)
          (KHost.catB (asF S2048x2048 .bf16 (V (Proc.devRef .tc main_v54))) (KHost.bits1 (V (Proc.devRef .tc main_arg1)))) := by
  simp only [hostOps1]
  after_results_simp
  rw [hw]
  rfl

set_option maxHeartbeats 8000000 in
theorem s1_dl (V : Valuation τ sig (Elt Ideal)) (hw : V (Proc.devRef .tc main_cst_2) = KHost.wts lit3) :
    asF S1024x2048 .f32 (StableHlo.after hostOps1 V (Proc.devRef .tc main_v104))
      = Host.dotGeneral dot_S3072x1024_S2048x3072_S1024x2048_0_1_1_0_n_n none
          (truncf .bf16 (KHost.WT (extractStridedSlice S1024x7 ![0, 7] (V (Proc.devRef .tc main_arg4)) slices_S1024x14_S1024x7_0_7) lit3) bitsLt_bf16_f32)
          (KHost.catB (asF S2048x2048 .bf16 (V (Proc.devRef .tc main_v54))) (KHost.bits1 (V (Proc.devRef .tc main_arg1)))) := by
  simp only [hostOps1]
  after_results_simp
  rw [hw]
  rfl

theorem s1_rh (V : Valuation τ sig (Elt Ideal)) :
    asF S1024x2048 .f32 (StableHlo.after hostOps1_1 V (Proc.devRef .tc main_v105))
      = Host.roundeven (asF S1024x2048 .f32 (V (Proc.devRef .tc main_v103))) := by
  simp only [hostOps1_1]
  after_results_simp
  rfl
theorem s1_ih (V : Valuation τ sig (Elt Ideal)) :
    asI S1024x2048 32 (StableHlo.after hostOps1_2 V (Proc.devRef .tc main_v106))
      = fptosi 32 (asF S1024x2048 .f32 (V (Proc.devRef .tc main_v105))) := by
  simp only [hostOps1_2]
  after_results_simp
theorem s1_rl (V : Valuation τ sig (Elt Ideal)) :
    asF S1024x2048 .f32 (StableHlo.after hostOps1_3 V (Proc.devRef .tc main_v107))
      = Host.roundeven (asF S1024x2048 .f32 (V (Proc.devRef .tc main_v104))) := by
  simp only [hostOps1_3]
  after_results_simp
  rfl
theorem s1_il (V : Valuation τ sig (Elt Ideal)) :
    asI S1024x2048 32 (StableHlo.after hostOps1_4 V (Proc.devRef .tc main_v108))
      = fptosi 32 (asF S1024x2048 .f32 (V (Proc.devRef .tc main_v107))) := by
  simp only [hostOps1_4]
  after_results_simp
theorem s1_mm (V : Valuation τ sig (Elt Ideal)) :
    asF S1024x128x128 .f32 (StableHlo.after hostOps1_4 V (Proc.devRef .tc main_v109))
      = KHost.memT (V (Proc.devRef .tc main_arg5)) := by
  simp only [hostOps1_4]
  after_results_simp
  rfl

set_option maxHeartbeats 8000000 in
theorem s2_dh (V : Valuation τ sig (Elt Ideal)) (hw : V (Proc.devRef .tc main_cst_3) = KHost.wts lit4) :
    asF S1024x2048 .f32 (StableHlo.after hostOps2 V (Proc.devRef .tc main_v158))
      = Host.dotGeneral dot_S3072x1024_S2048x3072_S1024x2048_0_1_1_0_n_n none
          (truncf .bf16 (KHost.WT (extractStridedSlice S1024x7 ![0, 0] (V (Proc.devRef .tc main_arg6)) slices_S1024x14_S1024x7_0_0) lit4) bitsLt_bf16_f32)
          (KHost.catB (asF S2048x2048 .bf16 (V (Proc.devRef .tc main_v54))) (asF S2048x1024 .bf16 (V (Proc.devRef .tc main_v110)))) := by
  simp only [hostOps2]
  after_results_simp
  rw [hw]
  rfl

set_option maxHeartbeats 8000000 in
theorem s2_dl (V : Valuation τ sig (Elt Ideal)) (hw : V (Proc.devRef .tc main_cst_4) = KHost.wts lit5) :
    asF S1024x2048 .f32 (StableHlo.after hostOps2 V (Proc.devRef .tc main_v159))
      = Host.dotGeneral dot_S3072x1024_S2048x3072_S1024x2048_0_1_1_0_n_n none
          (truncf .bf16 (KHost.WT (extractStridedSlice S1024x7 ![0, 7] (V (Proc.devRef .tc main_arg6)) slices_S1024x14_S1024x7_0_7) lit5) bitsLt_bf16_f32)
          (KHost.catB (asF S2048x2048 .bf16 (V (Proc.devRef .tc main_v54))) (asF S2048x1024 .bf16 (V (Proc.devRef .tc main_v110)))) := by
  simp only [hostOps2]
  after_results_simp
  rw [hw]
  rfl

theorem s2_rh (V : Valuation τ sig (Elt Ideal)) :
    asF S1024x2048 .f32 (StableHlo.after hostOps2_1 V (Proc.devRef .tc main_v160))
      = Host.roundeven (asF S1024x2048 .f32 (V (Proc.devRef .tc main_v158))) := by
  simp only [hostOps2_1]
  after_results_simp
  rfl
theorem s2_ih (V : Valuation τ sig (Elt Ideal)) :
    asI S1024x2048 32 (StableHlo.after hostOps2_2 V (Proc.devRef .tc main_v161))
      = fptosi 32 (asF S1024x2048 .f32 (V (Proc.devRef .tc main_v160))) := by
  simp only [hostOps2_2]
  after_results_simp
theorem s2_rl (V : Valuation τ sig (Elt Ideal)) :
    asF S1024x2048 .f32 (StableHlo.after hostOps2_3 V (Proc.devRef .tc main_v162))
      = Host.roundeven (asF S1024x2048 .f32 (V (Proc.devRef .tc main_v159))) := by
  simp only [hostOps2_3]
  after_results_simp
  rfl
theorem s2_il (V : Valuation τ sig (Elt Ideal)) :
    asI S1024x2048 32 (StableHlo.after hostOps2_4 V (Proc.devRef .tc main_v163))
      = fptosi 32 (asF S1024x2048 .f32 (V (Proc.devRef .tc main_v162))) := by
  simp only [hostOps2_4]
  after_results_simp
theorem s2_mm (V : Valuation τ sig (Elt Ideal)) :
    asF S1024x128x128 .f32 (StableHlo.after hostOps2_4 V (Proc.devRef .tc main_v164))
      = KHost.memT (V (Proc.devRef .tc main_arg7)) := by
  simp only [hostOps2_4]
  after_results_simp
  rfl

section Levels
variable (m : (ℓ : Loc nD τ sig) → Buf (Elt Ideal) ℓ) (ρ : Dev nD → PrngReg) (c : Dev nD)

abbrev A0 : IVec (Sh2 2048 4096) 32 := m ((c : Thread nD τ).loc main_arg0)
abbrev A1 : IVec (Sh2 2048 1024) 32 := m ((c : Thread nD τ).loc main_arg1)
abbrev A2 : IVec (Sh2 2048 14) 32 := m ((c : Thread nD τ).loc main_arg2)
abbrev A3 : FVec Ideal (Sh2 2048 16384) .f32 := m ((c : Thread nD τ).loc main_arg3)
abbrev A4 : IVec (Sh2 1024 14) 32 := m ((c : Thread nD τ).loc main_arg4)
abbrev A5 : FVec Ideal (Sh2 1024 16384) .f32 := m ((c : Thread nD τ).loc main_arg5)
abbrev A6 : IVec (Sh2 1024 14) 32 := m ((c : Thread nD τ).loc main_arg6)
abbrev A7 : FVec Ideal (Sh2 1024 16384) .f32 := m ((c : Thread nD τ).loc main_arg7)

theorem B0_4_of (b : Ref sig .tc) (h1 : b ∉ hostOps0_written) (h2 : b ∉ hostOps0_1_written) (h3 : b ∉ hostOps0_2_written) (h4 : b ∉ hostOps0_3_written) :
    B0_4 m ρ c (Proc.devRef .tc b) = m ((c : Thread nD τ).loc b) :=
  (after_of_forall₂ hostOps0_3_writes (B0_3 m ρ c) h4).trans ((after_of_forall₂ hostOps0_2_writes (B0_2 m ρ c) h3).trans ((after_of_forall₂ hostOps0_1_writes (B0_1 m ρ c) h2).trans ((after_of_forall₂ hostOps0_writes (B0_0 m ρ c) h1))))
theorem B0_5_of (b : Ref sig .tc) (h1 : b ∉ hostOps0_written) (h2 : b ∉ hostOps0_1_written) (h3 : b ∉ hostOps0_2_written) (h4 : b ∉ hostOps0_3_written) (h5 : b ∉ hostOps0_4_written) :
    B0_5 m ρ c (Proc.devRef .tc b) = m ((c : Thread nD τ).loc b) :=
  (after_of_forall₂ hostOps0_4_writes (B0_4 m ρ c) h5).trans ((after_of_forall₂ hostOps0_3_writes (B0_3 m ρ c) h4).trans ((after_of_forall₂ hostOps0_2_writes (B0_2 m ρ c) h3).trans ((after_of_forall₂ hostOps0_1_writes (B0_1 m ρ c) h2).trans ((after_of_forall₂ hostOps0_writes (B0_0 m ρ c) h1)))))
theorem X0_of (b : Ref sig .tc) (h1 : b ∉ hostOps0_written) (h2 : b ∉ hostOps0_1_written) (h3 : b ∉ hostOps0_2_written) (h4 : b ∉ hostOps0_3_written) (h5 : b ∉ hostOps0_4_written) (hx : ∀ w, Pipeline.arrRef spec0 w ≠ b) :
    X0 m ρ c (Proc.devRef .tc b) = m ((c : Thread nD τ).loc b) :=
  (X0_of_ne m ρ c b hx).trans (B0_5_of m ρ c b h1 h2 h3 h4 h5)

theorem X0_to (b : Ref sig .tc) (h2 : b ∉ hostOps0_1_written) (h3 : b ∉ hostOps0_2_written) (h4 : b ∉ hostOps0_3_written) (h5 : b ∉ hostOps0_4_written) (hx : ∀ w, Pipeline.arrRef spec0 w ≠ b) :
    X0 m ρ c (Proc.devRef .tc b) = B0_1 m ρ c (Proc.devRef .tc b) :=
  (X0_of_ne m ρ c b hx).trans ((after_of_forall₂ hostOps0_4_writes (B0_4 m ρ c) h5).trans ((after_of_forall₂ hostOps0_3_writes (B0_3 m ρ c) h4).trans ((after_of_forall₂ hostOps0_2_writes (B0_2 m ρ c) h3).trans ((after_of_forall₂ hostOps0_1_writes (B0_1 m ρ c) h2)))))
theorem B1_4_to (b : Ref sig .tc) (h1 : b ∉ hostOps1_written) (h2 : b ∉ hostOps1_1_written) (h3 : b ∉ hostOps1_2_written) (h4 : b ∉ hostOps1_3_written) :
    B1_4 m ρ c (Proc.devRef .tc b) = X0 m ρ c (Proc.devRef .tc b) :=
  (after_of_forall₂ hostOps1_3_writes (B1_3 m ρ c) h4).trans ((after_of_forall₂ hostOps1_2_writes (B1_2 m ρ c) h3).trans ((after_of_forall₂ hostOps1_1_writes (B1_1 m ρ c) h2).trans ((after_of_forall₂ hostOps1_writes (X0 m ρ c) h1))))
theorem X1_to (b : Ref sig .tc) (h1 : b ∉ hostOps1_written) (h2 : b ∉ hostOps1_1_written) (h3 : b ∉ hostOps1_2_written) (h4 : b ∉ hostOps1_3_written) (h5 : b ∉ hostOps1_4_written) (hx : ∀ w, Pipeline.arrRef spec1 w ≠ b) :
    X1 m ρ c (Proc.devRef .tc b) = X0 m ρ c (Proc.devRef .tc b) :=
  (X1_of_ne m ρ c b hx).trans ((after_of_forall₂ hostOps1_4_writes (B1_4 m ρ c) h5).trans ((after_of_forall₂ hostOps1_3_writes (B1_3 m ρ c) h4).trans ((after_of_forall₂ hostOps1_2_writes (B1_2 m ρ c) h3).trans ((after_of_forall₂ hostOps1_1_writes (B1_1 m ρ c) h2).trans ((after_of_forall₂ hostOps1_writes (X0 m ρ c) h1))))))
theorem B2_4_to (b : Ref sig .tc) (h1 : b ∉ hostOps2_written) (h2 : b ∉ hostOps2_1_written) (h3 : b ∉ hostOps2_2_written) (h4 : b ∉ hostOps2_3_written) :
    B2_4 m ρ c (Proc.devRef .tc b) = X1 m ρ c (Proc.devRef .tc b) :=
  (after_of_forall₂ hostOps2_3_writes (B2_3 m ρ c) h4).trans ((after_of_forall₂ hostOps2_2_writes (B2_2 m ρ c) h3).trans ((after_of_forall₂ hostOps2_1_writes (B2_1 m ρ c) h2).trans ((after_of_forall₂ hostOps2_writes (X1 m ρ c) h1))))

theorem X0_arg1 : X0 m ρ c (Proc.devRef .tc main_arg1) = A1 m c := X0_of m ρ c main_arg1 (by decide) (by decide) (by decide) (by decide) (by decide) (by decide)
theorem X0_arg4 : X0 m ρ c (Proc.devRef .tc main_arg4) = A4 m c := X0_of m ρ c main_arg4 (by decide) (by decide) (by decide) (by decide) (by decide) (by decide)
theorem X0_arg5 : X0 m ρ c (Proc.devRef .tc main_arg5) = A5 m c := X0_of m ρ c main_arg5 (by decide) (by decide) (by decide) (by decide) (by decide) (by decide)
theorem X0_arg6 : X0 m ρ c (Proc.devRef .tc main_arg6) = A6 m c := X0_of m ρ c main_arg6 (by decide) (by decide) (by decide) (by decide) (by decide) (by decide)
theorem X0_arg7 : X0 m ρ c (Proc.devRef .tc main_arg7) = A7 m c := X0_of m ρ c main_arg7 (by decide) (by decide) (by decide) (by decide) (by decide) (by decide)
theorem X1_arg6 : X1 m ρ c (Proc.devRef .tc main_arg6) = A6 m c := (X1_to m ρ c main_arg6 (by decide) (by decide) (by decide) (by decide) (by decide) (by decide)).trans (X0_arg6 m ρ c)
theorem X1_arg7 : X1 m ρ c (Proc.devRef .tc main_arg7) = A7 m c := (X1_to m ρ c main_arg7 (by decide) (by decide) (by decide) (by decide) (by decide) (by decide)).trans (X0_arg7 m ρ c)

theorem X1_v54 : X1 m ρ c (Proc.devRef .tc main_v54) = X0 m ρ c (Proc.devRef .tc main_v54) := X1_to m ρ c main_v54 (by decide) (by decide) (by decide) (by decide) (by decide) (by decide)

theorem X0_main_cst_1 : X0 m ρ c (Proc.devRef .tc main_cst_1) = KHost.wts lit2 := (X0_to m ρ c main_cst_1 (by decide) (by decide) (by decide) (by decide) (by decide)).trans (s0_main_cst_1 (B0_0 m ρ c))
theorem X0_main_cst_2 : X0 m ρ c (Proc.devRef .tc main_cst_2) = KHost.wts lit3 := (X0_to m ρ c main_cst_2 (by decide) (by decide) (by decide) (by decide) (by decide)).trans (s0_main_cst_2 (B0_0 m ρ c))
theorem X0_main_cst_3 : X0 m ρ c (Proc.devRef .tc main_cst_3) = KHost.wts lit4 := (X0_to m ρ c main_cst_3 (by decide) (by decide) (by decide) (by decide) (by decide)).trans (s0_main_cst_3 (B0_0 m ρ c))
theorem X0_main_cst_4 : X0 m ρ c (Proc.devRef .tc main_cst_4) = KHost.wts lit5 := (X0_to m ρ c main_cst_4 (by decide) (by decide) (by decide) (by decide) (by decide)).trans (s0_main_cst_4 (B0_0 m ρ c))
theorem X1_main_cst_3 : X1 m ρ c (Proc.devRef .tc main_cst_3) = KHost.wts lit4 := (X1_to m ρ c main_cst_3 (by decide) (by decide) (by decide) (by decide) (by decide) (by decide)).trans (X0_main_cst_3 m ρ c)
theorem X1_main_cst_4 : X1 m ρ c (Proc.devRef .tc main_cst_4) = KHost.wts lit5 := (X1_to m ρ c main_cst_4 (by decide) (by decide) (by decide) (by decide) (by decide) (by decide)).trans (X0_main_cst_4 m ρ c)

abbrev xb1 : FVec Ideal S2048x3072 .bf16 :=
  KHost.catB (asF S2048x2048 .bf16 (X0 m ρ c (Proc.devRef .tc main_v54))) (KHost.bits1 (A1 m c))

abbrev xb2 : FVec Ideal S2048x3072 .bf16 :=
  KHost.catB (asF S2048x2048 .bf16 (X0 m ρ c (Proc.devRef .tc main_v54))) (asF S2048x1024 .bf16 (X1 m ρ c (Proc.devRef .tc main_v110)))

theorem VE0_mm : asF S2048x128x128 .f32 (VE0 m ρ c main_v53) = KHost.mem1 (A3 m c) :=
  (s0_mm (B0_4 m ρ c)).trans (congrArg KHost.mem1 (B0_4_of m ρ c main_arg3 (by decide) (by decide) (by decide) (by decide)))

theorem VE0_ih : asI S2048x2048 32 (VE0 m ρ c main_v50) = KHost.hi1 (A0 m c) (A2 m c) :=
  calc asI S2048x2048 32 (B0_5 m ρ c (Proc.devRef .tc main_v50))
      = asI S2048x2048 32 (B0_3 m ρ c (Proc.devRef .tc main_v50)) := (after_of_forall₂ hostOps0_4_writes (B0_4 m ρ c) (by decide)).trans ((after_of_forall₂ hostOps0_3_writes (B0_3 m ρ c) (by decide)))
    _ = fptosi 32 (asF S2048x2048 .f32 (B0_2 m ρ c (Proc.devRef .tc main_v49))) := s0_ih (B0_2 m ρ c)
    _ = fptosi 32 (Host.roundeven (asF S2048x2048 .f32 (B0_1 m ρ c (Proc.devRef .tc main_v47)))) :=
        congrArg (fun x : FVec Ideal S2048x2048 .f32 => fptosi 32 x) (s0_rh (B0_1 m ρ c))
    _ = fptosi 32 (Host.roundeven (Host.dotGeneral dot_S4096x2048_S2048x4096_S2048x2048_0_1_1_0_n_n none
          (truncf .bf16 (KHost.W1 (extractStridedSlice S2048x7 ![0, 0] (B0_0 m ρ c (Proc.devRef .tc main_arg2)) slices_S2048x14_S2048x7_0_0) lit0) bitsLt_bf16_f32)
          (KHost.bits0 (B0_0 m ρ c (Proc.devRef .tc main_arg0))))) :=
        congrArg (fun x : FVec Ideal S2048x2048 .f32 => fptosi 32 (Host.roundeven x)) (s0_dh (B0_0 m ρ c))
    _ = KHost.hi1 (A0 m c) (A2 m c) := rfl

theorem VE0_il : asI S2048x2048 32 (VE0 m ρ c main_v52) = KHost.lo1 (A0 m c) (A2 m c) :=
  calc asI S2048x2048 32 (B0_5 m ρ c (Proc.devRef .tc main_v52))
      = fptosi 32 (asF S2048x2048 .f32 (B0_4 m ρ c (Proc.devRef .tc main_v51))) := s0_il (B0_4 m ρ c)
    _ = fptosi 32 (Host.roundeven (asF S2048x2048 .f32 (B0_3 m ρ c (Proc.devRef .tc main_v48)))) :=
        congrArg (fun x : FVec Ideal S2048x2048 .f32 => fptosi 32 x) (s0_rl (B0_3 m ρ c))
    _ = fptosi 32 (Host.roundeven (asF S2048x2048 .f32 (B0_1 m ρ c (Proc.devRef .tc main_v48)))) :=
        congrArg (fun x : FVec Ideal S2048x2048 .f32 => fptosi 32 (Host.roundeven x)) ((after_of_forall₂ hostOps0_2_writes (B0_2 m ρ c) (by decide)).trans ((after_of_forall₂ hostOps0_1_writes (B0_1 m ρ c) (by decide))))
    _ = fptosi 32 (Host.roundeven (Host.dotGeneral dot_S4096x2048_S2048x4096_S2048x2048_0_1_1_0_n_n none
          (truncf .bf16 (KHost.W1 (extractStridedSlice S2048x7 ![0, 7] (B0_0 m ρ c (Proc.devRef .tc main_arg2)) slices_S2048x14_S2048x7_0_7) lit1) bitsLt_bf16_f32)
          (KHost.bits0 (B0_0 m ρ c (Proc.devRef .tc main_arg0))))) :=
        congrArg (fun x : FVec Ideal S2048x2048 .f32 => fptosi 32 (Host.roundeven x)) (s0_dl (B0_0 m ρ c))
    _ = KHost.lo1 (A0 m c) (A2 m c) := rfl

theorem VE1_mm : asF S1024x128x128 .f32 (VE1 m ρ c main_v109) = KHost.memT (A5 m c) :=
  (s1_mm (B1_4 m ρ c)).trans (congrArg KHost.memT ((B1_4_to m ρ c main_arg5 (by decide) (by decide) (by decide) (by decide)).trans (X0_arg5 m ρ c)))

theorem VE1_ih : asI S1024x2048 32 (VE1 m ρ c main_v106) = KHost.hi2 (xb1 m ρ c) (A4 m c) :=
  calc asI S1024x2048 32 (B1_5 m ρ c (Proc.devRef .tc main_v106))
      = asI S1024x2048 32 (B1_3 m ρ c (Proc.devRef .tc main_v106)) := (after_of_forall₂ hostOps1_4_writes (B1_4 m ρ c) (by decide)).trans ((after_of_forall₂ hostOps1_3_writes (B1_3 m ρ c) (by decide)))
    _ = fptosi 32 (asF S1024x2048 .f32 (B1_2 m ρ c (Proc.devRef .tc main_v105))) := s1_ih (B1_2 m ρ c)
    _ = fptosi 32 (Host.roundeven (asF S1024x2048 .f32 (B1_1 m ρ c (Proc.devRef .tc main_v103)))) :=
        congrArg (fun x : FVec Ideal S1024x2048 .f32 => fptosi 32 x) (s1_rh (B1_1 m ρ c))
    _ = fptosi 32 (Host.roundeven (Host.dotGeneral dot_S3072x1024_S2048x3072_S1024x2048_0_1_1_0_n_n none
          (truncf .bf16 (KHost.WT (extractStridedSlice S1024x7 ![0, 0] (X0 m ρ c (Proc.devRef .tc main_arg4)) slices_S1024x14_S1024x7_0_0) lit2) bitsLt_bf16_f32)
          (KHost.catB (asF S2048x2048 .bf16 (X0 m ρ c (Proc.devRef .tc main_v54))) (KHost.bits1 (X0 m ρ c (Proc.devRef .tc main_arg1)))))) :=
        congrArg (fun x : FVec Ideal S1024x2048 .f32 => fptosi 32 (Host.roundeven x)) (s1_dh (X0 m ρ c) (X0_main_cst_1 m ρ c))
    _ = KHost.hi2 (xb1 m ρ c) (A4 m c) := by rw [X0_arg4 m ρ c, X0_arg1 m ρ c]; rfl

theorem VE1_il : asI S1024x2048 32 (VE1 m ρ c main_v108) = KHost.lo2 (xb1 m ρ c) (A4 m c) :=
  calc asI S1024x2048 32 (B1_5 m ρ c (Proc.devRef .tc main_v108))
      = fptosi 32 (asF S1024x2048 .f32 (B1_4 m ρ c (Proc.devRef .tc main_v107))) := s1_il (B1_4 m ρ c)
    _ = fptosi 32 (Host.roundeven (asF S1024x2048 .f32 (B1_3 m ρ c (Proc.devRef .tc main_v104)))) :=
        congrArg (fun x : FVec Ideal S1024x2048 .f32 => fptosi 32 x) (s1_rl (B1_3 m ρ c))
    _ = fptosi 32 (Host.roundeven (asF S1024x2048 .f32 (B1_1 m ρ c (Proc.devRef .tc main_v104)))) :=
        congrArg (fun x : FVec Ideal S1024x2048 .f32 => fptosi 32 (Host.roundeven x)) ((after_of_forall₂ hostOps1_2_writes (B1_2 m ρ c) (by decide)).trans ((after_of_forall₂ hostOps1_1_writes (B1_1 m ρ c) (by decide))))
    _ = fptosi 32 (Host.roundeven (Host.dotGeneral dot_S3072x1024_S2048x3072_S1024x2048_0_1_1_0_n_n none
          (truncf .bf16 (KHost.WT (extractStridedSlice S1024x7 ![0, 7] (X0 m ρ c (Proc.devRef .tc main_arg4)) slices_S1024x14_S1024x7_0_7) lit3) bitsLt_bf16_f32)
          (KHost.catB (asF S2048x2048 .bf16 (X0 m ρ c (Proc.devRef .tc main_v54))) (KHost.bits1 (X0 m ρ c (Proc.devRef .tc main_arg1)))))) :=
        congrArg (fun x : FVec Ideal S1024x2048 .f32 => fptosi 32 (Host.roundeven x)) (s1_dl (X0 m ρ c) (X0_main_cst_2 m ρ c))
    _ = KHost.lo2 (xb1 m ρ c) (A4 m c) := by rw [X0_arg4 m ρ c, X0_arg1 m ρ c]; rfl

theorem VE2_mm : asF S1024x128x128 .f32 (VE2 m ρ c main_v164) = KHost.memT (A7 m c) :=
  (s2_mm (B2_4 m ρ c)).trans (congrArg KHost.memT ((B2_4_to m ρ c main_arg7 (by decide) (by decide) (by decide) (by decide)).trans (X1_arg7 m ρ c)))

theorem VE2_ih : asI S1024x2048 32 (VE2 m ρ c main_v161) = KHost.hi3 (xb2 m ρ c) (A6 m c) :=
  calc asI S1024x2048 32 (B2_5 m ρ c (Proc.devRef .tc main_v161))
      = asI S1024x2048 32 (B2_3 m ρ c (Proc.devRef .tc main_v161)) := (after_of_forall₂ hostOps2_4_writes (B2_4 m ρ c) (by decide)).trans ((after_of_forall₂ hostOps2_3_writes (B2_3 m ρ c) (by decide)))
    _ = fptosi 32 (asF S1024x2048 .f32 (B2_2 m ρ c (Proc.devRef .tc main_v160))) := s2_ih (B2_2 m ρ c)
    _ = fptosi 32 (Host.roundeven (asF S1024x2048 .f32 (B2_1 m ρ c (Proc.devRef .tc main_v158)))) :=
        congrArg (fun x : FVec Ideal S1024x2048 .f32 => fptosi 32 x) (s2_rh (B2_1 m ρ c))
    _ = fptosi 32 (Host.roundeven (Host.dotGeneral dot_S3072x1024_S2048x3072_S1024x2048_0_1_1_0_n_n none
          (truncf .bf16 (KHost.WT (extractStridedSlice S1024x7 ![0, 0] (X1 m ρ c (Proc.devRef .tc main_arg6)) slices_S1024x14_S1024x7_0_0) lit4) bitsLt_bf16_f32)
          (KHost.catB (asF S2048x2048 .bf16 (X1 m ρ c (Proc.devRef .tc main_v54))) (asF S2048x1024 .bf16 (X1 m ρ c (Proc.devRef .tc main_v110)))))) :=
        congrArg (fun x : FVec Ideal S1024x2048 .f32 => fptosi 32 (Host.roundeven x)) (s2_dh (X1 m ρ c) (X1_main_cst_3 m ρ c))
    _ = KHost.hi3 (xb2 m ρ c) (A6 m c) := by rw [X1_arg6 m ρ c, X1_v54 m ρ c]; rfl

theorem VE2_il : asI S1024x2048 32 (VE2 m ρ c main_v163) = KHost.lo3 (xb2 m ρ c) (A6 m c) :=
  calc asI S1024x2048 32 (B2_5 m ρ c (Proc.devRef .tc main_v163))
      = fptosi 32 (asF S1024x2048 .f32 (B2_4 m ρ c (Proc.devRef .tc main_v162))) := s2_il (B2_4 m ρ c)
    _ = fptosi 32 (Host.roundeven (asF S1024x2048 .f32 (B2_3 m ρ c (Proc.devRef .tc main_v159)))) :=
        congrArg (fun x : FVec Ideal S1024x2048 .f32 => fptosi 32 x) (s2_rl (B2_3 m ρ c))
    _ = fptosi 32 (Host.roundeven (asF S1024x2048 .f32 (B2_1 m ρ c (Proc.devRef .tc main_v159)))) :=
        congrArg (fun x : FVec Ideal S1024x2048 .f32 => fptosi 32 (Host.roundeven x)) ((after_of_forall₂ hostOps2_2_writes (B2_2 m ρ c) (by decide)).trans ((after_of_forall₂ hostOps2_1_writes (B2_1 m ρ c) (by decide))))
    _ = fptosi 32 (Host.roundeven (Host.dotGeneral dot_S3072x1024_S2048x3072_S1024x2048_0_1_1_0_n_n none
          (truncf .bf16 (KHost.WT (extractStridedSlice S1024x7 ![0, 7] (X1 m ρ c (Proc.devRef .tc main_arg6)) slices_S1024x14_S1024x7_0_7) lit5) bitsLt_bf16_f32)
          (KHost.catB (asF S2048x2048 .bf16 (X1 m ρ c (Proc.devRef .tc main_v54))) (asF S2048x1024 .bf16 (X1 m ρ c (Proc.devRef .tc main_v110)))))) :=
        congrArg (fun x : FVec Ideal S1024x2048 .f32 => fptosi 32 (Host.roundeven x)) (s2_dl (X1 m ρ c) (X1_main_cst_4 m ρ c))
    _ = KHost.lo3 (xb2 m ρ c) (A6 m c) := by rw [X1_arg6 m ρ c, X1_v54 m ρ c]; rfl

end Levels

section Result
variable (m : (ℓ : Loc nD τ sig) → Buf (Elt Ideal) ℓ) (ρ : Dev nD → PrngReg) (c : Dev nD)

theorem X0_out (hD : Dom (A0 m c) (A1 m c) (A2 m c) (A4 m c) (A6 m c)) (b n : Fin 2048) :
    asF S2048x2048 .bf16 (X0 m ρ c (Proc.devRef .tc main_v54)) (ix2 b n)
      = ((hidden (A0 m c) (A2 m c) (A3 m c) b n : ℕ) : EReal) :=
  have e : asF S2048x2048 .bf16 (X0 m ρ c (Proc.devRef .tc main_v54))
      = asF S2048x2048 .bf16 ((dat0 (VE0 m ρ) c).arrAt 3 cfg0.N) := X0_arr m ρ c 3
  (congrFun e (ix2 b n)).trans
    (KLayer.layer0_out (VE0 m ρ) c (A0 m c) (A2 m c) (A3 m c) (VE0_mm m ρ c) (VE0_ih m ρ c) (VE0_il m ρ c)
      hD.bits0 hD.conn0 b n)

theorem X1_out (hD : Dom (A0 m c) (A1 m c) (A2 m c) (A4 m c) (A6 m c)) (b : Fin 2048) (n : Fin 1024) :
    asF S2048x1024 .bf16 (X1 m ρ c (Proc.devRef .tc main_v110)) (ix2 b n)
      = ((state (A0 m c) (A1 m c) (A2 m c) (A3 m c) (A4 m c) (A5 m c) b n : ℕ) : EReal) :=
  have e : asF S2048x1024 .bf16 (X1 m ρ c (Proc.devRef .tc main_v110))
      = asF S2048x1024 .bf16 ((dat1 (VE1 m ρ) c).arrAt 3 cfg1.N) := X1_arr m ρ c 3
  (congrFun e (ix2 b n)).trans
    (KLayer.layer1_out (VE1 m ρ) c (xb1 m ρ c) (cat (hidden (A0 m c) (A2 m c) (A3 m c)) (natAt (A1 m c)))
      (KLayer.cat_cast (asF S2048x2048 .bf16 (X0 m ρ c (Proc.devRef .tc main_v54))) (KHost.bits1 (A1 m c))
        (hidden (A0 m c) (A2 m c) (A3 m c)) (natAt (A1 m c)) (X0_out m ρ c hD) (KHost.bits1_apply (A1 m c) hD.bits1))
      (cat_le_one _ _ (fun b t => layer_le_one _ _ _ b t) hD.bits1)
      (A4 m c) hD.conn1 (A5 m c) (VE1_mm m ρ c) (VE1_ih m ρ c) (VE1_il m ρ c) b n)

theorem X2_out (hD : Dom (A0 m c) (A1 m c) (A2 m c) (A4 m c) (A6 m c)) (b : Fin 2048) (n : Fin 1024) :
    asF S2048x1024 .f32 (X2 m ρ c (Proc.devRef .tc main_v165)) (ix2 b n)
      = ((outBits (A0 m c) (A1 m c) (A2 m c) (A3 m c) (A4 m c) (A5 m c) (A6 m c) (A7 m c) b n : ℕ) : EReal) :=
  have e : asF S2048x1024 .f32 (X2 m ρ c (Proc.devRef .tc main_v165))
      = asF S2048x1024 .f32 ((dat2 (VE2 m ρ) c).arrAt 3 cfg2.N) := X2_arr m ρ c 3
  (congrFun e (ix2 b n)).trans
    (KLayer.layer2_out (VE2 m ρ) c (xb2 m ρ c)
      (cat (hidden (A0 m c) (A2 m c) (A3 m c)) (state (A0 m c) (A1 m c) (A2 m c) (A3 m c) (A4 m c) (A5 m c)))
      (KLayer.cat_cast (asF S2048x2048 .bf16 (X0 m ρ c (Proc.devRef .tc main_v54)))
        (asF S2048x1024 .bf16 (X1 m ρ c (Proc.devRef .tc main_v110)))
        (hidden (A0 m c) (A2 m c) (A3 m c)) (state (A0 m c) (A1 m c) (A2 m c) (A3 m c) (A4 m c) (A5 m c))
        (X0_out m ρ c hD) (X1_out m ρ c hD))
      (cat_le_one _ _ (fun b t => layer_le_one _ _ _ b t) (fun b t => layer_le_one _ _ _ b t))
      (A6 m c) hD.conn2 (A7 m c) (VE2_mm m ρ c) (VE2_ih m ρ c) (VE2_il m ρ c) b n)

theorem out_eq
    (hD : Cert.Lut.Dom (m ((c.tc : Thread nD τ).loc main_arg0)) (m ((c.tc : Thread nD τ).loc main_arg1))
      (m ((c.tc : Thread nD τ).loc main_arg2)) (m ((c.tc : Thread nD τ).loc main_arg4)) (m ((c.tc : Thread nD τ).loc main_arg6))) :
    X2 (F := Ideal) m ρ c (Proc.devRef .tc main_v165)
      = Cert.Lut.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  show asF S2048x1024 .f32 (X2 m ρ c (Proc.devRef .tc main_v165))
    = net (A0 m c) (A1 m c) (A2 m c) (A3 m c) (A4 m c) (A5 m c) (A6 m c) (A7 m c)
  funext i
  obtain ⟨b, n, rfl⟩ : ∃ b n, i = ix2 b n := ⟨i 0, i 1, eq_ix2 i⟩
  exact X2_out m ρ c hD b n

end Result

end Cert.Lut.KVal

end
-- ==== Proof.RefRunLive.lean ====
import proofs.«427008_j72404558676324_3_alg».proof.Proof.RefRead

noncomputable section

namespace Cert.Lut.RefRun

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S2048x4096, .i32⟩ : BufTy).Contents (Elt F)) (x1 : (⟨S2048x1024, .i32⟩ : BufTy).Contents (Elt F)) (x2 : (⟨S2048x14, .i32⟩ : BufTy).Contents (Elt F)) (x3 : (⟨S2048x16384, .f32⟩ : BufTy).Contents (Elt F)) (x4 : (⟨S1024x14, .i32⟩ : BufTy).Contents (Elt F)) (x5 : (⟨S1024x16384, .f32⟩ : BufTy).Contents (Elt F)) (x6 : (⟨S1024x14, .i32⟩ : BufTy).Contents (Elt F)) (x7 : (⟨S1024x16384, .f32⟩ : BufTy).Contents (Elt F)) (W : Valuation τ sig (Elt F))

structure Live0 : Prop where
  h_main_arg0 : W (no_index (Proc.devRef .tc main_arg0)) = x0
  h_main_arg1 : W (no_index (Proc.devRef .tc main_arg1)) = x1
  h_main_arg2 : W (no_index (Proc.devRef .tc main_arg2)) = x2
  h_main_arg3 : W (no_index (Proc.devRef .tc main_arg3)) = x3
  h_main_arg4 : W (no_index (Proc.devRef .tc main_arg4)) = x4
  h_main_arg5 : W (no_index (Proc.devRef .tc main_arg5)) = x5
  h_main_arg6 : W (no_index (Proc.devRef .tc main_arg6)) = x6
  h_main_arg7 : W (no_index (Proc.devRef .tc main_arg7)) = x7

theorem Live0.step {x0 x1 x2 x3 x4 x5 x6 x7 W} (h : Live0 (F := F) x0 x1 x2 x3 x4 x5 x6 x7 W) {ops : List (HloOp τ sig (Elt F))} {L : List (Ref sig .tc)}
    (hw : ops.Forall fun op => op.writes ⊆ (L.map (Proc.devRef (τ := τ) .tc)).toFinset)
    (hL : ∀ a ∈ [main_arg0, main_arg1, main_arg2, main_arg3, main_arg4, main_arg5, main_arg6, main_arg7], a ∉ L) :
    Live0 x0 x1 x2 x3 x4 x5 x6 x7 (after ops W) where
  h_main_arg0 := (after_of_writes_sub ops _ hw (hL main_arg0 (by decide))).trans h.h_main_arg0
  h_main_arg1 := (after_of_writes_sub ops _ hw (hL main_arg1 (by decide))).trans h.h_main_arg1
  h_main_arg2 := (after_of_writes_sub ops _ hw (hL main_arg2 (by decide))).trans h.h_main_arg2
  h_main_arg3 := (after_of_writes_sub ops _ hw (hL main_arg3 (by decide))).trans h.h_main_arg3
  h_main_arg4 := (after_of_writes_sub ops _ hw (hL main_arg4 (by decide))).trans h.h_main_arg4
  h_main_arg5 := (after_of_writes_sub ops _ hw (hL main_arg5 (by decide))).trans h.h_main_arg5
  h_main_arg6 := (after_of_writes_sub ops _ hw (hL main_arg6 (by decide))).trans h.h_main_arg6
  h_main_arg7 := (after_of_writes_sub ops _ hw (hL main_arg7 (by decide))).trans h.h_main_arg7

structure Live1 : Prop extends Live0 x0 x1 x2 x3 x4 x5 x6 x7 W where
  h_main_v6 : W (no_index (Proc.devRef .tc main_v6)) = ReadP.val_main_v6 (F := F) x0 x2
  h_main_v11 : W (no_index (Proc.devRef .tc main_v11)) = ReadP.val_main_v11 (F := F)
  h_main_v22 : W (no_index (Proc.devRef .tc main_v22)) = ReadP.val_main_v22 (F := F)
  h_main_c_10 : W (no_index (Proc.devRef .tc main_c_10)) = ReadP.val_main_c_10 (F := F)

structure Live2 : Prop extends Live0 x0 x1 x2 x3 x4 x5 x6 x7 W where
  h_main_v6 : W (no_index (Proc.devRef .tc main_v6)) = ReadP.val_main_v6 (F := F) x0 x2
  h_main_v38 : W (no_index (Proc.devRef .tc main_v38)) = ReadP.val_main_v38 (F := F)
  h_main_v39 : W (no_index (Proc.devRef .tc main_v39)) = ReadP.val_main_v39 (F := F)
  h_main_v41 : W (no_index (Proc.devRef .tc main_v41)) = ReadP.val_main_v41 (F := F)

structure Live3 : Prop extends Live0 x0 x1 x2 x3 x4 x5 x6 x7 W where
  h_main_v6 : W (no_index (Proc.devRef .tc main_v6)) = ReadP.val_main_v6 (F := F) x0 x2
  h_main_v66 : W (no_index (Proc.devRef .tc main_v66)) = ReadP.val_main_v66 (F := F)

structure Live4 : Prop extends Live0 x0 x1 x2 x3 x4 x5 x6 x7 W where
  h_main_v83 : W (no_index (Proc.devRef .tc main_v83)) = ReadP.val_main_v83 (F := F)
  h_main_v84 : W (no_index (Proc.devRef .tc main_v84)) = ReadP.val_main_v84 (F := F) x0 x2

structure Live5 : Prop extends Live0 x0 x1 x2 x3 x4 x5 x6 x7 W where
  h_main_v88 : W (no_index (Proc.devRef .tc main_v88)) = ReadP.val_main_v88 (F := F) x0 x2 x3
  h_main_cst_28 : W (no_index (Proc.devRef .tc main_cst_28)) = ReadP.val_main_cst_28 (F := F)

structure Live6 : Prop extends Live0 x0 x1 x2 x3 x4 x5 x6 x7 W where
  h_main_v90 : W (no_index (Proc.devRef .tc main_v90)) = ReadP.val_main_v90 (F := F) x0 x2 x3
  h_main_v91 : W (no_index (Proc.devRef .tc main_v91)) = ReadP.val_main_v91 (F := F) x1

structure Live7 : Prop extends Live0 x0 x1 x2 x3 x4 x5 x6 x7 W where
  h_main_v90 : W (no_index (Proc.devRef .tc main_v90)) = ReadP.val_main_v90 (F := F) x0 x2 x3
  h_main_v100 : W (no_index (Proc.devRef .tc main_v100)) = ReadP.val_main_v100 (F := F) x0 x1 x2 x3 x4
  h_main_v105 : W (no_index (Proc.devRef .tc main_v105)) = ReadP.val_main_v105 (F := F)
  h_main_v111 : W (no_index (Proc.devRef .tc main_v111)) = ReadP.val_main_v111 (F := F)
  h_main_v115 : W (no_index (Proc.devRef .tc main_v115)) = ReadP.val_main_v115 (F := F)
  h_main_call9_v1 : W (no_index (Proc.devRef .tc main_call9_v1)) = ReadP.val_main_call9_v1 (F := F)

structure Live8 : Prop extends Live0 x0 x1 x2 x3 x4 x5 x6 x7 W where
  h_main_v90 : W (no_index (Proc.devRef .tc main_v90)) = ReadP.val_main_v90 (F := F) x0 x2 x3
  h_main_v100 : W (no_index (Proc.devRef .tc main_v100)) = ReadP.val_main_v100 (F := F) x0 x1 x2 x3 x4
  h_main_v124 : W (no_index (Proc.devRef .tc main_v124)) = ReadP.val_main_v124 (F := F)
  h_main_v125 : W (no_index (Proc.devRef .tc main_v125)) = ReadP.val_main_v125 (F := F)
  h_main_v127 : W (no_index (Proc.devRef .tc main_v127)) = ReadP.val_main_v127 (F := F)
  h_main_v129 : W (no_index (Proc.devRef .tc main_v129)) = ReadP.val_main_v129 (F := F)
  h_main_v130 : W (no_index (Proc.devRef .tc main_v130)) = ReadP.val_main_v130 (F := F)

structure Live9 : Prop extends Live0 x0 x1 x2 x3 x4 x5 x6 x7 W where
  h_main_v90 : W (no_index (Proc.devRef .tc main_v90)) = ReadP.val_main_v90 (F := F) x0 x2 x3
  h_main_v100 : W (no_index (Proc.devRef .tc main_v100)) = ReadP.val_main_v100 (F := F) x0 x1 x2 x3 x4
  h_main_v148 : W (no_index (Proc.devRef .tc main_v148)) = ReadP.val_main_v148 (F := F)
  h_main_v149 : W (no_index (Proc.devRef .tc main_v149)) = ReadP.val_main_v149 (F := F)
  h_main_v151 : W (no_index (Proc.devRef .tc main_v151)) = ReadP.val_main_v151 (F := F)
  h_main_v153 : W (no_index (Proc.devRef .tc main_v153)) = ReadP.val_main_v153 (F := F)
  h_main_v155 : W (no_index (Proc.devRef .tc main_v155)) = ReadP.val_main_v155 (F := F)

structure Live10 : Prop extends Live0 x0 x1 x2 x3 x4 x5 x6 x7 W where
  h_main_v90 : W (no_index (Proc.devRef .tc main_v90)) = ReadP.val_main_v90 (F := F) x0 x2 x3
  h_main_v177 : W (no_index (Proc.devRef .tc main_v177)) = ReadP.val_main_v177 (F := F)
  h_main_v178 : W (no_index (Proc.devRef .tc main_v178)) = ReadP.val_main_v178 (F := F) x0 x1 x2 x3 x4

structure Live11 : Prop extends Live0 x0 x1 x2 x3 x4 x5 x6 x7 W where
  h_main_v90 : W (no_index (Proc.devRef .tc main_v90)) = ReadP.val_main_v90 (F := F) x0 x2 x3
  h_main_v184 : W (no_index (Proc.devRef .tc main_v184)) = ReadP.val_main_v184 (F := F) x0 x1 x2 x3 x4 x5

structure Live12 : Prop extends Live0 x0 x1 x2 x3 x4 x5 x6 x7 W where
  h_main_v193 : W (no_index (Proc.devRef .tc main_v193)) = ReadP.val_main_v193 (F := F) x0 x1 x2 x3 x4 x5 x6
  h_main_v198 : W (no_index (Proc.devRef .tc main_v198)) = ReadP.val_main_v198 (F := F)
  h_main_v204 : W (no_index (Proc.devRef .tc main_v204)) = ReadP.val_main_v204 (F := F)
  h_main_v208 : W (no_index (Proc.devRef .tc main_v208)) = ReadP.val_main_v208 (F := F)
  h_main_call17_v1 : W (no_index (Proc.devRef .tc main_call17_v1)) = ReadP.val_main_call17_v1 (F := F)

structure Live13 : Prop extends Live0 x0 x1 x2 x3 x4 x5 x6 x7 W where
  h_main_v193 : W (no_index (Proc.devRef .tc main_v193)) = ReadP.val_main_v193 (F := F) x0 x1 x2 x3 x4 x5 x6
  h_main_v212 : W (no_index (Proc.devRef .tc main_v212)) = ReadP.val_main_v212 (F := F)
  h_main_v217 : W (no_index (Proc.devRef .tc main_v217)) = ReadP.val_main_v217 (F := F)
  h_main_v218 : W (no_index (Proc.devRef .tc main_v218)) = ReadP.val_main_v218 (F := F)
  h_main_v219 : W (no_index (Proc.devRef .tc main_v219)) = ReadP.val_main_v219 (F := F)

structure Live14 : Prop extends Live0 x0 x1 x2 x3 x4 x5 x6 x7 W where
  h_main_v193 : W (no_index (Proc.devRef .tc main_v193)) = ReadP.val_main_v193 (F := F) x0 x1 x2 x3 x4 x5 x6
  h_main_v241 : W (no_index (Proc.devRef .tc main_v241)) = ReadP.val_main_v241 (F := F)
  h_main_v242 : W (no_index (Proc.devRef .tc main_v242)) = ReadP.val_main_v242 (F := F)
  h_main_v244 : W (no_index (Proc.devRef .tc main_v244)) = ReadP.val_main_v244 (F := F)

structure Live15 : Prop extends Live0 x0 x1 x2 x3 x4 x5 x6 x7 W where
  h_main_v256 : W (no_index (Proc.devRef .tc main_v256)) = ReadP.val_main_v256 (F := F) x0 x1 x2 x3 x4 x5 x6
  h_main_v263 : W (no_index (Proc.devRef .tc main_v263)) = ReadP.val_main_v263 (F := F)
  h_main_v265 : W (no_index (Proc.devRef .tc main_v265)) = ReadP.val_main_v265 (F := F) x0 x1 x2 x3 x4 x5 x6
  h_main_v266 : W (no_index (Proc.devRef .tc main_v266)) = ReadP.val_main_v266 (F := F)

structure Live16 : Prop extends Live0 x0 x1 x2 x3 x4 x5 x6 x7 W where
  h_main_v270 : W (no_index (Proc.devRef .tc main_v270)) = ReadP.val_main_v270 (F := F)
  h_main_v271 : W (no_index (Proc.devRef .tc main_v271)) = ReadP.val_main_v271 (F := F) x0 x1 x2 x3 x4 x5 x6

structure Live17 : Prop extends Live0 x0 x1 x2 x3 x4 x5 x6 x7 W where
  h_main_v277 : W (no_index (Proc.devRef .tc main_v277)) = ReadP.val_main_v277 (F := F) x0 x1 x2 x3 x4 x5 x6 x7

end Cert.Lut.RefRun

end
-- ==== Proof.RefRunC00.lean ====
import proofs.«427008_j72404558676324_3_alg».proof.Proof.RefRunLive

noncomputable section

namespace Cert.Lut.RefRun

open Cert.ReferenceIdeal Cert.ReferenceIdeal.Gen Idealize.ShloMosaic Idealize.ShloMosaic.TcCoe Idealize.SL.Sem Idealize.ShloMosaic.StableHlo

variable {F : FTy → Type} [FloatOps F]
variable {x0 : (⟨S2048x4096, .i32⟩ : BufTy).Contents (Elt F)} {x1 : (⟨S2048x1024, .i32⟩ : BufTy).Contents (Elt F)} {x2 : (⟨S2048x14, .i32⟩ : BufTy).Contents (Elt F)} {x3 : (⟨S2048x16384, .f32⟩ : BufTy).Contents (Elt F)} {x4 : (⟨S1024x14, .i32⟩ : BufTy).Contents (Elt F)} {x5 : (⟨S1024x16384, .f32⟩ : BufTy).Contents (Elt F)} {x6 : (⟨S1024x14, .i32⟩ : BufTy).Contents (Elt F)} {x7 : (⟨S1024x16384, .f32⟩ : BufTy).Contents (Elt F)} {W : Valuation τ sig (Elt F)}

set_option maxRecDepth 8192 in
set_option maxHeartbeats 4000000 in
abbrev ops00 : List (HloOp τ sig (Elt F)) :=
  [ StableHlo.nullary main_c (constantI S_ 32 0#32),
    StableHlo.unary main_c main_v0 (broadcastInDim S2048x14 ![] bcast_S_S2048x14 : (⟨S_, .i32⟩ : BufTy).Contents (Elt F) → (⟨S2048x14, .i32⟩ : BufTy).Contents (Elt F)),
    StableHlo.binary main_arg2 main_v0 main_v1 (cmpi .slt : (⟨S2048x14, .i32⟩ : BufTy).Contents (Elt F) → (⟨S2048x14, .i32⟩ : BufTy).Contents (Elt F) → (⟨S2048x14, .i1⟩ : BufTy).Contents (Elt F)),
    StableHlo.nullary main_c_0 (constantI S_ 32 4096#32),
    StableHlo.unary main_c_0 main_v2 (broadcastInDim S2048x14 ![] bcast_S_S2048x14 : (⟨S_, .i32⟩ : BufTy).Contents (Elt F) → (⟨S2048x14, .i32⟩ : BufTy).Contents (Elt F)),
    StableHlo.binary main_arg2 main_v2 main_v3 (addi : (⟨S2048x14, .i32⟩ : BufTy).Contents (Elt F) → (⟨S2048x14, .i32⟩ : BufTy).Contents (Elt F) → (⟨S2048x14, .i32⟩ : BufTy).Contents (Elt F)),
    StableHlo.ternary main_v1 main_v3 main_arg2 main_v4 (select : (⟨S2048x14, .i1⟩ : BufTy).Contents (Elt F) → (⟨S2048x14, .i32⟩ : BufTy).Contents (Elt F) → (⟨S2048x14, .i32⟩ : BufTy).Contents (Elt F) → (⟨S2048x14, .i32⟩ : BufTy).Contents (Elt F)),
    StableHlo.unary main_v4 main_v5 (broadcastInDim S2048x14x1 ![0, 1] bcast_S2048x14_S2048x14x1_0_1 : (⟨S2048x14, .i32⟩ : BufTy).Contents (Elt F) → (⟨S2048x14x1, .i32⟩ : BufTy).Contents (Elt F)),
    StableHlo.binary main_arg0 main_v5 main_v6 ((fun x i => Host.gather gather_S2048x4096_S2048x14x1_S2048x2048x14_0_1_n_n_1_2_20481 x i) : (⟨S2048x4096, .i32⟩ : BufTy).Contents (Elt F) → (⟨S2048x14x1, .i32⟩ : BufTy).Contents (Elt F) → (⟨S2048x2048x14, .i32⟩ : BufTy).Contents (Elt F)),
    StableHlo.nullary main_v7 (iotaInDim S14 32 0),
    StableHlo.nullary main_c_1 (constantI S_ 32 4294967295#32),
    StableHlo.unary main_c_1 main_v8 (broadcastInDim S14 ![] bcast_S_S14 : (⟨S_, .i32⟩ : BufTy).Contents (Elt F) → (⟨S14, .i32⟩ : BufTy).Contents (Elt F)),
    StableHlo.binary main_v8 main_v7 main_v9 (muli : (⟨S14, .i32⟩ : BufTy).Contents (Elt F) → (⟨S14, .i32⟩ : BufTy).Contents (Elt F) → (⟨S14, .i32⟩ : BufTy).Contents (Elt F)),
    StableHlo.nullary main_c_2 (constantI S_ 32 13#32),
    StableHlo.unary main_c_2 main_v10 (broadcastInDim S14 ![] bcast_S_S14 : (⟨S_, .i32⟩ : BufTy).Contents (Elt F) → (⟨S14, .i32⟩ : BufTy).Contents (Elt F)),
    StableHlo.binary main_v10 main_v9 main_v11 (addi : (⟨S14, .i32⟩ : BufTy).Contents (Elt F) → (⟨S14, .i32⟩ : BufTy).Contents (Elt F) → (⟨S14, .i32⟩ : BufTy).Contents (Elt F)),
    StableHlo.nullary main_c_3 (constantI S_ 32 2#32),
    StableHlo.nullary main_c_4 (constantI S_ 32 0#32),
    StableHlo.binary main_c_3 main_c_4 main_v12 (cmpi .eq : (⟨S_, .i32⟩ : BufTy).Contents (Elt F) → (⟨S_, .i32⟩ : BufTy).Contents (Elt F) → (⟨S_, .i1⟩ : BufTy).Contents (Elt F)),
    StableHlo.nullary main_c_5 (constantI S_ 32 0#32),
    StableHlo.unary main_c_5 main_v13 (broadcastInDim S14 ![] bcast_S_S14 : (⟨S_, .i32⟩ : BufTy).Contents (Elt F) → (⟨S14, .i32⟩ : BufTy).Contents (Elt F)),
    StableHlo.binary main_v11 main_v13 main_v14 (cmpi .ne : (⟨S14, .i32⟩ : BufTy).Contents (Elt F) → (⟨S14, .i32⟩ : BufTy).Contents (Elt F) → (⟨S14, .i1⟩ : BufTy).Contents (Elt F)),
    StableHlo.unary main_v12 main_v15 (broadcastInDim S14 ![] bcast_S_S14 : (⟨S_, .i1⟩ : BufTy).Contents (Elt F) → (⟨S14, .i1⟩ : BufTy).Contents (Elt F)),
    StableHlo.binary main_v15 main_v14 main_v16 (andi : (⟨S14, .i1⟩ : BufTy).Contents (Elt F) → (⟨S14, .i1⟩ : BufTy).Contents (Elt F) → (⟨S14, .i1⟩ : BufTy).Contents (Elt F)),
    StableHlo.nullary main_c_6 (constantI S_ 32 0#32),
    StableHlo.nullary main_c_7 (constantI S_ 32 1#32),
    StableHlo.TRef.unary (.of main_c_6 : StableHlo.TRef sig ⟨S_, .i32⟩) main_call0.v0 (broadcastInDim S14 ![] bcast_S_S14),
    StableHlo.TRef.unary (.of main_c_7 : StableHlo.TRef sig ⟨S_, .i32⟩) main_call0.v1 (broadcastInDim S14 ![] bcast_S_S14),
    StableHlo.TRef.ternary (.of main_v16 : StableHlo.TRef sig ⟨S14, .i1⟩) main_call0.v0 main_call0.v1 main_call0.v2 select,
    StableHlo.nullary main_c_8 (constantI S_ 32 1#32),
    StableHlo.unary main_c_8 main_v18 (broadcastInDim S14 ![] bcast_S_S14 : (⟨S_, .i32⟩ : BufTy).Contents (Elt F) → (⟨S14, .i32⟩ : BufTy).Contents (Elt F)),
    StableHlo.binary main_v11 main_v18 main_v19 (andi : (⟨S14, .i32⟩ : BufTy).Contents (Elt F) → (⟨S14, .i32⟩ : BufTy).Contents (Elt F) → (⟨S14, .i32⟩ : BufTy).Contents (Elt F)),
    StableHlo.nullary main_c_9 (constantI S_ 32 2#32),
    StableHlo.unary main_c_9 main_v20 (broadcastInDim S14 ![] bcast_S_S14 : (⟨S_, .i32⟩ : BufTy).Contents (Elt F) → (⟨S14, .i32⟩ : BufTy).Contents (Elt F)),
    StableHlo.binary main_v17 main_v20 main_v21 (muli : (⟨S14, .i32⟩ : BufTy).Contents (Elt F) → (⟨S14, .i32⟩ : BufTy).Contents (Elt F) → (⟨S14, .i32⟩ : BufTy).Contents (Elt F)),
    StableHlo.TRef.nullary main_call1.c (constantI S_ 32 0#32),
    StableHlo.TRef.unary main_call1.c main_call1.v0 (broadcastInDim S14 ![] bcast_S_S14),
    StableHlo.TRef.binary (.of main_v19 : StableHlo.TRef sig ⟨S14, .i32⟩) main_call1.v0 main_call1.v1 (cmpi .ne),
    StableHlo.TRef.ternary main_call1.v1 (.of main_v21 : StableHlo.TRef sig ⟨S14, .i32⟩) (.of main_v17 : StableHlo.TRef sig ⟨S14, .i32⟩) main_call1.v2 select,
    StableHlo.nullary main_c_10 (constantI S_ 32 2#32) ]

set_option maxRecDepth 8192 in
theorem ops00_sub : (ops00 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., nullary_bufs_sub .., unary_bufs_sub .., binary_bufs_sub .., nullary_bufs_sub .., unary_bufs_sub .., binary_bufs_sub .., nullary_bufs_sub .., nullary_bufs_sub .., binary_bufs_sub .., nullary_bufs_sub .., unary_bufs_sub .., binary_bufs_sub .., unary_bufs_sub .., binary_bufs_sub .., nullary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub ..⟩

set_option maxRecDepth 8192 in
set_option maxHeartbeats 4000000 in
theorem ops00_fresh : ∀ op ∈ (ops00 : List (HloOp τ sig (Elt F))), op.fresh = ∅ := by
  intro _ h; (repeat (cases h with | head => rfl | tail _ h => ?_)); exact nomatch h

abbrev ops00_W : List (Ref sig .tc) := [main_c, main_v0, main_v1, main_c_0, main_v2, main_v3, main_v4, main_v5, main_v6, main_v7, main_c_1, main_v8, main_v9, main_c_2, main_v10, main_v11, main_c_3, main_c_4, main_v12, main_c_5, main_v13, main_v14, main_v15, main_v16, main_c_6, main_c_7, main_call0_v0, main_call0_v1, main_v17, main_c_8, main_v18, main_v19, main_c_9, main_v20, main_v21, main_call1_c, main_call1_v0, main_call1_v1, main_v22, main_c_10]

set_option maxRecDepth 8192 in
set_option maxHeartbeats 4000000 in
theorem ops00_writes : (ops00 : List (HloOp τ sig (Elt F))).Forall fun op => op.writes ⊆ (ops00_W.map (Proc.devRef (τ := τ) .tc)).toFinset := by
  simp only [List.Forall]; repeat' apply And.intro
  all_goals (simp only [nullary_writes, unary_writes, binary_writes, ternary_writes, Finset.singleton_subset_iff, List.mem_toFinset]; exact List.mem_map_of_mem (by decide))

set_option maxRecDepth 8192 in
set_option maxHeartbeats 4000000 in
theorem step00_main_v6 (h : Live0 x0 x1 x2 x3 x4 x5 x6 x7 W) :
    after ops00 W (no_index (Proc.devRef .tc main_v6)) = ReadP.val_main_v6 (F := F) x0 x2 := by
  simp only [ops00]
  after_results_simp
  all_goals (try simp only [h.h_main_arg2, h.h_main_arg0])
  all_goals (try rw [h.h_main_arg2])
  all_goals (try rw [h.h_main_arg0])
  all_goals rfl

set_option maxRecDepth 8192 in
set_option maxHeartbeats 4000000 in
theorem step00_main_v11 (h : Live0 x0 x1 x2 x3 x4 x5 x6 x7 W) :
    after ops00 W (no_index (Proc.devRef .tc main_v11)) = ReadP.val_main_v11 (F := F) := by
  simp only [ops00]
  after_results_simp
  all_goals rfl

set_option maxRecDepth 8192 in
set_option maxHeartbeats 4000000 in
theorem step00_main_v22 (h : Live0 x0 x1 x2 x3 x4 x5 x6 x7 W) :
    after ops00 W (no_index (Proc.devRef .tc main_v22)) = ReadP.val_main_v22 (F := F) := by
  simp only [ops00]
  after_results_simp
  all_goals rfl

set_option maxRecDepth 8192 in
set_option maxHeartbeats 4000000 in
theorem step00_main_c_10 (h : Live0 x0 x1 x2 x3 x4 x5 x6 x7 W) :
    after ops00 W (no_index (Proc.devRef .tc main_c_10)) = ReadP.val_main_c_10 (F := F) := by
  simp only [ops00]
  after_results_simp
  all_goals rfl

theorem step00 (h : Live0 x0 x1 x2 x3 x4 x5 x6 x7 W) :
    Live1 x0 x1 x2 x3 x4 x5 x6 x7 (after ops00 W) where
  toLive0 := h.step ops00_writes (by decide)
  h_main_v6 := step00_main_v6 h
  h_main_v11 := step00_main_v11 h
  h_main_v22 := step00_main_v22 h
  h_main_c_10 := step00_main_c_10 h

end Cert.Lut.RefRun

end
-- ==== Proof.RefRunC01.lean ====
import proofs.«427008_j72404558676324_3_alg».proof.Proof.RefRunLive

noncomputable section

namespace Cert.Lut.RefRun

open Cert.ReferenceIdeal Cert.ReferenceIdeal.Gen Idealize.ShloMosaic Idealize.ShloMosaic.TcCoe Idealize.SL.Sem Idealize.ShloMosaic.StableHlo

variable {F : FTy → Type} [FloatOps F]
variable {x0 : (⟨S2048x4096, .i32⟩ : BufTy).Contents (Elt F)} {x1 : (⟨S2048x1024, .i32⟩ : BufTy).Contents (Elt F)} {x2 : (⟨S2048x14, .i32⟩ : BufTy).Contents (Elt F)} {x3 : (⟨S2048x16384, .f32⟩ : BufTy).Contents (Elt F)} {x4 : (⟨S1024x14, .i32⟩ : BufTy).Contents (Elt F)} {x5 : (⟨S1024x16384, .f32⟩ : BufTy).Contents (Elt F)} {x6 : (⟨S1024x14, .i32⟩ : BufTy).Contents (Elt F)} {x7 : (⟨S1024x16384, .f32⟩ : BufTy).Contents (Elt F)} {W : Valuation τ sig (Elt F)}

set_option maxRecDepth 8192 in
set_option maxHeartbeats 4000000 in
abbrev ops01 : List (HloOp τ sig (Elt F)) :=
  [ StableHlo.nullary main_c_11 (constantI S_ 32 2#32),
    StableHlo.binary main_c_10 main_c_11 main_v23 (muli : (⟨S_, .i32⟩ : BufTy).Contents (Elt F) → (⟨S_, .i32⟩ : BufTy).Contents (Elt F) → (⟨S_, .i32⟩ : BufTy).Contents (Elt F)),
    StableHlo.nullary main_c_12 (constantI S_ 32 1#32),
    StableHlo.unary main_c_12 main_v24 (broadcastInDim S14 ![] bcast_S_S14 : (⟨S_, .i32⟩ : BufTy).Contents (Elt F) → (⟨S14, .i32⟩ : BufTy).Contents (Elt F)),
    StableHlo.binary main_v11 main_v24 main_v25 (Host.shrui : (⟨S14, .i32⟩ : BufTy).Contents (Elt F) → (⟨S14, .i32⟩ : BufTy).Contents (Elt F) → (⟨S14, .i32⟩ : BufTy).Contents (Elt F)),
    StableHlo.nullary main_c_13 (constantI S_ 32 1#32),
    StableHlo.unary main_c_13 main_v26 (broadcastInDim S14 ![] bcast_S_S14 : (⟨S_, .i32⟩ : BufTy).Contents (Elt F) → (⟨S14, .i32⟩ : BufTy).Contents (Elt F)),
    StableHlo.binary main_v25 main_v26 main_v27 (andi : (⟨S14, .i32⟩ : BufTy).Contents (Elt F) → (⟨S14, .i32⟩ : BufTy).Contents (Elt F) → (⟨S14, .i32⟩ : BufTy).Contents (Elt F)),
    StableHlo.unary main_v23 main_v28 (broadcastInDim S14 ![] bcast_S_S14 : (⟨S_, .i32⟩ : BufTy).Contents (Elt F) → (⟨S14, .i32⟩ : BufTy).Contents (Elt F)),
    StableHlo.binary main_v22 main_v28 main_v29 (muli : (⟨S14, .i32⟩ : BufTy).Contents (Elt F) → (⟨S14, .i32⟩ : BufTy).Contents (Elt F) → (⟨S14, .i32⟩ : BufTy).Contents (Elt F)),
    StableHlo.TRef.nullary main_call2.c (constantI S_ 32 0#32),
    StableHlo.TRef.unary main_call2.c main_call2.v0 (broadcastInDim S14 ![] bcast_S_S14),
    StableHlo.TRef.binary (.of main_v27 : StableHlo.TRef sig ⟨S14, .i32⟩) main_call2.v0 main_call2.v1 (cmpi .ne),
    StableHlo.TRef.ternary main_call2.v1 (.of main_v29 : StableHlo.TRef sig ⟨S14, .i32⟩) (.of main_v22 : StableHlo.TRef sig ⟨S14, .i32⟩) main_call2.v2 select,
    StableHlo.binary main_v23 main_v23 main_v31 (muli : (⟨S_, .i32⟩ : BufTy).Contents (Elt F) → (⟨S_, .i32⟩ : BufTy).Contents (Elt F) → (⟨S_, .i32⟩ : BufTy).Contents (Elt F)),
    StableHlo.nullary main_c_14 (constantI S_ 32 1#32),
    StableHlo.unary main_c_14 main_v32 (broadcastInDim S14 ![] bcast_S_S14 : (⟨S_, .i32⟩ : BufTy).Contents (Elt F) → (⟨S14, .i32⟩ : BufTy).Contents (Elt F)),
    StableHlo.binary main_v25 main_v32 main_v33 (Host.shrui : (⟨S14, .i32⟩ : BufTy).Contents (Elt F) → (⟨S14, .i32⟩ : BufTy).Contents (Elt F) → (⟨S14, .i32⟩ : BufTy).Contents (Elt F)),
    StableHlo.nullary main_c_15 (constantI S_ 32 1#32),
    StableHlo.unary main_c_15 main_v34 (broadcastInDim S14 ![] bcast_S_S14 : (⟨S_, .i32⟩ : BufTy).Contents (Elt F) → (⟨S14, .i32⟩ : BufTy).Contents (Elt F)),
    StableHlo.binary main_v33 main_v34 main_v35 (andi : (⟨S14, .i32⟩ : BufTy).Contents (Elt F) → (⟨S14, .i32⟩ : BufTy).Contents (Elt F) → (⟨S14, .i32⟩ : BufTy).Contents (Elt F)),
    StableHlo.unary main_v31 main_v36 (broadcastInDim S14 ![] bcast_S_S14 : (⟨S_, .i32⟩ : BufTy).Contents (Elt F) → (⟨S14, .i32⟩ : BufTy).Contents (Elt F)),
    StableHlo.binary main_v30 main_v36 main_v37 (muli : (⟨S14, .i32⟩ : BufTy).Contents (Elt F) → (⟨S14, .i32⟩ : BufTy).Contents (Elt F) → (⟨S14, .i32⟩ : BufTy).Contents (Elt F)),
    StableHlo.TRef.nullary main_call3.c (constantI S_ 32 0#32),
    StableHlo.TRef.unary main_call3.c main_call3.v0 (broadcastInDim S14 ![] bcast_S_S14),
    StableHlo.TRef.binary (.of main_v35 : StableHlo.TRef sig ⟨S14, .i32⟩) main_call3.v0 main_call3.v1 (cmpi .ne),
    StableHlo.TRef.ternary main_call3.v1 (.of main_v37 : StableHlo.TRef sig ⟨S14, .i32⟩) (.of main_v30 : StableHlo.TRef sig ⟨S14, .i32⟩) main_call3.v2 select,
    StableHlo.binary main_v31 main_v31 main_v39 (muli : (⟨S_, .i32⟩ : BufTy).Contents (Elt F) → (⟨S_, .i32⟩ : BufTy).Contents (Elt F) → (⟨S_, .i32⟩ : BufTy).Contents (Elt F)),
    StableHlo.nullary main_c_16 (constantI S_ 32 1#32),
    StableHlo.unary main_c_16 main_v40 (broadcastInDim S14 ![] bcast_S_S14 : (⟨S_, .i32⟩ : BufTy).Contents (Elt F) → (⟨S14, .i32⟩ : BufTy).Contents (Elt F)),
    StableHlo.binary main_v33 main_v40 main_v41 (Host.shrui : (⟨S14, .i32⟩ : BufTy).Contents (Elt F) → (⟨S14, .i32⟩ : BufTy).Contents (Elt F) → (⟨S14, .i32⟩ : BufTy).Contents (Elt F)) ]

set_option maxRecDepth 8192 in
theorem ops01_sub : (ops01 : List (HloOp τ sig (Elt F))).Forall fun op => op.bufs ⊆ tcRefs τ sig :=
  ⟨nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., ternary_bufs_sub .., binary_bufs_sub .., nullary_bufs_sub .., unary_bufs_sub .., binary_bufs_sub ..⟩

set_option maxRecDepth 8192 in
set_option maxHeartbeats 4000000 in
theorem ops01_fresh : ∀ op ∈ (ops01 : List (HloOp τ sig (Elt F))), op.fresh = ∅ := by
  intro _ h; (repeat (cases h with | head => rfl | tail _ h => ?_)); exact nomatch h

abbrev ops01_W : List (Ref sig .tc) := [main_c_11, main_v23, main_c_12, main_v24, main_v25, main_c_13, main_v26, main_v27, main_v28, main_v29, main_call2_c, main_call2_v0, main_call2_v1, main_v30, main_v31, main_c_14, main_v32, main_v33, main_c_15, main_v34, main_v35, main_v36, main_v37, main_call3_c, main_call3_v0, main_call3_v1, main_v38, main_v39, main_c_16, main_v40, main_v41]

set_option maxRecDepth 8192 in
set_option maxHeartbeats 4000000 in
theorem ops01_writes : (ops01 : List (HloOp τ sig (Elt F))).Forall fun op => op.writes ⊆ (ops01_W.map (Proc.devRef (τ := τ) .tc)).toFinset := by
  simp only [List.Forall]; repeat' apply And.intro
  all_goals (simp only [nullary_writes, unary_writes, binary_writes, ternary_writes, Finset.singleton_subset_iff, List.mem_toFinset]; exact List.mem_map_of_mem (by decide))

set_option maxRecDepth 8192 in
set_option maxHeartbeats 4000000 in
theorem step01_main_v38 (h : Live1 x0 x1 x2 x3 x4 x5 x6 x7 W) :
    after ops01 W (no_index (Proc.devRef .tc main_v38)) = ReadP.val_main_v38 (F := F) := by
  simp only [ops01]
  after_results_simp
  all_goals (try simp only [h.h_main_v22, h.h_main_c_10, h.h_main_v11])
  all_goals (try rw [h.h_main_v22])
  all_goals (try rw [h.h_main_c_10])
  all_goals (try rw [h.h_main_v11])
  all_goals rfl

set_option maxRecDepth 8192 in
set_option maxHeartbeats 4000000 in
theorem step01_main_v39 (h : Live1 x0 x1 x2 x3 x4 x5 x6 x7 W) :
    after ops01 W (no_index (Proc.devRef .tc main_v39)) = ReadP.val_main_v39 (F := F) := by
  simp only [ops01]
  after_results_simp
  all_goals (try simp only [h.h_main_c_10])
  all_goals (try rw [h.h_main_c_10])
  all_goals rfl

set_option maxRecDepth 8192 in
set_option maxHeartbeats 4000000 in
theorem step01_main_v41 (h : Live1 x0 x1 x2 x3 x4 x5 x6 x7 W) :
    after ops01 W (no_index (Proc.devRef .tc main_v41)) = ReadP.val_main_v41 (F := F) := by
  simp only [ops01]
  after_results_simp
  all_goals (try simp only [h.h_main_v11])
  all_goals (try rw [h.h_main_v11])
  all_goals rfl

theorem step01 (h : Live1 x0 x1 x2 x3 x4 x5 x6 x7 W) :
    Live2 x0 x1 x2 x3 x4 x5 x6 x7 (after ops01 W) where
  toLive0 := h.toLive0.step ops01_writes (by decide)
  h_main_v6 := (after_of_writes_sub ops01 _ ops01_writes (by decide)).trans h.h_main_v6
  h_main_v38 := step01_main_v38 h
  h_main_v39 := step01_main_v39 h
  h_main_v41 := step01_main_v41 h

end Cert.Lut.RefRun

end
-- ==== Proof.RefRunC02.lean ====
import proofs.«427008_j72404558676324_3_alg».proof.Proof.RefRunLive

noncomputable section

namespace Cert.Lut.RefRun

open Cert.ReferenceIdeal Cert.ReferenceIdeal.Gen Idealize.ShloMosaic Idealize.ShloMosaic.TcCoe Idealize.SL.Sem Idealize.ShloMosaic.StableHlo

variable {F : FTy → Type} [FloatOps F]
variable {x0 : (⟨S2048x4096, .i32⟩ : BufTy).Contents (Elt F)} {x1 : (⟨S2048x1024, .i32⟩ : BufTy).Contents (Elt F)} {x2 : (⟨S2048x14, .i32⟩ : BufTy).Contents (Elt F)} {x3 : (⟨S2048x16384, .f32⟩ : BufTy).Contents (Elt F)} {x4 : (⟨S1024x14, .i32⟩ : BufTy).Contents (Elt F)} {x5 : (⟨S1024x16384, .f32⟩ : BufTy).Contents (Elt F)} {x6 : (⟨S1024x14, .i32⟩ : BufTy).Contents (Elt F)} {x7 : (⟨S1024x16384, .f32⟩ : BufTy).Contents (Elt F)} {W : Valuation τ sig (Elt F)}

set_option maxRecDepth 8192 in
set_option maxHeartbeats 4000000 in
abbrev ops02 : List (HloOp τ sig (Elt F)) :=
  [ StableHlo.nullary main_c_17 (constantI S_ 32 1#32),
    StableHlo.unary main_c_17 main_v42 (broadcastInDim S14 ![] bcast_S_S14 : (⟨S_, .i32⟩ : BufTy).Contents (Elt F) → (⟨S14, .i32⟩ : BufTy).Contents (Elt F)),
    StableHlo.binary main_v41 main_v42 main_v43 (andi : (⟨S14, .i32⟩ : BufTy).Contents (Elt F) → (⟨S14, .i32⟩ : BufTy).Contents (Elt F) → (⟨S14, .i32⟩ : BufTy).Contents (Elt F)),
    StableHlo.unary main_v39 main_v44 (broadcastInDim S14 ![] bcast_S_S14 : (⟨S_, .i32⟩ : BufTy).Contents (Elt F) → (⟨S14, .i32⟩ : BufTy).Contents (Elt F)),
    StableHlo.binary main_v38 main_v44 main_v45 (muli : (⟨S14, .i32⟩ : BufTy).Contents (Elt F) → (⟨S14, .i32⟩ : BufTy).Contents (Elt F) → (⟨S14, .i32⟩ : BufTy).Contents (Elt F)),
    StableHlo.TRef.nullary main_call4.c (constantI S_ 32 0#32),
    StableHlo.TRef.unary main_call4.c main_call4.v0 (broadcastInDim S14 ![] bcast_S_S14),
    StableHlo.TRef.binary (.of main_v43 : StableHlo.TRef sig ⟨S14, .i32⟩) main_call4.v0 main_call4.v1 (cmpi .ne),
    StableHlo.TRef.ternary main_call4.v1 (.of main_v45 : StableHlo.TRef sig ⟨S14, .i32⟩) (.of main_v38 : StableHlo.TRef sig ⟨S14, .i32⟩) main_call4.v2 select,
    StableHlo.binary main_v39 main_v39 main_v47 (muli : (⟨S_, .i32⟩ : BufTy).Contents (Elt F) → (⟨S_, .i32⟩ : BufTy).Contents (Elt F) → (⟨S_, .i32⟩ : BufTy).Contents (Elt F)),
    StableHlo.nullary main_c_18 (constantI S_ 32 1#32),
    StableHlo.unary main_c_18 main_v48 (broadcastInDim S14 ![] bcast_S_S14 : (⟨S_, .i32⟩ : BufTy).Contents (Elt F) → (⟨S14, .i32⟩ : BufTy).Contents (Elt F)),
    StableHlo.binary main_v41 main_v48 main_v49 (Host.shrui : (⟨S14, .i32⟩ : BufTy).Contents (Elt F) → (⟨S14, .i32⟩ : BufTy).Contents (Elt F) → (⟨S14, .i32⟩ : BufTy).Contents (Elt F)),
    StableHlo.nullary main_c_19 (constantI S_ 32 1#32),
    StableHlo.unary main_c_19 main_v50 (broadcastInDim S14 ![] bcast_S_S14 : (⟨S_, .i32⟩ : BufTy).Contents (Elt F) → (⟨S14, .i32⟩ : BufTy).Contents (Elt F)),
    StableHlo.binary main_v49 main_v50 main_v51 (andi : (⟨S14, .i32⟩ : BufTy).Contents (Elt F) → (⟨S14, .i32⟩ : BufTy).Contents (Elt F) → (⟨S14, .i32⟩ : BufTy).Contents (Elt F)),
    StableHlo.unary main_v47 main_v52 (broadcastInDim S14 ![] bcast_S_S14 : (⟨S_, .i32⟩ : BufTy).Contents (Elt F) → (⟨S14, .i32⟩ : BufTy).Contents (Elt F)),
    StableHlo.binary main_v46 main_v52 main_v53 (muli : (⟨S14, .i32⟩ : BufTy).Contents (Elt F) → (⟨S14, .i32⟩ : BufTy).Contents (Elt F) → (⟨S14, .i32⟩ : BufTy).Contents (Elt F)),
    StableHlo.TRef.nullary main_call5.c (constantI S_ 32 0#32),
    StableHlo.TRef.unary main_call5.c main_call5.v0 (broadcastInDim S14 ![] bcast_S_S14),
    StableHlo.TRef.binary (.of main_v51 : StableHlo.TRef sig ⟨S14, .i32⟩) main_call5.v0 main_call5.v1 (cmpi .ne),
    StableHlo.TRef.ternary main_call5.v1 (.of main_v53 : StableHlo.TRef sig ⟨S14, .i32⟩) (.of main_v46 : StableHlo.TRef sig ⟨S14, .i32⟩) main_call5.v2 select,
    StableHlo.binary main_v47 main_v47 main_v55 (muli : (⟨S_, .i32⟩ : BufTy).Contents (Elt F) → (⟨S_, .i32⟩ : BufTy).Contents (Elt F) → (⟨S_, .i32⟩ : BufTy).Contents (Elt F)),
    StableHlo.nullary main_c_20 (constantI S_ 32 1#32),
    StableHlo.unary main_c_20 main_v56 (broadcastInDim S14 ![] bcast_S_S14 : (⟨S_, .i32⟩ : BufTy).Contents (Elt F) → (⟨S14, .i32⟩ : BufTy).Contents (Elt F)),
    StableHlo.binary main_v49 main_v56 main_v57 (Host.shrui : (⟨S14, .i32⟩ : BufTy).Contents (Elt F) → (⟨S14, .i32⟩ : BufTy).Contents (Elt F) → (⟨S14, .i32⟩ : BufTy).Contents (Elt F)),
    StableHlo.nullary main_c_21 (constantI S_ 32 1#32),
    StableHlo.unary main_c_21 main_v58 (broadcastInDim S14 ![] bcast_S_S14 : (⟨S_, .i32⟩ : BufTy).Contents (Elt F) → (⟨S14, .i32⟩ : BufTy).Contents (Elt F)),
    StableHlo.binary main_v57 main_v58 main_v59 (andi : (⟨S14, .i32⟩ : BufTy).Contents (Elt F) → (⟨S14, .i32⟩ : BufTy).Contents (Elt F) → (⟨S14, .i32⟩ : BufTy).Contents (Elt F)),
    StableHlo.unary main_v55 main_v60 (broadcastInDim S14 ![] bcast_S_S14 : (⟨S_, .i32⟩ : BufTy).Contents (Elt F) → (⟨S14, .i32⟩ : BufTy).Contents (Elt F)),
    StableHlo.binary main_v54 main_v60 main_v61 (muli : (⟨S14, .i32⟩ : BufTy).Contents (Elt F) → (⟨S14, .i32⟩ : BufTy).Contents (Elt F) → (⟨S14, .i32⟩ : BufTy).Contents (Elt F)),
    StableHlo.TRef.nullary main_call6.c (constantI S_ 32 0#32),
    StableHlo.TRef.unary main_call6.c main_call6.v0 (broadcastInDim S14 ![] bcast_S_S14),
    StableHlo.TRef.binary (.of main_v59 : StableHlo.TRef sig ⟨S14, .i32⟩) main_call6.v0 main_call6.v1 (cmpi .ne),
    StableHlo.TRef.ternary main_call6.v1 (.of main_v61 : StableHlo.TRef sig ⟨S14, .i32⟩) (.of main_v54 : StableHlo.TRef sig ⟨S14, .i32⟩) main_call6.v2 select,
    StableHlo.binary main_v55 main_v55 main_v63 (muli : (⟨S_, .i32⟩ : BufTy).Contents (Elt F) → (⟨S_, .i32⟩ : BufTy).Contents (Elt F) → (⟨S_, .i32⟩ : BufTy).Contents (Elt F)),
    StableHlo.nullary main_c_22 (constantI S_ 32 1#32),
    StableHlo.unary main_c_22 main_v64 (broadcastInDim S14 ![] bcast_S_S14 : (⟨S_, .i32⟩ : BufTy).Contents (Elt F) → (⟨S14, .i32⟩ : BufTy).Contents (Elt F)),
    StableHlo.binary main_v57 main_v64 main_v65 (Host.shrui : (⟨S14, .i32⟩ : BufTy).Contents (Elt F) → (⟨S14, .i32⟩ : BufTy).Contents (Elt F) → (⟨S14, .i32⟩ : BufTy).Contents (Elt F)),
    StableHlo.unary main_v62 main_v66 (broadcastInDim S1x1x14 ![2] bcast_S14_S1x1x14_2 : (⟨S14, .i32⟩ : BufTy).Contents (Elt F) → (⟨S1x1x14, .i32⟩ : BufTy).Contents (Elt F)) ]

set_option maxRecDepth 8192 in
theorem ops02_sub : (ops02 : List (HloOp τ sig (Elt F))).Forall fun op => op.bufs ⊆ tcRefs τ sig :=
  ⟨nullary_bufs_sub .., unary_bufs_sub .., binary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., ternary_bufs_sub .., binary_bufs_sub .., nullary_bufs_sub .., unary_bufs_sub .., binary_bufs_sub .., unary_bufs_sub ..⟩

set_option maxRecDepth 8192 in
set_option maxHeartbeats 4000000 in
theorem ops02_fresh : ∀ op ∈ (ops02 : List (HloOp τ sig (Elt F))), op.fresh = ∅ := by
  intro _ h; (repeat (cases h with | head => rfl | tail _ h => ?_)); exact nomatch h

abbrev ops02_W : List (Ref sig .tc) := [main_c_17, main_v42, main_v43, main_v44, main_v45, main_call4_c, main_call4_v0, main_call4_v1, main_v46, main_v47, main_c_18, main_v48, main_v49, main_c_19, main_v50, main_v51, main_v52, main_v53, main_call5_c, main_call5_v0, main_call5_v1, main_v54, main_v55, main_c_20, main_v56, main_v57, main_c_21, main_v58, main_v59, main_v60, main_v61, main_call6_c, main_call6_v0, main_call6_v1, main_v62, main_v63, main_c_22, main_v64, main_v65, main_v66]

set_option maxRecDepth 8192 in
set_option maxHeartbeats 4000000 in
theorem ops02_writes : (ops02 : List (HloOp τ sig (Elt F))).Forall fun op => op.writes ⊆ (ops02_W.map (Proc.devRef (τ := τ) .tc)).toFinset := by
  simp only [List.Forall]; repeat' apply And.intro
  all_goals (simp only [nullary_writes, unary_writes, binary_writes, ternary_writes, Finset.singleton_subset_iff, List.mem_toFinset]; exact List.mem_map_of_mem (by decide))

set_option maxRecDepth 8192 in
set_option maxHeartbeats 4000000 in
theorem step02_main_v66 (h : Live2 x0 x1 x2 x3 x4 x5 x6 x7 W) :
    after ops02 W (no_index (Proc.devRef .tc main_v66)) = ReadP.val_main_v66 (F := F) := by
  simp only [ops02]
  after_results_simp
  all_goals (try simp only [h.h_main_v38, h.h_main_v39, h.h_main_v41])
  all_goals (try rw [h.h_main_v38])
  all_goals (try rw [h.h_main_v39])
  all_goals (try rw [h.h_main_v41])
  all_goals rfl

theorem step02 (h : Live2 x0 x1 x2 x3 x4 x5 x6 x7 W) :
    Live3 x0 x1 x2 x3 x4 x5 x6 x7 (after ops02 W) where
  toLive0 := h.toLive0.step ops02_writes (by decide)
  h_main_v6 := (after_of_writes_sub ops02 _ ops02_writes (by decide)).trans h.h_main_v6
  h_main_v66 := step02_main_v66 h

end Cert.Lut.RefRun

end
-- ==== Proof.RefRunC03.lean ====
import proofs.«427008_j72404558676324_3_alg».proof.Proof.RefRunLive

noncomputable section

namespace Cert.Lut.RefRun

open Cert.ReferenceIdeal Cert.ReferenceIdeal.Gen Idealize.ShloMosaic Idealize.ShloMosaic.TcCoe Idealize.SL.Sem Idealize.ShloMosaic.StableHlo

variable {F : FTy → Type} [FloatOps F]
variable {x0 : (⟨S2048x4096, .i32⟩ : BufTy).Contents (Elt F)} {x1 : (⟨S2048x1024, .i32⟩ : BufTy).Contents (Elt F)} {x2 : (⟨S2048x14, .i32⟩ : BufTy).Contents (Elt F)} {x3 : (⟨S2048x16384, .f32⟩ : BufTy).Contents (Elt F)} {x4 : (⟨S1024x14, .i32⟩ : BufTy).Contents (Elt F)} {x5 : (⟨S1024x16384, .f32⟩ : BufTy).Contents (Elt F)} {x6 : (⟨S1024x14, .i32⟩ : BufTy).Contents (Elt F)} {x7 : (⟨S1024x16384, .f32⟩ : BufTy).Contents (Elt F)} {W : Valuation τ sig (Elt F)}

set_option maxRecDepth 8192 in
set_option maxHeartbeats 4000000 in
abbrev ops03 : List (HloOp τ sig (Elt F)) :=
  [ StableHlo.unary main_v66 main_v67 (broadcastInDim S2048x2048x14 ![0, 1, 2] bcast_S1x1x14_S2048x2048x14_0_1_2 : (⟨S1x1x14, .i32⟩ : BufTy).Contents (Elt F) → (⟨S2048x2048x14, .i32⟩ : BufTy).Contents (Elt F)),
    StableHlo.binary main_v6 main_v67 main_v68 (muli : (⟨S2048x2048x14, .i32⟩ : BufTy).Contents (Elt F) → (⟨S2048x2048x14, .i32⟩ : BufTy).Contents (Elt F) → (⟨S2048x2048x14, .i32⟩ : BufTy).Contents (Elt F)),
    StableHlo.nullary main_c_23 (constantI S_ 32 0#32),
    StableHlo.binary main_v68 main_c_23 main_v69 ((fun x v => Host.reduce IntOp.addi x v reducesTo_S2048x2048x14_S2048x2048_d2 h_S_) : (⟨S2048x2048x14, .i32⟩ : BufTy).Contents (Elt F) → (⟨S_, .i32⟩ : BufTy).Contents (Elt F) → (⟨S2048x2048, .i32⟩ : BufTy).Contents (Elt F)),
    StableHlo.nullary main_v70 (iotaInDim S2048 32 0),
    StableHlo.unary main_v70 main_v71 (broadcastInDim S1x2048 ![1] bcast_S2048_S1x2048_1 : (⟨S2048, .i32⟩ : BufTy).Contents (Elt F) → (⟨S1x2048, .i32⟩ : BufTy).Contents (Elt F)),
    StableHlo.nullary main_c_24 (constantI S_ 32 0#32),
    StableHlo.unary main_c_24 main_v72 (broadcastInDim S1x2048 ![] bcast_S_S1x2048 : (⟨S_, .i32⟩ : BufTy).Contents (Elt F) → (⟨S1x2048, .i32⟩ : BufTy).Contents (Elt F)),
    StableHlo.binary main_v71 main_v72 main_v73 (cmpi .slt : (⟨S1x2048, .i32⟩ : BufTy).Contents (Elt F) → (⟨S1x2048, .i32⟩ : BufTy).Contents (Elt F) → (⟨S1x2048, .i1⟩ : BufTy).Contents (Elt F)),
    StableHlo.nullary main_c_25 (constantI S_ 32 2048#32),
    StableHlo.unary main_c_25 main_v74 (broadcastInDim S1x2048 ![] bcast_S_S1x2048 : (⟨S_, .i32⟩ : BufTy).Contents (Elt F) → (⟨S1x2048, .i32⟩ : BufTy).Contents (Elt F)),
    StableHlo.binary main_v71 main_v74 main_v75 (addi : (⟨S1x2048, .i32⟩ : BufTy).Contents (Elt F) → (⟨S1x2048, .i32⟩ : BufTy).Contents (Elt F) → (⟨S1x2048, .i32⟩ : BufTy).Contents (Elt F)),
    StableHlo.ternary main_v73 main_v75 main_v71 main_v76 (select : (⟨S1x2048, .i1⟩ : BufTy).Contents (Elt F) → (⟨S1x2048, .i32⟩ : BufTy).Contents (Elt F) → (⟨S1x2048, .i32⟩ : BufTy).Contents (Elt F) → (⟨S1x2048, .i32⟩ : BufTy).Contents (Elt F)),
    StableHlo.nullary main_c_26 (constantI S_ 32 0#32),
    StableHlo.unary main_c_26 main_v77 (broadcastInDim S2048x2048 ![] bcast_S_S2048x2048 : (⟨S_, .i32⟩ : BufTy).Contents (Elt F) → (⟨S2048x2048, .i32⟩ : BufTy).Contents (Elt F)),
    StableHlo.binary main_v69 main_v77 main_v78 (cmpi .slt : (⟨S2048x2048, .i32⟩ : BufTy).Contents (Elt F) → (⟨S2048x2048, .i32⟩ : BufTy).Contents (Elt F) → (⟨S2048x2048, .i1⟩ : BufTy).Contents (Elt F)),
    StableHlo.nullary main_c_27 (constantI S_ 32 16384#32),
    StableHlo.unary main_c_27 main_v79 (broadcastInDim S2048x2048 ![] bcast_S_S2048x2048 : (⟨S_, .i32⟩ : BufTy).Contents (Elt F) → (⟨S2048x2048, .i32⟩ : BufTy).Contents (Elt F)),
    StableHlo.binary main_v69 main_v79 main_v80 (addi : (⟨S2048x2048, .i32⟩ : BufTy).Contents (Elt F) → (⟨S2048x2048, .i32⟩ : BufTy).Contents (Elt F) → (⟨S2048x2048, .i32⟩ : BufTy).Contents (Elt F)),
    StableHlo.ternary main_v78 main_v80 main_v69 main_v81 (select : (⟨S2048x2048, .i1⟩ : BufTy).Contents (Elt F) → (⟨S2048x2048, .i32⟩ : BufTy).Contents (Elt F) → (⟨S2048x2048, .i32⟩ : BufTy).Contents (Elt F) → (⟨S2048x2048, .i32⟩ : BufTy).Contents (Elt F)),
    StableHlo.unary main_v76 main_v82 (broadcastInDim S2048x2048 ![0, 1] bcast_S1x2048_S2048x2048_0_1 : (⟨S1x2048, .i32⟩ : BufTy).Contents (Elt F) → (⟨S2048x2048, .i32⟩ : BufTy).Contents (Elt F)),
    StableHlo.unary main_v82 main_v83 (broadcastInDim S2048x2048x1 ![0, 1] bcast_S2048x2048_S2048x2048x1_0_1 : (⟨S2048x2048, .i32⟩ : BufTy).Contents (Elt F) → (⟨S2048x2048x1, .i32⟩ : BufTy).Contents (Elt F)),
    StableHlo.unary main_v81 main_v84 (broadcastInDim S2048x2048x1 ![0, 1] bcast_S2048x2048_S2048x2048x1_0_1 : (⟨S2048x2048, .i32⟩ : BufTy).Contents (Elt F) → (⟨S2048x2048x1, .i32⟩ : BufTy).Contents (Elt F)) ]

set_option maxRecDepth 8192 in
theorem ops03_sub : (ops03 : List (HloOp τ sig (Elt F))).Forall fun op => op.bufs ⊆ tcRefs τ sig :=
  ⟨unary_bufs_sub .., binary_bufs_sub .., nullary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩

set_option maxRecDepth 8192 in
set_option maxHeartbeats 4000000 in
theorem ops03_fresh : ∀ op ∈ (ops03 : List (HloOp τ sig (Elt F))), op.fresh = ∅ := by
  intro _ h; (repeat (cases h with | head => rfl | tail _ h => ?_)); exact nomatch h

abbrev ops03_W : List (Ref sig .tc) := [main_v67, main_v68, main_c_23, main_v69, main_v70, main_v71, main_c_24, main_v72, main_v73, main_c_25, main_v74, main_v75, main_v76, main_c_26, main_v77, main_v78, main_c_27, main_v79, main_v80, main_v81, main_v82, main_v83, main_v84]

set_option maxRecDepth 8192 in
set_option maxHeartbeats 4000000 in
theorem ops03_writes : (ops03 : List (HloOp τ sig (Elt F))).Forall fun op => op.writes ⊆ (ops03_W.map (Proc.devRef (τ := τ) .tc)).toFinset := by
  simp only [List.Forall]; repeat' apply And.intro
  all_goals (simp only [nullary_writes, unary_writes, binary_writes, ternary_writes, Finset.singleton_subset_iff, List.mem_toFinset]; exact List.mem_map_of_mem (by decide))

set_option maxRecDepth 8192 in
set_option maxHeartbeats 4000000 in
theorem step03_main_v83 (h : Live3 x0 x1 x2 x3 x4 x5 x6 x7 W) :
    after ops03 W (no_index (Proc.devRef .tc main_v83)) = ReadP.val_main_v83 (F := F) := by
  simp only [ops03]
  after_results_simp
  all_goals rfl

set_option maxRecDepth 8192 in
set_option maxHeartbeats 4000000 in
theorem step03_main_v84 (h : Live3 x0 x1 x2 x3 x4 x5 x6 x7 W) :
    after ops03 W (no_index (Proc.devRef .tc main_v84)) = ReadP.val_main_v84 (F := F) x0 x2 := by
  simp only [ops03]
  after_results_simp
  all_goals (try simp only [h.h_main_v66, h.h_main_v6])
  all_goals (try rw [h.h_main_v66])
  all_goals (try rw [h.h_main_v6])
  all_goals rfl

theorem step03 (h : Live3 x0 x1 x2 x3 x4 x5 x6 x7 W) :
    Live4 x0 x1 x2 x3 x4 x5 x6 x7 (after ops03 W) where
  toLive0 := h.toLive0.step ops03_writes (by decide)
  h_main_v83 := step03_main_v83 h
  h_main_v84 := step03_main_v84 h

end Cert.Lut.RefRun

end
-- ==== Proof.RefRunC04.lean ====
import proofs.«427008_j72404558676324_3_alg».proof.Proof.RefRunLive

noncomputable section

namespace Cert.Lut.RefRun

open Cert.ReferenceIdeal Cert.ReferenceIdeal.Gen Idealize.ShloMosaic Idealize.ShloMosaic.TcCoe Idealize.SL.Sem Idealize.ShloMosaic.StableHlo

variable {F : FTy → Type} [FloatOps F]
variable {x0 : (⟨S2048x4096, .i32⟩ : BufTy).Contents (Elt F)} {x1 : (⟨S2048x1024, .i32⟩ : BufTy).Contents (Elt F)} {x2 : (⟨S2048x14, .i32⟩ : BufTy).Contents (Elt F)} {x3 : (⟨S2048x16384, .f32⟩ : BufTy).Contents (Elt F)} {x4 : (⟨S1024x14, .i32⟩ : BufTy).Contents (Elt F)} {x5 : (⟨S1024x16384, .f32⟩ : BufTy).Contents (Elt F)} {x6 : (⟨S1024x14, .i32⟩ : BufTy).Contents (Elt F)} {x7 : (⟨S1024x16384, .f32⟩ : BufTy).Contents (Elt F)} {W : Valuation τ sig (Elt F)}

set_option maxRecDepth 8192 in
set_option maxHeartbeats 4000000 in
abbrev ops04 : List (HloOp τ sig (Elt F)) :=
  [ StableHlo.binary main_v83 main_v84 main_v85 ((fun a b => concatenate S2048x2048x2 2 [⟨S2048x2048x1, a⟩, ⟨S2048x2048x1, b⟩] concatenates_S2048x2048x1_S2048x2048x1_S2048x2048x2_d2) : (⟨S2048x2048x1, .i32⟩ : BufTy).Contents (Elt F) → (⟨S2048x2048x1, .i32⟩ : BufTy).Contents (Elt F) → (⟨S2048x2048x2, .i32⟩ : BufTy).Contents (Elt F)),
    StableHlo.binary main_arg3 main_v85 main_v86 ((fun x i => Host.gather gather_S2048x16384_S2048x2048x2_S2048x2048_n_01_n_n_01_2_11 x i) : (⟨S2048x16384, .f32⟩ : BufTy).Contents (Elt F) → (⟨S2048x2048x2, .i32⟩ : BufTy).Contents (Elt F) → (⟨S2048x2048, .f32⟩ : BufTy).Contents (Elt F)),
    StableHlo.nullary main_cst (constant S_ .f32 0x3F800000#32),
    StableHlo.unary main_cst main_v87 (broadcastInDim S2048x2048 ![] bcast_S_S2048x2048 : (⟨S_, .f32⟩ : BufTy).Contents (Elt F) → (⟨S2048x2048, .f32⟩ : BufTy).Contents (Elt F)),
    StableHlo.binary main_v86 main_v87 main_v88 (cmpf .oeq : (⟨S2048x2048, .f32⟩ : BufTy).Contents (Elt F) → (⟨S2048x2048, .f32⟩ : BufTy).Contents (Elt F) → (⟨S2048x2048, .i1⟩ : BufTy).Contents (Elt F)),
    StableHlo.nullary main_cst_28 (constant S_ .f32 0x3F800000#32) ]

set_option maxRecDepth 8192 in
theorem ops04_sub : (ops04 : List (HloOp τ sig (Elt F))).Forall fun op => op.bufs ⊆ tcRefs τ sig :=
  ⟨binary_bufs_sub .., binary_bufs_sub .., nullary_bufs_sub .., unary_bufs_sub .., binary_bufs_sub .., nullary_bufs_sub ..⟩

set_option maxRecDepth 8192 in
set_option maxHeartbeats 4000000 in
theorem ops04_fresh : ∀ op ∈ (ops04 : List (HloOp τ sig (Elt F))), op.fresh = ∅ := by
  intro _ h; (repeat (cases h with | head => rfl | tail _ h => ?_)); exact nomatch h

abbrev ops04_W : List (Ref sig .tc) := [main_v85, main_v86, main_cst, main_v87, main_v88, main_cst_28]

set_option maxRecDepth 8192 in
set_option maxHeartbeats 4000000 in
theorem ops04_writes : (ops04 : List (HloOp τ sig (Elt F))).Forall fun op => op.writes ⊆ (ops04_W.map (Proc.devRef (τ := τ) .tc)).toFinset := by
  simp only [List.Forall]; repeat' apply And.intro
  all_goals (simp only [nullary_writes, unary_writes, binary_writes, ternary_writes, Finset.singleton_subset_iff, List.mem_toFinset]; exact List.mem_map_of_mem (by decide))

set_option maxRecDepth 8192 in
set_option maxHeartbeats 4000000 in
theorem step04_main_v88 (h : Live4 x0 x1 x2 x3 x4 x5 x6 x7 W) :
    after ops04 W (no_index (Proc.devRef .tc main_v88)) = ReadP.val_main_v88 (F := F) x0 x2 x3 := by
  simp only [ops04]
  after_results_simp
  all_goals (try simp only [h.h_main_v84, h.h_main_v83, h.h_main_arg3])
  all_goals (try rw [h.h_main_v84])
  all_goals (try rw [h.h_main_v83])
  all_goals (try rw [h.h_main_arg3])
  all_goals rfl

set_option maxRecDepth 8192 in
set_option maxHeartbeats 4000000 in
theorem step04_main_cst_28 (h : Live4 x0 x1 x2 x3 x4 x5 x6 x7 W) :
    after ops04 W (no_index (Proc.devRef .tc main_cst_28)) = ReadP.val_main_cst_28 (F := F) := by
  simp only [ops04]
  after_results_simp
  all_goals rfl

theorem step04 (h : Live4 x0 x1 x2 x3 x4 x5 x6 x7 W) :
    Live5 x0 x1 x2 x3 x4 x5 x6 x7 (after ops04 W) where
  toLive0 := h.toLive0.step ops04_writes (by decide)
  h_main_v88 := step04_main_v88 h
  h_main_cst_28 := step04_main_cst_28 h

end Cert.Lut.RefRun

end
-- ==== Proof.RefRunC05.lean ====
import proofs.«427008_j72404558676324_3_alg».proof.Proof.RefRunLive

noncomputable section

namespace Cert.Lut.RefRun

open Cert.ReferenceIdeal Cert.ReferenceIdeal.Gen Idealize.ShloMosaic Idealize.ShloMosaic.TcCoe Idealize.SL.Sem Idealize.ShloMosaic.StableHlo

variable {F : FTy → Type} [FloatOps F]
variable {x0 : (⟨S2048x4096, .i32⟩ : BufTy).Contents (Elt F)} {x1 : (⟨S2048x1024, .i32⟩ : BufTy).Contents (Elt F)} {x2 : (⟨S2048x14, .i32⟩ : BufTy).Contents (Elt F)} {x3 : (⟨S2048x16384, .f32⟩ : BufTy).Contents (Elt F)} {x4 : (⟨S1024x14, .i32⟩ : BufTy).Contents (Elt F)} {x5 : (⟨S1024x16384, .f32⟩ : BufTy).Contents (Elt F)} {x6 : (⟨S1024x14, .i32⟩ : BufTy).Contents (Elt F)} {x7 : (⟨S1024x16384, .f32⟩ : BufTy).Contents (Elt F)} {W : Valuation τ sig (Elt F)}

set_option maxRecDepth 8192 in
set_option maxHeartbeats 4000000 in
abbrev ops05 : List (HloOp τ sig (Elt F)) :=
  [ StableHlo.nullary main_cst_29 (constant S_ .f32 0x00000000#32),
    StableHlo.TRef.unary (.of main_cst_28 : StableHlo.TRef sig ⟨S_, .f32⟩) main_call7.v0 (broadcastInDim S2048x2048 ![] bcast_S_S2048x2048),
    StableHlo.TRef.unary (.of main_cst_29 : StableHlo.TRef sig ⟨S_, .f32⟩) main_call7.v1 (broadcastInDim S2048x2048 ![] bcast_S_S2048x2048),
    StableHlo.TRef.ternary (.of main_v88 : StableHlo.TRef sig ⟨S2048x2048, .i1⟩) main_call7.v0 main_call7.v1 main_call7.v2 select,
    StableHlo.unary main_v89 main_v90 (id : (⟨S2048x2048, .f32⟩ : BufTy).Contents (Elt F) → (⟨S2048x2048, .f32⟩ : BufTy).Contents (Elt F)),
    StableHlo.unary main_arg1 main_v91 (sitofp .f32 : (⟨S2048x1024, .i32⟩ : BufTy).Contents (Elt F) → (⟨S2048x1024, .f32⟩ : BufTy).Contents (Elt F)) ]

set_option maxRecDepth 8192 in
theorem ops05_sub : (ops05 : List (HloOp τ sig (Elt F))).Forall fun op => op.bufs ⊆ tcRefs τ sig :=
  ⟨nullary_bufs_sub .., unary_bufs_sub .., unary_bufs_sub .., ternary_bufs_sub .., unary_bufs_sub .., unary_bufs_sub ..⟩

set_option maxRecDepth 8192 in
set_option maxHeartbeats 4000000 in
theorem ops05_fresh : ∀ op ∈ (ops05 : List (HloOp τ sig (Elt F))), op.fresh = ∅ := by
  intro _ h; (repeat (cases h with | head => rfl | tail _ h => ?_)); exact nomatch h

abbrev ops05_W : List (Ref sig .tc) := [main_cst_29, main_call7_v0, main_call7_v1, main_v89, main_v90, main_v91]

set_option maxRecDepth 8192 in
set_option maxHeartbeats 4000000 in
theorem ops05_writes : (ops05 : List (HloOp τ sig (Elt F))).Forall fun op => op.writes ⊆ (ops05_W.map (Proc.devRef (τ := τ) .tc)).toFinset := by
  simp only [List.Forall]; repeat' apply And.intro
  all_goals (simp only [nullary_writes, unary_writes, binary_writes, ternary_writes, Finset.singleton_subset_iff, List.mem_toFinset]; exact List.mem_map_of_mem (by decide))

set_option maxRecDepth 8192 in
set_option maxHeartbeats 4000000 in
theorem step05_main_v90 (h : Live5 x0 x1 x2 x3 x4 x5 x6 x7 W) :
    after ops05 W (no_index (Proc.devRef .tc main_v90)) = ReadP.val_main_v90 (F := F) x0 x2 x3 := by
  simp only [ops05]
  after_results_simp
  all_goals (try simp only [h.h_main_cst_28, h.h_main_v88])
  all_goals (try rw [h.h_main_cst_28])
  all_goals (try rw [h.h_main_v88])
  all_goals rfl

set_option maxRecDepth 8192 in
set_option maxHeartbeats 4000000 in
theorem step05_main_v91 (h : Live5 x0 x1 x2 x3 x4 x5 x6 x7 W) :
    after ops05 W (no_index (Proc.devRef .tc main_v91)) = ReadP.val_main_v91 (F := F) x1 := by
  simp only [ops05]
  after_results_simp
  all_goals (try simp only [h.h_main_arg1])
  all_goals (try rw [h.h_main_arg1])
  all_goals rfl

theorem step05 (h : Live5 x0 x1 x2 x3 x4 x5 x6 x7 W) :
    Live6 x0 x1 x2 x3 x4 x5 x6 x7 (after ops05 W) where
  toLive0 := h.toLive0.step ops05_writes (by decide)
  h_main_v90 := step05_main_v90 h
  h_main_v91 := step05_main_v91 h

end Cert.Lut.RefRun

end
-- ==== Proof.RefRunC06.lean ====
import proofs.«427008_j72404558676324_3_alg».proof.Proof.RefRunLive

noncomputable section

namespace Cert.Lut.RefRun

open Cert.ReferenceIdeal Cert.ReferenceIdeal.Gen Idealize.ShloMosaic Idealize.ShloMosaic.TcCoe Idealize.SL.Sem Idealize.ShloMosaic.StableHlo

variable {F : FTy → Type} [FloatOps F]
variable {x0 : (⟨S2048x4096, .i32⟩ : BufTy).Contents (Elt F)} {x1 : (⟨S2048x1024, .i32⟩ : BufTy).Contents (Elt F)} {x2 : (⟨S2048x14, .i32⟩ : BufTy).Contents (Elt F)} {x3 : (⟨S2048x16384, .f32⟩ : BufTy).Contents (Elt F)} {x4 : (⟨S1024x14, .i32⟩ : BufTy).Contents (Elt F)} {x5 : (⟨S1024x16384, .f32⟩ : BufTy).Contents (Elt F)} {x6 : (⟨S1024x14, .i32⟩ : BufTy).Contents (Elt F)} {x7 : (⟨S1024x16384, .f32⟩ : BufTy).Contents (Elt F)} {W : Valuation τ sig (Elt F)}

set_option maxRecDepth 8192 in
set_option maxHeartbeats 4000000 in
abbrev ops06 : List (HloOp τ sig (Elt F)) :=
  [ StableHlo.binary main_v90 main_v91 main_v92 ((fun a b => concatenate S2048x3072 1 [⟨S2048x2048, a⟩, ⟨S2048x1024, b⟩] concatenates_S2048x2048_S2048x1024_S2048x3072_d1) : (⟨S2048x2048, .f32⟩ : BufTy).Contents (Elt F) → (⟨S2048x1024, .f32⟩ : BufTy).Contents (Elt F) → (⟨S2048x3072, .f32⟩ : BufTy).Contents (Elt F)),
    StableHlo.nullary main_c_30 (constantI S_ 32 0#32),
    StableHlo.unary main_c_30 main_v93 (broadcastInDim S1024x14 ![] bcast_S_S1024x14 : (⟨S_, .i32⟩ : BufTy).Contents (Elt F) → (⟨S1024x14, .i32⟩ : BufTy).Contents (Elt F)),
    StableHlo.binary main_arg4 main_v93 main_v94 (cmpi .slt : (⟨S1024x14, .i32⟩ : BufTy).Contents (Elt F) → (⟨S1024x14, .i32⟩ : BufTy).Contents (Elt F) → (⟨S1024x14, .i1⟩ : BufTy).Contents (Elt F)),
    StableHlo.nullary main_c_31 (constantI S_ 32 3072#32),
    StableHlo.unary main_c_31 main_v95 (broadcastInDim S1024x14 ![] bcast_S_S1024x14 : (⟨S_, .i32⟩ : BufTy).Contents (Elt F) → (⟨S1024x14, .i32⟩ : BufTy).Contents (Elt F)),
    StableHlo.binary main_arg4 main_v95 main_v96 (addi : (⟨S1024x14, .i32⟩ : BufTy).Contents (Elt F) → (⟨S1024x14, .i32⟩ : BufTy).Contents (Elt F) → (⟨S1024x14, .i32⟩ : BufTy).Contents (Elt F)),
    StableHlo.ternary main_v94 main_v96 main_arg4 main_v97 (select : (⟨S1024x14, .i1⟩ : BufTy).Contents (Elt F) → (⟨S1024x14, .i32⟩ : BufTy).Contents (Elt F) → (⟨S1024x14, .i32⟩ : BufTy).Contents (Elt F) → (⟨S1024x14, .i32⟩ : BufTy).Contents (Elt F)),
    StableHlo.unary main_v97 main_v98 (broadcastInDim S1024x14x1 ![0, 1] bcast_S1024x14_S1024x14x1_0_1 : (⟨S1024x14, .i32⟩ : BufTy).Contents (Elt F) → (⟨S1024x14x1, .i32⟩ : BufTy).Contents (Elt F)),
    StableHlo.binary main_v92 main_v98 main_v99 ((fun x i => Host.gather gather_S2048x3072_S1024x14x1_S2048x1024x14_0_1_n_n_1_2_20481 x i) : (⟨S2048x3072, .f32⟩ : BufTy).Contents (Elt F) → (⟨S1024x14x1, .i32⟩ : BufTy).Contents (Elt F) → (⟨S2048x1024x14, .f32⟩ : BufTy).Contents (Elt F)),
    StableHlo.unary main_v99 main_v100 (fptosi 32 : (⟨S2048x1024x14, .f32⟩ : BufTy).Contents (Elt F) → (⟨S2048x1024x14, .i32⟩ : BufTy).Contents (Elt F)),
    StableHlo.nullary main_v101 (iotaInDim S14 32 0),
    StableHlo.nullary main_c_32 (constantI S_ 32 4294967295#32),
    StableHlo.unary main_c_32 main_v102 (broadcastInDim S14 ![] bcast_S_S14 : (⟨S_, .i32⟩ : BufTy).Contents (Elt F) → (⟨S14, .i32⟩ : BufTy).Contents (Elt F)),
    StableHlo.binary main_v102 main_v101 main_v103 (muli : (⟨S14, .i32⟩ : BufTy).Contents (Elt F) → (⟨S14, .i32⟩ : BufTy).Contents (Elt F) → (⟨S14, .i32⟩ : BufTy).Contents (Elt F)),
    StableHlo.nullary main_c_33 (constantI S_ 32 13#32),
    StableHlo.unary main_c_33 main_v104 (broadcastInDim S14 ![] bcast_S_S14 : (⟨S_, .i32⟩ : BufTy).Contents (Elt F) → (⟨S14, .i32⟩ : BufTy).Contents (Elt F)),
    StableHlo.binary main_v104 main_v103 main_v105 (addi : (⟨S14, .i32⟩ : BufTy).Contents (Elt F) → (⟨S14, .i32⟩ : BufTy).Contents (Elt F) → (⟨S14, .i32⟩ : BufTy).Contents (Elt F)),
    StableHlo.nullary main_c_34 (constantI S_ 32 2#32),
    StableHlo.nullary main_c_35 (constantI S_ 32 0#32),
    StableHlo.binary main_c_34 main_c_35 main_v106 (cmpi .eq : (⟨S_, .i32⟩ : BufTy).Contents (Elt F) → (⟨S_, .i32⟩ : BufTy).Contents (Elt F) → (⟨S_, .i1⟩ : BufTy).Contents (Elt F)),
    StableHlo.nullary main_c_36 (constantI S_ 32 0#32),
    StableHlo.unary main_c_36 main_v107 (broadcastInDim S14 ![] bcast_S_S14 : (⟨S_, .i32⟩ : BufTy).Contents (Elt F) → (⟨S14, .i32⟩ : BufTy).Contents (Elt F)),
    StableHlo.binary main_v105 main_v107 main_v108 (cmpi .ne : (⟨S14, .i32⟩ : BufTy).Contents (Elt F) → (⟨S14, .i32⟩ : BufTy).Contents (Elt F) → (⟨S14, .i1⟩ : BufTy).Contents (Elt F)),
    StableHlo.unary main_v106 main_v109 (broadcastInDim S14 ![] bcast_S_S14 : (⟨S_, .i1⟩ : BufTy).Contents (Elt F) → (⟨S14, .i1⟩ : BufTy).Contents (Elt F)),
    StableHlo.binary main_v109 main_v108 main_v110 (andi : (⟨S14, .i1⟩ : BufTy).Contents (Elt F) → (⟨S14, .i1⟩ : BufTy).Contents (Elt F) → (⟨S14, .i1⟩ : BufTy).Contents (Elt F)),
    StableHlo.nullary main_c_37 (constantI S_ 32 0#32),
    StableHlo.nullary main_c_38 (constantI S_ 32 1#32),
    StableHlo.TRef.unary (.of main_c_37 : StableHlo.TRef sig ⟨S_, .i32⟩) main_call8.v0 (broadcastInDim S14 ![] bcast_S_S14),
    StableHlo.TRef.unary (.of main_c_38 : StableHlo.TRef sig ⟨S_, .i32⟩) main_call8.v1 (broadcastInDim S14 ![] bcast_S_S14),
    StableHlo.TRef.ternary (.of main_v110 : StableHlo.TRef sig ⟨S14, .i1⟩) main_call8.v0 main_call8.v1 main_call8.v2 select,
    StableHlo.nullary main_c_39 (constantI S_ 32 1#32),
    StableHlo.unary main_c_39 main_v112 (broadcastInDim S14 ![] bcast_S_S14 : (⟨S_, .i32⟩ : BufTy).Contents (Elt F) → (⟨S14, .i32⟩ : BufTy).Contents (Elt F)),
    StableHlo.binary main_v105 main_v112 main_v113 (andi : (⟨S14, .i32⟩ : BufTy).Contents (Elt F) → (⟨S14, .i32⟩ : BufTy).Contents (Elt F) → (⟨S14, .i32⟩ : BufTy).Contents (Elt F)),
    StableHlo.nullary main_c_40 (constantI S_ 32 2#32),
    StableHlo.unary main_c_40 main_v114 (broadcastInDim S14 ![] bcast_S_S14 : (⟨S_, .i32⟩ : BufTy).Contents (Elt F) → (⟨S14, .i32⟩ : BufTy).Contents (Elt F)),
    StableHlo.binary main_v111 main_v114 main_v115 (muli : (⟨S14, .i32⟩ : BufTy).Contents (Elt F) → (⟨S14, .i32⟩ : BufTy).Contents (Elt F) → (⟨S14, .i32⟩ : BufTy).Contents (Elt F)),
    StableHlo.TRef.nullary main_call9.c (constantI S_ 32 0#32),
    StableHlo.TRef.unary main_call9.c main_call9.v0 (broadcastInDim S14 ![] bcast_S_S14),
    StableHlo.TRef.binary (.of main_v113 : StableHlo.TRef sig ⟨S14, .i32⟩) main_call9.v0 main_call9.v1 (cmpi .ne) ]

set_option maxRecDepth 8192 in
theorem ops06_sub : (ops06 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., nullary_bufs_sub .., unary_bufs_sub .., binary_bufs_sub .., nullary_bufs_sub .., unary_bufs_sub .., binary_bufs_sub .., nullary_bufs_sub .., nullary_bufs_sub .., binary_bufs_sub .., nullary_bufs_sub .., unary_bufs_sub .., binary_bufs_sub .., unary_bufs_sub .., binary_bufs_sub .., nullary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub ..⟩

set_option maxRecDepth 8192 in
set_option maxHeartbeats 4000000 in
theorem ops06_fresh : ∀ op ∈ (ops06 : List (HloOp τ sig (Elt F))), op.fresh = ∅ := by
  intro _ h; (repeat (cases h with | head => rfl | tail _ h => ?_)); exact nomatch h

abbrev ops06_W : List (Ref sig .tc) := [main_v92, main_c_30, main_v93, main_v94, main_c_31, main_v95, main_v96, main_v97, main_v98, main_v99, main_v100, main_v101, main_c_32, main_v102, main_v103, main_c_33, main_v104, main_v105, main_c_34, main_c_35, main_v106, main_c_36, main_v107, main_v108, main_v109, main_v110, main_c_37, main_c_38, main_call8_v0, main_call8_v1, main_v111, main_c_39, main_v112, main_v113, main_c_40, main_v114, main_v115, main_call9_c, main_call9_v0, main_call9_v1]

set_option maxRecDepth 8192 in
set_option maxHeartbeats 4000000 in
theorem ops06_writes : (ops06 : List (HloOp τ sig (Elt F))).Forall fun op => op.writes ⊆ (ops06_W.map (Proc.devRef (τ := τ) .tc)).toFinset := by
  simp only [List.Forall]; repeat' apply And.intro
  all_goals (simp only [nullary_writes, unary_writes, binary_writes, ternary_writes, Finset.singleton_subset_iff, List.mem_toFinset]; exact List.mem_map_of_mem (by decide))

set_option maxRecDepth 8192 in
set_option maxHeartbeats 4000000 in
theorem step06_main_v100 (h : Live6 x0 x1 x2 x3 x4 x5 x6 x7 W) :
    after ops06 W (no_index (Proc.devRef .tc main_v100)) = ReadP.val_main_v100 (F := F) x0 x1 x2 x3 x4 := by
  simp only [ops06]
  after_results_simp
  all_goals (try simp only [h.h_main_arg4, h.h_main_v91, h.h_main_v90])
  all_goals (try rw [h.h_main_arg4])
  all_goals (try rw [h.h_main_v91])
  all_goals (try rw [h.h_main_v90])
  all_goals rfl

set_option maxRecDepth 8192 in
set_option maxHeartbeats 4000000 in
theorem step06_main_v105 (h : Live6 x0 x1 x2 x3 x4 x5 x6 x7 W) :
    after ops06 W (no_index (Proc.devRef .tc main_v105)) = ReadP.val_main_v105 (F := F) := by
  simp only [ops06]
  after_results_simp
  all_goals rfl

set_option maxRecDepth 8192 in
set_option maxHeartbeats 4000000 in
theorem step06_main_v111 (h : Live6 x0 x1 x2 x3 x4 x5 x6 x7 W) :
    after ops06 W (no_index (Proc.devRef .tc main_v111)) = ReadP.val_main_v111 (F := F) := by
  simp only [ops06]
  after_results_simp
  all_goals rfl

set_option maxRecDepth 8192 in
set_option maxHeartbeats 4000000 in
theorem step06_main_v115 (h : Live6 x0 x1 x2 x3 x4 x5 x6 x7 W) :
    after ops06 W (no_index (Proc.devRef .tc main_v115)) = ReadP.val_main_v115 (F := F) := by
  simp only [ops06]
  after_results_simp
  all_goals rfl

set_option maxRecDepth 8192 in
set_option maxHeartbeats 4000000 in
theorem step06_main_call9_v1 (h : Live6 x0 x1 x2 x3 x4 x5 x6 x7 W) :
    after ops06 W (no_index (Proc.devRef .tc main_call9_v1)) = ReadP.val_main_call9_v1 (F := F) := by
  simp only [ops06]
  after_results_simp
  all_goals rfl

theorem step06 (h : Live6 x0 x1 x2 x3 x4 x5 x6 x7 W) :
    Live7 x0 x1 x2 x3 x4 x5 x6 x7 (after ops06 W) where
  toLive0 := h.toLive0.step ops06_writes (by decide)
  h_main_v90 := (after_of_writes_sub ops06 _ ops06_writes (by decide)).trans h.h_main_v90
  h_main_v100 := step06_main_v100 h
  h_main_v105 := step06_main_v105 h
  h_main_v111 := step06_main_v111 h
  h_main_v115 := step06_main_v115 h
  h_main_call9_v1 := step06_main_call9_v1 h

end Cert.Lut.RefRun

end
-- ==== Proof.RefRunC07.lean ====
import proofs.«427008_j72404558676324_3_alg».proof.Proof.RefRunLive

noncomputable section

namespace Cert.Lut.RefRun

open Cert.ReferenceIdeal Cert.ReferenceIdeal.Gen Idealize.ShloMosaic Idealize.ShloMosaic.TcCoe Idealize.SL.Sem Idealize.ShloMosaic.StableHlo

variable {F : FTy → Type} [FloatOps F]
variable {x0 : (⟨S2048x4096, .i32⟩ : BufTy).Contents (Elt F)} {x1 : (⟨S2048x1024, .i32⟩ : BufTy).Contents (Elt F)} {x2 : (⟨S2048x14, .i32⟩ : BufTy).Contents (Elt F)} {x3 : (⟨S2048x16384, .f32⟩ : BufTy).Contents (Elt F)} {x4 : (⟨S1024x14, .i32⟩ : BufTy).Contents (Elt F)} {x5 : (⟨S1024x16384, .f32⟩ : BufTy).Contents (Elt F)} {x6 : (⟨S1024x14, .i32⟩ : BufTy).Contents (Elt F)} {x7 : (⟨S1024x16384, .f32⟩ : BufTy).Contents (Elt F)} {W : Valuation τ sig (Elt F)}

set_option maxRecDepth 8192 in
set_option maxHeartbeats 4000000 in
abbrev ops07 : List (HloOp τ sig (Elt F)) :=
  [ StableHlo.TRef.ternary main_call9.v1 (.of main_v115 : StableHlo.TRef sig ⟨S14, .i32⟩) (.of main_v111 : StableHlo.TRef sig ⟨S14, .i32⟩) main_call9.v2 select,
    StableHlo.nullary main_c_41 (constantI S_ 32 2#32),
    StableHlo.nullary main_c_42 (constantI S_ 32 2#32),
    StableHlo.binary main_c_41 main_c_42 main_v117 (muli : (⟨S_, .i32⟩ : BufTy).Contents (Elt F) → (⟨S_, .i32⟩ : BufTy).Contents (Elt F) → (⟨S_, .i32⟩ : BufTy).Contents (Elt F)),
    StableHlo.nullary main_c_43 (constantI S_ 32 1#32),
    StableHlo.unary main_c_43 main_v118 (broadcastInDim S14 ![] bcast_S_S14 : (⟨S_, .i32⟩ : BufTy).Contents (Elt F) → (⟨S14, .i32⟩ : BufTy).Contents (Elt F)),
    StableHlo.binary main_v105 main_v118 main_v119 (Host.shrui : (⟨S14, .i32⟩ : BufTy).Contents (Elt F) → (⟨S14, .i32⟩ : BufTy).Contents (Elt F) → (⟨S14, .i32⟩ : BufTy).Contents (Elt F)),
    StableHlo.nullary main_c_44 (constantI S_ 32 1#32),
    StableHlo.unary main_c_44 main_v120 (broadcastInDim S14 ![] bcast_S_S14 : (⟨S_, .i32⟩ : BufTy).Contents (Elt F) → (⟨S14, .i32⟩ : BufTy).Contents (Elt F)),
    StableHlo.binary main_v119 main_v120 main_v121 (andi : (⟨S14, .i32⟩ : BufTy).Contents (Elt F) → (⟨S14, .i32⟩ : BufTy).Contents (Elt F) → (⟨S14, .i32⟩ : BufTy).Contents (Elt F)),
    StableHlo.unary main_v117 main_v122 (broadcastInDim S14 ![] bcast_S_S14 : (⟨S_, .i32⟩ : BufTy).Contents (Elt F) → (⟨S14, .i32⟩ : BufTy).Contents (Elt F)),
    StableHlo.binary main_v116 main_v122 main_v123 (muli : (⟨S14, .i32⟩ : BufTy).Contents (Elt F) → (⟨S14, .i32⟩ : BufTy).Contents (Elt F) → (⟨S14, .i32⟩ : BufTy).Contents (Elt F)),
    StableHlo.TRef.nullary main_call10.c (constantI S_ 32 0#32),
    StableHlo.TRef.unary main_call10.c main_call10.v0 (broadcastInDim S14 ![] bcast_S_S14),
    StableHlo.TRef.binary (.of main_v121 : StableHlo.TRef sig ⟨S14, .i32⟩) main_call10.v0 main_call10.v1 (cmpi .ne),
    StableHlo.TRef.ternary main_call10.v1 (.of main_v123 : StableHlo.TRef sig ⟨S14, .i32⟩) (.of main_v116 : StableHlo.TRef sig ⟨S14, .i32⟩) main_call10.v2 select,
    StableHlo.binary main_v117 main_v117 main_v125 (muli : (⟨S_, .i32⟩ : BufTy).Contents (Elt F) → (⟨S_, .i32⟩ : BufTy).Contents (Elt F) → (⟨S_, .i32⟩ : BufTy).Contents (Elt F)),
    StableHlo.nullary main_c_45 (constantI S_ 32 1#32),
    StableHlo.unary main_c_45 main_v126 (broadcastInDim S14 ![] bcast_S_S14 : (⟨S_, .i32⟩ : BufTy).Contents (Elt F) → (⟨S14, .i32⟩ : BufTy).Contents (Elt F)),
    StableHlo.binary main_v119 main_v126 main_v127 (Host.shrui : (⟨S14, .i32⟩ : BufTy).Contents (Elt F) → (⟨S14, .i32⟩ : BufTy).Contents (Elt F) → (⟨S14, .i32⟩ : BufTy).Contents (Elt F)),
    StableHlo.nullary main_c_46 (constantI S_ 32 1#32),
    StableHlo.unary main_c_46 main_v128 (broadcastInDim S14 ![] bcast_S_S14 : (⟨S_, .i32⟩ : BufTy).Contents (Elt F) → (⟨S14, .i32⟩ : BufTy).Contents (Elt F)),
    StableHlo.binary main_v127 main_v128 main_v129 (andi : (⟨S14, .i32⟩ : BufTy).Contents (Elt F) → (⟨S14, .i32⟩ : BufTy).Contents (Elt F) → (⟨S14, .i32⟩ : BufTy).Contents (Elt F)),
    StableHlo.unary main_v125 main_v130 (broadcastInDim S14 ![] bcast_S_S14 : (⟨S_, .i32⟩ : BufTy).Contents (Elt F) → (⟨S14, .i32⟩ : BufTy).Contents (Elt F)) ]

set_option maxRecDepth 8192 in
theorem ops07_sub : (ops07 : List (HloOp τ sig (Elt F))).Forall fun op => op.bufs ⊆ tcRefs τ sig :=
  ⟨ternary_bufs_sub .., nullary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., unary_bufs_sub ..⟩

set_option maxRecDepth 8192 in
set_option maxHeartbeats 4000000 in
theorem ops07_fresh : ∀ op ∈ (ops07 : List (HloOp τ sig (Elt F))), op.fresh = ∅ := by
  intro _ h; (repeat (cases h with | head => rfl | tail _ h => ?_)); exact nomatch h

abbrev ops07_W : List (Ref sig .tc) := [main_v116, main_c_41, main_c_42, main_v117, main_c_43, main_v118, main_v119, main_c_44, main_v120, main_v121, main_v122, main_v123, main_call10_c, main_call10_v0, main_call10_v1, main_v124, main_v125, main_c_45, main_v126, main_v127, main_c_46, main_v128, main_v129, main_v130]

set_option maxRecDepth 8192 in
set_option maxHeartbeats 4000000 in
theorem ops07_writes : (ops07 : List (HloOp τ sig (Elt F))).Forall fun op => op.writes ⊆ (ops07_W.map (Proc.devRef (τ := τ) .tc)).toFinset := by
  simp only [List.Forall]; repeat' apply And.intro
  all_goals (simp only [nullary_writes, unary_writes, binary_writes, ternary_writes, Finset.singleton_subset_iff, List.mem_toFinset]; exact List.mem_map_of_mem (by decide))

set_option maxRecDepth 8192 in
set_option maxHeartbeats 4000000 in
theorem step07_main_v124 (h : Live7 x0 x1 x2 x3 x4 x5 x6 x7 W) :
    after ops07 W (no_index (Proc.devRef .tc main_v124)) = ReadP.val_main_v124 (F := F) := by
  simp only [ops07]
  after_results_simp
  all_goals (try simp only [h.h_main_v111, h.h_main_v115, h.h_main_call9_v1, h.h_main_v105])
  all_goals (try rw [h.h_main_v111])
  all_goals (try rw [h.h_main_v115])
  all_goals (try rw [h.h_main_call9_v1])
  all_goals (try rw [h.h_main_v105])
  all_goals rfl

set_option maxRecDepth 8192 in
set_option maxHeartbeats 4000000 in
theorem step07_main_v125 (h : Live7 x0 x1 x2 x3 x4 x5 x6 x7 W) :
    after ops07 W (no_index (Proc.devRef .tc main_v125)) = ReadP.val_main_v125 (F := F) := by
  simp only [ops07]
  after_results_simp
  all_goals rfl

set_option maxRecDepth 8192 in
set_option maxHeartbeats 4000000 in
theorem step07_main_v127 (h : Live7 x0 x1 x2 x3 x4 x5 x6 x7 W) :
    after ops07 W (no_index (Proc.devRef .tc main_v127)) = ReadP.val_main_v127 (F := F) := by
  simp only [ops07]
  after_results_simp
  all_goals (try simp only [h.h_main_v105])
  all_goals (try rw [h.h_main_v105])
  all_goals rfl

set_option maxRecDepth 8192 in
set_option maxHeartbeats 4000000 in
theorem step07_main_v129 (h : Live7 x0 x1 x2 x3 x4 x5 x6 x7 W) :
    after ops07 W (no_index (Proc.devRef .tc main_v129)) = ReadP.val_main_v129 (F := F) := by
  simp only [ops07]
  after_results_simp
  all_goals (try simp only [h.h_main_v105])
  all_goals (try rw [h.h_main_v105])
  all_goals rfl

set_option maxRecDepth 8192 in
set_option maxHeartbeats 4000000 in
theorem step07_main_v130 (h : Live7 x0 x1 x2 x3 x4 x5 x6 x7 W) :
    after ops07 W (no_index (Proc.devRef .tc main_v130)) = ReadP.val_main_v130 (F := F) := by
  simp only [ops07]
  after_results_simp
  all_goals rfl

theorem step07 (h : Live7 x0 x1 x2 x3 x4 x5 x6 x7 W) :
    Live8 x0 x1 x2 x3 x4 x5 x6 x7 (after ops07 W) where
  toLive0 := h.toLive0.step ops07_writes (by decide)
  h_main_v90 := (after_of_writes_sub ops07 _ ops07_writes (by decide)).trans h.h_main_v90
  h_main_v100 := (after_of_writes_sub ops07 _ ops07_writes (by decide)).trans h.h_main_v100
  h_main_v124 := step07_main_v124 h
  h_main_v125 := step07_main_v125 h
  h_main_v127 := step07_main_v127 h
  h_main_v129 := step07_main_v129 h
  h_main_v130 := step07_main_v130 h

end Cert.Lut.RefRun

end
-- ==== Proof.RefRunC08.lean ====
import proofs.«427008_j72404558676324_3_alg».proof.Proof.RefRunLive

noncomputable section

namespace Cert.Lut.RefRun

open Cert.ReferenceIdeal Cert.ReferenceIdeal.Gen Idealize.ShloMosaic Idealize.ShloMosaic.TcCoe Idealize.SL.Sem Idealize.ShloMosaic.StableHlo

variable {F : FTy → Type} [FloatOps F]
variable {x0 : (⟨S2048x4096, .i32⟩ : BufTy).Contents (Elt F)} {x1 : (⟨S2048x1024, .i32⟩ : BufTy).Contents (Elt F)} {x2 : (⟨S2048x14, .i32⟩ : BufTy).Contents (Elt F)} {x3 : (⟨S2048x16384, .f32⟩ : BufTy).Contents (Elt F)} {x4 : (⟨S1024x14, .i32⟩ : BufTy).Contents (Elt F)} {x5 : (⟨S1024x16384, .f32⟩ : BufTy).Contents (Elt F)} {x6 : (⟨S1024x14, .i32⟩ : BufTy).Contents (Elt F)} {x7 : (⟨S1024x16384, .f32⟩ : BufTy).Contents (Elt F)} {W : Valuation τ sig (Elt F)}

set_option maxRecDepth 8192 in
set_option maxHeartbeats 4000000 in
abbrev ops08 : List (HloOp τ sig (Elt F)) :=
  [ StableHlo.binary main_v124 main_v130 main_v131 (muli : (⟨S14, .i32⟩ : BufTy).Contents (Elt F) → (⟨S14, .i32⟩ : BufTy).Contents (Elt F) → (⟨S14, .i32⟩ : BufTy).Contents (Elt F)),
    StableHlo.TRef.nullary main_call11.c (constantI S_ 32 0#32),
    StableHlo.TRef.unary main_call11.c main_call11.v0 (broadcastInDim S14 ![] bcast_S_S14),
    StableHlo.TRef.binary (.of main_v129 : StableHlo.TRef sig ⟨S14, .i32⟩) main_call11.v0 main_call11.v1 (cmpi .ne),
    StableHlo.TRef.ternary main_call11.v1 (.of main_v131 : StableHlo.TRef sig ⟨S14, .i32⟩) (.of main_v124 : StableHlo.TRef sig ⟨S14, .i32⟩) main_call11.v2 select,
    StableHlo.binary main_v125 main_v125 main_v133 (muli : (⟨S_, .i32⟩ : BufTy).Contents (Elt F) → (⟨S_, .i32⟩ : BufTy).Contents (Elt F) → (⟨S_, .i32⟩ : BufTy).Contents (Elt F)),
    StableHlo.nullary main_c_47 (constantI S_ 32 1#32),
    StableHlo.unary main_c_47 main_v134 (broadcastInDim S14 ![] bcast_S_S14 : (⟨S_, .i32⟩ : BufTy).Contents (Elt F) → (⟨S14, .i32⟩ : BufTy).Contents (Elt F)),
    StableHlo.binary main_v127 main_v134 main_v135 (Host.shrui : (⟨S14, .i32⟩ : BufTy).Contents (Elt F) → (⟨S14, .i32⟩ : BufTy).Contents (Elt F) → (⟨S14, .i32⟩ : BufTy).Contents (Elt F)),
    StableHlo.nullary main_c_48 (constantI S_ 32 1#32),
    StableHlo.unary main_c_48 main_v136 (broadcastInDim S14 ![] bcast_S_S14 : (⟨S_, .i32⟩ : BufTy).Contents (Elt F) → (⟨S14, .i32⟩ : BufTy).Contents (Elt F)),
    StableHlo.binary main_v135 main_v136 main_v137 (andi : (⟨S14, .i32⟩ : BufTy).Contents (Elt F) → (⟨S14, .i32⟩ : BufTy).Contents (Elt F) → (⟨S14, .i32⟩ : BufTy).Contents (Elt F)),
    StableHlo.unary main_v133 main_v138 (broadcastInDim S14 ![] bcast_S_S14 : (⟨S_, .i32⟩ : BufTy).Contents (Elt F) → (⟨S14, .i32⟩ : BufTy).Contents (Elt F)),
    StableHlo.binary main_v132 main_v138 main_v139 (muli : (⟨S14, .i32⟩ : BufTy).Contents (Elt F) → (⟨S14, .i32⟩ : BufTy).Contents (Elt F) → (⟨S14, .i32⟩ : BufTy).Contents (Elt F)),
    StableHlo.TRef.nullary main_call12.c (constantI S_ 32 0#32),
    StableHlo.TRef.unary main_call12.c main_call12.v0 (broadcastInDim S14 ![] bcast_S_S14),
    StableHlo.TRef.binary (.of main_v137 : StableHlo.TRef sig ⟨S14, .i32⟩) main_call12.v0 main_call12.v1 (cmpi .ne),
    StableHlo.TRef.ternary main_call12.v1 (.of main_v139 : StableHlo.TRef sig ⟨S14, .i32⟩) (.of main_v132 : StableHlo.TRef sig ⟨S14, .i32⟩) main_call12.v2 select,
    StableHlo.binary main_v133 main_v133 main_v141 (muli : (⟨S_, .i32⟩ : BufTy).Contents (Elt F) → (⟨S_, .i32⟩ : BufTy).Contents (Elt F) → (⟨S_, .i32⟩ : BufTy).Contents (Elt F)),
    StableHlo.nullary main_c_49 (constantI S_ 32 1#32),
    StableHlo.unary main_c_49 main_v142 (broadcastInDim S14 ![] bcast_S_S14 : (⟨S_, .i32⟩ : BufTy).Contents (Elt F) → (⟨S14, .i32⟩ : BufTy).Contents (Elt F)),
    StableHlo.binary main_v135 main_v142 main_v143 (Host.shrui : (⟨S14, .i32⟩ : BufTy).Contents (Elt F) → (⟨S14, .i32⟩ : BufTy).Contents (Elt F) → (⟨S14, .i32⟩ : BufTy).Contents (Elt F)),
    StableHlo.nullary main_c_50 (constantI S_ 32 1#32),
    StableHlo.unary main_c_50 main_v144 (broadcastInDim S14 ![] bcast_S_S14 : (⟨S_, .i32⟩ : BufTy).Contents (Elt F) → (⟨S14, .i32⟩ : BufTy).Contents (Elt F)),
    StableHlo.binary main_v143 main_v144 main_v145 (andi : (⟨S14, .i32⟩ : BufTy).Contents (Elt F) → (⟨S14, .i32⟩ : BufTy).Contents (Elt F) → (⟨S14, .i32⟩ : BufTy).Contents (Elt F)),
    StableHlo.unary main_v141 main_v146 (broadcastInDim S14 ![] bcast_S_S14 : (⟨S_, .i32⟩ : BufTy).Contents (Elt F) → (⟨S14, .i32⟩ : BufTy).Contents (Elt F)),
    StableHlo.binary main_v140 main_v146 main_v147 (muli : (⟨S14, .i32⟩ : BufTy).Contents (Elt F) → (⟨S14, .i32⟩ : BufTy).Contents (Elt F) → (⟨S14, .i32⟩ : BufTy).Contents (Elt F)),
    StableHlo.TRef.nullary main_call13.c (constantI S_ 32 0#32),
    StableHlo.TRef.unary main_call13.c main_call13.v0 (broadcastInDim S14 ![] bcast_S_S14),
    StableHlo.TRef.binary (.of main_v145 : StableHlo.TRef sig ⟨S14, .i32⟩) main_call13.v0 main_call13.v1 (cmpi .ne),
    StableHlo.TRef.ternary main_call13.v1 (.of main_v147 : StableHlo.TRef sig ⟨S14, .i32⟩) (.of main_v140 : StableHlo.TRef sig ⟨S14, .i32⟩) main_call13.v2 select,
    StableHlo.binary main_v141 main_v141 main_v149 (muli : (⟨S_, .i32⟩ : BufTy).Contents (Elt F) → (⟨S_, .i32⟩ : BufTy).Contents (Elt F) → (⟨S_, .i32⟩ : BufTy).Contents (Elt F)),
    StableHlo.nullary main_c_51 (constantI S_ 32 1#32),
    StableHlo.unary main_c_51 main_v150 (broadcastInDim S14 ![] bcast_S_S14 : (⟨S_, .i32⟩ : BufTy).Contents (Elt F) → (⟨S14, .i32⟩ : BufTy).Contents (Elt F)),
    StableHlo.binary main_v143 main_v150 main_v151 (Host.shrui : (⟨S14, .i32⟩ : BufTy).Contents (Elt F) → (⟨S14, .i32⟩ : BufTy).Contents (Elt F) → (⟨S14, .i32⟩ : BufTy).Contents (Elt F)),
    StableHlo.nullary main_c_52 (constantI S_ 32 1#32),
    StableHlo.unary main_c_52 main_v152 (broadcastInDim S14 ![] bcast_S_S14 : (⟨S_, .i32⟩ : BufTy).Contents (Elt F) → (⟨S14, .i32⟩ : BufTy).Contents (Elt F)),
    StableHlo.binary main_v151 main_v152 main_v153 (andi : (⟨S14, .i32⟩ : BufTy).Contents (Elt F) → (⟨S14, .i32⟩ : BufTy).Contents (Elt F) → (⟨S14, .i32⟩ : BufTy).Contents (Elt F)),
    StableHlo.unary main_v149 main_v154 (broadcastInDim S14 ![] bcast_S_S14 : (⟨S_, .i32⟩ : BufTy).Contents (Elt F) → (⟨S14, .i32⟩ : BufTy).Contents (Elt F)),
    StableHlo.binary main_v148 main_v154 main_v155 (muli : (⟨S14, .i32⟩ : BufTy).Contents (Elt F) → (⟨S14, .i32⟩ : BufTy).Contents (Elt F) → (⟨S14, .i32⟩ : BufTy).Contents (Elt F)) ]

set_option maxRecDepth 8192 in
theorem ops08_sub : (ops08 : List (HloOp τ sig (Elt F))).Forall fun op => op.bufs ⊆ tcRefs τ sig :=
  ⟨binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., unary_bufs_sub .., binary_bufs_sub ..⟩

set_option maxRecDepth 8192 in
set_option maxHeartbeats 4000000 in
theorem ops08_fresh : ∀ op ∈ (ops08 : List (HloOp τ sig (Elt F))), op.fresh = ∅ := by
  intro _ h; (repeat (cases h with | head => rfl | tail _ h => ?_)); exact nomatch h

abbrev ops08_W : List (Ref sig .tc) := [main_v131, main_call11_c, main_call11_v0, main_call11_v1, main_v132, main_v133, main_c_47, main_v134, main_v135, main_c_48, main_v136, main_v137, main_v138, main_v139, main_call12_c, main_call12_v0, main_call12_v1, main_v140, main_v141, main_c_49, main_v142, main_v143, main_c_50, main_v144, main_v145, main_v146, main_v147, main_call13_c, main_call13_v0, main_call13_v1, main_v148, main_v149, main_c_51, main_v150, main_v151, main_c_52, main_v152, main_v153, main_v154, main_v155]

set_option maxRecDepth 8192 in
set_option maxHeartbeats 4000000 in
theorem ops08_writes : (ops08 : List (HloOp τ sig (Elt F))).Forall fun op => op.writes ⊆ (ops08_W.map (Proc.devRef (τ := τ) .tc)).toFinset := by
  simp only [List.Forall]; repeat' apply And.intro
  all_goals (simp only [nullary_writes, unary_writes, binary_writes, ternary_writes, Finset.singleton_subset_iff, List.mem_toFinset]; exact List.mem_map_of_mem (by decide))

set_option maxRecDepth 8192 in
set_option maxHeartbeats 4000000 in
theorem step08_main_v148 (h : Live8 x0 x1 x2 x3 x4 x5 x6 x7 W) :
    after ops08 W (no_index (Proc.devRef .tc main_v148)) = ReadP.val_main_v148 (F := F) := by
  simp only [ops08]
  after_results_simp
  all_goals (try simp only [h.h_main_v124, h.h_main_v130, h.h_main_v129, h.h_main_v125, h.h_main_v127])
  all_goals (try rw [h.h_main_v124])
  all_goals (try rw [h.h_main_v130])
  all_goals (try rw [h.h_main_v129])
  all_goals (try rw [h.h_main_v125])
  all_goals (try rw [h.h_main_v127])
  all_goals rfl

set_option maxRecDepth 8192 in
set_option maxHeartbeats 4000000 in
theorem step08_main_v149 (h : Live8 x0 x1 x2 x3 x4 x5 x6 x7 W) :
    after ops08 W (no_index (Proc.devRef .tc main_v149)) = ReadP.val_main_v149 (F := F) := by
  simp only [ops08]
  after_results_simp
  all_goals (try simp only [h.h_main_v125])
  all_goals (try rw [h.h_main_v125])
  all_goals rfl

set_option maxRecDepth 8192 in
set_option maxHeartbeats 4000000 in
theorem step08_main_v151 (h : Live8 x0 x1 x2 x3 x4 x5 x6 x7 W) :
    after ops08 W (no_index (Proc.devRef .tc main_v151)) = ReadP.val_main_v151 (F := F) := by
  simp only [ops08]
  after_results_simp
  all_goals (try simp only [h.h_main_v127])
  all_goals (try rw [h.h_main_v127])
  all_goals rfl

set_option maxRecDepth 8192 in
set_option maxHeartbeats 4000000 in
theorem step08_main_v153 (h : Live8 x0 x1 x2 x3 x4 x5 x6 x7 W) :
    after ops08 W (no_index (Proc.devRef .tc main_v153)) = ReadP.val_main_v153 (F := F) := by
  simp only [ops08]
  after_results_simp
  all_goals (try simp only [h.h_main_v127])
  all_goals (try rw [h.h_main_v127])
  all_goals rfl

set_option maxRecDepth 8192 in
set_option maxHeartbeats 4000000 in
theorem step08_main_v155 (h : Live8 x0 x1 x2 x3 x4 x5 x6 x7 W) :
    after ops08 W (no_index (Proc.devRef .tc main_v155)) = ReadP.val_main_v155 (F := F) := by
  simp only [ops08]
  after_results_simp
  all_goals (try simp only [h.h_main_v125, h.h_main_v124, h.h_main_v130, h.h_main_v129, h.h_main_v127])
  all_goals (try rw [h.h_main_v125])
  all_goals (try rw [h.h_main_v124])
  all_goals (try rw [h.h_main_v130])
  all_goals (try rw [h.h_main_v129])
  all_goals (try rw [h.h_main_v127])
  all_goals rfl

theorem step08 (h : Live8 x0 x1 x2 x3 x4 x5 x6 x7 W) :
    Live9 x0 x1 x2 x3 x4 x5 x6 x7 (after ops08 W) where
  toLive0 := h.toLive0.step ops08_writes (by decide)
  h_main_v90 := (after_of_writes_sub ops08 _ ops08_writes (by decide)).trans h.h_main_v90
  h_main_v100 := (after_of_writes_sub ops08 _ ops08_writes (by decide)).trans h.h_main_v100
  h_main_v148 := step08_main_v148 h
  h_main_v149 := step08_main_v149 h
  h_main_v151 := step08_main_v151 h
  h_main_v153 := step08_main_v153 h
  h_main_v155 := step08_main_v155 h

end Cert.Lut.RefRun

end
-- ==== Proof.RefRunC09.lean ====
import proofs.«427008_j72404558676324_3_alg».proof.Proof.RefRunLive

noncomputable section

namespace Cert.Lut.RefRun

open Cert.ReferenceIdeal Cert.ReferenceIdeal.Gen Idealize.ShloMosaic Idealize.ShloMosaic.TcCoe Idealize.SL.Sem Idealize.ShloMosaic.StableHlo

variable {F : FTy → Type} [FloatOps F]
variable {x0 : (⟨S2048x4096, .i32⟩ : BufTy).Contents (Elt F)} {x1 : (⟨S2048x1024, .i32⟩ : BufTy).Contents (Elt F)} {x2 : (⟨S2048x14, .i32⟩ : BufTy).Contents (Elt F)} {x3 : (⟨S2048x16384, .f32⟩ : BufTy).Contents (Elt F)} {x4 : (⟨S1024x14, .i32⟩ : BufTy).Contents (Elt F)} {x5 : (⟨S1024x16384, .f32⟩ : BufTy).Contents (Elt F)} {x6 : (⟨S1024x14, .i32⟩ : BufTy).Contents (Elt F)} {x7 : (⟨S1024x16384, .f32⟩ : BufTy).Contents (Elt F)} {W : Valuation τ sig (Elt F)}

set_option maxRecDepth 8192 in
set_option maxHeartbeats 4000000 in
abbrev ops09 : List (HloOp τ sig (Elt F)) :=
  [ StableHlo.TRef.nullary main_call14.c (constantI S_ 32 0#32),
    StableHlo.TRef.unary main_call14.c main_call14.v0 (broadcastInDim S14 ![] bcast_S_S14),
    StableHlo.TRef.binary (.of main_v153 : StableHlo.TRef sig ⟨S14, .i32⟩) main_call14.v0 main_call14.v1 (cmpi .ne),
    StableHlo.TRef.ternary main_call14.v1 (.of main_v155 : StableHlo.TRef sig ⟨S14, .i32⟩) (.of main_v148 : StableHlo.TRef sig ⟨S14, .i32⟩) main_call14.v2 select,
    StableHlo.binary main_v149 main_v149 main_v157 (muli : (⟨S_, .i32⟩ : BufTy).Contents (Elt F) → (⟨S_, .i32⟩ : BufTy).Contents (Elt F) → (⟨S_, .i32⟩ : BufTy).Contents (Elt F)),
    StableHlo.nullary main_c_53 (constantI S_ 32 1#32),
    StableHlo.unary main_c_53 main_v158 (broadcastInDim S14 ![] bcast_S_S14 : (⟨S_, .i32⟩ : BufTy).Contents (Elt F) → (⟨S14, .i32⟩ : BufTy).Contents (Elt F)),
    StableHlo.binary main_v151 main_v158 main_v159 (Host.shrui : (⟨S14, .i32⟩ : BufTy).Contents (Elt F) → (⟨S14, .i32⟩ : BufTy).Contents (Elt F) → (⟨S14, .i32⟩ : BufTy).Contents (Elt F)),
    StableHlo.unary main_v156 main_v160 (broadcastInDim S1x1x14 ![2] bcast_S14_S1x1x14_2 : (⟨S14, .i32⟩ : BufTy).Contents (Elt F) → (⟨S1x1x14, .i32⟩ : BufTy).Contents (Elt F)),
    StableHlo.unary main_v160 main_v161 (broadcastInDim S2048x1024x14 ![0, 1, 2] bcast_S1x1x14_S2048x1024x14_0_1_2 : (⟨S1x1x14, .i32⟩ : BufTy).Contents (Elt F) → (⟨S2048x1024x14, .i32⟩ : BufTy).Contents (Elt F)),
    StableHlo.binary main_v100 main_v161 main_v162 (muli : (⟨S2048x1024x14, .i32⟩ : BufTy).Contents (Elt F) → (⟨S2048x1024x14, .i32⟩ : BufTy).Contents (Elt F) → (⟨S2048x1024x14, .i32⟩ : BufTy).Contents (Elt F)),
    StableHlo.nullary main_c_54 (constantI S_ 32 0#32),
    StableHlo.binary main_v162 main_c_54 main_v163 ((fun x v => Host.reduce IntOp.addi x v reducesTo_S2048x1024x14_S2048x1024_d2 h_S_) : (⟨S2048x1024x14, .i32⟩ : BufTy).Contents (Elt F) → (⟨S_, .i32⟩ : BufTy).Contents (Elt F) → (⟨S2048x1024, .i32⟩ : BufTy).Contents (Elt F)),
    StableHlo.nullary main_v164 (iotaInDim S1024 32 0),
    StableHlo.unary main_v164 main_v165 (broadcastInDim S1x1024 ![1] bcast_S1024_S1x1024_1 : (⟨S1024, .i32⟩ : BufTy).Contents (Elt F) → (⟨S1x1024, .i32⟩ : BufTy).Contents (Elt F)),
    StableHlo.nullary main_c_55 (constantI S_ 32 0#32),
    StableHlo.unary main_c_55 main_v166 (broadcastInDim S1x1024 ![] bcast_S_S1x1024 : (⟨S_, .i32⟩ : BufTy).Contents (Elt F) → (⟨S1x1024, .i32⟩ : BufTy).Contents (Elt F)),
    StableHlo.binary main_v165 main_v166 main_v167 (cmpi .slt : (⟨S1x1024, .i32⟩ : BufTy).Contents (Elt F) → (⟨S1x1024, .i32⟩ : BufTy).Contents (Elt F) → (⟨S1x1024, .i1⟩ : BufTy).Contents (Elt F)),
    StableHlo.nullary main_c_56 (constantI S_ 32 1024#32),
    StableHlo.unary main_c_56 main_v168 (broadcastInDim S1x1024 ![] bcast_S_S1x1024 : (⟨S_, .i32⟩ : BufTy).Contents (Elt F) → (⟨S1x1024, .i32⟩ : BufTy).Contents (Elt F)),
    StableHlo.binary main_v165 main_v168 main_v169 (addi : (⟨S1x1024, .i32⟩ : BufTy).Contents (Elt F) → (⟨S1x1024, .i32⟩ : BufTy).Contents (Elt F) → (⟨S1x1024, .i32⟩ : BufTy).Contents (Elt F)),
    StableHlo.ternary main_v167 main_v169 main_v165 main_v170 (select : (⟨S1x1024, .i1⟩ : BufTy).Contents (Elt F) → (⟨S1x1024, .i32⟩ : BufTy).Contents (Elt F) → (⟨S1x1024, .i32⟩ : BufTy).Contents (Elt F) → (⟨S1x1024, .i32⟩ : BufTy).Contents (Elt F)),
    StableHlo.nullary main_c_57 (constantI S_ 32 0#32),
    StableHlo.unary main_c_57 main_v171 (broadcastInDim S2048x1024 ![] bcast_S_S2048x1024 : (⟨S_, .i32⟩ : BufTy).Contents (Elt F) → (⟨S2048x1024, .i32⟩ : BufTy).Contents (Elt F)),
    StableHlo.binary main_v163 main_v171 main_v172 (cmpi .slt : (⟨S2048x1024, .i32⟩ : BufTy).Contents (Elt F) → (⟨S2048x1024, .i32⟩ : BufTy).Contents (Elt F) → (⟨S2048x1024, .i1⟩ : BufTy).Contents (Elt F)),
    StableHlo.nullary main_c_58 (constantI S_ 32 16384#32),
    StableHlo.unary main_c_58 main_v173 (broadcastInDim S2048x1024 ![] bcast_S_S2048x1024 : (⟨S_, .i32⟩ : BufTy).Contents (Elt F) → (⟨S2048x1024, .i32⟩ : BufTy).Contents (Elt F)),
    StableHlo.binary main_v163 main_v173 main_v174 (addi : (⟨S2048x1024, .i32⟩ : BufTy).Contents (Elt F) → (⟨S2048x1024, .i32⟩ : BufTy).Contents (Elt F) → (⟨S2048x1024, .i32⟩ : BufTy).Contents (Elt F)),
    StableHlo.ternary main_v172 main_v174 main_v163 main_v175 (select : (⟨S2048x1024, .i1⟩ : BufTy).Contents (Elt F) → (⟨S2048x1024, .i32⟩ : BufTy).Contents (Elt F) → (⟨S2048x1024, .i32⟩ : BufTy).Contents (Elt F) → (⟨S2048x1024, .i32⟩ : BufTy).Contents (Elt F)),
    StableHlo.unary main_v170 main_v176 (broadcastInDim S2048x1024 ![0, 1] bcast_S1x1024_S2048x1024_0_1 : (⟨S1x1024, .i32⟩ : BufTy).Contents (Elt F) → (⟨S2048x1024, .i32⟩ : BufTy).Contents (Elt F)),
    StableHlo.unary main_v176 main_v177 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.unary main_v175 main_v178 (broadcastInDim S2048x1024x1 ![0, 1] bcast_S2048x1024_S2048x1024x1_0_1 : (⟨S2048x1024, .i32⟩ : BufTy).Contents (Elt F) → (⟨S2048x1024x1, .i32⟩ : BufTy).Contents (Elt F)) ]

set_option maxRecDepth 8192 in
theorem ops09_sub : (ops09 : List (HloOp τ sig (Elt F))).Forall fun op => op.bufs ⊆ tcRefs τ sig :=
  ⟨nullary_bufs_sub .., unary_bufs_sub .., binary_bufs_sub .., ternary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩

set_option maxRecDepth 8192 in
set_option maxHeartbeats 4000000 in
theorem ops09_fresh : ∀ op ∈ (ops09 : List (HloOp τ sig (Elt F))), op.fresh = ∅ := by
  intro _ h; (repeat (cases h with | head => rfl | tail _ h => ?_)); exact nomatch h

abbrev ops09_W : List (Ref sig .tc) := [main_call14_c, main_call14_v0, main_call14_v1, main_v156, main_v157, main_c_53, main_v158, main_v159, main_v160, main_v161, main_v162, main_c_54, main_v163, main_v164, main_v165, main_c_55, main_v166, main_v167, main_c_56, main_v168, main_v169, main_v170, main_c_57, main_v171, main_v172, main_c_58, main_v173, main_v174, main_v175, main_v176, main_v177, main_v178]

set_option maxRecDepth 8192 in
set_option maxHeartbeats 4000000 in
theorem ops09_writes : (ops09 : List (HloOp τ sig (Elt F))).Forall fun op => op.writes ⊆ (ops09_W.map (Proc.devRef (τ := τ) .tc)).toFinset := by
  simp only [List.Forall]; repeat' apply And.intro
  all_goals (simp only [nullary_writes, unary_writes, binary_writes, ternary_writes, Finset.singleton_subset_iff, List.mem_toFinset]; exact List.mem_map_of_mem (by decide))

set_option maxRecDepth 8192 in
set_option maxHeartbeats 4000000 in
theorem step09_main_v177 (h : Live9 x0 x1 x2 x3 x4 x5 x6 x7 W) :
    after ops09 W (no_index (Proc.devRef .tc main_v177)) = ReadP.val_main_v177 (F := F) := by
  simp only [ops09]
  after_results_simp
  all_goals rfl

set_option maxRecDepth 8192 in
set_option maxHeartbeats 4000000 in
theorem step09_main_v178 (h : Live9 x0 x1 x2 x3 x4 x5 x6 x7 W) :
    after ops09 W (no_index (Proc.devRef .tc main_v178)) = ReadP.val_main_v178 (F := F) x0 x1 x2 x3 x4 := by
  simp only [ops09]
  after_results_simp
  all_goals (try simp only [h.h_main_v148, h.h_main_v155, h.h_main_v153, h.h_main_v100])
  all_goals (try rw [h.h_main_v148])
  all_goals (try rw [h.h_main_v155])
  all_goals (try rw [h.h_main_v153])
  all_goals (try rw [h.h_main_v100])
  all_goals rfl

theorem step09 (h : Live9 x0 x1 x2 x3 x4 x5 x6 x7 W) :
    Live10 x0 x1 x2 x3 x4 x5 x6 x7 (after ops09 W) where
  toLive0 := h.toLive0.step ops09_writes (by decide)
  h_main_v90 := (after_of_writes_sub ops09 _ ops09_writes (by decide)).trans h.h_main_v90
  h_main_v177 := step09_main_v177 h
  h_main_v178 := step09_main_v178 h

end Cert.Lut.RefRun

end
-- ==== Proof.RefRunC10.lean ====
import proofs.«427008_j72404558676324_3_alg».proof.Proof.RefRunLive

noncomputable section

namespace Cert.Lut.RefRun

open Cert.ReferenceIdeal Cert.ReferenceIdeal.Gen Idealize.ShloMosaic Idealize.ShloMosaic.TcCoe Idealize.SL.Sem Idealize.ShloMosaic.StableHlo

variable {F : FTy → Type} [FloatOps F]
variable {x0 : (⟨S2048x4096, .i32⟩ : BufTy).Contents (Elt F)} {x1 : (⟨S2048x1024, .i32⟩ : BufTy).Contents (Elt F)} {x2 : (⟨S2048x14, .i32⟩ : BufTy).Contents (Elt F)} {x3 : (⟨S2048x16384, .f32⟩ : BufTy).Contents (Elt F)} {x4 : (⟨S1024x14, .i32⟩ : BufTy).Contents (Elt F)} {x5 : (⟨S1024x16384, .f32⟩ : BufTy).Contents (Elt F)} {x6 : (⟨S1024x14, .i32⟩ : BufTy).Contents (Elt F)} {x7 : (⟨S1024x16384, .f32⟩ : BufTy).Contents (Elt F)} {W : Valuation τ sig (Elt F)}

set_option maxRecDepth 8192 in
set_option maxHeartbeats 4000000 in
abbrev ops10 : List (HloOp τ sig (Elt F)) :=
  [ StableHlo.binary main_v177 main_v178 main_v179 ((fun a b => concatenate S2048x1024x2 2 [⟨S2048x1024x1, a⟩, ⟨S2048x1024x1, b⟩] concatenates_S2048x1024x1_S2048x1024x1_S2048x1024x2_d2) : (⟨S2048x1024x1, .i32⟩ : BufTy).Contents (Elt F) → (⟨S2048x1024x1, .i32⟩ : BufTy).Contents (Elt F) → (⟨S2048x1024x2, .i32⟩ : BufTy).Contents (Elt F)),
    StableHlo.binary main_arg5 main_v179 main_v180 ((fun x i => Host.gather gather_S1024x16384_S2048x1024x2_S2048x1024_n_01_n_n_01_2_11 x i) : (⟨S1024x16384, .f32⟩ : BufTy).Contents (Elt F) → (⟨S2048x1024x2, .i32⟩ : BufTy).Contents (Elt F) → (⟨S2048x1024, .f32⟩ : BufTy).Contents (Elt F)),
    StableHlo.nullary main_cst_59 (constant S_ .f32 0x3F800000#32),
    StableHlo.unary main_cst_59 main_v181 (broadcastInDim S2048x1024 ![] bcast_S_S2048x1024 : (⟨S_, .f32⟩ : BufTy).Contents (Elt F) → (⟨S2048x1024, .f32⟩ : BufTy).Contents (Elt F)),
    StableHlo.binary main_v180 main_v181 main_v182 (cmpf .oeq : (⟨S2048x1024, .f32⟩ : BufTy).Contents (Elt F) → (⟨S2048x1024, .f32⟩ : BufTy).Contents (Elt F) → (⟨S2048x1024, .i1⟩ : BufTy).Contents (Elt F)),
    StableHlo.nullary main_cst_60 (constant S_ .f32 0x3F800000#32),
    StableHlo.nullary main_cst_61 (constant S_ .f32 0x00000000#32),
    StableHlo.TRef.unary (.of main_cst_60 : StableHlo.TRef sig ⟨S_, .f32⟩) main_call15.v0 (broadcastInDim S2048x1024 ![] bcast_S_S2048x1024),
    StableHlo.TRef.unary (.of main_cst_61 : StableHlo.TRef sig ⟨S_, .f32⟩) main_call15.v1 (broadcastInDim S2048x1024 ![] bcast_S_S2048x1024),
    StableHlo.TRef.ternary (.of main_v182 : StableHlo.TRef sig ⟨S2048x1024, .i1⟩) main_call15.v0 main_call15.v1 main_call15.v2 select,
    StableHlo.unary main_v183 main_v184 (id : (⟨S2048x1024, .f32⟩ : BufTy).Contents (Elt F) → (⟨S2048x1024, .f32⟩ : BufTy).Contents (Elt F)) ]

set_option maxRecDepth 8192 in
theorem ops10_sub : (ops10 : List (HloOp τ sig (Elt F))).Forall fun op => op.bufs ⊆ tcRefs τ sig :=
  ⟨binary_bufs_sub .., binary_bufs_sub .., nullary_bufs_sub .., unary_bufs_sub .., binary_bufs_sub .., nullary_bufs_sub .., nullary_bufs_sub .., unary_bufs_sub .., unary_bufs_sub .., ternary_bufs_sub .., unary_bufs_sub ..⟩

set_option maxRecDepth 8192 in
set_option maxHeartbeats 4000000 in
theorem ops10_fresh : ∀ op ∈ (ops10 : List (HloOp τ sig (Elt F))), op.fresh = ∅ := by
  intro _ h; (repeat (cases h with | head => rfl | tail _ h => ?_)); exact nomatch h

abbrev ops10_W : List (Ref sig .tc) := [main_v179, main_v180, main_cst_59, main_v181, main_v182, main_cst_60, main_cst_61, main_call15_v0, main_call15_v1, main_v183, main_v184]

set_option maxRecDepth 8192 in
set_option maxHeartbeats 4000000 in
theorem ops10_writes : (ops10 : List (HloOp τ sig (Elt F))).Forall fun op => op.writes ⊆ (ops10_W.map (Proc.devRef (τ := τ) .tc)).toFinset := by
  simp only [List.Forall]; repeat' apply And.intro
  all_goals (simp only [nullary_writes, unary_writes, binary_writes, ternary_writes, Finset.singleton_subset_iff, List.mem_toFinset]; exact List.mem_map_of_mem (by decide))

set_option maxRecDepth 8192 in
set_option maxHeartbeats 4000000 in
theorem step10_main_v184 (h : Live10 x0 x1 x2 x3 x4 x5 x6 x7 W) :
    after ops10 W (no_index (Proc.devRef .tc main_v184)) = ReadP.val_main_v184 (F := F) x0 x1 x2 x3 x4 x5 := by
  simp only [ops10]
  after_results_simp
  all_goals (try simp only [h.h_main_v178, h.h_main_v177, h.h_main_arg5])
  all_goals (try rw [h.h_main_v178])
  all_goals (try rw [h.h_main_v177])
  all_goals (try rw [h.h_main_arg5])
  all_goals rfl

theorem step10 (h : Live10 x0 x1 x2 x3 x4 x5 x6 x7 W) :
    Live11 x0 x1 x2 x3 x4 x5 x6 x7 (after ops10 W) where
  toLive0 := h.toLive0.step ops10_writes (by decide)
  h_main_v90 := (after_of_writes_sub ops10 _ ops10_writes (by decide)).trans h.h_main_v90
  h_main_v184 := step10_main_v184 h

end Cert.Lut.RefRun

end
-- ==== Proof.RefRunC11.lean ====
import proofs.«427008_j72404558676324_3_alg».proof.Proof.RefRunLive

noncomputable section

namespace Cert.Lut.RefRun

open Cert.ReferenceIdeal Cert.ReferenceIdeal.Gen Idealize.ShloMosaic Idealize.ShloMosaic.TcCoe Idealize.SL.Sem Idealize.ShloMosaic.StableHlo

variable {F : FTy → Type} [FloatOps F]
variable {x0 : (⟨S2048x4096, .i32⟩ : BufTy).Contents (Elt F)} {x1 : (⟨S2048x1024, .i32⟩ : BufTy).Contents (Elt F)} {x2 : (⟨S2048x14, .i32⟩ : BufTy).Contents (Elt F)} {x3 : (⟨S2048x16384, .f32⟩ : BufTy).Contents (Elt F)} {x4 : (⟨S1024x14, .i32⟩ : BufTy).Contents (Elt F)} {x5 : (⟨S1024x16384, .f32⟩ : BufTy).Contents (Elt F)} {x6 : (⟨S1024x14, .i32⟩ : BufTy).Contents (Elt F)} {x7 : (⟨S1024x16384, .f32⟩ : BufTy).Contents (Elt F)} {W : Valuation τ sig (Elt F)}

set_option maxRecDepth 8192 in
set_option maxHeartbeats 4000000 in
abbrev ops11 : List (HloOp τ sig (Elt F)) :=
  [ StableHlo.binary main_v90 main_v184 main_v185 ((fun a b => concatenate S2048x3072 1 [⟨S2048x2048, a⟩, ⟨S2048x1024, b⟩] concatenates_S2048x2048_S2048x1024_S2048x3072_d1) : (⟨S2048x2048, .f32⟩ : BufTy).Contents (Elt F) → (⟨S2048x1024, .f32⟩ : BufTy).Contents (Elt F) → (⟨S2048x3072, .f32⟩ : BufTy).Contents (Elt F)),
    StableHlo.nullary main_c_62 (constantI S_ 32 0#32),
    StableHlo.unary main_c_62 main_v186 (broadcastInDim S1024x14 ![] bcast_S_S1024x14 : (⟨S_, .i32⟩ : BufTy).Contents (Elt F) → (⟨S1024x14, .i32⟩ : BufTy).Contents (Elt F)),
    StableHlo.binary main_arg6 main_v186 main_v187 (cmpi .slt : (⟨S1024x14, .i32⟩ : BufTy).Contents (Elt F) → (⟨S1024x14, .i32⟩ : BufTy).Contents (Elt F) → (⟨S1024x14, .i1⟩ : BufTy).Contents (Elt F)),
    StableHlo.nullary main_c_63 (constantI S_ 32 3072#32),
    StableHlo.unary main_c_63 main_v188 (broadcastInDim S1024x14 ![] bcast_S_S1024x14 : (⟨S_, .i32⟩ : BufTy).Contents (Elt F) → (⟨S1024x14, .i32⟩ : BufTy).Contents (Elt F)),
    StableHlo.binary main_arg6 main_v188 main_v189 (addi : (⟨S1024x14, .i32⟩ : BufTy).Contents (Elt F) → (⟨S1024x14, .i32⟩ : BufTy).Contents (Elt F) → (⟨S1024x14, .i32⟩ : BufTy).Contents (Elt F)),
    StableHlo.ternary main_v187 main_v189 main_arg6 main_v190 (select : (⟨S1024x14, .i1⟩ : BufTy).Contents (Elt F) → (⟨S1024x14, .i32⟩ : BufTy).Contents (Elt F) → (⟨S1024x14, .i32⟩ : BufTy).Contents (Elt F) → (⟨S1024x14, .i32⟩ : BufTy).Contents (Elt F)),
    StableHlo.unary main_v190 main_v191 (broadcastInDim S1024x14x1 ![0, 1] bcast_S1024x14_S1024x14x1_0_1 : (⟨S1024x14, .i32⟩ : BufTy).Contents (Elt F) → (⟨S1024x14x1, .i32⟩ : BufTy).Contents (Elt F)),
    StableHlo.binary main_v185 main_v191 main_v192 ((fun x i => Host.gather gather_S2048x3072_S1024x14x1_S2048x1024x14_0_1_n_n_1_2_20481 x i) : (⟨S2048x3072, .f32⟩ : BufTy).Contents (Elt F) → (⟨S1024x14x1, .i32⟩ : BufTy).Contents (Elt F) → (⟨S2048x1024x14, .f32⟩ : BufTy).Contents (Elt F)),
    StableHlo.unary main_v192 main_v193 (fptosi 32 : (⟨S2048x1024x14, .f32⟩ : BufTy).Contents (Elt F) → (⟨S2048x1024x14, .i32⟩ : BufTy).Contents (Elt F)),
    StableHlo.nullary main_v194 (iotaInDim S14 32 0),
    StableHlo.nullary main_c_64 (constantI S_ 32 4294967295#32),
    StableHlo.unary main_c_64 main_v195 (broadcastInDim S14 ![] bcast_S_S14 : (⟨S_, .i32⟩ : BufTy).Contents (Elt F) → (⟨S14, .i32⟩ : BufTy).Contents (Elt F)),
    StableHlo.binary main_v195 main_v194 main_v196 (muli : (⟨S14, .i32⟩ : BufTy).Contents (Elt F) → (⟨S14, .i32⟩ : BufTy).Contents (Elt F) → (⟨S14, .i32⟩ : BufTy).Contents (Elt F)),
    StableHlo.nullary main_c_65 (constantI S_ 32 13#32),
    StableHlo.unary main_c_65 main_v197 (broadcastInDim S14 ![] bcast_S_S14 : (⟨S_, .i32⟩ : BufTy).Contents (Elt F) → (⟨S14, .i32⟩ : BufTy).Contents (Elt F)),
    StableHlo.binary main_v197 main_v196 main_v198 (addi : (⟨S14, .i32⟩ : BufTy).Contents (Elt F) → (⟨S14, .i32⟩ : BufTy).Contents (Elt F) → (⟨S14, .i32⟩ : BufTy).Contents (Elt F)),
    StableHlo.nullary main_c_66 (constantI S_ 32 2#32),
    StableHlo.nullary main_c_67 (constantI S_ 32 0#32),
    StableHlo.binary main_c_66 main_c_67 main_v199 (cmpi .eq : (⟨S_, .i32⟩ : BufTy).Contents (Elt F) → (⟨S_, .i32⟩ : BufTy).Contents (Elt F) → (⟨S_, .i1⟩ : BufTy).Contents (Elt F)),
    StableHlo.nullary main_c_68 (constantI S_ 32 0#32),
    StableHlo.unary main_c_68 main_v200 (broadcastInDim S14 ![] bcast_S_S14 : (⟨S_, .i32⟩ : BufTy).Contents (Elt F) → (⟨S14, .i32⟩ : BufTy).Contents (Elt F)),
    StableHlo.binary main_v198 main_v200 main_v201 (cmpi .ne : (⟨S14, .i32⟩ : BufTy).Contents (Elt F) → (⟨S14, .i32⟩ : BufTy).Contents (Elt F) → (⟨S14, .i1⟩ : BufTy).Contents (Elt F)),
    StableHlo.unary main_v199 main_v202 (broadcastInDim S14 ![] bcast_S_S14 : (⟨S_, .i1⟩ : BufTy).Contents (Elt F) → (⟨S14, .i1⟩ : BufTy).Contents (Elt F)),
    StableHlo.binary main_v202 main_v201 main_v203 (andi : (⟨S14, .i1⟩ : BufTy).Contents (Elt F) → (⟨S14, .i1⟩ : BufTy).Contents (Elt F) → (⟨S14, .i1⟩ : BufTy).Contents (Elt F)),
    StableHlo.nullary main_c_69 (constantI S_ 32 0#32),
    StableHlo.nullary main_c_70 (constantI S_ 32 1#32),
    StableHlo.TRef.unary (.of main_c_69 : StableHlo.TRef sig ⟨S_, .i32⟩) main_call16.v0 (broadcastInDim S14 ![] bcast_S_S14),
    StableHlo.TRef.unary (.of main_c_70 : StableHlo.TRef sig ⟨S_, .i32⟩) main_call16.v1 (broadcastInDim S14 ![] bcast_S_S14),
    StableHlo.TRef.ternary (.of main_v203 : StableHlo.TRef sig ⟨S14, .i1⟩) main_call16.v0 main_call16.v1 main_call16.v2 select,
    StableHlo.nullary main_c_71 (constantI S_ 32 1#32),
    StableHlo.unary main_c_71 main_v205 (broadcastInDim S14 ![] bcast_S_S14 : (⟨S_, .i32⟩ : BufTy).Contents (Elt F) → (⟨S14, .i32⟩ : BufTy).Contents (Elt F)),
    StableHlo.binary main_v198 main_v205 main_v206 (andi : (⟨S14, .i32⟩ : BufTy).Contents (Elt F) → (⟨S14, .i32⟩ : BufTy).Contents (Elt F) → (⟨S14, .i32⟩ : BufTy).Contents (Elt F)),
    StableHlo.nullary main_c_72 (constantI S_ 32 2#32),
    StableHlo.unary main_c_72 main_v207 (broadcastInDim S14 ![] bcast_S_S14 : (⟨S_, .i32⟩ : BufTy).Contents (Elt F) → (⟨S14, .i32⟩ : BufTy).Contents (Elt F)),
    StableHlo.binary main_v204 main_v207 main_v208 (muli : (⟨S14, .i32⟩ : BufTy).Contents (Elt F) → (⟨S14, .i32⟩ : BufTy).Contents (Elt F) → (⟨S14, .i32⟩ : BufTy).Contents (Elt F)),
    StableHlo.TRef.nullary main_call17.c (constantI S_ 32 0#32),
    StableHlo.TRef.unary main_call17.c main_call17.v0 (broadcastInDim S14 ![] bcast_S_S14),
    StableHlo.TRef.binary (.of main_v206 : StableHlo.TRef sig ⟨S14, .i32⟩) main_call17.v0 main_call17.v1 (cmpi .ne) ]

set_option maxRecDepth 8192 in
theorem ops11_sub : (ops11 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., nullary_bufs_sub .., unary_bufs_sub .., binary_bufs_sub .., nullary_bufs_sub .., unary_bufs_sub .., binary_bufs_sub .., nullary_bufs_sub .., nullary_bufs_sub .., binary_bufs_sub .., nullary_bufs_sub .., unary_bufs_sub .., binary_bufs_sub .., unary_bufs_sub .., binary_bufs_sub .., nullary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub ..⟩

set_option maxRecDepth 8192 in
set_option maxHeartbeats 4000000 in
theorem ops11_fresh : ∀ op ∈ (ops11 : List (HloOp τ sig (Elt F))), op.fresh = ∅ := by
  intro _ h; (repeat (cases h with | head => rfl | tail _ h => ?_)); exact nomatch h

abbrev ops11_W : List (Ref sig .tc) := [main_v185, main_c_62, main_v186, main_v187, main_c_63, main_v188, main_v189, main_v190, main_v191, main_v192, main_v193, main_v194, main_c_64, main_v195, main_v196, main_c_65, main_v197, main_v198, main_c_66, main_c_67, main_v199, main_c_68, main_v200, main_v201, main_v202, main_v203, main_c_69, main_c_70, main_call16_v0, main_call16_v1, main_v204, main_c_71, main_v205, main_v206, main_c_72, main_v207, main_v208, main_call17_c, main_call17_v0, main_call17_v1]

set_option maxRecDepth 8192 in
set_option maxHeartbeats 4000000 in
theorem ops11_writes : (ops11 : List (HloOp τ sig (Elt F))).Forall fun op => op.writes ⊆ (ops11_W.map (Proc.devRef (τ := τ) .tc)).toFinset := by
  simp only [List.Forall]; repeat' apply And.intro
  all_goals (simp only [nullary_writes, unary_writes, binary_writes, ternary_writes, Finset.singleton_subset_iff, List.mem_toFinset]; exact List.mem_map_of_mem (by decide))

set_option maxRecDepth 8192 in
set_option maxHeartbeats 4000000 in
theorem step11_main_v193 (h : Live11 x0 x1 x2 x3 x4 x5 x6 x7 W) :
    after ops11 W (no_index (Proc.devRef .tc main_v193)) = ReadP.val_main_v193 (F := F) x0 x1 x2 x3 x4 x5 x6 := by
  simp only [ops11]
  after_results_simp
  all_goals (try simp only [h.h_main_arg6, h.h_main_v184, h.h_main_v90])
  all_goals (try rw [h.h_main_arg6])
  all_goals (try rw [h.h_main_v184])
  all_goals (try rw [h.h_main_v90])
  all_goals rfl

set_option maxRecDepth 8192 in
set_option maxHeartbeats 4000000 in
theorem step11_main_v198 (h : Live11 x0 x1 x2 x3 x4 x5 x6 x7 W) :
    after ops11 W (no_index (Proc.devRef .tc main_v198)) = ReadP.val_main_v198 (F := F) := by
  simp only [ops11]
  after_results_simp
  all_goals rfl

set_option maxRecDepth 8192 in
set_option maxHeartbeats 4000000 in
theorem step11_main_v204 (h : Live11 x0 x1 x2 x3 x4 x5 x6 x7 W) :
    after ops11 W (no_index (Proc.devRef .tc main_v204)) = ReadP.val_main_v204 (F := F) := by
  simp only [ops11]
  after_results_simp
  all_goals rfl

set_option maxRecDepth 8192 in
set_option maxHeartbeats 4000000 in
theorem step11_main_v208 (h : Live11 x0 x1 x2 x3 x4 x5 x6 x7 W) :
    after ops11 W (no_index (Proc.devRef .tc main_v208)) = ReadP.val_main_v208 (F := F) := by
  simp only [ops11]
  after_results_simp
  all_goals rfl

set_option maxRecDepth 8192 in
set_option maxHeartbeats 4000000 in
theorem step11_main_call17_v1 (h : Live11 x0 x1 x2 x3 x4 x5 x6 x7 W) :
    after ops11 W (no_index (Proc.devRef .tc main_call17_v1)) = ReadP.val_main_call17_v1 (F := F) := by
  simp only [ops11]
  after_results_simp
  all_goals rfl

theorem step11 (h : Live11 x0 x1 x2 x3 x4 x5 x6 x7 W) :
    Live12 x0 x1 x2 x3 x4 x5 x6 x7 (after ops11 W) where
  toLive0 := h.toLive0.step ops11_writes (by decide)
  h_main_v193 := step11_main_v193 h
  h_main_v198 := step11_main_v198 h
  h_main_v204 := step11_main_v204 h
  h_main_v208 := step11_main_v208 h
  h_main_call17_v1 := step11_main_call17_v1 h

end Cert.Lut.RefRun

end
-- ==== Proof.RefRunC12.lean ====
import proofs.«427008_j72404558676324_3_alg».proof.Proof.RefRunLive

noncomputable section

namespace Cert.Lut.RefRun

open Cert.ReferenceIdeal Cert.ReferenceIdeal.Gen Idealize.ShloMosaic Idealize.ShloMosaic.TcCoe Idealize.SL.Sem Idealize.ShloMosaic.StableHlo

variable {F : FTy → Type} [FloatOps F]
variable {x0 : (⟨S2048x4096, .i32⟩ : BufTy).Contents (Elt F)} {x1 : (⟨S2048x1024, .i32⟩ : BufTy).Contents (Elt F)} {x2 : (⟨S2048x14, .i32⟩ : BufTy).Contents (Elt F)} {x3 : (⟨S2048x16384, .f32⟩ : BufTy).Contents (Elt F)} {x4 : (⟨S1024x14, .i32⟩ : BufTy).Contents (Elt F)} {x5 : (⟨S1024x16384, .f32⟩ : BufTy).Contents (Elt F)} {x6 : (⟨S1024x14, .i32⟩ : BufTy).Contents (Elt F)} {x7 : (⟨S1024x16384, .f32⟩ : BufTy).Contents (Elt F)} {W : Valuation τ sig (Elt F)}

set_option maxRecDepth 8192 in
set_option maxHeartbeats 4000000 in
abbrev ops12 : List (HloOp τ sig (Elt F)) :=
  [ StableHlo.TRef.ternary main_call17.v1 (.of main_v208 : StableHlo.TRef sig ⟨S14, .i32⟩) (.of main_v204 : StableHlo.TRef sig ⟨S14, .i32⟩) main_call17.v2 select,
    StableHlo.nullary main_c_73 (constantI S_ 32 2#32),
    StableHlo.nullary main_c_74 (constantI S_ 32 2#32),
    StableHlo.binary main_c_73 main_c_74 main_v210 (muli : (⟨S_, .i32⟩ : BufTy).Contents (Elt F) → (⟨S_, .i32⟩ : BufTy).Contents (Elt F) → (⟨S_, .i32⟩ : BufTy).Contents (Elt F)),
    StableHlo.nullary main_c_75 (constantI S_ 32 1#32),
    StableHlo.unary main_c_75 main_v211 (broadcastInDim S14 ![] bcast_S_S14 : (⟨S_, .i32⟩ : BufTy).Contents (Elt F) → (⟨S14, .i32⟩ : BufTy).Contents (Elt F)),
    StableHlo.binary main_v198 main_v211 main_v212 (Host.shrui : (⟨S14, .i32⟩ : BufTy).Contents (Elt F) → (⟨S14, .i32⟩ : BufTy).Contents (Elt F) → (⟨S14, .i32⟩ : BufTy).Contents (Elt F)),
    StableHlo.nullary main_c_76 (constantI S_ 32 1#32),
    StableHlo.unary main_c_76 main_v213 (broadcastInDim S14 ![] bcast_S_S14 : (⟨S_, .i32⟩ : BufTy).Contents (Elt F) → (⟨S14, .i32⟩ : BufTy).Contents (Elt F)),
    StableHlo.binary main_v212 main_v213 main_v214 (andi : (⟨S14, .i32⟩ : BufTy).Contents (Elt F) → (⟨S14, .i32⟩ : BufTy).Contents (Elt F) → (⟨S14, .i32⟩ : BufTy).Contents (Elt F)),
    StableHlo.unary main_v210 main_v215 (broadcastInDim S14 ![] bcast_S_S14 : (⟨S_, .i32⟩ : BufTy).Contents (Elt F) → (⟨S14, .i32⟩ : BufTy).Contents (Elt F)),
    StableHlo.binary main_v209 main_v215 main_v216 (muli : (⟨S14, .i32⟩ : BufTy).Contents (Elt F) → (⟨S14, .i32⟩ : BufTy).Contents (Elt F) → (⟨S14, .i32⟩ : BufTy).Contents (Elt F)),
    StableHlo.TRef.nullary main_call18.c (constantI S_ 32 0#32),
    StableHlo.TRef.unary main_call18.c main_call18.v0 (broadcastInDim S14 ![] bcast_S_S14),
    StableHlo.TRef.binary (.of main_v214 : StableHlo.TRef sig ⟨S14, .i32⟩) main_call18.v0 main_call18.v1 (cmpi .ne),
    StableHlo.TRef.ternary main_call18.v1 (.of main_v216 : StableHlo.TRef sig ⟨S14, .i32⟩) (.of main_v209 : StableHlo.TRef sig ⟨S14, .i32⟩) main_call18.v2 select,
    StableHlo.binary main_v210 main_v210 main_v218 (muli : (⟨S_, .i32⟩ : BufTy).Contents (Elt F) → (⟨S_, .i32⟩ : BufTy).Contents (Elt F) → (⟨S_, .i32⟩ : BufTy).Contents (Elt F)),
    StableHlo.nullary main_c_77 (constantI S_ 32 1#32),
    StableHlo.unary main_c_77 main_v219 (broadcastInDim S14 ![] bcast_S_S14 : (⟨S_, .i32⟩ : BufTy).Contents (Elt F) → (⟨S14, .i32⟩ : BufTy).Contents (Elt F)) ]

set_option maxRecDepth 8192 in
theorem ops12_sub : (ops12 : List (HloOp τ sig (Elt F))).Forall fun op => op.bufs ⊆ tcRefs τ sig :=
  ⟨ternary_bufs_sub .., nullary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., ternary_bufs_sub .., binary_bufs_sub .., nullary_bufs_sub .., unary_bufs_sub ..⟩

set_option maxRecDepth 8192 in
set_option maxHeartbeats 4000000 in
theorem ops12_fresh : ∀ op ∈ (ops12 : List (HloOp τ sig (Elt F))), op.fresh = ∅ := by
  intro _ h; (repeat (cases h with | head => rfl | tail _ h => ?_)); exact nomatch h

abbrev ops12_W : List (Ref sig .tc) := [main_v209, main_c_73, main_c_74, main_v210, main_c_75, main_v211, main_v212, main_c_76, main_v213, main_v214, main_v215, main_v216, main_call18_c, main_call18_v0, main_call18_v1, main_v217, main_v218, main_c_77, main_v219]

set_option maxRecDepth 8192 in
set_option maxHeartbeats 4000000 in
theorem ops12_writes : (ops12 : List (HloOp τ sig (Elt F))).Forall fun op => op.writes ⊆ (ops12_W.map (Proc.devRef (τ := τ) .tc)).toFinset := by
  simp only [List.Forall]; repeat' apply And.intro
  all_goals (simp only [nullary_writes, unary_writes, binary_writes, ternary_writes, Finset.singleton_subset_iff, List.mem_toFinset]; exact List.mem_map_of_mem (by decide))

set_option maxRecDepth 8192 in
set_option maxHeartbeats 4000000 in
theorem step12_main_v212 (h : Live12 x0 x1 x2 x3 x4 x5 x6 x7 W) :
    after ops12 W (no_index (Proc.devRef .tc main_v212)) = ReadP.val_main_v212 (F := F) := by
  simp only [ops12]
  after_results_simp
  all_goals (try simp only [h.h_main_v198])
  all_goals (try rw [h.h_main_v198])
  all_goals rfl

set_option maxRecDepth 8192 in
set_option maxHeartbeats 4000000 in
theorem step12_main_v217 (h : Live12 x0 x1 x2 x3 x4 x5 x6 x7 W) :
    after ops12 W (no_index (Proc.devRef .tc main_v217)) = ReadP.val_main_v217 (F := F) := by
  simp only [ops12]
  after_results_simp
  all_goals (try simp only [h.h_main_v204, h.h_main_v208, h.h_main_call17_v1, h.h_main_v198])
  all_goals (try rw [h.h_main_v204])
  all_goals (try rw [h.h_main_v208])
  all_goals (try rw [h.h_main_call17_v1])
  all_goals (try rw [h.h_main_v198])
  all_goals rfl

set_option maxRecDepth 8192 in
set_option maxHeartbeats 4000000 in
theorem step12_main_v218 (h : Live12 x0 x1 x2 x3 x4 x5 x6 x7 W) :
    after ops12 W (no_index (Proc.devRef .tc main_v218)) = ReadP.val_main_v218 (F := F) := by
  simp only [ops12]
  after_results_simp
  all_goals rfl

set_option maxRecDepth 8192 in
set_option maxHeartbeats 4000000 in
theorem step12_main_v219 (h : Live12 x0 x1 x2 x3 x4 x5 x6 x7 W) :
    after ops12 W (no_index (Proc.devRef .tc main_v219)) = ReadP.val_main_v219 (F := F) := by
  simp only [ops12]
  after_results_simp
  all_goals rfl

theorem step12 (h : Live12 x0 x1 x2 x3 x4 x5 x6 x7 W) :
    Live13 x0 x1 x2 x3 x4 x5 x6 x7 (after ops12 W) where
  toLive0 := h.toLive0.step ops12_writes (by decide)
  h_main_v193 := (after_of_writes_sub ops12 _ ops12_writes (by decide)).trans h.h_main_v193
  h_main_v212 := step12_main_v212 h
  h_main_v217 := step12_main_v217 h
  h_main_v218 := step12_main_v218 h
  h_main_v219 := step12_main_v219 h

end Cert.Lut.RefRun

end
-- ==== Proof.RefRunC13.lean ====
import proofs.«427008_j72404558676324_3_alg».proof.Proof.RefRunLive

noncomputable section

namespace Cert.Lut.RefRun

open Cert.ReferenceIdeal Cert.ReferenceIdeal.Gen Idealize.ShloMosaic Idealize.ShloMosaic.TcCoe Idealize.SL.Sem Idealize.ShloMosaic.StableHlo

variable {F : FTy → Type} [FloatOps F]
variable {x0 : (⟨S2048x4096, .i32⟩ : BufTy).Contents (Elt F)} {x1 : (⟨S2048x1024, .i32⟩ : BufTy).Contents (Elt F)} {x2 : (⟨S2048x14, .i32⟩ : BufTy).Contents (Elt F)} {x3 : (⟨S2048x16384, .f32⟩ : BufTy).Contents (Elt F)} {x4 : (⟨S1024x14, .i32⟩ : BufTy).Contents (Elt F)} {x5 : (⟨S1024x16384, .f32⟩ : BufTy).Contents (Elt F)} {x6 : (⟨S1024x14, .i32⟩ : BufTy).Contents (Elt F)} {x7 : (⟨S1024x16384, .f32⟩ : BufTy).Contents (Elt F)} {W : Valuation τ sig (Elt F)}

set_option maxRecDepth 8192 in
set_option maxHeartbeats 4000000 in
abbrev ops13 : List (HloOp τ sig (Elt F)) :=
  [ StableHlo.binary main_v212 main_v219 main_v220 (Host.shrui : (⟨S14, .i32⟩ : BufTy).Contents (Elt F) → (⟨S14, .i32⟩ : BufTy).Contents (Elt F) → (⟨S14, .i32⟩ : BufTy).Contents (Elt F)),
    StableHlo.nullary main_c_78 (constantI S_ 32 1#32),
    StableHlo.unary main_c_78 main_v221 (broadcastInDim S14 ![] bcast_S_S14 : (⟨S_, .i32⟩ : BufTy).Contents (Elt F) → (⟨S14, .i32⟩ : BufTy).Contents (Elt F)),
    StableHlo.binary main_v220 main_v221 main_v222 (andi : (⟨S14, .i32⟩ : BufTy).Contents (Elt F) → (⟨S14, .i32⟩ : BufTy).Contents (Elt F) → (⟨S14, .i32⟩ : BufTy).Contents (Elt F)),
    StableHlo.unary main_v218 main_v223 (broadcastInDim S14 ![] bcast_S_S14 : (⟨S_, .i32⟩ : BufTy).Contents (Elt F) → (⟨S14, .i32⟩ : BufTy).Contents (Elt F)),
    StableHlo.binary main_v217 main_v223 main_v224 (muli : (⟨S14, .i32⟩ : BufTy).Contents (Elt F) → (⟨S14, .i32⟩ : BufTy).Contents (Elt F) → (⟨S14, .i32⟩ : BufTy).Contents (Elt F)),
    StableHlo.TRef.nullary main_call19.c (constantI S_ 32 0#32),
    StableHlo.TRef.unary main_call19.c main_call19.v0 (broadcastInDim S14 ![] bcast_S_S14),
    StableHlo.TRef.binary (.of main_v222 : StableHlo.TRef sig ⟨S14, .i32⟩) main_call19.v0 main_call19.v1 (cmpi .ne),
    StableHlo.TRef.ternary main_call19.v1 (.of main_v224 : StableHlo.TRef sig ⟨S14, .i32⟩) (.of main_v217 : StableHlo.TRef sig ⟨S14, .i32⟩) main_call19.v2 select,
    StableHlo.binary main_v218 main_v218 main_v226 (muli : (⟨S_, .i32⟩ : BufTy).Contents (Elt F) → (⟨S_, .i32⟩ : BufTy).Contents (Elt F) → (⟨S_, .i32⟩ : BufTy).Contents (Elt F)),
    StableHlo.nullary main_c_79 (constantI S_ 32 1#32),
    StableHlo.unary main_c_79 main_v227 (broadcastInDim S14 ![] bcast_S_S14 : (⟨S_, .i32⟩ : BufTy).Contents (Elt F) → (⟨S14, .i32⟩ : BufTy).Contents (Elt F)),
    StableHlo.binary main_v220 main_v227 main_v228 (Host.shrui : (⟨S14, .i32⟩ : BufTy).Contents (Elt F) → (⟨S14, .i32⟩ : BufTy).Contents (Elt F) → (⟨S14, .i32⟩ : BufTy).Contents (Elt F)),
    StableHlo.nullary main_c_80 (constantI S_ 32 1#32),
    StableHlo.unary main_c_80 main_v229 (broadcastInDim S14 ![] bcast_S_S14 : (⟨S_, .i32⟩ : BufTy).Contents (Elt F) → (⟨S14, .i32⟩ : BufTy).Contents (Elt F)),
    StableHlo.binary main_v228 main_v229 main_v230 (andi : (⟨S14, .i32⟩ : BufTy).Contents (Elt F) → (⟨S14, .i32⟩ : BufTy).Contents (Elt F) → (⟨S14, .i32⟩ : BufTy).Contents (Elt F)),
    StableHlo.unary main_v226 main_v231 (broadcastInDim S14 ![] bcast_S_S14 : (⟨S_, .i32⟩ : BufTy).Contents (Elt F) → (⟨S14, .i32⟩ : BufTy).Contents (Elt F)),
    StableHlo.binary main_v225 main_v231 main_v232 (muli : (⟨S14, .i32⟩ : BufTy).Contents (Elt F) → (⟨S14, .i32⟩ : BufTy).Contents (Elt F) → (⟨S14, .i32⟩ : BufTy).Contents (Elt F)),
    StableHlo.TRef.nullary main_call20.c (constantI S_ 32 0#32),
    StableHlo.TRef.unary main_call20.c main_call20.v0 (broadcastInDim S14 ![] bcast_S_S14),
    StableHlo.TRef.binary (.of main_v230 : StableHlo.TRef sig ⟨S14, .i32⟩) main_call20.v0 main_call20.v1 (cmpi .ne),
    StableHlo.TRef.ternary main_call20.v1 (.of main_v232 : StableHlo.TRef sig ⟨S14, .i32⟩) (.of main_v225 : StableHlo.TRef sig ⟨S14, .i32⟩) main_call20.v2 select,
    StableHlo.binary main_v226 main_v226 main_v234 (muli : (⟨S_, .i32⟩ : BufTy).Contents (Elt F) → (⟨S_, .i32⟩ : BufTy).Contents (Elt F) → (⟨S_, .i32⟩ : BufTy).Contents (Elt F)),
    StableHlo.nullary main_c_81 (constantI S_ 32 1#32),
    StableHlo.unary main_c_81 main_v235 (broadcastInDim S14 ![] bcast_S_S14 : (⟨S_, .i32⟩ : BufTy).Contents (Elt F) → (⟨S14, .i32⟩ : BufTy).Contents (Elt F)),
    StableHlo.binary main_v228 main_v235 main_v236 (Host.shrui : (⟨S14, .i32⟩ : BufTy).Contents (Elt F) → (⟨S14, .i32⟩ : BufTy).Contents (Elt F) → (⟨S14, .i32⟩ : BufTy).Contents (Elt F)),
    StableHlo.nullary main_c_82 (constantI S_ 32 1#32),
    StableHlo.unary main_c_82 main_v237 (broadcastInDim S14 ![] bcast_S_S14 : (⟨S_, .i32⟩ : BufTy).Contents (Elt F) → (⟨S14, .i32⟩ : BufTy).Contents (Elt F)),
    StableHlo.binary main_v236 main_v237 main_v238 (andi : (⟨S14, .i32⟩ : BufTy).Contents (Elt F) → (⟨S14, .i32⟩ : BufTy).Contents (Elt F) → (⟨S14, .i32⟩ : BufTy).Contents (Elt F)),
    StableHlo.unary main_v234 main_v239 (broadcastInDim S14 ![] bcast_S_S14 : (⟨S_, .i32⟩ : BufTy).Contents (Elt F) → (⟨S14, .i32⟩ : BufTy).Contents (Elt F)),
    StableHlo.binary main_v233 main_v239 main_v240 (muli : (⟨S14, .i32⟩ : BufTy).Contents (Elt F) → (⟨S14, .i32⟩ : BufTy).Contents (Elt F) → (⟨S14, .i32⟩ : BufTy).Contents (Elt F)),
    StableHlo.TRef.nullary main_call21.c (constantI S_ 32 0#32),
    StableHlo.TRef.unary main_call21.c main_call21.v0 (broadcastInDim S14 ![] bcast_S_S14),
    StableHlo.TRef.binary (.of main_v238 : StableHlo.TRef sig ⟨S14, .i32⟩) main_call21.v0 main_call21.v1 (cmpi .ne),
    StableHlo.TRef.ternary main_call21.v1 (.of main_v240 : StableHlo.TRef sig ⟨S14, .i32⟩) (.of main_v233 : StableHlo.TRef sig ⟨S14, .i32⟩) main_call21.v2 select,
    StableHlo.binary main_v234 main_v234 main_v242 (muli : (⟨S_, .i32⟩ : BufTy).Contents (Elt F) → (⟨S_, .i32⟩ : BufTy).Contents (Elt F) → (⟨S_, .i32⟩ : BufTy).Contents (Elt F)),
    StableHlo.nullary main_c_83 (constantI S_ 32 1#32),
    StableHlo.unary main_c_83 main_v243 (broadcastInDim S14 ![] bcast_S_S14 : (⟨S_, .i32⟩ : BufTy).Contents (Elt F) → (⟨S14, .i32⟩ : BufTy).Contents (Elt F)),
    StableHlo.binary main_v236 main_v243 main_v244 (Host.shrui : (⟨S14, .i32⟩ : BufTy).Contents (Elt F) → (⟨S14, .i32⟩ : BufTy).Contents (Elt F) → (⟨S14, .i32⟩ : BufTy).Contents (Elt F)) ]

set_option maxRecDepth 8192 in
theorem ops13_sub : (ops13 : List (HloOp τ sig (Elt F))).Forall fun op => op.bufs ⊆ tcRefs τ sig :=
  ⟨binary_bufs_sub .., nullary_bufs_sub .., unary_bufs_sub .., binary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., ternary_bufs_sub .., binary_bufs_sub .., nullary_bufs_sub .., unary_bufs_sub .., binary_bufs_sub ..⟩

set_option maxRecDepth 8192 in
set_option maxHeartbeats 4000000 in
theorem ops13_fresh : ∀ op ∈ (ops13 : List (HloOp τ sig (Elt F))), op.fresh = ∅ := by
  intro _ h; (repeat (cases h with | head => rfl | tail _ h => ?_)); exact nomatch h

abbrev ops13_W : List (Ref sig .tc) := [main_v220, main_c_78, main_v221, main_v222, main_v223, main_v224, main_call19_c, main_call19_v0, main_call19_v1, main_v225, main_v226, main_c_79, main_v227, main_v228, main_c_80, main_v229, main_v230, main_v231, main_v232, main_call20_c, main_call20_v0, main_call20_v1, main_v233, main_v234, main_c_81, main_v235, main_v236, main_c_82, main_v237, main_v238, main_v239, main_v240, main_call21_c, main_call21_v0, main_call21_v1, main_v241, main_v242, main_c_83, main_v243, main_v244]

set_option maxRecDepth 8192 in
set_option maxHeartbeats 4000000 in
theorem ops13_writes : (ops13 : List (HloOp τ sig (Elt F))).Forall fun op => op.writes ⊆ (ops13_W.map (Proc.devRef (τ := τ) .tc)).toFinset := by
  simp only [List.Forall]; repeat' apply And.intro
  all_goals (simp only [nullary_writes, unary_writes, binary_writes, ternary_writes, Finset.singleton_subset_iff, List.mem_toFinset]; exact List.mem_map_of_mem (by decide))

set_option maxRecDepth 8192 in
set_option maxHeartbeats 4000000 in
theorem step13_main_v241 (h : Live13 x0 x1 x2 x3 x4 x5 x6 x7 W) :
    after ops13 W (no_index (Proc.devRef .tc main_v241)) = ReadP.val_main_v241 (F := F) := by
  simp only [ops13]
  after_results_simp
  all_goals (try simp only [h.h_main_v217, h.h_main_v218, h.h_main_v219, h.h_main_v212])
  all_goals (try rw [h.h_main_v217])
  all_goals (try rw [h.h_main_v218])
  all_goals (try rw [h.h_main_v219])
  all_goals (try rw [h.h_main_v212])
  all_goals rfl

set_option maxRecDepth 8192 in
set_option maxHeartbeats 4000000 in
theorem step13_main_v242 (h : Live13 x0 x1 x2 x3 x4 x5 x6 x7 W) :
    after ops13 W (no_index (Proc.devRef .tc main_v242)) = ReadP.val_main_v242 (F := F) := by
  simp only [ops13]
  after_results_simp
  all_goals (try simp only [h.h_main_v218])
  all_goals (try rw [h.h_main_v218])
  all_goals rfl

set_option maxRecDepth 8192 in
set_option maxHeartbeats 4000000 in
theorem step13_main_v244 (h : Live13 x0 x1 x2 x3 x4 x5 x6 x7 W) :
    after ops13 W (no_index (Proc.devRef .tc main_v244)) = ReadP.val_main_v244 (F := F) := by
  simp only [ops13]
  after_results_simp
  all_goals (try simp only [h.h_main_v219, h.h_main_v212])
  all_goals (try rw [h.h_main_v219])
  all_goals (try rw [h.h_main_v212])
  all_goals rfl

theorem step13 (h : Live13 x0 x1 x2 x3 x4 x5 x6 x7 W) :
    Live14 x0 x1 x2 x3 x4 x5 x6 x7 (after ops13 W) where
  toLive0 := h.toLive0.step ops13_writes (by decide)
  h_main_v193 := (after_of_writes_sub ops13 _ ops13_writes (by decide)).trans h.h_main_v193
  h_main_v241 := step13_main_v241 h
  h_main_v242 := step13_main_v242 h
  h_main_v244 := step13_main_v244 h

end Cert.Lut.RefRun

end
-- ==== Proof.RefRunC14.lean ====
import proofs.«427008_j72404558676324_3_alg».proof.Proof.RefRunLive

noncomputable section

namespace Cert.Lut.RefRun

open Cert.ReferenceIdeal Cert.ReferenceIdeal.Gen Idealize.ShloMosaic Idealize.ShloMosaic.TcCoe Idealize.SL.Sem Idealize.ShloMosaic.StableHlo

variable {F : FTy → Type} [FloatOps F]
variable {x0 : (⟨S2048x4096, .i32⟩ : BufTy).Contents (Elt F)} {x1 : (⟨S2048x1024, .i32⟩ : BufTy).Contents (Elt F)} {x2 : (⟨S2048x14, .i32⟩ : BufTy).Contents (Elt F)} {x3 : (⟨S2048x16384, .f32⟩ : BufTy).Contents (Elt F)} {x4 : (⟨S1024x14, .i32⟩ : BufTy).Contents (Elt F)} {x5 : (⟨S1024x16384, .f32⟩ : BufTy).Contents (Elt F)} {x6 : (⟨S1024x14, .i32⟩ : BufTy).Contents (Elt F)} {x7 : (⟨S1024x16384, .f32⟩ : BufTy).Contents (Elt F)} {W : Valuation τ sig (Elt F)}

set_option maxRecDepth 8192 in
set_option maxHeartbeats 4000000 in
abbrev ops14 : List (HloOp τ sig (Elt F)) :=
  [ StableHlo.nullary main_c_84 (constantI S_ 32 1#32),
    StableHlo.unary main_c_84 main_v245 (broadcastInDim S14 ![] bcast_S_S14 : (⟨S_, .i32⟩ : BufTy).Contents (Elt F) → (⟨S14, .i32⟩ : BufTy).Contents (Elt F)),
    StableHlo.binary main_v244 main_v245 main_v246 (andi : (⟨S14, .i32⟩ : BufTy).Contents (Elt F) → (⟨S14, .i32⟩ : BufTy).Contents (Elt F) → (⟨S14, .i32⟩ : BufTy).Contents (Elt F)),
    StableHlo.unary main_v242 main_v247 (broadcastInDim S14 ![] bcast_S_S14 : (⟨S_, .i32⟩ : BufTy).Contents (Elt F) → (⟨S14, .i32⟩ : BufTy).Contents (Elt F)),
    StableHlo.binary main_v241 main_v247 main_v248 (muli : (⟨S14, .i32⟩ : BufTy).Contents (Elt F) → (⟨S14, .i32⟩ : BufTy).Contents (Elt F) → (⟨S14, .i32⟩ : BufTy).Contents (Elt F)),
    StableHlo.TRef.nullary main_call22.c (constantI S_ 32 0#32),
    StableHlo.TRef.unary main_call22.c main_call22.v0 (broadcastInDim S14 ![] bcast_S_S14),
    StableHlo.TRef.binary (.of main_v246 : StableHlo.TRef sig ⟨S14, .i32⟩) main_call22.v0 main_call22.v1 (cmpi .ne),
    StableHlo.TRef.ternary main_call22.v1 (.of main_v248 : StableHlo.TRef sig ⟨S14, .i32⟩) (.of main_v241 : StableHlo.TRef sig ⟨S14, .i32⟩) main_call22.v2 select,
    StableHlo.binary main_v242 main_v242 main_v250 (muli : (⟨S_, .i32⟩ : BufTy).Contents (Elt F) → (⟨S_, .i32⟩ : BufTy).Contents (Elt F) → (⟨S_, .i32⟩ : BufTy).Contents (Elt F)),
    StableHlo.nullary main_c_85 (constantI S_ 32 1#32),
    StableHlo.unary main_c_85 main_v251 (broadcastInDim S14 ![] bcast_S_S14 : (⟨S_, .i32⟩ : BufTy).Contents (Elt F) → (⟨S14, .i32⟩ : BufTy).Contents (Elt F)),
    StableHlo.binary main_v244 main_v251 main_v252 (Host.shrui : (⟨S14, .i32⟩ : BufTy).Contents (Elt F) → (⟨S14, .i32⟩ : BufTy).Contents (Elt F) → (⟨S14, .i32⟩ : BufTy).Contents (Elt F)),
    StableHlo.unary main_v249 main_v253 (broadcastInDim S1x1x14 ![2] bcast_S14_S1x1x14_2 : (⟨S14, .i32⟩ : BufTy).Contents (Elt F) → (⟨S1x1x14, .i32⟩ : BufTy).Contents (Elt F)),
    StableHlo.unary main_v253 main_v254 (broadcastInDim S2048x1024x14 ![0, 1, 2] bcast_S1x1x14_S2048x1024x14_0_1_2 : (⟨S1x1x14, .i32⟩ : BufTy).Contents (Elt F) → (⟨S2048x1024x14, .i32⟩ : BufTy).Contents (Elt F)),
    StableHlo.binary main_v193 main_v254 main_v255 (muli : (⟨S2048x1024x14, .i32⟩ : BufTy).Contents (Elt F) → (⟨S2048x1024x14, .i32⟩ : BufTy).Contents (Elt F) → (⟨S2048x1024x14, .i32⟩ : BufTy).Contents (Elt F)),
    StableHlo.nullary main_c_86 (constantI S_ 32 0#32),
    StableHlo.binary main_v255 main_c_86 main_v256 ((fun x v => Host.reduce IntOp.addi x v reducesTo_S2048x1024x14_S2048x1024_d2 h_S_) : (⟨S2048x1024x14, .i32⟩ : BufTy).Contents (Elt F) → (⟨S_, .i32⟩ : BufTy).Contents (Elt F) → (⟨S2048x1024, .i32⟩ : BufTy).Contents (Elt F)),
    StableHlo.nullary main_v257 (iotaInDim S1024 32 0),
    StableHlo.unary main_v257 main_v258 (broadcastInDim S1x1024 ![1] bcast_S1024_S1x1024_1 : (⟨S1024, .i32⟩ : BufTy).Contents (Elt F) → (⟨S1x1024, .i32⟩ : BufTy).Contents (Elt F)),
    StableHlo.nullary main_c_87 (constantI S_ 32 0#32),
    StableHlo.unary main_c_87 main_v259 (broadcastInDim S1x1024 ![] bcast_S_S1x1024 : (⟨S_, .i32⟩ : BufTy).Contents (Elt F) → (⟨S1x1024, .i32⟩ : BufTy).Contents (Elt F)),
    StableHlo.binary main_v258 main_v259 main_v260 (cmpi .slt : (⟨S1x1024, .i32⟩ : BufTy).Contents (Elt F) → (⟨S1x1024, .i32⟩ : BufTy).Contents (Elt F) → (⟨S1x1024, .i1⟩ : BufTy).Contents (Elt F)),
    StableHlo.nullary main_c_88 (constantI S_ 32 1024#32),
    StableHlo.unary main_c_88 main_v261 (broadcastInDim S1x1024 ![] bcast_S_S1x1024 : (⟨S_, .i32⟩ : BufTy).Contents (Elt F) → (⟨S1x1024, .i32⟩ : BufTy).Contents (Elt F)),
    StableHlo.binary main_v258 main_v261 main_v262 (addi : (⟨S1x1024, .i32⟩ : BufTy).Contents (Elt F) → (⟨S1x1024, .i32⟩ : BufTy).Contents (Elt F) → (⟨S1x1024, .i32⟩ : BufTy).Contents (Elt F)),
    StableHlo.ternary main_v260 main_v262 main_v258 main_v263 (select : (⟨S1x1024, .i1⟩ : BufTy).Contents (Elt F) → (⟨S1x1024, .i32⟩ : BufTy).Contents (Elt F) → (⟨S1x1024, .i32⟩ : BufTy).Contents (Elt F) → (⟨S1x1024, .i32⟩ : BufTy).Contents (Elt F)),
    StableHlo.nullary main_c_89 (constantI S_ 32 0#32),
    StableHlo.unary main_c_89 main_v264 (broadcastInDim S2048x1024 ![] bcast_S_S2048x1024 : (⟨S_, .i32⟩ : BufTy).Contents (Elt F) → (⟨S2048x1024, .i32⟩ : BufTy).Contents (Elt F)),
    StableHlo.binary main_v256 main_v264 main_v265 (cmpi .slt : (⟨S2048x1024, .i32⟩ : BufTy).Contents (Elt F) → (⟨S2048x1024, .i32⟩ : BufTy).Contents (Elt F) → (⟨S2048x1024, .i1⟩ : BufTy).Contents (Elt F)),
    StableHlo.nullary main_c_90 (constantI S_ 32 16384#32),
    StableHlo.unary main_c_90 main_v266 (broadcastInDim S2048x1024 ![] bcast_S_S2048x1024 : (⟨S_, .i32⟩ : BufTy).Contents (Elt F) → (⟨S2048x1024, .i32⟩ : BufTy).Contents (Elt F)) ]

set_option maxRecDepth 8192 in
theorem ops14_sub : (ops14 : List (HloOp τ sig (Elt F))).Forall fun op => op.bufs ⊆ tcRefs τ sig :=
  ⟨nullary_bufs_sub .., unary_bufs_sub .., binary_bufs_sub .., unary_bufs_sub .., binary_bufs_sub .., nullary_bufs_sub .., unary_bufs_sub .., binary_bufs_sub .., ternary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub ..⟩

set_option maxRecDepth 8192 in
set_option maxHeartbeats 4000000 in
theorem ops14_fresh : ∀ op ∈ (ops14 : List (HloOp τ sig (Elt F))), op.fresh = ∅ := by
  intro _ h; (repeat (cases h with | head => rfl | tail _ h => ?_)); exact nomatch h

abbrev ops14_W : List (Ref sig .tc) := [main_c_84, main_v245, main_v246, main_v247, main_v248, main_call22_c, main_call22_v0, main_call22_v1, main_v249, main_v250, main_c_85, main_v251, main_v252, main_v253, main_v254, main_v255, main_c_86, main_v256, main_v257, main_v258, main_c_87, main_v259, main_v260, main_c_88, main_v261, main_v262, main_v263, main_c_89, main_v264, main_v265, main_c_90, main_v266]

set_option maxRecDepth 8192 in
set_option maxHeartbeats 4000000 in
theorem ops14_writes : (ops14 : List (HloOp τ sig (Elt F))).Forall fun op => op.writes ⊆ (ops14_W.map (Proc.devRef (τ := τ) .tc)).toFinset := by
  simp only [List.Forall]; repeat' apply And.intro
  all_goals (simp only [nullary_writes, unary_writes, binary_writes, ternary_writes, Finset.singleton_subset_iff, List.mem_toFinset]; exact List.mem_map_of_mem (by decide))

set_option maxRecDepth 8192 in
set_option maxHeartbeats 4000000 in
theorem step14_main_v256 (h : Live14 x0 x1 x2 x3 x4 x5 x6 x7 W) :
    after ops14 W (no_index (Proc.devRef .tc main_v256)) = ReadP.val_main_v256 (F := F) x0 x1 x2 x3 x4 x5 x6 := by
  simp only [ops14]
  after_results_simp
  all_goals (try simp only [h.h_main_v241, h.h_main_v242, h.h_main_v244, h.h_main_v193])
  all_goals (try rw [h.h_main_v241])
  all_goals (try rw [h.h_main_v242])
  all_goals (try rw [h.h_main_v244])
  all_goals (try rw [h.h_main_v193])
  all_goals rfl

set_option maxRecDepth 8192 in
set_option maxHeartbeats 4000000 in
theorem step14_main_v263 (h : Live14 x0 x1 x2 x3 x4 x5 x6 x7 W) :
    after ops14 W (no_index (Proc.devRef .tc main_v263)) = ReadP.val_main_v263 (F := F) := by
  simp only [ops14]
  after_results_simp
  all_goals rfl

set_option maxRecDepth 8192 in
set_option maxHeartbeats 4000000 in
theorem step14_main_v265 (h : Live14 x0 x1 x2 x3 x4 x5 x6 x7 W) :
    after ops14 W (no_index (Proc.devRef .tc main_v265)) = ReadP.val_main_v265 (F := F) x0 x1 x2 x3 x4 x5 x6 := by
  simp only [ops14]
  after_results_simp
  all_goals (try simp only [h.h_main_v241, h.h_main_v242, h.h_main_v244, h.h_main_v193])
  all_goals (try rw [h.h_main_v241])
  all_goals (try rw [h.h_main_v242])
  all_goals (try rw [h.h_main_v244])
  all_goals (try rw [h.h_main_v193])
  all_goals rfl

set_option maxRecDepth 8192 in
set_option maxHeartbeats 4000000 in
theorem step14_main_v266 (h : Live14 x0 x1 x2 x3 x4 x5 x6 x7 W) :
    after ops14 W (no_index (Proc.devRef .tc main_v266)) = ReadP.val_main_v266 (F := F) := by
  simp only [ops14]
  after_results_simp
  all_goals rfl

theorem step14 (h : Live14 x0 x1 x2 x3 x4 x5 x6 x7 W) :
    Live15 x0 x1 x2 x3 x4 x5 x6 x7 (after ops14 W) where
  toLive0 := h.toLive0.step ops14_writes (by decide)
  h_main_v256 := step14_main_v256 h
  h_main_v263 := step14_main_v263 h
  h_main_v265 := step14_main_v265 h
  h_main_v266 := step14_main_v266 h

end Cert.Lut.RefRun

end
-- ==== Proof.RefRunC15.lean ====
import proofs.«427008_j72404558676324_3_alg».proof.Proof.RefRunLive

noncomputable section

namespace Cert.Lut.RefRun

open Cert.ReferenceIdeal Cert.ReferenceIdeal.Gen Idealize.ShloMosaic Idealize.ShloMosaic.TcCoe Idealize.SL.Sem Idealize.ShloMosaic.StableHlo

variable {F : FTy → Type} [FloatOps F]
variable {x0 : (⟨S2048x4096, .i32⟩ : BufTy).Contents (Elt F)} {x1 : (⟨S2048x1024, .i32⟩ : BufTy).Contents (Elt F)} {x2 : (⟨S2048x14, .i32⟩ : BufTy).Contents (Elt F)} {x3 : (⟨S2048x16384, .f32⟩ : BufTy).Contents (Elt F)} {x4 : (⟨S1024x14, .i32⟩ : BufTy).Contents (Elt F)} {x5 : (⟨S1024x16384, .f32⟩ : BufTy).Contents (Elt F)} {x6 : (⟨S1024x14, .i32⟩ : BufTy).Contents (Elt F)} {x7 : (⟨S1024x16384, .f32⟩ : BufTy).Contents (Elt F)} {W : Valuation τ sig (Elt F)}

set_option maxRecDepth 8192 in
set_option maxHeartbeats 4000000 in
abbrev ops15 : List (HloOp τ sig (Elt F)) :=
  [ StableHlo.binary main_v256 main_v266 main_v267 (addi : (⟨S2048x1024, .i32⟩ : BufTy).Contents (Elt F) → (⟨S2048x1024, .i32⟩ : BufTy).Contents (Elt F) → (⟨S2048x1024, .i32⟩ : BufTy).Contents (Elt F)),
    StableHlo.ternary main_v265 main_v267 main_v256 main_v268 (select : (⟨S2048x1024, .i1⟩ : BufTy).Contents (Elt F) → (⟨S2048x1024, .i32⟩ : BufTy).Contents (Elt F) → (⟨S2048x1024, .i32⟩ : BufTy).Contents (Elt F) → (⟨S2048x1024, .i32⟩ : BufTy).Contents (Elt F)),
    StableHlo.unary main_v263 main_v269 (broadcastInDim S2048x1024 ![0, 1] bcast_S1x1024_S2048x1024_0_1 : (⟨S1x1024, .i32⟩ : BufTy).Contents (Elt F) → (⟨S2048x1024, .i32⟩ : BufTy).Contents (Elt F)),
    StableHlo.unary main_v269 main_v270 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.unary main_v268 main_v271 (broadcastInDim S2048x1024x1 ![0, 1] bcast_S2048x1024_S2048x1024x1_0_1 : (⟨S2048x1024, .i32⟩ : BufTy).Contents (Elt F) → (⟨S2048x1024x1, .i32⟩ : BufTy).Contents (Elt F)) ]

set_option maxRecDepth 8192 in
theorem ops15_sub : (ops15 : List (HloOp τ sig (Elt F))).Forall fun op => op.bufs ⊆ tcRefs τ sig :=
  ⟨binary_bufs_sub .., ternary_bufs_sub .., unary_bufs_sub .., unary_bufs_sub .., unary_bufs_sub ..⟩

set_option maxRecDepth 8192 in
set_option maxHeartbeats 4000000 in
theorem ops15_fresh : ∀ op ∈ (ops15 : List (HloOp τ sig (Elt F))), op.fresh = ∅ := by
  intro _ h; (repeat (cases h with | head => rfl | tail _ h => ?_)); exact nomatch h

abbrev ops15_W : List (Ref sig .tc) := [main_v267, main_v268, main_v269, main_v270, main_v271]

set_option maxRecDepth 8192 in
set_option maxHeartbeats 4000000 in
theorem ops15_writes : (ops15 : List (HloOp τ sig (Elt F))).Forall fun op => op.writes ⊆ (ops15_W.map (Proc.devRef (τ := τ) .tc)).toFinset := by
  simp only [List.Forall]; repeat' apply And.intro
  all_goals (simp only [nullary_writes, unary_writes, binary_writes, ternary_writes, Finset.singleton_subset_iff, List.mem_toFinset]; exact List.mem_map_of_mem (by decide))

set_option maxRecDepth 8192 in
set_option maxHeartbeats 4000000 in
theorem step15_main_v270 (h : Live15 x0 x1 x2 x3 x4 x5 x6 x7 W) :
    after ops15 W (no_index (Proc.devRef .tc main_v270)) = ReadP.val_main_v270 (F := F) := by
  simp only [ops15]
  after_results_simp
  all_goals (try simp only [h.h_main_v263])
  all_goals (try rw [h.h_main_v263])
  all_goals rfl

set_option maxRecDepth 8192 in
set_option maxHeartbeats 4000000 in
theorem step15_main_v271 (h : Live15 x0 x1 x2 x3 x4 x5 x6 x7 W) :
    after ops15 W (no_index (Proc.devRef .tc main_v271)) = ReadP.val_main_v271 (F := F) x0 x1 x2 x3 x4 x5 x6 := by
  simp only [ops15]
  after_results_simp
  all_goals (try simp only [h.h_main_v256, h.h_main_v266, h.h_main_v265])
  all_goals (try rw [h.h_main_v256])
  all_goals (try rw [h.h_main_v266])
  all_goals (try rw [h.h_main_v265])
  all_goals rfl

theorem step15 (h : Live15 x0 x1 x2 x3 x4 x5 x6 x7 W) :
    Live16 x0 x1 x2 x3 x4 x5 x6 x7 (after ops15 W) where
  toLive0 := h.toLive0.step ops15_writes (by decide)
  h_main_v270 := step15_main_v270 h
  h_main_v271 := step15_main_v271 h

end Cert.Lut.RefRun

end
-- ==== Proof.RefRunC16.lean ====
import proofs.«427008_j72404558676324_3_alg».proof.Proof.RefRunLive

noncomputable section

namespace Cert.Lut.RefRun

open Cert.ReferenceIdeal Cert.ReferenceIdeal.Gen Idealize.ShloMosaic Idealize.ShloMosaic.TcCoe Idealize.SL.Sem Idealize.ShloMosaic.StableHlo

variable {F : FTy → Type} [FloatOps F]
variable {x0 : (⟨S2048x4096, .i32⟩ : BufTy).Contents (Elt F)} {x1 : (⟨S2048x1024, .i32⟩ : BufTy).Contents (Elt F)} {x2 : (⟨S2048x14, .i32⟩ : BufTy).Contents (Elt F)} {x3 : (⟨S2048x16384, .f32⟩ : BufTy).Contents (Elt F)} {x4 : (⟨S1024x14, .i32⟩ : BufTy).Contents (Elt F)} {x5 : (⟨S1024x16384, .f32⟩ : BufTy).Contents (Elt F)} {x6 : (⟨S1024x14, .i32⟩ : BufTy).Contents (Elt F)} {x7 : (⟨S1024x16384, .f32⟩ : BufTy).Contents (Elt F)} {W : Valuation τ sig (Elt F)}

set_option maxRecDepth 8192 in
set_option maxHeartbeats 4000000 in
abbrev ops16 : List (HloOp τ sig (Elt F)) :=
  [ StableHlo.binary main_v270 main_v271 main_v272 ((fun a b => concatenate S2048x1024x2 2 [⟨S2048x1024x1, a⟩, ⟨S2048x1024x1, b⟩] concatenates_S2048x1024x1_S2048x1024x1_S2048x1024x2_d2) : (⟨S2048x1024x1, .i32⟩ : BufTy).Contents (Elt F) → (⟨S2048x1024x1, .i32⟩ : BufTy).Contents (Elt F) → (⟨S2048x1024x2, .i32⟩ : BufTy).Contents (Elt F)),
    StableHlo.binary main_arg7 main_v272 main_v273 ((fun x i => Host.gather gather_S1024x16384_S2048x1024x2_S2048x1024_n_01_n_n_01_2_11 x i) : (⟨S1024x16384, .f32⟩ : BufTy).Contents (Elt F) → (⟨S2048x1024x2, .i32⟩ : BufTy).Contents (Elt F) → (⟨S2048x1024, .f32⟩ : BufTy).Contents (Elt F)),
    StableHlo.nullary main_cst_91 (constant S_ .f32 0x3F800000#32),
    StableHlo.unary main_cst_91 main_v274 (broadcastInDim S2048x1024 ![] bcast_S_S2048x1024 : (⟨S_, .f32⟩ : BufTy).Contents (Elt F) → (⟨S2048x1024, .f32⟩ : BufTy).Contents (Elt F)),
    StableHlo.binary main_v273 main_v274 main_v275 (cmpf .oeq : (⟨S2048x1024, .f32⟩ : BufTy).Contents (Elt F) → (⟨S2048x1024, .f32⟩ : BufTy).Contents (Elt F) → (⟨S2048x1024, .i1⟩ : BufTy).Contents (Elt F)),
    StableHlo.nullary main_cst_92 (constant S_ .f32 0x3F800000#32),
    StableHlo.nullary main_cst_93 (constant S_ .f32 0x00000000#32),
    StableHlo.TRef.unary (.of main_cst_92 : StableHlo.TRef sig ⟨S_, .f32⟩) main_call23.v0 (broadcastInDim S2048x1024 ![] bcast_S_S2048x1024),
    StableHlo.TRef.unary (.of main_cst_93 : StableHlo.TRef sig ⟨S_, .f32⟩) main_call23.v1 (broadcastInDim S2048x1024 ![] bcast_S_S2048x1024),
    StableHlo.TRef.ternary (.of main_v275 : StableHlo.TRef sig ⟨S2048x1024, .i1⟩) main_call23.v0 main_call23.v1 main_call23.v2 select,
    StableHlo.unary main_v276 main_v277 (id : (⟨S2048x1024, .f32⟩ : BufTy).Contents (Elt F) → (⟨S2048x1024, .f32⟩ : BufTy).Contents (Elt F)) ]

set_option maxRecDepth 8192 in
theorem ops16_sub : (ops16 : List (HloOp τ sig (Elt F))).Forall fun op => op.bufs ⊆ tcRefs τ sig :=
  ⟨binary_bufs_sub .., binary_bufs_sub .., nullary_bufs_sub .., unary_bufs_sub .., binary_bufs_sub .., nullary_bufs_sub .., nullary_bufs_sub .., unary_bufs_sub .., unary_bufs_sub .., ternary_bufs_sub .., unary_bufs_sub ..⟩

set_option maxRecDepth 8192 in
set_option maxHeartbeats 4000000 in
theorem ops16_fresh : ∀ op ∈ (ops16 : List (HloOp τ sig (Elt F))), op.fresh = ∅ := by
  intro _ h; (repeat (cases h with | head => rfl | tail _ h => ?_)); exact nomatch h

abbrev ops16_W : List (Ref sig .tc) := [main_v272, main_v273, main_cst_91, main_v274, main_v275, main_cst_92, main_cst_93, main_call23_v0, main_call23_v1, main_v276, main_v277]

set_option maxRecDepth 8192 in
set_option maxHeartbeats 4000000 in
theorem ops16_writes : (ops16 : List (HloOp τ sig (Elt F))).Forall fun op => op.writes ⊆ (ops16_W.map (Proc.devRef (τ := τ) .tc)).toFinset := by
  simp only [List.Forall]; repeat' apply And.intro
  all_goals (simp only [nullary_writes, unary_writes, binary_writes, ternary_writes, Finset.singleton_subset_iff, List.mem_toFinset]; exact List.mem_map_of_mem (by decide))

set_option maxRecDepth 8192 in
set_option maxHeartbeats 4000000 in
theorem step16_main_v277 (h : Live16 x0 x1 x2 x3 x4 x5 x6 x7 W) :
    after ops16 W (no_index (Proc.devRef .tc main_v277)) = ReadP.val_main_v277 (F := F) x0 x1 x2 x3 x4 x5 x6 x7 := by
  simp only [ops16]
  after_results_simp
  all_goals (try simp only [h.h_main_v271, h.h_main_v270, h.h_main_arg7])
  all_goals (try rw [h.h_main_v271])
  all_goals (try rw [h.h_main_v270])
  all_goals (try rw [h.h_main_arg7])
  all_goals rfl

theorem step16 (h : Live16 x0 x1 x2 x3 x4 x5 x6 x7 W) :
    Live17 x0 x1 x2 x3 x4 x5 x6 x7 (after ops16 W) where
  toLive0 := h.toLive0.step ops16_writes (by decide)
  h_main_v277 := step16_main_v277 h

end Cert.Lut.RefRun

end
-- ==== Proof.RefRun.lean ====
import proofs.«427008_j72404558676324_3_alg».proof.Proof.RefRunC00
import proofs.«427008_j72404558676324_3_alg».proof.Proof.RefRunC01
import proofs.«427008_j72404558676324_3_alg».proof.Proof.RefRunC02
import proofs.«427008_j72404558676324_3_alg».proof.Proof.RefRunC03
import proofs.«427008_j72404558676324_3_alg».proof.Proof.RefRunC04
import proofs.«427008_j72404558676324_3_alg».proof.Proof.RefRunC05
import proofs.«427008_j72404558676324_3_alg».proof.Proof.RefRunC06
import proofs.«427008_j72404558676324_3_alg».proof.Proof.RefRunC07
import proofs.«427008_j72404558676324_3_alg».proof.Proof.RefRunC08
import proofs.«427008_j72404558676324_3_alg».proof.Proof.RefRunC09
import proofs.«427008_j72404558676324_3_alg».proof.Proof.RefRunC10
import proofs.«427008_j72404558676324_3_alg».proof.Proof.RefRunC11
import proofs.«427008_j72404558676324_3_alg».proof.Proof.RefRunC12
import proofs.«427008_j72404558676324_3_alg».proof.Proof.RefRunC13
import proofs.«427008_j72404558676324_3_alg».proof.Proof.RefRunC14
import proofs.«427008_j72404558676324_3_alg».proof.Proof.RefRunC15
import proofs.«427008_j72404558676324_3_alg».proof.Proof.RefRunC16
import Idealize.ShloMosaic.PureOps.Ideal

noncomputable section

namespace Cert.Lut.RefRun

open Cert.ReferenceIdeal Cert.ReferenceIdeal.Gen Idealize.ShloMosaic Idealize.ShloMosaic.TcCoe Idealize.SL.Sem Idealize.ShloMosaic.StableHlo

variable {F : FTy → Type} [FloatOps F]

theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

def win0 : List (HloOp τ sig (Elt F)) := ops00 ++ ops01

def win1 : List (HloOp τ sig (Elt F)) := ops02 ++ ops03 ++ ops04

def win2 : List (HloOp τ sig (Elt F)) := ops05 ++ ops06 ++ ops07

def win3 : List (HloOp τ sig (Elt F)) := ops08 ++ ops09

def win4 : List (HloOp τ sig (Elt F)) := ops10 ++ ops11 ++ ops12

def win5 : List (HloOp τ sig (Elt F)) := ops13 ++ ops14

def win6 : List (HloOp τ sig (Elt F)) := ops15 ++ ops16

def ops : List (HloOp τ sig (Elt F)) := win0 ++ (win1 ++ (win2 ++ (win3 ++ (win4 ++ (win5 ++ (win6))))))

set_option maxRecDepth 8192 in
set_option maxHeartbeats 4000000 in
theorem main_part0_eq (c : Dev nD) : main_part0 (F := F) c = seq win0 := rfl

set_option maxRecDepth 8192 in
set_option maxHeartbeats 4000000 in
theorem main_part1_eq (c : Dev nD) : main_part1 (F := F) c = seq win1 := rfl

set_option maxRecDepth 8192 in
set_option maxHeartbeats 4000000 in
theorem main_part2_eq (c : Dev nD) : main_part2 (F := F) c = seq win2 := rfl

set_option maxRecDepth 8192 in
set_option maxHeartbeats 4000000 in
theorem main_part3_eq (c : Dev nD) : main_part3 (F := F) c = seq win3 := rfl

set_option maxRecDepth 8192 in
set_option maxHeartbeats 4000000 in
theorem main_part4_eq (c : Dev nD) : main_part4 (F := F) c = seq win4 := rfl

set_option maxRecDepth 8192 in
set_option maxHeartbeats 4000000 in
theorem main_part5_eq (c : Dev nD) : main_part5 (F := F) c = seq win5 := rfl

set_option maxRecDepth 8192 in
set_option maxHeartbeats 4000000 in
theorem main_part6_eq (c : Dev nD) : main_part6 (F := F) c = seq win6 := rfl

set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl

theorem scopedRefs_eq : (Finset.univ.filter fun b : Ref sig .tc => b.isScoped) = ∅ := by decide
theorem scopedSems_eq : (Finset.univ.filter fun sm : SemLoc sig => sm.isScoped .tc) = ∅ := by decide

theorem mem_ops {op : HloOp τ sig (Elt F)} (h : op ∈ (ops : List (HloOp τ sig (Elt F)))) :
    op ∈ (ops00 : List (HloOp τ sig (Elt F))) ∨ op ∈ (ops01 : List (HloOp τ sig (Elt F))) ∨ op ∈ (ops02 : List (HloOp τ sig (Elt F))) ∨ op ∈ (ops03 : List (HloOp τ sig (Elt F))) ∨ op ∈ (ops04 : List (HloOp τ sig (Elt F))) ∨ op ∈ (ops05 : List (HloOp τ sig (Elt F))) ∨ op ∈ (ops06 : List (HloOp τ sig (Elt F))) ∨ op ∈ (ops07 : List (HloOp τ sig (Elt F))) ∨ op ∈ (ops08 : List (HloOp τ sig (Elt F))) ∨ op ∈ (ops09 : List (HloOp τ sig (Elt F))) ∨ op ∈ (ops10 : List (HloOp τ sig (Elt F))) ∨ op ∈ (ops11 : List (HloOp τ sig (Elt F))) ∨ op ∈ (ops12 : List (HloOp τ sig (Elt F))) ∨ op ∈ (ops13 : List (HloOp τ sig (Elt F))) ∨ op ∈ (ops14 : List (HloOp τ sig (Elt F))) ∨ op ∈ (ops15 : List (HloOp τ sig (Elt F))) ∨ op ∈ (ops16 : List (HloOp τ sig (Elt F))) := by
  simpa only [ops, win0, win1, win2, win3, win4, win5, win6, List.mem_append, or_assoc] using h

theorem ops_sub : (ops : List (HloOp τ sig (Elt F))).Forall fun op => op.bufs ⊆ tcRefs τ sig :=
  List.forall_iff_forall_mem.mpr fun op h => by
    rcases mem_ops h with h | h | h | h | h | h | h | h | h | h | h | h | h | h | h | h | h
    exacts [List.forall_iff_forall_mem.mp ops00_sub op h, List.forall_iff_forall_mem.mp ops01_sub op h, List.forall_iff_forall_mem.mp ops02_sub op h, List.forall_iff_forall_mem.mp ops03_sub op h, List.forall_iff_forall_mem.mp ops04_sub op h, List.forall_iff_forall_mem.mp ops05_sub op h, List.forall_iff_forall_mem.mp ops06_sub op h, List.forall_iff_forall_mem.mp ops07_sub op h, List.forall_iff_forall_mem.mp ops08_sub op h, List.forall_iff_forall_mem.mp ops09_sub op h, List.forall_iff_forall_mem.mp ops10_sub op h, List.forall_iff_forall_mem.mp ops11_sub op h, List.forall_iff_forall_mem.mp ops12_sub op h, List.forall_iff_forall_mem.mp ops13_sub op h, List.forall_iff_forall_mem.mp ops14_sub op h, List.forall_iff_forall_mem.mp ops15_sub op h, List.forall_iff_forall_mem.mp ops16_sub op h]

theorem ops_fresh : ∀ op ∈ (ops : List (HloOp τ sig (Elt F))), op.fresh = ∅ := fun op h => by
    rcases mem_ops h with h | h | h | h | h | h | h | h | h | h | h | h | h | h | h | h | h
    exacts [ops00_fresh op h, ops01_fresh op h, ops02_fresh op h, ops03_fresh op h, ops04_fresh op h, ops05_fresh op h, ops06_fresh op h, ops07_fresh op h, ops08_fresh op h, ops09_fresh op h, ops10_fresh op h, ops11_fresh op h, ops12_fresh op h, ops13_fresh op h, ops14_fresh op h, ops15_fresh op h, ops16_fresh op h]

theorem after_ops (V0 : Valuation τ sig (Elt F)) :
    after (ops : List (HloOp τ sig (Elt F))) V0 = after ops16 (after ops15 (after ops14 (after ops13 (after ops12 (after ops11 (after ops10 (after ops09 (after ops08 (after ops07 (after ops06 (after ops05 (after ops04 (after ops03 (after ops02 (after ops01 (after ops00 (V0))))))))))))))))) := by
  simp only [ops, win0, win1, win2, win3, win4, win5, win6, after_app]

theorem live_end (V0 : Valuation τ sig (Elt F)) :
    Live17 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (after (ops : List (HloOp τ sig (Elt F))) V0) := by
  rw [after_ops]
  exact step16 (step15 (step14 (step13 (step12 (step11 (step10 (step09 (step08 (step07 (step06 (step05 (step04 (step03 (step02 (step01 (step00 (⟨rfl, rfl, rfl, rfl, rfl, rfl, rfl, rfl⟩)))))))))))))))))

theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread nD τ).loc main_v277) = Cert.ReferenceIdeal.ReadP.val_main_v277 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v277).trans (live_end (launchContents m c)).h_main_v277,
      (h c main_arg0).trans (live_end (launchContents m c)).h_main_arg0,
      (h c main_arg1).trans (live_end (launchContents m c)).h_main_arg1,
      (h c main_arg2).trans (live_end (launchContents m c)).h_main_arg2,
      (h c main_arg3).trans (live_end (launchContents m c)).h_main_arg3,
      (h c main_arg4).trans (live_end (launchContents m c)).h_main_arg4,
      (h c main_arg5).trans (live_end (launchContents m c)).h_main_arg5,
      (h c main_arg6).trans (live_end (launchContents m c)).h_main_arg6,
      (h c main_arg7).trans (live_end (launchContents m c)).h_main_arg7⟩)
    (run_seq scopedRefs_eq scopedSems_eq defs main (fun _ => ops) main_eq (fun _ => ops_sub) m ρ (fun _ => ops_fresh))

end Cert.Lut.RefRun

end
-- ==== Proof.RefLib.lean ====
import Idealize.ShloMosaic.PureOps.Ideal
import Idealize.ShloMosaic.PureOps.Reduce
import Idealize.ShloMosaic.Lib.ValueIdx
import Idealize.ShloMosaic.Lib.Pipeline.Value
import Idealize.ShloMosaic.Lib.StableHlo.Predicate
import Mathlib.Algebra.BigOperators.Fin
import Mathlib.Tactic.FinCases

noncomputable section

open scoped BigOperators

namespace Cert.Lut.Ref

open Idealize.ShloMosaic Idealize.ShloMosaic.ValueIdx Idealize.ShloMosaic.StableHlo.Predicate

theorem fix_neg (a c : BitVec 32) (ha : a.toNat < 2 ^ 31) :
    Scalar.select (IntOp.cmpi .slt a 0#32) (IntOp.addi a c) a = a := by
  have h : ¬ IntOp.cmpi .slt a 0#32 = 1#1 := by
    rw [slt_iff_toNat ha (by decide)]; simp
  rw [eq_zero_of_ne_one h, select_zero]

theorem clamp_small (a : BitVec 32) (M : ℕ) (ha : a.toNat ≤ M) (hM : M < 2 ^ 31) : min a.toInt.toNat M = a.toNat := by
  rw [toInt_eq_toNat_of_lt (by omega), Int.toNat_natCast]; exact min_eq_left ha

abbrev rowsDims (R T N : Nat)
    (wf : GatherDims.WF ⟨2, ![R, T]⟩ ⟨3, ![N, 14, 1]⟩ ⟨3, ![R, N, 14]⟩ [0] [1] [] [1] [] 2 ![R, 1]) :
    GatherDims ⟨2, ![R, T]⟩ ⟨3, ![N, 14, 1]⟩ ⟨3, ![R, N, 14]⟩ where
  offsetDims := [0]
  collapsedSliceDims := [1]
  operandBatchingDims := []
  startIndicesBatchingDims := []
  startIndexMap := [1]
  indexVectorDim := 2
  sliceSizes := ![R, 1]
  wf := wf

theorem gather_rows_apply {α : Type} {R T N w : Nat} (hT : 0 < T)
    (wf : GatherDims.WF ⟨2, ![R, T]⟩ ⟨3, ![N, 14, 1]⟩ ⟨3, ![R, N, 14]⟩ [0] [1] [] [1] [] 2 ![R, 1])
    (x : (⟨2, ![R, T]⟩ : Shape).Idx → α) (idx : IVec ⟨3, ![N, 14, 1]⟩ w) (b : Fin R) (n : Fin N) (k : Fin 14) :
    Host.gather (rowsDims R T N wf) x idx (ix3 b n k)
      = x (ix2 b ⟨min (idx (ix3 n k (0 : Fin 1))).toInt.toNat (T - 1), by omega⟩) := by
  unfold Host.gather
  congr 1
  funext a
  refine Fin.ext ?_
  match a with
  | ⟨0, _⟩ =>
    show (rowsDims R T N wf).start (ix3 b n k) idx 0 + (rowsDims R T N wf).batchCoord (ix3 b n k) 0
      + (rowsDims R T N wf).offCoord (ix3 b n k) 0 = b.val
    rw [GatherDims.batchCoord_eq_zero _ _ _ List.not_mem_nil]
    unfold GatherDims.start
    rw [dif_neg (show (0 : Fin 2) ∉ (rowsDims R T N wf).startIndexMap from by simp)]
    unfold GatherDims.offCoord
    rw [dif_pos (show (0 : Fin 2) ∈ (rowsDims R T N wf).sKept from by rw [GatherDims.mem_sKept]; simp)]
    simp only [Nat.add_zero, Nat.zero_add]
    rfl
  | ⟨1, _⟩ =>
    show (rowsDims R T N wf).start (ix3 b n k) idx 1 + (rowsDims R T N wf).batchCoord (ix3 b n k) 1
      + (rowsDims R T N wf).offCoord (ix3 b n k) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowsDims R T N wf).startIndexMap from List.mem_singleton.mpr rfl)]
    have hsi : (rowsDims R T N wf).siIdx (ix3 b n k) ⟨List.idxOf (1 : Fin 2) (rowsDims R T N wf).startIndexMap,
        List.idxOf_lt_length_iff.2 (List.mem_singleton.mpr rfl)⟩ = ix3 n k (0 : Fin 1) := by
      funext c; refine Fin.ext ?_
      match c with
      | ⟨0, _⟩ => rfl
      | ⟨1, _⟩ => rfl
      | ⟨2, _⟩ => rfl
    rw [hsi]
    rfl

abbrev tabDims (R N M : Nat)
    (wf : GatherDims.WF ⟨2, ![N, M]⟩ ⟨3, ![R, N, 2]⟩ ⟨2, ![R, N]⟩ [] [0, 1] [] [0, 1] [] 2 ![1, 1]) :
    GatherDims ⟨2, ![N, M]⟩ ⟨3, ![R, N, 2]⟩ ⟨2, ![R, N]⟩ where
  offsetDims := []
  collapsedSliceDims := [0, 1]
  operandBatchingDims := []
  startIndicesBatchingDims := []
  startIndexMap := [0, 1]
  indexVectorDim := 2
  sliceSizes := ![1, 1]
  wf := wf

theorem gather_tab_apply {α : Type} {R N M w : Nat} (hN : 0 < N) (hM : 0 < M)
    (wf : GatherDims.WF ⟨2, ![N, M]⟩ ⟨3, ![R, N, 2]⟩ ⟨2, ![R, N]⟩ [] [0, 1] [] [0, 1] [] 2 ![1, 1])
    (x : (⟨2, ![N, M]⟩ : Shape).Idx → α) (idx : IVec ⟨3, ![R, N, 2]⟩ w) (b : Fin R) (n : Fin N) :
    Host.gather (tabDims R N M wf) x idx (ix2 b n)
      = x (ix2 ⟨min (idx (ix3 b n (0 : Fin 2))).toInt.toNat (N - 1), by omega⟩
               ⟨min (idx (ix3 b n (1 : Fin 2))).toInt.toNat (M - 1), by omega⟩) := by
  unfold Host.gather
  congr 1
  funext a
  refine Fin.ext ?_
  have hk : ∀ a : Fin 2, a ∉ (tabDims R N M wf).sKept := fun a h => by
    have := ((GatherDims.mem_sKept _ _).mp h).1
    apply this
    fin_cases a <;> simp
  match a with
  | ⟨0, _⟩ =>
    show (tabDims R N M wf).start (ix2 b n) idx 0 + (tabDims R N M wf).batchCoord (ix2 b n) 0
      + (tabDims R N M wf).offCoord (ix2 b n) 0 = _
    rw [GatherDims.batchCoord_eq_zero _ _ _ List.not_mem_nil, GatherDims.offCoord_eq_zero _ _ _ (hk 0)]
    simp only [Nat.add_zero]
    unfold GatherDims.start
    rw [dif_pos (show (0 : Fin 2) ∈ (tabDims R N M wf).startIndexMap from by simp)]
    have hsi : (tabDims R N M wf).siIdx (ix2 b n) ⟨List.idxOf (0 : Fin 2) (tabDims R N M wf).startIndexMap,
        List.idxOf_lt_length_iff.2 (by simp)⟩ = ix3 b n (0 : Fin 2) := by
      funext c; refine Fin.ext ?_
      match c with
      | ⟨0, _⟩ => rfl
      | ⟨1, _⟩ => rfl
      | ⟨2, _⟩ => rfl
    rw [hsi]
    rfl
  | ⟨1, _⟩ =>
    show (tabDims R N M wf).start (ix2 b n) idx 1 + (tabDims R N M wf).batchCoord (ix2 b n) 1
      + (tabDims R N M wf).offCoord (ix2 b n) 1 = _
    rw [GatherDims.batchCoord_eq_zero _ _ _ List.not_mem_nil, GatherDims.offCoord_eq_zero _ _ _ (hk 1)]
    simp only [Nat.add_zero]
    unfold GatherDims.start
    rw [dif_pos (show (1 : Fin 2) ∈ (tabDims R N M wf).startIndexMap from by simp)]
    have hsi : (tabDims R N M wf).siIdx (ix2 b n) ⟨List.idxOf (1 : Fin 2) (tabDims R N M wf).startIndexMap,
        List.idxOf_lt_length_iff.2 (by simp)⟩ = ix3 b n (1 : Fin 2) := by
      funext c; refine Fin.ext ?_
      match c with
      | ⟨0, _⟩ => rfl
      | ⟨1, _⟩ => rfl
      | ⟨2, _⟩ => rfl
    rw [hsi]
    rfl

theorem gather_tab_at {R N M : Nat} (hN : 0 < N) (hN' : N ≤ 2 ^ 31) (hM : 0 < M) (hM' : M ≤ 2 ^ 31)
    (wf : GatherDims.WF ⟨2, ![N, M]⟩ ⟨3, ![R, N, 2]⟩ ⟨2, ![R, N]⟩ [] [0, 1] [] [0, 1] [] 2 ![1, 1])
    (x : FVec Ideal ⟨2, ![N, M]⟩ .f32) (idx : IVec ⟨3, ![R, N, 2]⟩ 32) (b : Fin R) (n : Fin N) (A : ℕ) (hA : A < M)
    (h0 : idx (ix3 b n (0 : Fin 2)) = BitVec.ofNat 32 n.val) (h1 : (idx (ix3 b n (1 : Fin 2))).toNat = A) :
    Host.gather (tabDims R N M wf) x idx (ix2 b n) = x (ix2 n ⟨A, hA⟩) := by
  rw [gather_tab_apply hN hM]
  congr 1
  have hn : (BitVec.ofNat 32 n.val).toNat = n.val := by
    rw [BitVec.toNat_ofNat]; exact Nat.mod_eq_of_lt (by have := n.isLt; omega)
  have e0 : min (idx (ix3 b n (0 : Fin 2))).toInt.toNat (N - 1) = n.val := by
    rw [clamp_small _ _ (by rw [h0, hn]; have := n.isLt; omega) (by omega), h0, hn]
  have e1 : min (idx (ix3 b n (1 : Fin 2))).toInt.toNat (M - 1) = A := by
    rw [clamp_small _ _ (by rw [h1]; omega) (by omega), h1]
  funext a
  match a with
  | ⟨0, _⟩ => exact Fin.ext e0
  | ⟨1, _⟩ => exact Fin.ext e1

theorem lift_last {R N K : Nat} (h : (⟨3, ![R, N, K]⟩ : Shape).Reduces [2] ⟨2, ![R, N]⟩) (b : Fin R) (n : Fin N)
    (k : Fin K) : h.lift (ix2 b n) k = ix3 b n k := by
  funext c; refine Fin.ext ?_
  show h.liftVal (ix2 b n) k.val c = (ix3 b n k c).val
  match c with
  | ⟨0, _⟩ => rfl
  | ⟨1, _⟩ => rfl
  | ⟨2, _⟩ => rfl

theorem reduce_last_toNat {R N K : Nat} (x : IVec ⟨3, ![R, N, K]⟩ 32) {u : Shape} (hu : 0 < u.numel)
    (h' : (⟨3, ![R, N, K]⟩ : Shape).ReducesTo [2] ⟨2, ![R, N]⟩) (h : (⟨3, ![R, N, K]⟩ : Shape).Reduces [2] ⟨2, ![R, N]⟩)
    (b : Fin R) (n : Fin N) (hs : ∑ k : Fin K, (x (ix3 b n k)).toNat < 2 ^ 32) :
    (Host.reduce IntOp.addi x (constantI u 32 0#32) h' hu (ix2 b n)).toNat = ∑ k : Fin K, (x (ix3 b n k)).toNat := by
  rw [Host.reduce_eq_fold_single IntOp.addi x _ h' h hu]
  have e : (x ∘ h.lift (ix2 b n)) = fun k : Fin K => x (ix3 b n k) := by
    funext k; exact congrArg x (lift_last h b n k)
  exact (congrArg (fun f : Fin K → BitVec 32 => (Finset.fold IntOp.addi 0#32 f Finset.univ).toNat) e).trans
    (toNat_fold_addi Finset.univ _ hs)

def W : Fin 14 → BitVec 32 :=
  ![8192#32, 4096#32, 2048#32, 1024#32, 512#32, 256#32, 128#32, 64#32, 32#32, 16#32, 8#32, 4#32, 2#32, 1#32]

theorem W_toNat (k : Fin 14) : (W k).toNat = 2 ^ (13 - k.val) := by fin_cases k <;> rfl

theorem mul_bit_weight (g : BitVec 32) (k : Fin 14) (hg : g.toNat ≤ 1) :
    (IntOp.muli g (W k)).toNat = 2 ^ (13 - k.val) * g.toNat := by
  show (g * W k).toNat = _
  have hw : 2 ^ (13 - k.val) ≤ 2 ^ 13 := Nat.pow_le_pow_right (by norm_num) (by omega)
  rw [BitVec.toNat_mul, W_toNat, Nat.mod_eq_of_lt, Nat.mul_comm]
  calc g.toNat * 2 ^ (13 - k.val) ≤ 1 * 2 ^ 13 := Nat.mul_le_mul hg hw
    _ < 2 ^ 32 := by norm_num

theorem addr_word {R N : Nat} (g w : IVec ⟨3, ![R, N, 14]⟩ 32) {u : Shape} (hu : 0 < u.numel)
    (h' : (⟨3, ![R, N, 14]⟩ : Shape).ReducesTo [2] ⟨2, ![R, N]⟩) (h : (⟨3, ![R, N, 14]⟩ : Shape).Reduces [2] ⟨2, ![R, N]⟩)
    (b : Fin R) (n : Fin N) (x : Fin 14 → ℕ) (hx : ∀ k, x k ≤ 1)
    (hg : ∀ k, (g (ix3 b n k)).toNat = x k) (hw : ∀ k, w (ix3 b n k) = W k) :
    (Host.reduce IntOp.addi (muli g w) (constantI u 32 0#32) h' hu (ix2 b n)).toNat
      = ∑ k : Fin 14, 2 ^ (13 - k.val) * x k := by
  have hterm : ∀ k : Fin 14, (muli g w (ix3 b n k)).toNat = 2 ^ (13 - k.val) * x k := fun k => by
    show (IntOp.muli (g (ix3 b n k)) (w (ix3 b n k))).toNat = _
    rw [hw, mul_bit_weight _ _ (by rw [hg]; exact hx k), hg]
  have hle : ∑ k : Fin 14, 2 ^ (13 - k.val) * x k ≤ ∑ k : Fin 14, 2 ^ (13 - k.val) * 1 :=
    Finset.sum_le_sum fun k _ => Nat.mul_le_mul_left _ (hx k)
  have hc : ∑ k : Fin 14, 2 ^ (13 - k.val) * 1 < 2 ^ 32 := by decide
  rw [reduce_last_toNat _ hu h' h b n (by simp only [hterm]; omega)]
  simp only [hterm]

theorem one_f32 : Ideal.ofBits .f32 0x3F800000#32 = (1 : EReal) := by
  simp [Ideal.ofBits, Ideal.ieee, -EReal.coe_mul]; norm_num

theorem zero_f32 : Ideal.ofBits .f32 0x00000000#32 = (0 : EReal) := by simp [Ideal.ofBits, Ideal.ieee]

theorem fire_word (v : Ideal .f32) :
    Scalar.select (FloatOps.cmpf (F := Ideal) (φ := .f32) .oeq v (FloatOps.ofBits .f32 0x3F800000#32))
        (FloatOps.ofBits (F := Ideal) .f32 0x3F800000#32) (FloatOps.ofBits (F := Ideal) .f32 0x00000000#32)
      = (((if v = (1 : EReal) then 1 else 0 : ℕ) : ℕ) : EReal) := by
  show Scalar.select (Ideal.cmp .oeq v (Ideal.ofBits .f32 0x3F800000#32)) (Ideal.ofBits .f32 0x3F800000#32)
    (Ideal.ofBits .f32 0x00000000#32) = _
  rw [one_f32, zero_f32]
  unfold Ideal.cmp
  by_cases h : v = (1 : EReal)
  · simp [h, Scalar.select]
  · simp [h, Scalar.select]

theorem sitofp_bit (a : BitVec 32) (ha : a.toNat ≤ 1) :
    FloatOps.sitofp (F := Ideal) .f32 a = ((a.toNat : ℕ) : EReal) := by
  show (((a.toInt : ℝ)) : EReal) = _
  rw [toInt_eq_toNat_of_lt (by omega)]
  simp

theorem fptosi_bit (n : ℕ) (hn : n ≤ 1) :
    (FloatOps.fptosi (F := Ideal) (φ := .f32) 32 ((n : ℕ) : EReal)).toNat = n := by
  show (Ideal.fptosi 32 ((n : ℕ) : EReal)).toNat = n
  interval_cases n
  · have : ((0 : ℕ) : EReal) = ((0 : ℝ) : EReal) := by simp
    rw [this, Ideal.fptosi, Ideal.toIntClamped_coe]; norm_num
  · have : ((1 : ℕ) : EReal) = ((1 : ℝ) : EReal) := by simp
    rw [this, Ideal.fptosi, Ideal.toIntClamped_coe]; norm_num

end Cert.Lut.Ref

end
-- ==== Proof.RefL1.lean ====
import proofs.«427008_j72404558676324_3_alg».proof.Proof.Spec
import proofs.«427008_j72404558676324_3_alg».proof.Proof.RefRead
import proofs.«427008_j72404558676324_3_alg».proof.Proof.RefLib

noncomputable section

open scoped BigOperators

namespace Cert.Lut.Ref

open Cert.ReferenceIdeal Cert.ReferenceIdeal.ReadP Cert.ReferenceIdeal.Gen Idealize.ShloMosaic
  Idealize.ShloMosaic.ValueIdx Idealize.ShloMosaic.StableHlo.Predicate

theorem ext0 (i j : (⟨0, ![]⟩ : Shape).Idx) : i = j := funext fun a => a.elim0
theorem ext1 {n0 : Nat} (i j : (⟨1, ![n0]⟩ : Shape).Idx) (h0 : i 0 = j 0) : i = j := by
  funext a; match a with | ⟨0, _⟩ => exact h0
theorem ext2 {n0 n1 : Nat} (i j : (⟨2, ![n0, n1]⟩ : Shape).Idx) (h0 : i 0 = j 0) (h1 : i 1 = j 1) : i = j := by
  funext a; match a with | ⟨0, _⟩ => exact h0 | ⟨1, _⟩ => exact h1
theorem ext3 {n0 n1 n2 : Nat} (i j : (⟨3, ![n0, n1, n2]⟩ : Shape).Idx) (h0 : i 0 = j 0) (h1 : i 1 = j 1)
    (h2 : i 2 = j 2) : i = j := by
  funext a; match a with | ⟨0, _⟩ => exact h0 | ⟨1, _⟩ => exact h1 | ⟨2, _⟩ => exact h2

theorem w62 (k : Fin 14) : val_main_v62 (F := Ideal) (ix1 k) = W k := by
  fin_cases k <;> rfl

section L1
variable (a0 : IVec (Sh2 2048 4096) 32) (a2 : IVec (Sh2 2048 14) 32) (a3 : FVec Ideal (Sh2 2048 16384) .f32)

theorem l1_conn (hc : ∀ n k, natAt a2 n k < 4096) (n : Fin 2048) (k : Fin 14) :
    val_main_v5 (F := Ideal) a2 (ix3 n k (0 : Fin 1)) = a2 (ix2 n k) := by
  rw [val_main_v5_apply, show idx_main_v5 (ix3 n k (0 : Fin 1)) = ix2 n k from ext2 _ _ rfl rfl,
    val_main_v4_apply, val_main_v1_apply, val_main_v3_apply, val_main_v0_apply, val_main_c_apply]
  exact fix_neg _ _ (by have := hc n k; unfold natAt at this; omega)

theorem l1_gather (hc : ∀ n k, natAt a2 n k < 4096) (b n : Fin 2048) (k : Fin 14) :
    val_main_v6 (F := Ideal) a0 a2 (ix3 b n k) = a0 (ix2 b (connAt 4096 a2 n k)) := by
  unfold val_main_v6
  rw [show gather_S2048x4096_S2048x14x1_S2048x2048x14_0_1_n_n_1_2_20481
      = rowsDims 2048 4096 2048 gather_S2048x4096_S2048x14x1_S2048x2048x14_0_1_n_n_1_2_20481_wf from rfl,
    gather_rows_apply (by decide)]
  congr 1
  funext a
  match a with
  | ⟨0, _⟩ => rfl
  | ⟨1, _⟩ =>
    refine Fin.ext ?_
    show min (val_main_v5 (F := Ideal) a2 (ix3 n k (0 : Fin 1))).toInt.toNat (4096 - 1) = natAt a2 n k % 4096
    have := hc n k
    rw [l1_conn a2 hc, Nat.mod_eq_of_lt this]
    exact clamp_small _ _ (by unfold natAt at this; omega) (by norm_num)

theorem l1_w (b n : Fin 2048) (k : Fin 14) : val_main_v67 (F := Ideal) (ix3 b n k) = W k := by
  rw [val_main_v67_apply, val_main_v66_apply,
    show idx_main_v66 (idx_main_v67 (ix3 b n k)) = ix1 k from ext1 _ _ rfl, w62]

theorem l1_addr (hb : ∀ b t, natAt a0 b t ≤ 1) (hc : ∀ n k, natAt a2 n k < 4096) (b n : Fin 2048) :
    (val_main_v69 (F := Ideal) a0 a2 (ix2 b n)).toNat = addr (natAt a0 b) (connAt 4096 a2 n) := by
  unfold val_main_v69 val_main_v68
  exact addr_word _ _ h_S_ reducesTo_S2048x2048x14_S2048x2048_d2 (by decide) b n
    (fun k => natAt a0 b (connAt 4096 a2 n k)) (fun k => hb _ _)
    (fun k => by rw [l1_gather a0 a2 hc]; rfl) (fun k => l1_w b n k)

theorem l1_fixed (hb : ∀ b t, natAt a0 b t ≤ 1) (hc : ∀ n k, natAt a2 n k < 4096) (b n : Fin 2048) :
    (val_main_v81 (F := Ideal) a0 a2 (ix2 b n)).toNat = addr (natAt a0 b) (connAt 4096 a2 n) := by
  have hlt := addr_lt (natAt a0 b) (connAt 4096 a2 n) (hb b)
  rw [val_main_v81_apply, val_main_v78_apply, val_main_v80_apply, val_main_v77_apply, val_main_c_26_apply,
    fix_neg _ _ (by rw [l1_addr a0 a2 hb hc]; omega)]
  exact l1_addr a0 a2 hb hc b n

theorem l1_iota (b n : Fin 2048) : val_main_v82 (F := Ideal) (ix2 b n) = BitVec.ofNat 32 n.val := by
  have e : val_main_v71 (F := Ideal) (idx_main_v82 (ix2 b n)) = BitVec.ofNat 32 n.val := by
    rw [val_main_v71_apply, val_main_v70_apply]
  rw [val_main_v82_apply, val_main_v76_apply, val_main_v73_apply, val_main_v75_apply, val_main_v72_apply,
    val_main_c_24_apply, e]
  exact fix_neg _ _ (by rw [BitVec.toNat_ofNat]; have := n.isLt; omega)

theorem l1_idx0 (b n : Fin 2048) :
    val_main_v85 (F := Ideal) a0 a2 (ix3 b n (0 : Fin 2)) = BitVec.ofNat 32 n.val := by
  unfold val_main_v85
  rw [concatenate_pair_apply_left (t := S2048x2048x2) (s₁ := S2048x2048x1) (s₂ := S2048x2048x1) 2 _ _ _
      (ix3 b n (0 : Fin 2)) rfl (ix3 b n (0 : Fin 1))
      (fun c => by match c with | ⟨0, _⟩ => rfl | ⟨1, _⟩ => rfl | ⟨2, _⟩ => rfl),
    val_main_v83_apply, show idx_main_v83 (ix3 b n (0 : Fin 1)) = ix2 b n from ext2 _ _ rfl rfl, l1_iota]

theorem l1_idx1 (hb : ∀ b t, natAt a0 b t ≤ 1) (hc : ∀ n k, natAt a2 n k < 4096) (b n : Fin 2048) :
    (val_main_v85 (F := Ideal) a0 a2 (ix3 b n (1 : Fin 2))).toNat = addr (natAt a0 b) (connAt 4096 a2 n) := by
  unfold val_main_v85
  rw [concatenate_pair_apply_right (t := S2048x2048x2) (s₁ := S2048x2048x1) (s₂ := S2048x2048x1) 2 _ _ _
      (ix3 b n (1 : Fin 2)) rfl rfl (ix3 b n (0 : Fin 1))
      (fun c hc' => by
        match c with
        | ⟨0, _⟩ => rfl
        | ⟨1, _⟩ => rfl
        | ⟨2, _⟩ => exact absurd rfl hc')
      rfl,
    val_main_v84_apply, show idx_main_v84 (ix3 b n (0 : Fin 1)) = ix2 b n from ext2 _ _ rfl rfl]
  exact l1_fixed a0 a2 hb hc b n

theorem l1_tab (hb : ∀ b t, natAt a0 b t ≤ 1) (hc : ∀ n k, natAt a2 n k < 4096) (b n : Fin 2048) :
    val_main_v86 (F := Ideal) a0 a2 a3 (ix2 b n)
      = a3 (ix2 n ⟨addr (natAt a0 b) (connAt 4096 a2 n), addr_lt _ _ (hb b)⟩) := by
  unfold val_main_v86
  rw [show gather_S2048x16384_S2048x2048x2_S2048x2048_n_01_n_n_01_2_11
      = tabDims 2048 2048 16384 gather_S2048x16384_S2048x2048x2_S2048x2048_n_01_n_n_01_2_11_wf from rfl]
  exact gather_tab_at (by decide) (by decide) (by decide) (by decide) _ a3 _ b n _ (addr_lt _ _ (hb b))
    (l1_idx0 a0 a2 b n) (l1_idx1 a0 a2 hb hc b n)

theorem l1_out (hb : ∀ b t, natAt a0 b t ≤ 1) (hc : ∀ n k, natAt a2 n k < 4096) (b n : Fin 2048) :
    val_main_v90 (F := Ideal) a0 a2 a3 (ix2 b n) = ((hidden a0 a2 a3 b n : ℕ) : EReal) := by
  rw [val_main_v90_apply, val_main_v89_apply, val_main_v88_apply, val_main_v87_apply, val_main_cst_apply,
    val_main_call7_v0_apply, val_main_cst_28_apply, val_main_call7_v1_apply, val_main_cst_29_apply,
    l1_tab a0 a2 a3 hb hc, fire_word]
  unfold hidden layer fire rowAt
  rw [dif_pos (addr_lt _ _ (hb b))]

theorem l1_eq (hb : ∀ b t, natAt a0 b t ≤ 1) (hc : ∀ n k, natAt a2 n k < 4096) :
    val_main_v90 (F := Ideal) a0 a2 a3 = fun i => ((hidden a0 a2 a3 (i 0) (i 1) : ℕ) : EReal) := by
  funext i
  obtain ⟨b, n, rfl⟩ : ∃ b n, i = ix2 b n := ⟨i 0, i 1, eq_ix2 i⟩
  exact l1_out a0 a2 a3 hb hc b n

end L1

end Cert.Lut.Ref

end
-- ==== Proof.RefL2.lean ====
import proofs.«427008_j72404558676324_3_alg».proof.Proof.Spec
import proofs.«427008_j72404558676324_3_alg».proof.Proof.RefRead
import proofs.«427008_j72404558676324_3_alg».proof.Proof.RefLib
import proofs.«427008_j72404558676324_3_alg».proof.Proof.RefL1

noncomputable section

open scoped BigOperators

namespace Cert.Lut.Ref

open Cert.ReferenceIdeal Cert.ReferenceIdeal.ReadP Cert.ReferenceIdeal.Gen Idealize.ShloMosaic
  Idealize.ShloMosaic.ValueIdx Idealize.ShloMosaic.StableHlo.Predicate

variable {a0 : IVec (Sh2 2048 4096) 32} {a1 : IVec (Sh2 2048 1024) 32} {a2 : IVec (Sh2 2048 14) 32}
  {a3 : FVec Ideal (Sh2 2048 16384) .f32} {a4 : IVec (Sh2 1024 14) 32} {a5 : FVec Ideal (Sh2 1024 16384) .f32}
  {a6 : IVec (Sh2 1024 14) 32} {a7 : FVec Ideal (Sh2 1024 16384) .f32}

theorem l2_bits (hD : Dom a0 a1 a2 a4 a6) (b : Fin 2048) (t : Fin 3072) :
    val_main_v92 (F := Ideal) a0 a1 a2 a3 (ix2 b t) = ((cat (hidden a0 a2 a3) (natAt a1) b t : ℕ) : EReal) := by
  unfold val_main_v92 cat
  by_cases h : t.val < 2048
  · rw [dif_pos h, concatenate_pair_apply_left (t := S2048x3072) (s₁ := S2048x2048) (s₂ := S2048x1024) 1 _ _ _
      (ix2 b t) rfl (ix2 b ⟨t.val, h⟩) (fun c => by match c with | ⟨0, _⟩ => rfl | ⟨1, _⟩ => rfl)]
    exact l1_out a0 a2 a3 hD.bits0 hD.conn0 b ⟨t.val, h⟩
  · rw [dif_neg h, concatenate_pair_apply_right (t := S2048x3072) (s₁ := S2048x2048) (s₂ := S2048x1024) 1 _ _ _
      (ix2 b t) rfl rfl (ix2 b ⟨t.val - 2048, by have := t.isLt; omega⟩)
      (fun c hc' => by
        match c with
        | ⟨0, _⟩ => rfl
        | ⟨1, _⟩ => exact absurd rfl hc')
      (by show t.val - 2048 + 2048 = t.val; omega),
      val_main_v91_apply]
    exact sitofp_bit _ (hD.bits1 _ _)

theorem l2_beta_le (hD : Dom a0 a1 a2 a4 a6) (b : Fin 2048) (t : Fin 3072) : (cat (hidden a0 a2 a3) (natAt a1)) b t ≤ 1 :=
  cat_le_one _ _ (fun b n => layer_le_one _ _ _ b n) hD.bits1 b t

theorem l2_conn (hD : Dom a0 a1 a2 a4 a6) (n : Fin 1024) (k : Fin 14) :
    val_main_v98 (F := Ideal) a4 (ix3 n k (0 : Fin 1)) = a4 (ix2 n k) := by
  rw [val_main_v98_apply, show idx_main_v98 (ix3 n k (0 : Fin 1)) = ix2 n k from ext2 _ _ rfl rfl,
    val_main_v97_apply, val_main_v94_apply, val_main_v96_apply, val_main_v93_apply, val_main_c_30_apply]
  exact fix_neg _ _ (by have := hD.conn1 n k; unfold natAt at this; omega)

theorem l2_gatherf (hD : Dom a0 a1 a2 a4 a6) (b : Fin 2048) (n : Fin 1024) (k : Fin 14) :
    val_main_v99 (F := Ideal) a0 a1 a2 a3 a4 (ix3 b n k) = (((cat (hidden a0 a2 a3) (natAt a1)) b (connAt 3072 a4 n k) : ℕ) : EReal) := by
  unfold val_main_v99
  rw [show gather_S2048x3072_S1024x14x1_S2048x1024x14_0_1_n_n_1_2_20481
      = rowsDims 2048 3072 1024 gather_S2048x3072_S1024x14x1_S2048x1024x14_0_1_n_n_1_2_20481_wf from rfl,
    gather_rows_apply (by decide), ← l2_bits (a3 := a3) hD b (connAt 3072 a4 n k)]
  congr 1
  funext a
  match a with
  | ⟨0, _⟩ => rfl
  | ⟨1, _⟩ =>
    refine Fin.ext ?_
    show min (val_main_v98 (F := Ideal) a4 (ix3 n k (0 : Fin 1))).toInt.toNat (3072 - 1) = natAt a4 n k % 3072
    have := hD.conn1 n k
    rw [l2_conn hD, Nat.mod_eq_of_lt this]
    exact clamp_small _ _ (by unfold natAt at this; omega) (by norm_num)

theorem l2_gather (hD : Dom a0 a1 a2 a4 a6) (b : Fin 2048) (n : Fin 1024) (k : Fin 14) :
    (val_main_v100 (F := Ideal) a0 a1 a2 a3 a4 (ix3 b n k)).toNat = (cat (hidden a0 a2 a3) (natAt a1)) b (connAt 3072 a4 n k) := by
  rw [val_main_v100_apply, l2_gatherf (a3 := a3) hD]
  exact fptosi_bit _ (l2_beta_le (a3 := a3) hD _ _)

theorem l2_wvec (k : Fin 14) : val_main_v156 (F := Ideal) (ix1 k) = W k := by
  fin_cases k <;> rfl

theorem l2_w (b : Fin 2048) (n : Fin 1024) (k : Fin 14) : val_main_v161 (F := Ideal) (ix3 b n k) = W k := by
  rw [val_main_v161_apply, val_main_v160_apply,
    show idx_main_v160 (idx_main_v161 (ix3 b n k)) = ix1 k from ext1 _ _ rfl, l2_wvec]

theorem l2_addr (hD : Dom a0 a1 a2 a4 a6) (b : Fin 2048) (n : Fin 1024) :
    (val_main_v163 (F := Ideal) a0 a1 a2 a3 a4 (ix2 b n)).toNat = addr ((cat (hidden a0 a2 a3) (natAt a1)) b) (connAt 3072 a4 n) := by
  unfold val_main_v163 val_main_v162
  exact addr_word _ _ h_S_ reducesTo_S2048x1024x14_S2048x1024_d2 (by decide) b n
    (fun k => (cat (hidden a0 a2 a3) (natAt a1)) b (connAt 3072 a4 n k)) (fun k => l2_beta_le (a3 := a3) hD _ _)
    (fun k => l2_gather (a3 := a3) hD b n k) (fun k => l2_w b n k)

theorem l2_fixed (hD : Dom a0 a1 a2 a4 a6) (b : Fin 2048) (n : Fin 1024) :
    (val_main_v175 (F := Ideal) a0 a1 a2 a3 a4 (ix2 b n)).toNat = addr ((cat (hidden a0 a2 a3) (natAt a1)) b) (connAt 3072 a4 n) := by
  have hlt := addr_lt ((cat (hidden a0 a2 a3) (natAt a1)) b) (connAt 3072 a4 n) (l2_beta_le (a3 := a3) hD b)
  rw [val_main_v175_apply, val_main_v172_apply, val_main_v174_apply, val_main_v171_apply, val_main_c_57_apply,
    fix_neg _ _ (by rw [l2_addr (a3 := a3) hD]; omega)]
  exact l2_addr (a3 := a3) hD b n

theorem l2_iota (b : Fin 2048) (n : Fin 1024) : val_main_v176 (F := Ideal) (ix2 b n) = BitVec.ofNat 32 n.val := by
  have e : val_main_v165 (F := Ideal) (idx_main_v176 (ix2 b n)) = BitVec.ofNat 32 n.val := by
    rw [val_main_v165_apply, val_main_v164_apply]
  rw [val_main_v176_apply, val_main_v170_apply, val_main_v167_apply, val_main_v169_apply, val_main_v166_apply,
    val_main_c_55_apply, e]
  exact fix_neg _ _ (by rw [BitVec.toNat_ofNat]; have := n.isLt; omega)

theorem l2_idx0 (b : Fin 2048) (n : Fin 1024) :
    val_main_v179 (F := Ideal) a0 a1 a2 a3 a4 (ix3 b n (0 : Fin 2)) = BitVec.ofNat 32 n.val := by
  unfold val_main_v179
  rw [concatenate_pair_apply_left (t := S2048x1024x2) (s₁ := S2048x1024x1) (s₂ := S2048x1024x1) 2 _ _ _
      (ix3 b n (0 : Fin 2)) rfl (ix3 b n (0 : Fin 1))
      (fun c => by match c with | ⟨0, _⟩ => rfl | ⟨1, _⟩ => rfl | ⟨2, _⟩ => rfl),
    val_main_v177_apply, show idx_main_v177 (ix3 b n (0 : Fin 1)) = ix2 b n from ext2 _ _ rfl rfl, l2_iota]

theorem l2_idx1 (hD : Dom a0 a1 a2 a4 a6) (b : Fin 2048) (n : Fin 1024) :
    (val_main_v179 (F := Ideal) a0 a1 a2 a3 a4 (ix3 b n (1 : Fin 2))).toNat = addr ((cat (hidden a0 a2 a3) (natAt a1)) b) (connAt 3072 a4 n) := by
  unfold val_main_v179
  rw [concatenate_pair_apply_right (t := S2048x1024x2) (s₁ := S2048x1024x1) (s₂ := S2048x1024x1) 2 _ _ _
      (ix3 b n (1 : Fin 2)) rfl rfl (ix3 b n (0 : Fin 1))
      (fun c hc' => by
        match c with
        | ⟨0, _⟩ => rfl
        | ⟨1, _⟩ => rfl
        | ⟨2, _⟩ => exact absurd rfl hc')
      rfl,
    val_main_v178_apply, show idx_main_v178 (ix3 b n (0 : Fin 1)) = ix2 b n from ext2 _ _ rfl rfl]
  exact l2_fixed (a3 := a3) hD b n

theorem l2_tab (hD : Dom a0 a1 a2 a4 a6) (b : Fin 2048) (n : Fin 1024) :
    val_main_v180 (F := Ideal) a0 a1 a2 a3 a4 a5 (ix2 b n)
      = a5 (ix2 n ⟨addr ((cat (hidden a0 a2 a3) (natAt a1)) b) (connAt 3072 a4 n),
          addr_lt _ _ (l2_beta_le (a3 := a3) hD b)⟩) := by
  unfold val_main_v180
  rw [show gather_S1024x16384_S2048x1024x2_S2048x1024_n_01_n_n_01_2_11
      = tabDims 2048 1024 16384 gather_S1024x16384_S2048x1024x2_S2048x1024_n_01_n_n_01_2_11_wf from rfl]
  exact gather_tab_at (by decide) (by decide) (by decide) (by decide) _ a5 _ b n _
    (addr_lt _ _ (l2_beta_le (a3 := a3) hD b))
    (l2_idx0 b n) (l2_idx1 (a3 := a3) hD b n)

theorem l2_out (hD : Dom a0 a1 a2 a4 a6) (b : Fin 2048) (n : Fin 1024) :
    val_main_v184 (F := Ideal) a0 a1 a2 a3 a4 a5 (ix2 b n) = ((state a0 a1 a2 a3 a4 a5 b n : ℕ) : EReal) := by
  rw [val_main_v184_apply, val_main_v183_apply, val_main_v182_apply, val_main_v181_apply, val_main_cst_59_apply,
    val_main_call15_v0_apply, val_main_cst_60_apply, val_main_call15_v1_apply, val_main_cst_61_apply,
    l2_tab (a3 := a3) (a5 := a5) hD, fire_word]
  unfold state layer fire rowAt
  rw [dif_pos (addr_lt _ _ (l2_beta_le (a3 := a3) hD b))]

end Cert.Lut.Ref

end
-- ==== Proof.RefL3.lean ====
import proofs.«427008_j72404558676324_3_alg».proof.Proof.Spec
import proofs.«427008_j72404558676324_3_alg».proof.Proof.RefRead
import proofs.«427008_j72404558676324_3_alg».proof.Proof.RefLib
import proofs.«427008_j72404558676324_3_alg».proof.Proof.RefL1
import proofs.«427008_j72404558676324_3_alg».proof.Proof.RefL2

noncomputable section

open scoped BigOperators

namespace Cert.Lut.Ref

open Cert.ReferenceIdeal Cert.ReferenceIdeal.ReadP Cert.ReferenceIdeal.Gen Idealize.ShloMosaic
  Idealize.ShloMosaic.ValueIdx Idealize.ShloMosaic.StableHlo.Predicate

variable {a0 : IVec (Sh2 2048 4096) 32} {a1 : IVec (Sh2 2048 1024) 32} {a2 : IVec (Sh2 2048 14) 32}
  {a3 : FVec Ideal (Sh2 2048 16384) .f32} {a4 : IVec (Sh2 1024 14) 32} {a5 : FVec Ideal (Sh2 1024 16384) .f32}
  {a6 : IVec (Sh2 1024 14) 32} {a7 : FVec Ideal (Sh2 1024 16384) .f32}

theorem l3_bits (hD : Dom a0 a1 a2 a4 a6) (b : Fin 2048) (t : Fin 3072) :
    val_main_v185 (F := Ideal) a0 a1 a2 a3 a4 a5 (ix2 b t)
      = ((cat (hidden a0 a2 a3) (state a0 a1 a2 a3 a4 a5) b t : ℕ) : EReal) := by
  unfold val_main_v185 cat
  by_cases h : t.val < 2048
  · rw [dif_pos h, concatenate_pair_apply_left (t := S2048x3072) (s₁ := S2048x2048) (s₂ := S2048x1024) 1 _ _ _
      (ix2 b t) rfl (ix2 b ⟨t.val, h⟩) (fun c => by match c with | ⟨0, _⟩ => rfl | ⟨1, _⟩ => rfl)]
    exact l1_out a0 a2 a3 hD.bits0 hD.conn0 b ⟨t.val, h⟩
  · rw [dif_neg h, concatenate_pair_apply_right (t := S2048x3072) (s₁ := S2048x2048) (s₂ := S2048x1024) 1 _ _ _
      (ix2 b t) rfl rfl (ix2 b ⟨t.val - 2048, by have := t.isLt; omega⟩)
      (fun c hc' => by
        match c with
        | ⟨0, _⟩ => rfl
        | ⟨1, _⟩ => exact absurd rfl hc')
      (by show t.val - 2048 + 2048 = t.val; omega)]
    exact l2_out (a3 := a3) (a5 := a5) hD b ⟨t.val - 2048, by have := t.isLt; omega⟩

theorem l3_beta_le (hD : Dom a0 a1 a2 a4 a6) (b : Fin 2048) (t : Fin 3072) : (cat (hidden a0 a2 a3) (state a0 a1 a2 a3 a4 a5)) b t ≤ 1 :=
  cat_le_one _ _ (fun b n => layer_le_one _ _ _ b n) (fun b n => layer_le_one _ _ _ b n) b t

theorem l3_conn (hD : Dom a0 a1 a2 a4 a6) (n : Fin 1024) (k : Fin 14) :
    val_main_v191 (F := Ideal) a6 (ix3 n k (0 : Fin 1)) = a6 (ix2 n k) := by
  rw [val_main_v191_apply, show idx_main_v191 (ix3 n k (0 : Fin 1)) = ix2 n k from ext2 _ _ rfl rfl,
    val_main_v190_apply, val_main_v187_apply, val_main_v189_apply, val_main_v186_apply, val_main_c_62_apply]
  exact fix_neg _ _ (by have := hD.conn2 n k; unfold natAt at this; omega)

theorem l3_gatherf (hD : Dom a0 a1 a2 a4 a6) (b : Fin 2048) (n : Fin 1024) (k : Fin 14) :
    val_main_v192 (F := Ideal) a0 a1 a2 a3 a4 a5 a6 (ix3 b n k) = (((cat (hidden a0 a2 a3) (state a0 a1 a2 a3 a4 a5)) b (connAt 3072 a6 n k) : ℕ) : EReal) := by
  unfold val_main_v192
  rw [show gather_S2048x3072_S1024x14x1_S2048x1024x14_0_1_n_n_1_2_20481
      = rowsDims 2048 3072 1024 gather_S2048x3072_S1024x14x1_S2048x1024x14_0_1_n_n_1_2_20481_wf from rfl,
    gather_rows_apply (by decide), ← l3_bits (a3 := a3) (a5 := a5) hD b (connAt 3072 a6 n k)]
  congr 1
  funext a
  match a with
  | ⟨0, _⟩ => rfl
  | ⟨1, _⟩ =>
    refine Fin.ext ?_
    show min (val_main_v191 (F := Ideal) a6 (ix3 n k (0 : Fin 1))).toInt.toNat (3072 - 1) = natAt a6 n k % 3072
    have := hD.conn2 n k
    rw [l3_conn hD, Nat.mod_eq_of_lt this]
    exact clamp_small _ _ (by unfold natAt at this; omega) (by norm_num)

theorem l3_gather (hD : Dom a0 a1 a2 a4 a6) (b : Fin 2048) (n : Fin 1024) (k : Fin 14) :
    (val_main_v193 (F := Ideal) a0 a1 a2 a3 a4 a5 a6 (ix3 b n k)).toNat = (cat (hidden a0 a2 a3) (state a0 a1 a2 a3 a4 a5)) b (connAt 3072 a6 n k) := by
  rw [val_main_v193_apply, l3_gatherf (a3 := a3) (a5 := a5) hD]
  exact fptosi_bit _ (l3_beta_le (a3 := a3) (a5 := a5) hD _ _)

theorem l3_wvec (k : Fin 14) : val_main_v249 (F := Ideal) (ix1 k) = W k := by
  fin_cases k <;> rfl

theorem l3_w (b : Fin 2048) (n : Fin 1024) (k : Fin 14) : val_main_v254 (F := Ideal) (ix3 b n k) = W k := by
  rw [val_main_v254_apply, val_main_v253_apply,
    show idx_main_v253 (idx_main_v254 (ix3 b n k)) = ix1 k from ext1 _ _ rfl, l3_wvec]

theorem l3_addr (hD : Dom a0 a1 a2 a4 a6) (b : Fin 2048) (n : Fin 1024) :
    (val_main_v256 (F := Ideal) a0 a1 a2 a3 a4 a5 a6 (ix2 b n)).toNat = addr ((cat (hidden a0 a2 a3) (state a0 a1 a2 a3 a4 a5)) b) (connAt 3072 a6 n) := by
  unfold val_main_v256 val_main_v255
  exact addr_word _ _ h_S_ reducesTo_S2048x1024x14_S2048x1024_d2 (by decide) b n
    (fun k => (cat (hidden a0 a2 a3) (state a0 a1 a2 a3 a4 a5)) b (connAt 3072 a6 n k)) (fun k => l3_beta_le (a3 := a3) (a5 := a5) hD _ _)
    (fun k => l3_gather (a3 := a3) (a5 := a5) hD b n k) (fun k => l3_w b n k)

theorem l3_fixed (hD : Dom a0 a1 a2 a4 a6) (b : Fin 2048) (n : Fin 1024) :
    (val_main_v268 (F := Ideal) a0 a1 a2 a3 a4 a5 a6 (ix2 b n)).toNat = addr ((cat (hidden a0 a2 a3) (state a0 a1 a2 a3 a4 a5)) b) (connAt 3072 a6 n) := by
  have hlt := addr_lt ((cat (hidden a0 a2 a3) (state a0 a1 a2 a3 a4 a5)) b) (connAt 3072 a6 n) (l3_beta_le (a3 := a3) (a5 := a5) hD b)
  rw [val_main_v268_apply, val_main_v265_apply, val_main_v267_apply, val_main_v264_apply, val_main_c_89_apply,
    fix_neg _ _ (by rw [l3_addr (a3 := a3) (a5 := a5) hD]; omega)]
  exact l3_addr (a3 := a3) (a5 := a5) hD b n

theorem l3_iota (b : Fin 2048) (n : Fin 1024) : val_main_v269 (F := Ideal) (ix2 b n) = BitVec.ofNat 32 n.val := by
  have e : val_main_v258 (F := Ideal) (idx_main_v269 (ix2 b n)) = BitVec.ofNat 32 n.val := by
    rw [val_main_v258_apply, val_main_v257_apply]
  rw [val_main_v269_apply, val_main_v263_apply, val_main_v260_apply, val_main_v262_apply, val_main_v259_apply,
    val_main_c_87_apply, e]
  exact fix_neg _ _ (by rw [BitVec.toNat_ofNat]; have := n.isLt; omega)

theorem l3_idx0 (b : Fin 2048) (n : Fin 1024) :
    val_main_v272 (F := Ideal) a0 a1 a2 a3 a4 a5 a6 (ix3 b n (0 : Fin 2)) = BitVec.ofNat 32 n.val := by
  unfold val_main_v272
  rw [concatenate_pair_apply_left (t := S2048x1024x2) (s₁ := S2048x1024x1) (s₂ := S2048x1024x1) 2 _ _ _
      (ix3 b n (0 : Fin 2)) rfl (ix3 b n (0 : Fin 1))
      (fun c => by match c with | ⟨0, _⟩ => rfl | ⟨1, _⟩ => rfl | ⟨2, _⟩ => rfl),
    val_main_v270_apply, show idx_main_v270 (ix3 b n (0 : Fin 1)) = ix2 b n from ext2 _ _ rfl rfl, l3_iota]

theorem l3_idx1 (hD : Dom a0 a1 a2 a4 a6) (b : Fin 2048) (n : Fin 1024) :
    (val_main_v272 (F := Ideal) a0 a1 a2 a3 a4 a5 a6 (ix3 b n (1 : Fin 2))).toNat = addr ((cat (hidden a0 a2 a3) (state a0 a1 a2 a3 a4 a5)) b) (connAt 3072 a6 n) := by
  unfold val_main_v272
  rw [concatenate_pair_apply_right (t := S2048x1024x2) (s₁ := S2048x1024x1) (s₂ := S2048x1024x1) 2 _ _ _
      (ix3 b n (1 : Fin 2)) rfl rfl (ix3 b n (0 : Fin 1))
      (fun c hc' => by
        match c with
        | ⟨0, _⟩ => rfl
        | ⟨1, _⟩ => rfl
        | ⟨2, _⟩ => exact absurd rfl hc')
      rfl,
    val_main_v271_apply, show idx_main_v271 (ix3 b n (0 : Fin 1)) = ix2 b n from ext2 _ _ rfl rfl]
  exact l3_fixed (a3 := a3) (a5 := a5) hD b n

theorem l3_tab (hD : Dom a0 a1 a2 a4 a6) (b : Fin 2048) (n : Fin 1024) :
    val_main_v273 (F := Ideal) a0 a1 a2 a3 a4 a5 a6 a7 (ix2 b n)
      = a7 (ix2 n ⟨addr ((cat (hidden a0 a2 a3) (state a0 a1 a2 a3 a4 a5)) b) (connAt 3072 a6 n),
          addr_lt _ _ (l3_beta_le (a3 := a3) (a5 := a5) hD b)⟩) := by
  unfold val_main_v273
  rw [show gather_S1024x16384_S2048x1024x2_S2048x1024_n_01_n_n_01_2_11
      = tabDims 2048 1024 16384 gather_S1024x16384_S2048x1024x2_S2048x1024_n_01_n_n_01_2_11_wf from rfl]
  exact gather_tab_at (by decide) (by decide) (by decide) (by decide) _ a7 _ b n _
    (addr_lt _ _ (l3_beta_le (a3 := a3) (a5 := a5) hD b))
    (l3_idx0 b n) (l3_idx1 (a3 := a3) (a5 := a5) hD b n)

theorem l3_out (hD : Dom a0 a1 a2 a4 a6) (b : Fin 2048) (n : Fin 1024) :
    val_main_v277 (F := Ideal) a0 a1 a2 a3 a4 a5 a6 a7 (ix2 b n) = ((outBits a0 a1 a2 a3 a4 a5 a6 a7 b n : ℕ) : EReal) := by
  rw [val_main_v277_apply, val_main_v276_apply, val_main_v275_apply, val_main_v274_apply, val_main_cst_91_apply,
    val_main_call23_v0_apply, val_main_cst_92_apply, val_main_call23_v1_apply, val_main_cst_93_apply,
    l3_tab (a3 := a3) (a5 := a5) (a7 := a7) hD, fire_word]
  unfold outBits layer fire rowAt
  rw [dif_pos (addr_lt _ _ (l3_beta_le (a3 := a3) (a5 := a5) hD b))]

end Cert.Lut.Ref

end
-- ==== Proof.RefValue.lean ====
import proofs.«427008_j72404558676324_3_alg».proof.Proof.Spec
import proofs.«427008_j72404558676324_3_alg».proof.Proof.RefRead
import proofs.«427008_j72404558676324_3_alg».proof.Proof.RefLib
import proofs.«427008_j72404558676324_3_alg».proof.Proof.RefL1
import proofs.«427008_j72404558676324_3_alg».proof.Proof.RefL2
import proofs.«427008_j72404558676324_3_alg».proof.Proof.RefL3

noncomputable section

namespace Cert.Lut.Ref

open Idealize.ShloMosaic Idealize.ShloMosaic.ValueIdx

theorem val_eq (a0 : IVec Cert.ReferenceIdeal.S2048x4096 32) (a1 : IVec Cert.ReferenceIdeal.S2048x1024 32)
    (a2 : IVec Cert.ReferenceIdeal.S2048x14 32) (a3 : FVec Ideal Cert.ReferenceIdeal.S2048x16384 .f32)
    (a4 : IVec Cert.ReferenceIdeal.S1024x14 32) (a5 : FVec Ideal Cert.ReferenceIdeal.S1024x16384 .f32)
    (a6 : IVec Cert.ReferenceIdeal.S1024x14 32) (a7 : FVec Ideal Cert.ReferenceIdeal.S1024x16384 .f32)
    (hD : Cert.Lut.Dom a0 a1 a2 a4 a6) :
    Cert.ReferenceIdeal.ReadP.val_main_v277 (F := Ideal) a0 a1 a2 a3 a4 a5 a6 a7
      = Cert.Lut.net a0 a1 a2 a3 a4 a5 a6 a7 := by
  funext i
  obtain ⟨b, n, rfl⟩ : ∃ b n, i = ix2 b n := ⟨i 0, i 1, eq_ix2 i⟩
  exact l3_out (a3 := a3) (a5 := a5) (a7 := a7) hD b n

end Cert.Lut.Ref

end
-- ==== Proof.lean ====
import proofs.«427008_j72404558676324_3_alg».proof.Defs
import proofs.«427008_j72404558676324_3_alg».proof.Proof.Gen.Kernel
import proofs.«427008_j72404558676324_3_alg».proof.Proof.Gen.KernelIdeal
import proofs.«427008_j72404558676324_3_alg».proof.Proof.Gen.ReferenceIdeal
import proofs.«427008_j72404558676324_3_alg».proof.Proof.Gen.Pre_finite_inputs
import proofs.«427008_j72404558676324_3_alg».proof.Proof.Spec
import proofs.«427008_j72404558676324_3_alg».proof.Proof.PreDom
import proofs.«427008_j72404558676324_3_alg».proof.Proof.KB.Frame
import proofs.«427008_j72404558676324_3_alg».proof.Proof.KI.Frame
import proofs.«427008_j72404558676324_3_alg».proof.Proof.KVal
import proofs.«427008_j72404558676324_3_alg».proof.Proof.RefRun
import proofs.«427008_j72404558676324_3_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Lut.frame (F := Bits) m ρ

theorem frame_ki : Cert.frame_KernelIdeal := fun m ρ _ => Cert.KernelIdeal.Lut.frame (F := Ideal) m ρ

theorem frame_ri : Cert.frame_ReferenceIdeal := fun m ρ _ =>
  (θ_run Cert.ReferenceIdeal.defs _ _).mono (fun _ h c => (h c).2) (Cert.Lut.RefRun.run m ρ)

theorem preserves : Cert.preserves_Kernel_KernelIdeal := trivial

open Cert.KernelIdeal in
theorem algebraic : Cert.algebraic_KernelIdeal_ReferenceIdeal := by
  intro m ρ m' ρ' hpre hagree
  have hD : ∀ c : Dev nD, Cert.Lut.Dom (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) :=
    fun c => Cert.Lut.dom_of_pre _ _ _ _ _ _ _ _ (hpre c)
  refine ⟨fun c => Cert.Lut.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)), ?_, ?_⟩
  · exact (θ_run Cert.KernelIdeal.defs _ _).mono
      (fun _ h c => ⟨(h c).1.trans (Cert.Lut.KVal.out_eq m ρ c (hD c)), (h c).2⟩)
      (Cert.KernelIdeal.Lut.run_val (F := Ideal) m ρ)
  · refine (θ_run Cert.ReferenceIdeal.defs _ _).mono (fun _ h c => ⟨(h c).1.trans ?_, (h c).2⟩)
      (Cert.Lut.RefRun.run m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]
    exact Cert.Lut.Ref.val_eq _ _ _ _ _ _ _ _ (hD c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
